-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v126)) (v1 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_v141) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S500000x1x1 : Shape := ⟨3, ![500000, 1, 1]⟩
abbrev S500000 : Shape := ⟨1, ![500000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S500000x1x1 : S_.BroadcastsInDim S500000x1x1 (![] : Fin 0 → Fin S500000x1x1.rank)
  reducesTo_S500000x1x1_S_d0_1_2 : S500000x1x1.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part7 {F : FTy → Type} [FloatOps F] (main_arg27 : FVec F S128 .f32) (main_arg28 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  main_v133

def fn_part6 {F : FTy → Type} [FloatOps F] (main_arg23 : FVec F S256x128 .f32) (main_arg24 : FVec F S128 .f32) (main_arg25 : FVec F S128 .f32) (main_arg26 : FVec F S128 .f32) (main_arg27 : FVec F S128 .f32) (main_arg28 : FVec F S128 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x128 .f32 := Host.absf main_arg23
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_arg27 main_arg28 main_v118 main_v119

def fn_part5 {F : FTy → Type} [FloatOps F] (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x256 .f32 := Host.absf main_arg21
  let main_cst_36 : FVec F S_ .f32 := constant S_ .f32 0x7F800000#32
  let main_v95 : FVec F S128x256 .f32 := broadcastInDim S128x256 ![] bcast_S_S128x256 main_cst_36
  let main_v96 : IVec S128x256 1 := cmpf .olt main_v94 main_v95
  let main_c_37 : IVec S_ 1 := constantI S_ 1 1#1
  let main_v97 : IVec S_ 1 := (fun x v => Host.reduce IntOp.andi x v reducesTo_S128x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg17
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S128x128 .f32) (main_arg7 : FVec F S128x128 .f32) (main_arg8 : FVec F S128x128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x128 .f32) (main_arg1 : FVec F S500000x128 .f32) (main_arg2 : FVec F S500000x1x1 .f32) (main_arg3 : IVec S500000 32) (main_arg4 : IVec S500000 32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x1x1 .f32 := Host.absf main_arg2
  let main_cst_2 : FVec F S_ .f32 := constant S_ .f32 0x7F800000#32
  let main_v10 : FVec F S500000x1x1 .f32 := broadcastInDim S500000x1x1 ![] bcast_S_S500000x1x1 main_cst_2
  let main_v11 : IVec S500000x1x1 1 := cmpf .olt main_v9 main_v10
  let main_c_3 : IVec S_ 1 := constantI S_ 1 1#1
  let main_v12 : IVec S_ 1 := (fun x v => Host.reduce IntOp.andi x v reducesTo_S500000x1x1_S_d0_1_2 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x128 : Shape := ⟨2, ![50000, 128]⟩
abbrev S500000x128 : Shape := ⟨2, ![500000, 128]⟩
abbrev S500000x1x1 : Shape := ⟨3, ![500000, 1, 1]⟩
abbrev S500000 : Shape := ⟨1, ![500000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x8 : Shape := ⟨2, ![128, 8]⟩
abbrev S8x128 : Shape := ⟨2, ![8, 128]⟩
abbrev S128x384 : Shape := ⟨2, ![128, 384]⟩
abbrev S1x128 : Shape := ⟨2, ![1, 128]⟩
abbrev S1x256 : Shape := ⟨2, ![1, 256]⟩
abbrev S50000x384 : Shape := ⟨2, ![50000, 384]⟩
abbrev S5000x128 : Shape := ⟨2, ![5000, 128]⟩
abbrev S5000x384 : Shape := ⟨2, ![5000, 384]⟩
abbrev S50000x256 : Shape := ⟨2, ![50000, 256]⟩
abbrev S_ : Shape := ⟨0, ![]⟩
abbrev S500000x1 : Shape := ⟨2, ![500000, 1]⟩
abbrev S500000x256 : Shape := ⟨2, ![500000, 256]⟩
abbrev S500000x8 : Shape := ⟨2, ![500000, 8]⟩
abbrev S2000x128 : Shape := ⟨2, ![2000, 128]⟩
abbrev S2000x256 : Shape := ⟨2, ![2000, 256]⟩
abbrev S2000x1 : Shape := ⟨2, ![2000, 1]⟩
abbrev S2000x8 : Shape := ⟨2, ![2000, 8]⟩
abbrev S50000x8 : Shape := ⟨2, ![50000, 8]⟩
abbrev S50000x8x16 : Shape := ⟨3, ![50000, 8, 16]⟩
abbrev S80x128 : Shape := ⟨2, ![80, 128]⟩
abbrev S10x8x128 : Shape := ⟨3, ![10, 8, 128]⟩
abbrev S10x1x128 : Shape := ⟨3, ![10, 1, 128]⟩
abbrev S10x128 : Shape := ⟨2, ![10, 128]⟩
abbrev S250x8x128 : Shape := ⟨3, ![250, 8, 128]⟩
abbrev S250x1x128 : Shape := ⟨3, ![250, 1, 128]⟩
abbrev S250x128 : Shape := ⟨2, ![250, 128]⟩
abbrev S5000x256 : Shape := ⟨2, ![5000, 256]⟩
abbrev S800x128 : Shape := ⟨2, ![800, 128]⟩
abbrev S100x8x128 : Shape := ⟨3, ![100, 8, 128]⟩
abbrev S100x1x128 : Shape := ⟨3, ![100, 1, 128]⟩
abbrev S100x128 : Shape := ⟨2, ![100, 128]⟩

abbrev nBuf : Space → Nat
  | .hbm => 208
  | .vmem => 72
  | .smem => 0
  | _ => 0

abbrev hbmTy0_0 (i : Nat) : BufTy := match i % 128 with
  | 0 => ⟨S50000x128, .f32⟩
  | 1 => ⟨S500000x128, .f32⟩
  | 2 => ⟨S500000x1x1, .f32⟩
  | 3 => ⟨S500000, .i32⟩
  | 4 => ⟨S500000, .i32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x256, .f32⟩
  | 18 => ⟨S256, .f32⟩
  | 19 => ⟨S256x128, .f32⟩
  | 20 => ⟨S128, .f32⟩
  | 21 => ⟨S128x256, .f32⟩
  | 22 => ⟨S256, .f32⟩
  | 23 => ⟨S256x128, .f32⟩
  | 24 => ⟨S128, .f32⟩
  | 25 => ⟨S128, .f32⟩
  | 26 => ⟨S128, .f32⟩
  | 27 => ⟨S128, .f32⟩
  | 28 => ⟨S128, .f32⟩
  | 29 => ⟨S128x8, .f32⟩
  | 30 => ⟨S8x128, .f32⟩
  | 31 => ⟨S128x384, .f32⟩
  | 32 => ⟨S128x384, .bf16⟩
  | 33 => ⟨S128x128, .bf16⟩
  | 34 => ⟨S128x128, .bf16⟩
  | 35 => ⟨S128x128, .bf16⟩
  | 36 => ⟨S128x256, .bf16⟩
  | 37 => ⟨S256x128, .bf16⟩
  | 38 => ⟨S128x256, .bf16⟩
  | 39 => ⟨S256x128, .bf16⟩
  | 40 => ⟨S1x128, .f32⟩
  | 41 => ⟨S1x128, .f32⟩
  | 42 => ⟨S1x256, .f32⟩
  | 43 => ⟨S1x128, .f32⟩
  | 44 => ⟨S1x256, .f32⟩
  | 45 => ⟨S1x128, .f32⟩
  | 46 => ⟨S50000x384, .f32⟩
  | 47 => ⟨S50000x128, .f32⟩
  | 48 => ⟨S50000x256, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x256, .f32⟩
  | 67 => ⟨S500000x1, .f32⟩
  | 68 => ⟨S500000x128, .f32⟩
  | 69 => ⟨S500000x8, .f32⟩
  | 70 => ⟨S500000x128, .f32⟩
  | 71 => ⟨S2000x128, .f32⟩
  | 72 => ⟨S2000x128, .f32⟩
  | 73 => ⟨S_, .f32⟩
  | 74 => ⟨S50000x128, .f32⟩
  | 75 => ⟨S500000x1, .i32⟩
  | 76 => ⟨S50000x128, .f32⟩
  | 77 => ⟨S_, .f32⟩
  | 78 => ⟨S50000x8, .f32⟩
  | 79 => ⟨S500000x1, .i32⟩
  | 80 => ⟨S50000x8, .f32⟩
  | 81 => ⟨S50000x8x16, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S50000x128, .f32⟩
  | 88 => ⟨S80x128, .f32⟩
  | 89 => ⟨S80x128, .f32⟩
  | 90 => ⟨S10x8x128, .f32⟩
  | 91 => ⟨S10x1x128, .f32⟩
  | 92 => ⟨S10x128, .f32⟩
  | 93 => ⟨S_, .f32⟩
  | 94 => ⟨S128, .f32⟩
  | 95 => ⟨S10x8x128, .f32⟩
  | 96 => ⟨S10x1x128, .f32⟩
  | 97 => ⟨S10x128, .f32⟩
  | 98 => ⟨S_, .f32⟩
  | 99 => ⟨S128, .f32⟩
  | 100 => ⟨S_, .f32⟩
  | 101 => ⟨S128, .f32⟩
  | 102 => ⟨S128, .f32⟩
  | 103 => ⟨S_, .f32⟩
  | 104 => ⟨S128, .f32⟩
  | 105 => ⟨S128, .f32⟩
  | 106 => ⟨S128, .f32⟩
  | 107 => ⟨S128, .f32⟩
  | 108 => ⟨S250x8x128, .f32⟩
  | 109 => ⟨S250x1x128, .f32⟩
  | 110 => ⟨S250x128, .f32⟩
  | 111 => ⟨S_, .f32⟩
  | 112 => ⟨S128, .f32⟩
  | 113 => ⟨S250x8x128, .f32⟩
  | 114 => ⟨S250x1x128, .f32⟩
  | 115 => ⟨S250x128, .f32⟩
  | 116 => ⟨S_, .f32⟩
  | 117 => ⟨S128, .f32⟩
  | 118 => ⟨S_, .f32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S50000x128, .f32⟩
  | 7 => ⟨S80x128, .f32⟩
  | 8 => ⟨S80x128, .f32⟩
  | 9 => ⟨S500000x128, .f32⟩
  | 10 => ⟨S800x128, .f32⟩
  | 11 => ⟨S800x128, .f32⟩
  | 12 => ⟨S10x8x128, .f32⟩
  | 13 => ⟨S10x1x128, .f32⟩
  | 14 => ⟨S10x128, .f32⟩
  | 15 => ⟨S_, .f32⟩
  | 16 => ⟨S128, .f32⟩
  | 17 => ⟨S10x8x128, .f32⟩
  | 18 => ⟨S10x1x128, .f32⟩
  | 19 => ⟨S10x128, .f32⟩
  | 20 => ⟨S_, .f32⟩
  | 21 => ⟨S128, .f32⟩
  | 22 => ⟨S_, .f32⟩
  | 23 => ⟨S128, .f32⟩
  | 24 => ⟨S128, .f32⟩
  | 25 => ⟨S_, .f32⟩
  | 26 => ⟨S128, .f32⟩
  | 27 => ⟨S128, .f32⟩
  | 28 => ⟨S128, .f32⟩
  | 29 => ⟨S128, .f32⟩
  | 30 => ⟨S100x8x128, .f32⟩
  | 31 => ⟨S100x1x128, .f32⟩
  | 32 => ⟨S100x128, .f32⟩
  | 33 => ⟨S_, .f32⟩
  | 34 => ⟨S128, .f32⟩
  | 35 => ⟨S100x8x128, .f32⟩
  | 36 => ⟨S100x1x128, .f32⟩
  | 37 => ⟨S100x128, .f32⟩
  | 38 => ⟨S_, .f32⟩
  | 39 => ⟨S128, .f32⟩
  | 40 => ⟨S_, .f32⟩
  | 41 => ⟨S128, .f32⟩
  | 42 => ⟨S128, .f32⟩
  | 43 => ⟨S_, .f32⟩
  | 44 => ⟨S128, .f32⟩
  | 45 => ⟨S128, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S128, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S1x128, .f32⟩
  | 65 => ⟨S500000x128, .f32⟩
  | 66 => ⟨S500000x128, .f32⟩
  | 67 => ⟨S_, .f32⟩
  | 68 => ⟨S128, .f32⟩
  | 69 => ⟨S128, .f32⟩
  | 70 => ⟨S128, .f32⟩
  | 71 => ⟨S1x128, .f32⟩
  | 72 => ⟨S500000x128, .f32⟩
  | 73 => ⟨S500000x128, .f32⟩
  | 74 => ⟨S1x128, .f32⟩
  | 75 => ⟨S500000x128, .f32⟩
  | 76 => ⟨S500000x128, .f32⟩
  | 77 => ⟨S1x128, .f32⟩
  | 78 => ⟨S500000x128, .f32⟩
  | 79 => ⟨S500000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x384, .bf16⟩
  | .local _ .vmem, ⟨3, _⟩ => ⟨S5000x384, .f32⟩
  | .local _ .vmem, ⟨4, _⟩ => ⟨S5000x384, .f32⟩
  | .local _ .vmem, ⟨5, _⟩ => ⟨S2000x128, .f32⟩
  | .local _ .vmem, ⟨6, _⟩ => ⟨S2000x128, .f32⟩
  | .local _ .vmem, ⟨7, _⟩ => ⟨S2000x256, .f32⟩
  | .local _ .vmem, ⟨8, _⟩ => ⟨S2000x256, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S128x8, .f32⟩
  | .local _ .vmem, ⟨17, _⟩ => ⟨S8x128, .f32⟩
  | .local _ .vmem, ⟨18, _⟩ => ⟨S2000x128, .f32⟩
  | .local _ .vmem, ⟨19, _⟩ => ⟨S2000x128, .f32⟩
  | .local _ .vmem, ⟨20, _⟩ => ⟨S2000x8, .f32⟩
  | .local _ .vmem, ⟨21, _⟩ => ⟨S2000x8, .f32⟩
  | .local _ .vmem, ⟨22, _⟩ => ⟨S2000x128, .f32⟩
  | .local _ .vmem, ⟨23, _⟩ => ⟨S2000x128, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .bf16⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S8x128, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x256, .bf16⟩
  | .local _ .vmem, ⟨47, _⟩ => ⟨S1x256, .f32⟩
  | .local _ .vmem, ⟨48, _⟩ => ⟨S256x128, .bf16⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S8x128, .f32⟩
  | .local _ .vmem, ⟨53, _⟩ => ⟨S8x128, .f32⟩
  | .local _ .vmem, ⟨54, _⟩ => ⟨S8x128, .f32⟩
  | .local _ .vmem, ⟨55, _⟩ => ⟨S8x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S128x256, .bf16⟩
  | .local _ .vmem, ⟨63, _⟩ => ⟨S1x256, .f32⟩
  | .local _ .vmem, ⟨64, _⟩ => ⟨S256x128, .bf16⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S8x128, .f32⟩
  | .local _ .vmem, ⟨69, _⟩ => ⟨S8x128, .f32⟩
  | .local _ .vmem, ⟨70, _⟩ => ⟨S8x128, .f32⟩
  | .local _ .vmem, ⟨71, _⟩ => ⟨S8x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_cst_0 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c : Ref sig .tc := ⟨.hbm, 49, rfl⟩
abbrev main_v18 : Ref sig .tc := ⟨.hbm, 50, rfl⟩
abbrev main_v19 : Ref sig .tc := ⟨.hbm, 51, rfl⟩
abbrev main_c_1 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_2 : Ref sig .tc := ⟨.hbm, 58, rfl⟩
abbrev main_v25 : Ref sig .tc := ⟨.hbm, 59, rfl⟩
abbrev main_v26 : Ref sig .tc := ⟨.hbm, 60, rfl⟩
abbrev main_c_3 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33_0 : Ref sig .tc := ⟨.hbm, 68, rfl⟩
abbrev main_v33_1 : Ref sig .tc := ⟨.hbm, 69, rfl⟩
abbrev main_v33_2 : Ref sig .tc := ⟨.hbm, 70, rfl⟩
abbrev main_v33_3 : Ref sig .tc := ⟨.hbm, 71, rfl⟩
abbrev main_v33_4 : Ref sig .tc := ⟨.hbm, 72, rfl⟩
abbrev main_cst_4 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_5 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_6 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45_0 : Ref sig .tc := ⟨.hbm, 87, rfl⟩
abbrev main_v45_1 : Ref sig .tc := ⟨.hbm, 88, rfl⟩
abbrev main_v45_2 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_7 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_8 : Ref sig .tc := ⟨.hbm, 98, rfl⟩
abbrev main_v53 : Ref sig .tc := ⟨.hbm, 99, rfl⟩
abbrev main_cst_9 : Ref sig .tc := ⟨.hbm, 100, rfl⟩
abbrev main_v54 : Ref sig .tc := ⟨.hbm, 101, rfl⟩
abbrev main_v55 : Ref sig .tc := ⟨.hbm, 102, rfl⟩
abbrev main_cst_10 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_11 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_12 : Ref sig .tc := ⟨.hbm, 116, rfl⟩
abbrev main_v67 : Ref sig .tc := ⟨.hbm, 117, rfl⟩
abbrev main_cst_13 : Ref sig .tc := ⟨.hbm, 118, rfl⟩
abbrev main_v68 : Ref sig .tc := ⟨.hbm, 119, rfl⟩
abbrev main_v69 : Ref sig .tc := ⟨.hbm, 120, rfl⟩
abbrev main_cst_14 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82_0 : Ref sig .tc := ⟨.hbm, 134, rfl⟩
abbrev main_v82_1 : Ref sig .tc := ⟨.hbm, 135, rfl⟩
abbrev main_v82_2 : Ref sig .tc := ⟨.hbm, 136, rfl⟩
abbrev main_v83_0 : Ref sig .tc := ⟨.hbm, 137, rfl⟩
abbrev main_v83_1 : Ref sig .tc := ⟨.hbm, 138, rfl⟩
abbrev main_v83_2 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_15 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_16 : Ref sig .tc := ⟨.hbm, 148, rfl⟩
abbrev main_v91 : Ref sig .tc := ⟨.hbm, 149, rfl⟩
abbrev main_cst_17 : Ref sig .tc := ⟨.hbm, 150, rfl⟩
abbrev main_v92 : Ref sig .tc := ⟨.hbm, 151, rfl⟩
abbrev main_v93 : Ref sig .tc := ⟨.hbm, 152, rfl⟩
abbrev main_cst_18 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_cst_19 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_20 : Ref sig .tc := ⟨.hbm, 166, rfl⟩
abbrev main_v105 : Ref sig .tc := ⟨.hbm, 167, rfl⟩
abbrev main_cst_21 : Ref sig .tc := ⟨.hbm, 168, rfl⟩
abbrev main_v106 : Ref sig .tc := ⟨.hbm, 169, rfl⟩
abbrev main_v107 : Ref sig .tc := ⟨.hbm, 170, rfl⟩
abbrev main_cst_22 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_cst_23 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_cst_24 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc3_stg10_0 : Ref sig .tc := ⟨.vmem, 52, rfl⟩
abbrev cc3_stg10_1 : Ref sig .tc := ⟨.vmem, 53, rfl⟩
abbrev cc3_stg11_0 : Ref sig .tc := ⟨.vmem, 54, rfl⟩
abbrev cc3_stg11_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg6_0 : Ref sig .tc := ⟨.vmem, 63, rfl⟩
abbrev cc4_stg7_0 : Ref sig .tc := ⟨.vmem, 64, rfl⟩
abbrev cc4_stg8_0 : Ref sig .tc := ⟨.vmem, 65, rfl⟩
abbrev cc4_stg9_0 : Ref sig .tc := ⟨.vmem, 66, rfl⟩
abbrev cc4_stg9_1 : Ref sig .tc := ⟨.vmem, 67, rfl⟩
abbrev cc4_stg10_0 : Ref sig .tc := ⟨.vmem, 68, rfl⟩
abbrev cc4_stg10_1 : Ref sig .tc := ⟨.vmem, 69, rfl⟩
abbrev cc4_stg11_0 : Ref sig .tc := ⟨.vmem, 70, rfl⟩
abbrev cc4_stg11_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem6_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51
abbrev cc3_sem10_0 : DmaSem sig := 52
abbrev cc3_sem10_1 : DmaSem sig := 53
abbrev cc3_sem11_0 : DmaSem sig := 54
abbrev cc3_sem11_1 : DmaSem sig := 55
abbrev cc4_sem0_0 : DmaSem sig := 56
abbrev cc4_sem0_1 : DmaSem sig := 57
abbrev cc4_sem1_0 : DmaSem sig := 58
abbrev cc4_sem2_0 : DmaSem sig := 59
abbrev cc4_sem3_0 : DmaSem sig := 60
abbrev cc4_sem4_0 : DmaSem sig := 61
abbrev cc4_sem5_0 : DmaSem sig := 62
abbrev cc4_sem6_0 : DmaSem sig := 63
abbrev cc4_sem7_0 : DmaSem sig := 64
abbrev cc4_sem8_0 : DmaSem sig := 65
abbrev cc4_sem9_0 : DmaSem sig := 66
abbrev cc4_sem9_1 : DmaSem sig := 67
abbrev cc4_sem10_0 : DmaSem sig := 68
abbrev cc4_sem10_1 : DmaSem sig := 69
abbrev cc4_sem11_0 : DmaSem sig := 70
abbrev cc4_sem11_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x8 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S8x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S8x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x256 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S8x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S8x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  concatenates_S128x128_S128x128_S128x128_S128x384_d1 : Shape.Concatenates [S128x128, S128x128, S128x128] S128x384 1
  bitsLt_bf16_f32 : FTy.bits .bf16 < FTy.bits .f32
  shapeCasts_S128_S1x128 : S128.ShapeCasts S1x128
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x256_0_128 : S50000x384.Slices ![0, 128] S50000x256
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x1x1_S500000x1 : S500000x1x1.ShapeCasts S500000x1
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x256_S2000x128_0_0 : ∀ a, (![0, 0] : Fin 2 → Nat) a + S2000x128.size a ≤ S2000x256.size a
  shapeCasts_S2000x128_S2000x128 : S2000x128.ShapeCasts S2000x128
  inb_S2000x256_S2000x128_0_128 : ∀ a, (![0, 128] : Fin 2 → Nat) a + S2000x128.size a ≤ S2000x256.size a
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x8_S2000x8_0_0 : ∀ a, (![0, 0] : Fin 2 → Nat) a + S2000x8.size a ≤ S2000x8.size a
  h_S2000x8 : 0 < S2000x8.numel
  reduces_S2000x128_S128 : S2000x128.Reduces [0] S128
  broadcasts_S1x128_S8x128 : S1x128.Broadcasts S8x128
  bcast_S_S50000x128 : S_.BroadcastsInDim S50000x128 (![] : Fin 0 → Fin S50000x128.rank)
  bcast_S_S50000x8 : S_.BroadcastsInDim S50000x8 (![] : Fin 0 → Fin S50000x8.rank)
  bcast_S50000x8_S50000x8x16_0_1 : S50000x8.BroadcastsInDim S50000x8x16 (![0, 1] : Fin 2 → Fin S50000x8x16.rank)
  shapeCasts_S50000x8x16_S50000x128 : S50000x8x16.ShapeCasts S50000x128
  shapeCasts_S5000x128_S5000x128 : S5000x128.ShapeCasts S5000x128
  broadcasts_S1x128_S5000x128 : S1x128.Broadcasts S5000x128
  reduces_S5000x128_S128 : S5000x128.Reduces [0] S128
  shapeCasts_S80x128_S10x8x128 : S80x128.ShapeCasts S10x8x128
  slices_S10x8x128_S10x1x128_0_0_0 : S10x8x128.Slices ![0, 0, 0] S10x1x128
  shapeCasts_S10x1x128_S10x128 : S10x1x128.ShapeCasts S10x128
  reducesTo_S10x128_S128_d0 : S10x128.ReducesTo [0] S128
  h_S_ : 0 < S_.numel
  bcast_S_S128 : S_.BroadcastsInDim S128 (![] : Fin 0 → Fin S128.rank)
  shapeCasts_S2000x128_S250x8x128 : S2000x128.ShapeCasts S250x8x128
  slices_S250x8x128_S250x1x128_0_0_0 : S250x8x128.Slices ![0, 0, 0] S250x1x128
  shapeCasts_S250x1x128_S250x128 : S250x1x128.ShapeCasts S250x128
  reducesTo_S250x128_S128_d0 : S250x128.ReducesTo [0] S128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S800x128_S100x8x128 : S800x128.ShapeCasts S100x8x128
  slices_S100x8x128_S100x1x128_0_0_0 : S100x8x128.Slices ![0, 0, 0] S100x1x128
  shapeCasts_S100x1x128_S100x128 : S100x1x128.ShapeCasts S100x128
  reducesTo_S100x128_S128_d0 : S100x128.ReducesTo [0] S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S500000x128_0_1 : S1x128.BroadcastsInDim S500000x128 (![0, 1] : Fin 2 → Fin S500000x128.rank)
  dot_S5000x128_S128x384_S5000x384_1_0_0_1_n_n_wf : DotDims.WF S5000x128 S128x384 S5000x384 [1] [0] [0] [1] [] []
  gather_S50000x128_S500000x1_S500000x128_1_0_n_n_0_1_1128_wf : GatherDims.WF S50000x128 S500000x1 S500000x128 [1] [0] [] [0] [] 1 ![1, 128]
  gather_S50000x256_S500000x1_S500000x256_1_0_n_n_0_1_1256_wf : GatherDims.WF S50000x256 S500000x1 S500000x256 [1] [0] [] [0] [] 1 ![1, 256]
  dot_S2000x128_S128x128_S2000x128_1_0_0_1_n_n_wf : DotDims.WF S2000x128 S128x128 S2000x128 [1] [0] [0] [1] [] []
  dot_S2000x128_S128x8_S2000x8_1_0_0_1_n_n_wf : DotDims.WF S2000x128 S128x8 S2000x8 [1] [0] [0] [1] [] []
  dot_S2000x8_S8x128_S2000x128_1_0_0_1_n_n_wf : DotDims.WF S2000x8 S8x128 S2000x128 [1] [0] [0] [1] [] []
  scatter_S50000x128_S500000x1_S500000x128_1_0_0_1_wf : ScatterDims.WF S50000x128 S500000x1 S500000x128 [1] [0] [0] 1
  scatter_S50000x8_S500000x1_S500000x8_1_0_0_1_wf : ScatterDims.WF S50000x8 S500000x1 S500000x8 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S500000x128.size a
  hwx1_0 : ∀ i : grid1.Coords, EltTy.bits .f32 = 32 ∨ (Rect.block (s := S500000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S500000x256.size a
  hwx1_1 : ∀ i : grid1.Coords, EltTy.bits .f32 = 32 ∨ (Rect.block (s := S500000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S500000x128.size a
  hwx1_2 : ∀ i : grid1.Coords, EltTy.bits .f32 = 32 ∨ (Rect.block (s := S500000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S500000x1.size a
  hwx1_3 : ∀ i : grid1.Coords, EltTy.bits .f32 = 32 ∨ (Rect.block (s := S500000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x8.size a ≤ S128x8.size a
  hwx1_7 : ∀ i : grid1.Coords, EltTy.bits .f32 = 32 ∨ (Rect.block (s := S128x8) S128x8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S8x128.size a
  hwx1_8 : ∀ i : grid1.Coords, EltTy.bits .f32 = 32 ∨ (Rect.block (s := S8x128) S8x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S500000x128.size a
  hwx1_9 : ∀ i : grid1.Coords, EltTy.bits .f32 = 32 ∨ (Rect.block (s := S500000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x8.size a ≤ S500000x8.size a
  hwx1_10 : ∀ i : grid1.Coords, EltTy.bits .f32 = 32 ∨ (Rect.block (s := S500000x8) S2000x8.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S500000x128.size a
  hwx1_11 : ∀ i : grid1.Coords, EltTy.bits .f32 = 32 ∨ (Rect.block (s := S500000x128) S2000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S8x128.size a ≤ S2000x128.size a
  hwx1_12 : ∀ i : grid1.Coords, EltTy.bits .f32 = 32 ∨ (Rect.block (s := S2000x128) S8x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S8x128.size a ≤ S2000x128.size a
  hwx1_13 : ∀ i : grid1.Coords, EltTy.bits .f32 = 32 ∨ (Rect.block (s := S2000x128) S8x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S80x128.size a
  hwx2_5 : ∀ i : grid2.Coords, EltTy.bits .f32 = 32 ∨ (Rect.block (s := S80x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S80x128.size a
  hwx2_6 : ∀ i : grid2.Coords, EltTy.bits .f32 = 32 ∨ (Rect.block (s := S80x128) S8x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x256.size a ≤ S128x256.size a
  hwx3_5 : ∀ i : grid3.Coords, EltTy.bits .bf16 = 32 ∨ (Rect.block (s := S128x256) S128x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .bf16 = 32 ∨ (Rect.block (s := S256x128) S256x128.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S8x128.size a ≤ S80x128.size a
  hwx3_10 : ∀ i : grid3.Coords, EltTy.bits .f32 = 32 ∨ (Rect.block (s := S80x128) S8x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S8x128.size a ≤ S80x128.size a
  hwx3_11 : ∀ i : grid3.Coords, EltTy.bits .f32 = 32 ∨ (Rect.block (s := S80x128) S8x128.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x256.size a ≤ S128x256.size a
  hwx4_5 : ∀ i : grid4.Coords, EltTy.bits .bf16 = 32 ∨ (Rect.block (s := S128x256) S128x256.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .bf16 = 32 ∨ (Rect.block (s := S256x128) S256x128.size (cc4_transform_7 i) (hinb4_7 i)).WholeWords (EltTy.packing .bf16)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S500000x128.size a
  hwx4_9 : ∀ i : grid4.Coords, EltTy.bits .f32 = 32 ∨ (Rect.block (s := S500000x128) S5000x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S8x128.size a ≤ S800x128.size a
  hwx4_10 : ∀ i : grid4.Coords, EltTy.bits .f32 = 32 ∨ (Rect.block (s := S800x128) S8x128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S8x128.size a ≤ S800x128.size a
  hwx4_11 : ∀ i : grid4.Coords, EltTy.bits .f32 = 32 ∨ (Rect.block (s := S800x128) S8x128.size (cc4_transform_11 i) (hinb4_11 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x8_S500000x1_S500000x8_1_0_0_1 : ScatterDims S50000x8 S500000x1 S500000x8 where
  updateWindowDims := [1]
  insertedWindowDims := [0]
  scatterDimsToOperandDims := [0]
  indexVectorDim := 1
  wf := scatter_S50000x8_S500000x1_S500000x8_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_cst) S128x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_cst_0) S8x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v33_1) S2000x8.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v33_2) S2000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v33_3) S8x128.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v33_4) S8x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v45_1) S8x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v45_2) S8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v45_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S128x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v11) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v6) S256x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v12) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v82_0) S5000x128.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v82_1) S8x128.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v82_2) S8x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v33_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v7) S128x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v13) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v8) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v14) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v83_0) S5000x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v83_1) S8x128.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v83_2) S8x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S500000x1x1 : Shape := ⟨3, ![500000, 1, 1]⟩
abbrev S500000 : Shape := ⟨1, ![500000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S50000x8x16 : Shape := ⟨3, ![50000, 8, 16]⟩
abbrev S500000x8x16 : Shape := ⟨3, ![500000, 8, 16]⟩
abbrev S_ : Shape := ⟨0, ![]⟩
abbrev S500000x1 : Shape := ⟨2, ![500000, 1]⟩
abbrev S500000x8 : Shape := ⟨2, ![500000, 8]⟩
abbrev S500000x8x1 : Shape := ⟨3, ![500000, 8, 1]⟩
abbrev S50000x8x1 : Shape := ⟨3, ![50000, 8, 1]⟩
abbrev S1x128 : Shape := ⟨2, ![1, 128]⟩
abbrev S50000x256 : Shape := ⟨2, ![50000, 256]⟩
abbrev S1x256 : Shape := ⟨2, ![1, 256]⟩
abbrev S500000x256 : Shape := ⟨2, ![500000, 256]⟩

abbrev nBuf : Space → Nat
  | .hbm => 310
  | .vmem => 0
  | .smem => 0
  | _ => 0

abbrev hbmTy0_0 (i : Nat) : BufTy := match i % 128 with
  | 0 => ⟨S50000x128, .f32⟩
  | 1 => ⟨S500000x128, .f32⟩
  | 2 => ⟨S500000x1x1, .f32⟩
  | 3 => ⟨S500000, .i32⟩
  | 4 => ⟨S500000, .i32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x256, .f32⟩
  | 18 => ⟨S256, .f32⟩
  | 19 => ⟨S256x128, .f32⟩
  | 20 => ⟨S128, .f32⟩
  | 21 => ⟨S128x256, .f32⟩
  | 22 => ⟨S256, .f32⟩
  | 23 => ⟨S256x128, .f32⟩
  | 24 => ⟨S128, .f32⟩
  | 25 => ⟨S128, .f32⟩
  | 26 => ⟨S128, .f32⟩
  | 27 => ⟨S128, .f32⟩
  | 28 => ⟨S128, .f32⟩
  | 29 => ⟨S50000x128, .f32⟩
  | 30 => ⟨S50000x8x16, .f32⟩
  | 31 => ⟨S50000x128, .f32⟩
  | 32 => ⟨S50000x8x16, .f32⟩
  | 33 => ⟨S50000x128, .f32⟩
  | 34 => ⟨S50000x8x16, .f32⟩
  | 35 => ⟨S500000x128, .f32⟩
  | 36 => ⟨S500000x8x16, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x8x16, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x8x16, .f32⟩
  | 55 => ⟨S500000x8x16, .f32⟩
  | 56 => ⟨S_, .f32⟩
  | 57 => ⟨S500000x8x16, .f32⟩
  | 58 => ⟨S500000x8x16, .f32⟩
  | 59 => ⟨S500000x8x16, .f32⟩
  | 60 => ⟨S500000x128, .f32⟩
  | 61 => ⟨S_, .f32⟩
  | 62 => ⟨S500000x8, .f32⟩
  | 63 => ⟨S500000x8x1, .f32⟩
  | 64 => ⟨S_, .f32⟩
  | 65 => ⟨S_, .f32⟩
  | 66 => ⟨S_, .f32⟩
  | 67 => ⟨S500000x8x1, .f32⟩
  | 68 => ⟨S500000x8x1, .f32⟩
  | 69 => ⟨S_, .f32⟩
  | 70 => ⟨S500000x8x1, .f32⟩
  | 71 => ⟨S500000x8x1, .f32⟩
  | 72 => ⟨S500000x8x1, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x8x16, .f32⟩
  | 82 => ⟨S500000x8x16, .f32⟩
  | 83 => ⟨S500000x8x16, .f32⟩
  | 84 => ⟨S500000x8x16, .f32⟩
  | 85 => ⟨S500000x8x16, .f32⟩
  | 86 => ⟨S_, .f32⟩
  | 87 => ⟨S50000x8x16, .f32⟩
  | 88 => ⟨S500000x1, .i32⟩
  | 89 => ⟨S50000x8x16, .f32⟩
  | 90 => ⟨S_, .f32⟩
  | 91 => ⟨S50000x8x1, .f32⟩
  | 92 => ⟨S500000x1, .i32⟩
  | 93 => ⟨S50000x8x1, .f32⟩
  | 94 => ⟨S_, .f32⟩
  | 95 => ⟨S50000x8x1, .f32⟩
  | 96 => ⟨S50000x8x1, .f32⟩
  | 97 => ⟨S50000x8x16, .f32⟩
  | 98 => ⟨S50000x8x16, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S50000x128, .f32⟩

abbrev hbmTy0_1 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S500000x128, .f32⟩
  | 22 => ⟨S1x128, .f32⟩
  | 23 => ⟨S500000x128, .f32⟩
  | 24 => ⟨S500000x128, .f32⟩
  | 25 => ⟨S500000x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S500000x128, .f32⟩
  | 39 => ⟨S500000x128, .f32⟩
  | 40 => ⟨S500000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S500000x128, .f32⟩
  | 56 => ⟨S500000x128, .f32⟩
  | 57 => ⟨S_, .f32⟩
  | 58 => ⟨S128, .f32⟩
  | 59 => ⟨S128, .f32⟩
  | 60 => ⟨S128, .f32⟩
  | 61 => ⟨S1x128, .f32⟩
  | 62 => ⟨S500000x128, .f32⟩
  | 63 => ⟨S500000x128, .f32⟩
  | 64 => ⟨S1x128, .f32⟩
  | 65 => ⟨S500000x128, .f32⟩
  | 66 => ⟨S500000x128, .f32⟩
  | 67 => ⟨S1x128, .f32⟩
  | 68 => ⟨S500000x128, .f32⟩
  | 69 => ⟨S500000x128, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S500000x256, .f32⟩
  | 127 => ⟨S1x256, .f32⟩
  | _ => ⟨S50000x128, .f32⟩

abbrev hbmTy0_2 (i : Nat) : BufTy := match i % 128 with
  | 0 => ⟨S500000x256, .f32⟩
  | 1 => ⟨S500000x256, .f32⟩
  | 2 => ⟨S_, .f32⟩
  | 3 => ⟨S500000x256, .f32⟩
  | 4 => ⟨S500000x256, .f32⟩
  | 5 => ⟨S500000x128, .f32⟩
  | 6 => ⟨S1x128, .f32⟩
  | 7 => ⟨S500000x128, .f32⟩
  | 8 => ⟨S500000x128, .f32⟩
  | 9 => ⟨S500000x128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S500000x128, .f32⟩
  | 23 => ⟨S500000x128, .f32⟩
  | 24 => ⟨S500000x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S1x128, .f32⟩
  | 39 => ⟨S500000x128, .f32⟩
  | 40 => ⟨S500000x128, .f32⟩
  | 41 => ⟨S_, .f32⟩
  | 42 => ⟨S128, .f32⟩
  | 43 => ⟨S128, .f32⟩
  | 44 => ⟨S128, .f32⟩
  | 45 => ⟨S1x128, .f32⟩
  | 46 => ⟨S500000x128, .f32⟩
  | 47 => ⟨S500000x128, .f32⟩
  | 48 => ⟨S1x128, .f32⟩
  | 49 => ⟨S500000x128, .f32⟩
  | 50 => ⟨S500000x128, .f32⟩
  | 51 => ⟨S1x128, .f32⟩
  | 52 => ⟨S500000x128, .f32⟩
  | 53 => ⟨S500000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_v8 : Ref sig .tc := ⟨.hbm, 38, rfl⟩
abbrev main_v9 : Ref sig .tc := ⟨.hbm, 39, rfl⟩
abbrev main_c_0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_1 : Ref sig .tc := ⟨.hbm, 46, rfl⟩
abbrev main_v15 : Ref sig .tc := ⟨.hbm, 47, rfl⟩
abbrev main_v16 : Ref sig .tc := ⟨.hbm, 48, rfl⟩
abbrev main_c_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_3 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_cst_5 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v29 : Ref sig .tc := ⟨.hbm, 71, rfl⟩
abbrev main_v30 : Ref sig .tc := ⟨.hbm, 72, rfl⟩
abbrev main_c_6 : Ref sig .tc := ⟨.hbm, 73, rfl⟩
abbrev main_v31 : Ref sig .tc := ⟨.hbm, 74, rfl⟩
abbrev main_v32 : Ref sig .tc := ⟨.hbm, 75, rfl⟩
abbrev main_c_7 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_8 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_9 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_10 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_11 : Ref sig .tc := ⟨.hbm, 105, rfl⟩
abbrev main_v58 : Ref sig .tc := ⟨.hbm, 106, rfl⟩
abbrev main_cst_12 : Ref sig .tc := ⟨.hbm, 107, rfl⟩
abbrev main_v59 : Ref sig .tc := ⟨.hbm, 108, rfl⟩
abbrev main_v60 : Ref sig .tc := ⟨.hbm, 109, rfl⟩
abbrev main_c_13 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_cst_1 : Ref sig .tc := ⟨.hbm, 121, rfl⟩
abbrev main_call1_v8 : Ref sig .tc := ⟨.hbm, 122, rfl⟩
abbrev main_call1_cst_2 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_cst_3 : Ref sig .tc := ⟨.hbm, 127, rfl⟩
abbrev main_call1_v12 : Ref sig .tc := ⟨.hbm, 128, rfl⟩
abbrev main_call1_cst_4 : Ref sig .tc := ⟨.hbm, 129, rfl⟩
abbrev main_call1_call0_v0 : Ref sig .tc := ⟨.hbm, 130, rfl⟩
abbrev main_call1_call0_v1 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_cst_14 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_15 : Ref sig .tc := ⟨.hbm, 154, rfl⟩
abbrev main_v82 : Ref sig .tc := ⟨.hbm, 155, rfl⟩
abbrev main_cst_16 : Ref sig .tc := ⟨.hbm, 156, rfl⟩
abbrev main_v83 : Ref sig .tc := ⟨.hbm, 157, rfl⟩
abbrev main_v84 : Ref sig .tc := ⟨.hbm, 158, rfl⟩
abbrev main_c_17 : Ref sig .tc := ⟨.hbm, 159, rfl⟩
abbrev main_call2_cst : Ref sig .tc := ⟨.hbm, 160, rfl⟩
abbrev main_call2_v0 : Ref sig .tc := ⟨.hbm, 161, rfl⟩
abbrev main_call2_v1 : Ref sig .tc := ⟨.hbm, 162, rfl⟩
abbrev main_call2_cst_0 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_v7 : Ref sig .tc := ⟨.hbm, 169, rfl⟩
abbrev main_call2_cst_1 : Ref sig .tc := ⟨.hbm, 170, rfl⟩
abbrev main_call2_v8 : Ref sig .tc := ⟨.hbm, 171, rfl⟩
abbrev main_call2_cst_2 : Ref sig .tc := ⟨.hbm, 172, rfl⟩
abbrev main_call2_v9 : Ref sig .tc := ⟨.hbm, 173, rfl⟩
abbrev main_call2_v10 : Ref sig .tc := ⟨.hbm, 174, rfl⟩
abbrev main_call2_v11 : Ref sig .tc := ⟨.hbm, 175, rfl⟩
abbrev main_call2_cst_3 : Ref sig .tc := ⟨.hbm, 176, rfl⟩
abbrev main_call2_v12 : Ref sig .tc := ⟨.hbm, 177, rfl⟩
abbrev main_call2_cst_4 : Ref sig .tc := ⟨.hbm, 178, rfl⟩
abbrev main_call2_call0_v0 : Ref sig .tc := ⟨.hbm, 179, rfl⟩
abbrev main_call2_call0_v1 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_cst_18 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_call3_cst : Ref sig .tc := ⟨.hbm, 202, rfl⟩
abbrev main_call3_v0 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_cst_19 : Ref sig .tc := ⟨.hbm, 210, rfl⟩
abbrev main_v111 : Ref sig .tc := ⟨.hbm, 211, rfl⟩
abbrev main_cst_20 : Ref sig .tc := ⟨.hbm, 212, rfl⟩
abbrev main_v112 : Ref sig .tc := ⟨.hbm, 213, rfl⟩
abbrev main_v113 : Ref sig .tc := ⟨.hbm, 214, rfl⟩
abbrev main_c_21 : Ref sig .tc := ⟨.hbm, 215, rfl⟩
abbrev main_call4_cst : Ref sig .tc := ⟨.hbm, 216, rfl⟩
abbrev main_call4_v0 : Ref sig .tc := ⟨.hbm, 217, rfl⟩
abbrev main_call4_v1 : Ref sig .tc := ⟨.hbm, 218, rfl⟩
abbrev main_call4_cst_0 : Ref sig .tc := ⟨.hbm, 219, rfl⟩
abbrev main_call4_v2 : Ref sig .tc := ⟨.hbm, 220, rfl⟩
abbrev main_call4_v3 : Ref sig .tc := ⟨.hbm, 221, rfl⟩
abbrev main_call4_v4 : Ref sig .tc := ⟨.hbm, 222, rfl⟩
abbrev main_call4_v5 : Ref sig .tc := ⟨.hbm, 223, rfl⟩
abbrev main_call4_v6 : Ref sig .tc := ⟨.hbm, 224, rfl⟩
abbrev main_call4_v7 : Ref sig .tc := ⟨.hbm, 225, rfl⟩
abbrev main_call4_cst_1 : Ref sig .tc := ⟨.hbm, 226, rfl⟩
abbrev main_call4_v8 : Ref sig .tc := ⟨.hbm, 227, rfl⟩
abbrev main_call4_cst_2 : Ref sig .tc := ⟨.hbm, 228, rfl⟩
abbrev main_call4_v9 : Ref sig .tc := ⟨.hbm, 229, rfl⟩
abbrev main_call4_v10 : Ref sig .tc := ⟨.hbm, 230, rfl⟩
abbrev main_call4_v11 : Ref sig .tc := ⟨.hbm, 231, rfl⟩
abbrev main_call4_cst_3 : Ref sig .tc := ⟨.hbm, 232, rfl⟩
abbrev main_call4_v12 : Ref sig .tc := ⟨.hbm, 233, rfl⟩
abbrev main_call4_cst_4 : Ref sig .tc := ⟨.hbm, 234, rfl⟩
abbrev main_call4_call0_v0 : Ref sig .tc := ⟨.hbm, 235, rfl⟩
abbrev main_call4_call0_v1 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_cst_22 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_call5_cst : Ref sig .tc := ⟨.hbm, 258, rfl⟩
abbrev main_call5_v0 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_v137 : Ref sig .tc := ⟨.hbm, 263, rfl⟩
abbrev main_v138 : Ref sig .tc := ⟨.hbm, 264, rfl⟩
abbrev main_v139 : Ref sig .tc := ⟨.hbm, 265, rfl⟩
abbrev main_cst_23 : Ref sig .tc := ⟨.hbm, 266, rfl⟩
abbrev main_v140 : Ref sig .tc := ⟨.hbm, 267, rfl⟩
abbrev main_cst_24 : Ref sig .tc := ⟨.hbm, 268, rfl⟩
abbrev main_v141 : Ref sig .tc := ⟨.hbm, 269, rfl⟩
abbrev main_v142 : Ref sig .tc := ⟨.hbm, 270, rfl⟩
abbrev main_c_25 : Ref sig .tc := ⟨.hbm, 271, rfl⟩
abbrev main_call6_cst : Ref sig .tc := ⟨.hbm, 272, rfl⟩
abbrev main_call6_v0 : Ref sig .tc := ⟨.hbm, 273, rfl⟩
abbrev main_call6_v1 : Ref sig .tc := ⟨.hbm, 274, rfl⟩
abbrev main_call6_cst_0 : Ref sig .tc := ⟨.hbm, 275, rfl⟩
abbrev main_call6_v2 : Ref sig .tc := ⟨.hbm, 276, rfl⟩
abbrev main_call6_v3 : Ref sig .tc := ⟨.hbm, 277, rfl⟩
abbrev main_call6_v4 : Ref sig .tc := ⟨.hbm, 278, rfl⟩
abbrev main_call6_v5 : Ref sig .tc := ⟨.hbm, 279, rfl⟩
abbrev main_call6_v6 : Ref sig .tc := ⟨.hbm, 280, rfl⟩
abbrev main_call6_v7 : Ref sig .tc := ⟨.hbm, 281, rfl⟩
abbrev main_call6_cst_1 : Ref sig .tc := ⟨.hbm, 282, rfl⟩
abbrev main_call6_v8 : Ref sig .tc := ⟨.hbm, 283, rfl⟩
abbrev main_call6_cst_2 : Ref sig .tc := ⟨.hbm, 284, rfl⟩
abbrev main_call6_v9 : Ref sig .tc := ⟨.hbm, 285, rfl⟩
abbrev main_call6_v10 : Ref sig .tc := ⟨.hbm, 286, rfl⟩
abbrev main_call6_v11 : Ref sig .tc := ⟨.hbm, 287, rfl⟩
abbrev main_call6_cst_3 : Ref sig .tc := ⟨.hbm, 288, rfl⟩
abbrev main_call6_v12 : Ref sig .tc := ⟨.hbm, 289, rfl⟩
abbrev main_call6_cst_4 : Ref sig .tc := ⟨.hbm, 290, rfl⟩
abbrev main_call6_call0_v0 : Ref sig .tc := ⟨.hbm, 291, rfl⟩
abbrev main_call6_call0_v1 : Ref sig .tc := ⟨.hbm, 292, rfl⟩
abbrev main_v143 : Ref sig .tc := ⟨.hbm, 293, rfl⟩
abbrev main_v144 : Ref sig .tc := ⟨.hbm, 294, rfl⟩
abbrev main_v145 : Ref sig .tc := ⟨.hbm, 295, rfl⟩
abbrev main_v146 : Ref sig .tc := ⟨.hbm, 296, rfl⟩
abbrev main_cst_26 : Ref sig .tc := ⟨.hbm, 297, rfl⟩
abbrev main_v147 : Ref sig .tc := ⟨.hbm, 298, rfl⟩
abbrev main_v148 : Ref sig .tc := ⟨.hbm, 299, rfl⟩
abbrev main_v149 : Ref sig .tc := ⟨.hbm, 300, rfl⟩
abbrev main_v150 : Ref sig .tc := ⟨.hbm, 301, rfl⟩
abbrev main_v151 : Ref sig .tc := ⟨.hbm, 302, rfl⟩
abbrev main_v152 : Ref sig .tc := ⟨.hbm, 303, rfl⟩
abbrev main_v153 : Ref sig .tc := ⟨.hbm, 304, rfl⟩
abbrev main_v154 : Ref sig .tc := ⟨.hbm, 305, rfl⟩
abbrev main_v155 : Ref sig .tc := ⟨.hbm, 306, rfl⟩
abbrev main_v156 : Ref sig .tc := ⟨.hbm, 307, rfl⟩
abbrev main_v157 : Ref sig .tc := ⟨.hbm, 308, rfl⟩
abbrev main_v158 : Ref sig .tc := ⟨.hbm, 309, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S500000x128_S500000x8x16 : S500000x128.ShapeCasts S500000x8x16
  bcast_S_S500000 : S_.BroadcastsInDim S500000 (![] : Fin 0 → Fin S500000.rank)
  bcast_S500000_S500000x1_0 : S500000.BroadcastsInDim S500000x1 (![0] : Fin 1 → Fin S500000x1.rank)
  bcast_S_S500000x8x16 : S_.BroadcastsInDim S500000x8x16 (![] : Fin 0 → Fin S500000x8x16.rank)
  shapeCasts_S500000x8x16_S500000x128 : S500000x8x16.ShapeCasts S500000x128
  reducesTo_S500000x8x16_S500000x8_d2 : S500000x8x16.ReducesTo [2] S500000x8
  h_S_ : 0 < S_.numel
  bcast_S500000x8_S500000x8x1_0_1 : S500000x8.BroadcastsInDim S500000x8x1 (![0, 1] : Fin 2 → Fin S500000x8x1.rank)
  bcast_S_S500000x8x1 : S_.BroadcastsInDim S500000x8x1 (![] : Fin 0 → Fin S500000x8x1.rank)
  bcast_S500000x1x1_S500000x8x16_0_1_2 : S500000x1x1.BroadcastsInDim S500000x8x16 (![0, 1, 2] : Fin 3 → Fin S500000x8x16.rank)
  bcast_S500000x8x1_S500000x8x16_0_1_2 : S500000x8x1.BroadcastsInDim S500000x8x16 (![0, 1, 2] : Fin 3 → Fin S500000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S1x128_S500000x128_0_1 : S1x128.BroadcastsInDim S500000x128 (![0, 1] : Fin 2 → Fin S500000x128.rank)
  reducesTo_S500000x128_S128_d0 : S500000x128.ReducesTo [0] S128
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  dot_S50000x128_S128x128_S50000x128_1_0_0_1_n_n_wf : DotDims.WF S50000x128 S128x128 S50000x128 [1] [0] [0] [1] [] []
  dot_S500000x128_S128x128_S500000x128_1_0_0_1_n_n_wf : DotDims.WF S500000x128 S128x128 S500000x128 [1] [0] [0] [1] [] []
  gather_S50000x8x16_S500000x1_S500000x8x16_12_0_n_n_0_1_1816_wf : GatherDims.WF S50000x8x16 S500000x1 S500000x8x16 [1, 2] [0] [] [0] [] 1 ![1, 8, 16]
  scatter_S50000x8x16_S500000x1_S500000x8x16_12_0_0_1_wf : ScatterDims.WF S50000x8x16 S500000x1 S500000x8x16 [1, 2] [0] [0] 1
  scatter_S50000x8x1_S500000x1_S500000x8x1_12_0_0_1_wf : ScatterDims.WF S50000x8x1 S500000x1 S500000x8x1 [1, 2] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  dot_S500000x128_S128x256_S500000x256_1_0_0_1_n_n_wf : DotDims.WF S500000x128 S128x256 S500000x256 [1] [0] [0] [1] [] []
  dot_S500000x256_S256x128_S500000x128_1_0_0_1_n_n_wf : DotDims.WF S500000x256 S256x128 S500000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S50000x8x16_S500000x1_S500000x8x16_12_0_n_n_0_1_1816 : GatherDims S50000x8x16 S500000x1 S500000x8x16 where
  offsetDims := [1, 2]
  collapsedSliceDims := [0]
  operandBatchingDims := []
  startIndicesBatchingDims := []
  startIndexMap := [0]
  indexVectorDim := 1
  sliceSizes := ![1, 8, 16]
  wf := gather_S50000x8x16_S500000x1_S500000x8x16_12_0_n_n_0_1_1816_wf
def scatter_S50000x8x16_S500000x1_S500000x8x16_12_0_0_1 : ScatterDims S50000x8x16 S500000x1 S500000x8x16 where
  updateWindowDims := [1, 2]
  insertedWindowDims := [0]
  scatterDimsToOperandDims := [0]
  indexVectorDim := 1
  wf := scatter_S50000x8x16_S500000x1_S500000x8x16_12_0_0_1_wf
def scatter_S50000x8x1_S500000x1_S500000x8x1_12_0_0_1 : ScatterDims S50000x8x1 S500000x1 S500000x8x1 where
  updateWindowDims := [1, 2]
  insertedWindowDims := [0]
  scatterDimsToOperandDims := [0]
  indexVectorDim := 1
  wf := scatter_S50000x8x1_S500000x1_S500000x8x1_12_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S500000x128_S128x256_S500000x256_1_0_0_1_n_n : DotDims S500000x128 S128x256 S500000x256 where
  lhsContracting := [1]
  rhsContracting := [0]
  lhsNonContracting := [0]
  rhsNonContracting := [1]
  lhsBatch := []
  rhsBatch := []
  wf := dot_S500000x128_S128x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf

class Facts : Prop extends Facts₀ where

variable [Facts]
-- ==== Proof.Kernel.Region0.lean ====
import proofs.«121852_j34351148433892_2_alg».proof.Proof.Gen.Kernel.Launch
import proofs.«121852_j34351148433892_2_alg».proof.Proof.Gen.Kernel.Skeleton
import proofs.«121852_j34351148433892_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

def out0_2 (x0 : Vec F S5000x128 .f32) (x1 : Vec F S128x384 .bf16) : Vec F S5000x384 .f32 :=
  View.canon [⟨r0_2, k0_pay1 (View.ld x0 r0_0) (View.ld x1 r0_1)⟩]

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x384 .bf16) (harg2 : arg2.IsWhole) (arg3 : Memref sig .tc .vmem S5000x384 .f32) (harg3 : arg3.IsWhole)
    (x0 : Vec F S5000x128 .f32) (x1 : Vec F S128x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists _; iframe H0; ipureintro; rfl
  isplitl [H1]; · iexists _; iframe H1; ipureintro; rfl
  iexists _; iframe H2; ipureintro
  exact View.read_writes_eq_canon _ _ _ (View.cover_of_tiled _ (Shape.size _) (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, after0_2]
  show _ ⊢ wp _ _ _ (bodyAt0 t) _
  rw [show (dat0 V c).Φ t.succ = (dat0 V c).Φ t.castSucc from rfl]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

end Cert.Kernel.Hand

end
-- ==== Proof.Kernel.Region1.lean ====
import proofs.«121852_j34351148433892_2_alg».proof.Proof.Gen.Kernel.Launch
import proofs.«121852_j34351148433892_2_alg».proof.Proof.Gen.Kernel.Skeleton
import proofs.«121852_j34351148433892_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S2000x256 := Rect.unit (s := S2000x256) ![0, 0] S2000x128.size inb_S2000x256_S2000x128_0_0
abbrev r1_3 : Rect S2000x256 := Rect.unit (s := S2000x256) ![0, 128] S2000x128.size inb_S2000x256_S2000x128_0_128
abbrev r1_4 : Rect S128x8 := Rect.unit (s := S128x8) ![0, 0] S128x8.size inb_S128x8_S128x8_0_0
abbrev r1_5 : Rect S8x128 := Rect.unit (s := S8x128) ![0, 0] S8x128.size inb_S8x128_S8x128_0_0
abbrev r1_6 : Rect S2000x1 := Rect.unit (s := S2000x1) ![0, 0] S2000x1.size inb_S2000x1_S2000x1_0_0
abbrev r1_7 : Rect S1x128 := Rect.unit (s := S1x128) ![0, 0] S1x128.size inb_S1x128_S1x128_0_0
abbrev r1_8 : Rect S2000x8 := Rect.unit (s := S2000x8) ![0, 0] S2000x8.size inb_S2000x8_S2000x8_0_0

def out1_9 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S2000x128 .f32 :=
  View.canon [⟨r1_0, k1_pay1 (k1_pay7 (View.ld x0 r1_0) (View.ld x4 r1_1) (View.ld x1 r1_2) (View.ld x2 r1_0) (View.ld x5 r1_1)) (View.ld x6 r1_7)⟩]

def out1_10 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S2000x8 .f32 :=
  View.canon [⟨r1_8, k1_pay5 (View.ld x0 r1_0) (View.ld x4 r1_1) (View.ld x1 r1_2) (View.ld x2 r1_0) (View.ld x7 r1_4)⟩]

def out1_11 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S2000x128 .f32 :=
  View.canon [⟨r1_0, k1_pay6 (View.ld x0 r1_0) (View.ld x4 r1_1) (View.ld x1 r1_2) (View.ld x1 r1_3) (View.ld x2 r1_0) (View.ld x7 r1_4) (View.ld x8 r1_5) (View.ld x3 r1_6)⟩]

def out1_12 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S8x128 .f32 :=
  View.canon [⟨r1_5, k1_pay2 (k1_pay7 (View.ld x0 r1_0) (View.ld x4 r1_1) (View.ld x1 r1_2) (View.ld x2 r1_0) (View.ld x5 r1_1)) (View.ld x6 r1_7)⟩]

def out1_13 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S8x128 .f32 :=
  View.canon [⟨r1_5, k1_pay3 (k1_pay7 (View.ld x0 r1_0) (View.ld x4 r1_1) (View.ld x1 r1_2) (View.ld x2 r1_0) (View.ld x5 r1_1)) (View.ld x6 r1_7)⟩]

set_option maxHeartbeats 4000000 in
theorem sound_kernel1 (c : Dev nD) (E : Set ℕ) (i : grid1.Coords) (arg1 : Memref sig .tc .vmem S2000x128 .f32) (harg1 : arg1.IsWhole) (arg2 : Memref sig .tc .vmem S2000x256 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x8 .f32) (harg8 : arg8.IsWhole) (arg9 : Memref sig .tc .vmem S8x128 .f32) (harg9 : arg9.IsWhole) (arg10 : Memref sig .tc .vmem S2000x128 .f32) (harg10 : arg10.IsWhole) (arg11 : Memref sig .tc .vmem S2000x8 .f32) (harg11 : arg11.IsWhole) (arg12 : Memref sig .tc .vmem S2000x128 .f32) (harg12 : arg12.IsWhole) (arg13 : Memref sig .tc .vmem S8x128 .f32) (harg13 : arg13.IsWhole) (arg14 : Memref sig .tc .vmem S8x128 .f32) (harg14 : arg14.IsWhole)
    (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d) ∗ (∃ d, owns c arg11 fullShare d) ∗ (∃ d, owns c arg12 fullShare d) ∗ (∃ d, owns c arg13 fullShare d) ∗ (∃ d, owns c arg14 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out1_9 x0 x1 x2 x3 x4 x5 x6 x7 x8) ∗ owns c arg11 fullShare (out1_10 x0 x1 x2 x3 x4 x5 x6 x7 x8) ∗ owns c arg12 fullShare (out1_11 x0 x1 x2 x3 x4 x5 x6 x7 x8) ∗ owns c arg13 fullShare (out1_12 x0 x1 x2 x3 x4 x5 x6 x7 x8) ∗ owns c arg14 fullShare (out1_13 x0 x1 x2 x3 x4 x5 x6 x7 x8)) -∗ K ⟨⟩))
      ⊢ wp frame (wpE (defs₀ (F := F)) Variants.none c none) E (cc1__e_branch_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__e_branch_kernel_eq_skeleton]; unfold cc1__e_branch_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro; exact View.read_writes_eq_canon _ _ _ (View.cover_of_tiled _ (Shape.size _) (by rfl))
  isplitl [H10]
  · iexists _; isplitr; swap; · iexact H10
    ipureintro; exact View.read_writes_eq_canon _ _ _ (View.cover_of_tiled _ (Shape.size _) (by rfl))
  isplitl [H11]
  · iexists _; isplitr; swap; · iexact H11
    ipureintro; exact View.read_writes_eq_canon _ _ _ (View.cover_of_tiled _ (Shape.size _) (by rfl))
  isplitl [H12]
  · iexists _; isplitr; swap; · iexact H12
    ipureintro; exact View.read_writes_eq_canon _ _ _ (View.cover_of_tiled _ (Shape.size _) (by rfl))
  iexists _; isplitr; swap; · iexact H13
  ipureintro; exact View.read_writes_eq_canon _ _ _ (View.cover_of_tiled _ (Shape.size _) (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := rfl

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl

set_option maxHeartbeats 1000000 in
theorem body_obligation1 (c : Dev nD) : BodyObligation (dat1 (F := F) V c) (defs₀ (F := F)) Variants.none () Set.univ := fun t => by
  rw [bigSep_W1, bigSep_W1]
  show _ ⊢ wp frame _ _ (bodyAt1 t) _
  simp only [before1_0 V, before1_1 V, before1_2 V, before1_3 V, before1_4 V, before1_5 V, before1_6 V, before1_7 V, before1_8 V]
  rw [show (dat1 V c).Φ t.succ = (dat1 V c).Φ t.castSucc from rfl,
    show (dat1 V c).owesAt () t.succ = (dat1 V c).owesAt () t.castSucc from rfl,
    after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply sound_kernel1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro H
  isplitl [HΦ]; · iexact HΦ
  isplitl [Ho]; · iexact Ho
  iexact H

end Region1

end Cert.Kernel.Hand

end
-- ==== Proof.Kernel.Region2.lean ====
import proofs.«121852_j34351148433892_2_alg».proof.Proof.Gen.Kernel.Launch
import proofs.«121852_j34351148433892_2_alg».proof.Proof.Gen.Kernel.Skeleton
import proofs.«121852_j34351148433892_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S8x128 := Rect.unit (s := S8x128) ![0, 0] S8x128.size inb_S8x128_S8x128_0_0

def out2_4 (x0 : Vec F S5000x128 .f32) (x1 : Vec F S5000x128 .f32) (x2 : Vec F S128x128 .bf16) (x3 : Vec F S1x128 .f32) : Vec F S5000x128 .f32 :=
  View.canon [⟨r2_0, k2_pay1 (View.ld x1 r2_0) (View.ld x2 r2_1) (View.ld x0 r2_0) (View.ld x3 r2_2)⟩]

def out2_5 (x0 : Vec F S5000x128 .f32) (x1 : Vec F S5000x128 .f32) (x2 : Vec F S128x128 .bf16) (x3 : Vec F S1x128 .f32) : Vec F S8x128 .f32 :=
  View.canon [⟨r2_3, k2_pay2 (View.ld x1 r2_0) (View.ld x2 r2_1) (View.ld x0 r2_0) (View.ld x3 r2_2)⟩]

def out2_6 (x0 : Vec F S5000x128 .f32) (x1 : Vec F S5000x128 .f32) (x2 : Vec F S128x128 .bf16) (x3 : Vec F S1x128 .f32) : Vec F S8x128 .f32 :=
  View.canon [⟨r2_3, k2_pay3 (View.ld x1 r2_0) (View.ld x2 r2_1) (View.ld x0 r2_0) (View.ld x3 r2_2)⟩]

set_option maxHeartbeats 2000000 in
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole) (arg6 : Memref sig .tc .vmem S8x128 .f32) (harg6 : arg6.IsWhole) (arg7 : Memref sig .tc .vmem S8x128 .f32) (harg7 : arg7.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3) ∗ owns (c : Thread nD τ) arg7 fullShare (out2_6 x0 x1 x2 x3)) -∗ K ⟨⟩))
      ⊢ wp frame (wpE (defs₀ (F := F)) Variants.none c none) E (cc2__outproj_kernel i arg1 harg1 arg2 harg2 arg3 harg3 arg4 harg4 arg5 harg5 arg6 harg6 arg7 harg7) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]; · iexists _; iframe H0; ipureintro; rfl
  isplitl [H1]; · iexists _; iframe H1; ipureintro; rfl
  isplitl [H2]; · iexists _; iframe H2; ipureintro; rfl
  isplitl [H3]; · iexists _; iframe H3; ipureintro; rfl
  isplitl [H4]; · iexists _; iframe H4; ipureintro; exact View.read_writes_eq_canon _ _ _ (View.cover_of_tiled _ (Shape.size _) (by rfl))
  isplitl [H5]; · iexists _; iframe H5; ipureintro; exact View.read_writes_eq_canon _ _ _ (View.cover_of_tiled _ (Shape.size _) (by rfl))
  iexists _; iframe H6; ipureintro
  exact View.read_writes_eq_canon _ _ _ (View.cover_of_tiled _ (Shape.size _) (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2, before2_3, after2_4, after2_5, after2_6]
  show _ ⊢ wp _ _ _ (bodyAt2 t) _
  rw [show (dat2 V c).Φ t.succ = (dat2 V c).Φ t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.Kernel.Hand

end
-- ==== Proof.Kernel.Region3.lean ====
import proofs.«121852_j34351148433892_2_alg».proof.Proof.Gen.Kernel.Launch
import proofs.«121852_j34351148433892_2_alg».proof.Proof.Gen.Kernel.Skeleton
import proofs.«121852_j34351148433892_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S128x256 := Rect.unit (s := S128x256) ![0, 0] S128x256.size inb_S128x256_S128x256_0_0
abbrev r3_3 : Rect S1x256 := Rect.unit (s := S1x256) ![0, 0] S1x256.size inb_S1x256_S1x256_0_0
abbrev r3_4 : Rect S256x128 := Rect.unit (s := S256x128) ![0, 0] S256x128.size inb_S256x128_S256x128_0_0
abbrev r3_5 : Rect S8x128 := Rect.unit (s := S8x128) ![0, 0] S8x128.size inb_S8x128_S8x128_0_0

section
variable (x0 : Vec F S5000x128 .f32) (x1 x2 x3 x4 : Vec F S1x128 .f32) (x5 : Vec F S128x256 .bf16) (x6 : Vec F S1x256 .f32)
  (x7 : Vec F S256x128 .bf16) (x8 : Vec F S1x128 .f32)

abbrev norm3 : FVec F S5000x128 .f32 :=
  k3_pay4 (View.ld x0 r3_0) (View.ld x1 r3_1) (View.ld x2 r3_1) (View.ld x3 r3_1) (View.ld x4 r3_1)

abbrev ffn3 : FVec F S5000x128 .f32 :=
  k3_pay5 (View.ld x0 r3_0) (View.ld x1 r3_1) (View.ld x2 r3_1) (View.ld x3 r3_1) (View.ld x4 r3_1) (View.ld x5 r3_2) (View.ld x6 r3_3) (View.ld x7 r3_4)

abbrev bias3 : FVec F S1x128 .f32 := k3_pay6 (View.ld x8 r3_1)

def out3_9 : Vec F S5000x128 .f32 :=
  View.canon [⟨r3_0, k3_pay1 (norm3 x0 x1 x2 x3 x4) (ffn3 x0 x1 x2 x3 x4 x5 x6 x7) (bias3 x8)⟩]

def out3_10 : Vec F S8x128 .f32 :=
  View.canon [⟨r3_5, k3_pay2 (norm3 x0 x1 x2 x3 x4) (ffn3 x0 x1 x2 x3 x4 x5 x6 x7) (bias3 x8)⟩]

def out3_11 : Vec F S8x128 .f32 :=
  View.canon [⟨r3_5, k3_pay3 (norm3 x0 x1 x2 x3 x4) (ffn3 x0 x1 x2 x3 x4 x5 x6 x7) (bias3 x8)⟩]

set_option maxHeartbeats 4000000 in
theorem sound_kernel3 {c : Dev nD} {E : Set ℕ} {i : grid3.Coords} {arg1 arg10 : Memref sig .tc .vmem S5000x128 .f32} {arg2 arg3 arg4 arg5 arg9 : Memref sig .tc .vmem S1x128 .f32}
    {arg6 : Memref sig .tc .vmem S128x256 .bf16} {arg7 : Memref sig .tc .vmem S1x256 .f32} {arg8 : Memref sig .tc .vmem S256x128 .bf16} {arg11 arg12 : Memref sig .tc .vmem S8x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {harg10 : arg10.IsWhole} {harg11 : arg11.IsWhole} {harg12 : arg12.IsWhole} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d) ∗ (∃ d, owns c arg11 fullShare d) ∗ (∃ d, owns c arg12 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out3_9 x0 x1 x2 x3 x4 x5 x6 x7 x8) ∗ owns c arg11 fullShare (out3_10 x0 x1 x2 x3 x4 x5 x6 x7 x8) ∗ owns c arg12 fullShare (out3_11 x0 x1 x2 x3 x4 x5 x6 x7 x8)) -∗ K ⟨⟩))
      ⊢ wp frame (wpE (defs₀ (F := F)) Variants.none c none) E (cc3__ffn_kernel i arg1 harg1 arg2 harg2 arg3 harg3 arg4 harg4 arg5 harg5 arg6 harg6 arg7 harg7 arg8 harg8 arg9 harg9 arg10 harg10 arg11 harg11 arg12 harg12) K := by
  simp only [cc3__ffn_kernel_eq_skeleton]; unfold cc3__ffn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]
  · iexists _; iframe H9; ipureintro
    exact View.read_writes_eq_canon _ _ _ (View.cover_of_tiled _ S5000x128.size (by rfl))
  isplitl [H10]
  · iexists _; iframe H10; ipureintro
    exact View.read_writes_eq_canon _ _ _ (View.cover_of_tiled _ S8x128.size (by rfl))
  iexists _; iframe H11; ipureintro
  exact View.read_writes_eq_canon _ _ _ (View.cover_of_tiled _ S8x128.size (by rfl))

end

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t)
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3 (c : Dev nD) (w : Fin cfg3.W) (hw : w ∈ ([0, 1, 2, 3, 4, 5, 6, 7, 8] : List (Fin cfg3.W))) (t : Fin cfg3.N) (d) :
    (dat3 V c).before w t d = (dat3 V c).after w t := by
  simp only [List.mem_cons, List.not_mem_nil, or_false] at hw
  rcases hw with rfl | rfl | rfl | rfl | rfl | rfl | rfl | rfl | rfl <;>
    exact ((dat3 V c).before_in_eq_fetched _ rfl (fun _ => rfl) (fun _ _ _ => rfl) (fun t => by dsimp only [dat3, Dat.blockOf, iblk3]; try rfl) t d).trans
      (by dsimp only [dat3, Dat.fetched, Dat.blockOf, iblk3]; try rfl)

theorem sound_body3 (c : Dev nD) (t : Fin cfg3.N) :
    iprop((dat3 V c).Φ t.castSucc ∗ (dat3 V c).owesAt () t.castSucc
      ∗ bigSep Finset.univ fun w : Fin cfg3.W => iprop(∃ d, owns c ((cfg3.win w).stage (cfg3.slots t w)) fullShare ((dat3 V c).before w t d)))
    ⊢ wp frame (wpE (defs₀ (F := F)) Variants.none c none) Set.univ (bodyAt3 t) fun _ =>
      iprop((dat3 V c).Φ t.castSucc ∗ (dat3 V c).owesAt () t.castSucc
        ∗ bigSep Finset.univ fun w : Fin cfg3.W => owns c ((cfg3.win w).stage (cfg3.slots t w)) fullShare ((dat3 V c).after w t)) := by
  rw [bigSep_W3, bigSep_W3]
  unfold bodyAt3
  simp (disch := decide) only [before3]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 (iblk3 V c 0 t) (iblk3 V c 1 t) (iblk3 V c 2 t) (iblk3 V c 3 t) (iblk3 V c 4 t) (iblk3 V c 5 t) (iblk3 V c 6 t) (iblk3 V c 7 t) (iblk3 V c 8 t))
  iframe H0 H1 H2 H3 H4 H5 H6 H7 H8
  isplitl [H9]; · iexists _; iexact H9
  isplitl [H10]; · iexists _; iexact H10
  isplitl [H11]; · iexists _; iexact H11
  iintro ⟨H0, H1, H2, H3, H4, H5, H6, H7, H8, H9, H10, H11⟩
  iframe

theorem body_obligation3 (c : Dev nD) : BodyObligation (dat3 (F := F) V c) (defs₀ (F := F)) Variants.none () Set.univ :=
  fun t => sound_body3 V c t

end Cert.Kernel.Hand
-- ==== Proof.Kernel.Region4.lean ====
import proofs.«121852_j34351148433892_2_alg».proof.Proof.Gen.Kernel.Launch
import proofs.«121852_j34351148433892_2_alg».proof.Proof.Gen.Kernel.Skeleton
import proofs.«121852_j34351148433892_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0
abbrev r4_2 : Rect S128x256 := Rect.unit (s := S128x256) ![0, 0] S128x256.size inb_S128x256_S128x256_0_0
abbrev r4_3 : Rect S1x256 := Rect.unit (s := S1x256) ![0, 0] S1x256.size inb_S1x256_S1x256_0_0
abbrev r4_4 : Rect S256x128 := Rect.unit (s := S256x128) ![0, 0] S256x128.size inb_S256x128_S256x128_0_0
abbrev r4_5 : Rect S8x128 := Rect.unit (s := S8x128) ![0, 0] S8x128.size inb_S8x128_S8x128_0_0

section
variable (x0 : Vec F S5000x128 .f32) (x1 x2 x3 x4 : Vec F S1x128 .f32) (x5 : Vec F S128x256 .bf16) (x6 : Vec F S1x256 .f32)
  (x7 : Vec F S256x128 .bf16) (x8 : Vec F S1x128 .f32)

abbrev norm4 : FVec F S5000x128 .f32 :=
  k4_pay4 (View.ld x0 r4_0) (View.ld x1 r4_1) (View.ld x2 r4_1) (View.ld x3 r4_1) (View.ld x4 r4_1)

abbrev ffn4 : FVec F S5000x128 .f32 :=
  k4_pay5 (View.ld x0 r4_0) (View.ld x1 r4_1) (View.ld x2 r4_1) (View.ld x3 r4_1) (View.ld x4 r4_1) (View.ld x5 r4_2) (View.ld x6 r4_3) (View.ld x7 r4_4)

abbrev bias4 : FVec F S1x128 .f32 := k4_pay6 (View.ld x8 r4_1)

def out4_9 : Vec F S5000x128 .f32 :=
  View.canon [⟨r4_0, k4_pay1 (norm4 x0 x1 x2 x3 x4) (ffn4 x0 x1 x2 x3 x4 x5 x6 x7) (bias4 x8)⟩]

def out4_10 : Vec F S8x128 .f32 :=
  View.canon [⟨r4_5, k4_pay2 (norm4 x0 x1 x2 x3 x4) (ffn4 x0 x1 x2 x3 x4 x5 x6 x7) (bias4 x8)⟩]

def out4_11 : Vec F S8x128 .f32 :=
  View.canon [⟨r4_5, k4_pay3 (norm4 x0 x1 x2 x3 x4) (ffn4 x0 x1 x2 x3 x4 x5 x6 x7) (bias4 x8)⟩]

set_option maxHeartbeats 4000000 in
theorem sound_kernel4 {c : Dev nD} {E : Set ℕ} {i : grid4.Coords} {arg1 arg10 : Memref sig .tc .vmem S5000x128 .f32} {arg2 arg3 arg4 arg5 arg9 : Memref sig .tc .vmem S1x128 .f32}
    {arg6 : Memref sig .tc .vmem S128x256 .bf16} {arg7 : Memref sig .tc .vmem S1x256 .f32} {arg8 : Memref sig .tc .vmem S256x128 .bf16} {arg11 arg12 : Memref sig .tc .vmem S8x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {harg10 : arg10.IsWhole} {harg11 : arg11.IsWhole} {harg12 : arg12.IsWhole} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d) ∗ (∃ d, owns c arg11 fullShare d) ∗ (∃ d, owns c arg12 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out4_9 x0 x1 x2 x3 x4 x5 x6 x7 x8) ∗ owns c arg11 fullShare (out4_10 x0 x1 x2 x3 x4 x5 x6 x7 x8) ∗ owns c arg12 fullShare (out4_11 x0 x1 x2 x3 x4 x5 x6 x7 x8)) -∗ K ⟨⟩))
      ⊢ wp frame (wpE (defs₀ (F := F)) Variants.none c none) E (cc4__ffn_kernel i arg1 harg1 arg2 harg2 arg3 harg3 arg4 harg4 arg5 harg5 arg6 harg6 arg7 harg7 arg8 harg8 arg9 harg9 arg10 harg10 arg11 harg11 arg12 harg12) K := by
  simp only [cc4__ffn_kernel_eq_skeleton]; unfold cc4__ffn_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]
  · iexists _; iframe H9; ipureintro
    exact View.read_writes_eq_canon _ _ _ (View.cover_of_tiled _ S5000x128.size (by rfl))
  isplitl [H10]
  · iexists _; iframe H10; ipureintro
    exact View.read_writes_eq_canon _ _ _ (View.cover_of_tiled _ S8x128.size (by rfl))
  iexists _; iframe H11; ipureintro
  exact View.read_writes_eq_canon _ _ _ (View.cover_of_tiled _ S8x128.size (by rfl))

end

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4 (c : Dev nD) (w : Fin cfg4.W) (hw : w ∈ ([0, 1, 2, 3, 4, 5, 6, 7, 8] : List (Fin cfg4.W))) (t : Fin cfg4.N) (d) :
    (dat4 V c).before w t d = (dat4 V c).after w t := by
  simp only [List.mem_cons, List.not_mem_nil, or_false] at hw
  rcases hw with rfl | rfl | rfl | rfl | rfl | rfl | rfl | rfl | rfl <;>
    exact ((dat4 V c).before_in_eq_fetched _ rfl (fun _ => rfl) (fun _ _ _ => rfl) (fun t => by dsimp only [dat4, Dat.blockOf, iblk4]; try rfl) t d).trans
      (by dsimp only [dat4, Dat.fetched, Dat.blockOf, iblk4]; try rfl)

theorem sound_body4 (c : Dev nD) (t : Fin cfg4.N) :
    iprop((dat4 V c).Φ t.castSucc ∗ (dat4 V c).owesAt () t.castSucc
      ∗ bigSep Finset.univ fun w : Fin cfg4.W => iprop(∃ d, owns c ((cfg4.win w).stage (cfg4.slots t w)) fullShare ((dat4 V c).before w t d)))
    ⊢ wp frame (wpE (defs₀ (F := F)) Variants.none c none) Set.univ (bodyAt4 t) fun _ =>
      iprop((dat4 V c).Φ t.castSucc ∗ (dat4 V c).owesAt () t.castSucc
        ∗ bigSep Finset.univ fun w : Fin cfg4.W => owns c ((cfg4.win w).stage (cfg4.slots t w)) fullShare ((dat4 V c).after w t)) := by
  rw [bigSep_W4, bigSep_W4]
  unfold bodyAt4
  simp (disch := decide) only [before4]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 (iblk4 V c 0 t) (iblk4 V c 1 t) (iblk4 V c 2 t) (iblk4 V c 3 t) (iblk4 V c 4 t) (iblk4 V c 5 t) (iblk4 V c 6 t) (iblk4 V c 7 t) (iblk4 V c 8 t))
  iframe H0 H1 H2 H3 H4 H5 H6 H7 H8
  isplitl [H9]; · iexists _; iexact H9
  isplitl [H10]; · iexists _; iexact H10
  isplitl [H11]; · iexists _; iexact H11
  iintro ⟨H0, H1, H2, H3, H4, H5, H6, H7, H8, H9, H10, H11⟩
  iframe

theorem body_obligation4 (c : Dev nD) : BodyObligation (dat4 (F := F) V c) (defs₀ (F := F)) Variants.none () Set.univ :=
  fun t => sound_body4 V c t

end Cert.Kernel.Hand
-- ==== Proof.Kernel.Fold.lean ====
import proofs.«121852_j34351148433892_2_alg».proof.Proof.Kernel.Region0
import proofs.«121852_j34351148433892_2_alg».proof.Proof.Kernel.Region1
import proofs.«121852_j34351148433892_2_alg».proof.Proof.Kernel.Region2
import proofs.«121852_j34351148433892_2_alg».proof.Proof.Kernel.Region3
import proofs.«121852_j34351148433892_2_alg».proof.Proof.Kernel.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.ShloMosaic.Pipeline (Dat Cfg)

variable {F : FTy → Type} [FloatOps F]

/-- An operation whose one written buffer is a listed reference writes inside the list. -/
theorem writes_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem main_part0_ops0_fresh : (main_part0_ops0 : List (HloOp τ sig (Elt F))).Forall fun op => op.fresh = ∅ := by
  simp only [List.Forall]; repeat' constructor
abbrev main_part0_ops0_W : List (Ref sig .tc) := [main_cst, main_cst_0, main_v0, main_v1, main_v2, main_v3, main_v4, main_v5, main_v6, main_v7, main_v8, main_v9, main_v10, main_v11, main_v12, main_v13, main_v14]
theorem main_part0_ops0_writes : (main_part0_ops0 : List (HloOp τ sig (Elt F))).Forall fun op => op.writes ⊆ (main_part0_ops0_W.map (Proc.devRef (τ := τ) .tc)).toFinset := by
  simp only [List.Forall]; and_intros <;> exact writes_sub (by decide)

theorem main_part0_ops1_fresh : (main_part0_ops1 : List (HloOp τ sig (Elt F))).Forall fun op => op.fresh = ∅ := by
  simp only [List.Forall]; repeat' constructor
abbrev main_part0_ops1_W : List (Ref sig .tc) := [main_v16, main_v17, main_c, main_v18, main_v19, main_c_1, main_v20, main_v21, main_v22, main_v23, main_v24, main_c_2, main_v25, main_v26, main_c_3, main_v27, main_v28, main_v29, main_v30, main_v31, main_v32]
theorem main_part0_ops1_writes : (main_part0_ops1 : List (HloOp τ sig (Elt F))).Forall fun op => op.writes ⊆ (main_part0_ops1_W.map (Proc.devRef (τ := τ) .tc)).toFinset := by
  simp only [List.Forall]; and_intros <;> exact writes_sub (by decide)

theorem main_part0_ops2_fresh : (main_part0_ops2 : List (HloOp τ sig (Elt F))).Forall fun op => op.fresh = ∅ := by
  simp only [List.Forall]; repeat' constructor
abbrev main_part0_ops2_W : List (Ref sig .tc) := [main_cst_4, main_v34, main_v35, main_v36, main_cst_5, main_v37, main_v38, main_v39, main_v40, main_v41, main_cst_6, main_v42, main_v43, main_v44]
theorem main_part0_ops2_writes : (main_part0_ops2 : List (HloOp τ sig (Elt F))).Forall fun op => op.writes ⊆ (main_part0_ops2_W.map (Proc.devRef (τ := τ) .tc)).toFinset := by
  simp only [List.Forall]; and_intros <;> exact writes_sub (by decide)

theorem main_part0_ops3_fresh : (main_part0_ops3 : List (HloOp τ sig (Elt F))).Forall fun op => op.fresh = ∅ := by
  simp only [List.Forall]; repeat' constructor
abbrev main_part0_ops3_W : List (Ref sig .tc) := [main_v46, main_v47, main_v48, main_cst_7, main_v49]
theorem main_part0_ops3_writes : (main_part0_ops3 : List (HloOp τ sig (Elt F))).Forall fun op => op.writes ⊆ (main_part0_ops3_W.map (Proc.devRef (τ := τ) .tc)).toFinset := by
  simp only [List.Forall]; and_intros <;> exact writes_sub (by decide)

theorem main_part1_ops0_fresh : (main_part1_ops0 : List (HloOp τ sig (Elt F))).Forall fun op => op.fresh = ∅ := by
  simp only [List.Forall]; repeat' constructor
abbrev main_part1_ops0_W : List (Ref sig .tc) := [main_v50, main_v51, main_v52, main_cst_8, main_v53, main_cst_9, main_v54, main_v55, main_cst_10, main_v56, main_v57, main_v58, main_v59, main_v60, main_v61, main_v62, main_cst_11, main_v63, main_v64, main_v65, main_v66, main_cst_12, main_v67, main_cst_13, main_v68, main_v69, main_cst_14, main_v70, main_v71, main_v72, main_v73, main_v74, main_v75, main_v76, main_v77, main_v78, main_v79, main_v80, main_v81]
theorem main_part1_ops0_writes : (main_part1_ops0 : List (HloOp τ sig (Elt F))).Forall fun op => op.writes ⊆ (main_part1_ops0_W.map (Proc.devRef (τ := τ) .tc)).toFinset := by
  simp only [List.Forall]; and_intros <;> exact writes_sub (by decide)

theorem main_part1_ops1_fresh : (main_part1_ops1 : List (HloOp τ sig (Elt F))).Forall fun op => op.fresh = ∅ := by
  simp only [List.Forall]; repeat' constructor
abbrev main_part1_ops1_W : List (Ref sig .tc) := [main_v84, main_v85, main_v86, main_cst_15, main_v87, main_v88, main_v89, main_v90, main_cst_16, main_v91, main_cst_17, main_v92, main_v93, main_cst_18, main_v94, main_v95, main_v96, main_v97, main_v98]
theorem main_part1_ops1_writes : (main_part1_ops1 : List (HloOp τ sig (Elt F))).Forall fun op => op.writes ⊆ (main_part1_ops1_W.map (Proc.devRef (τ := τ) .tc)).toFinset := by
  simp only [List.Forall]; and_intros <;> exact writes_sub (by decide)

theorem main_part2_ops0_fresh : (main_part2_ops0 : List (HloOp τ sig (Elt F))).Forall fun op => op.fresh = ∅ := by
  simp only [List.Forall]; repeat' constructor
abbrev main_part2_ops0_W : List (Ref sig .tc) := [main_v99, main_v100, main_cst_19, main_v101, main_v102, main_v103, main_v104, main_cst_20, main_v105, main_cst_21, main_v106, main_v107, main_cst_22, main_v108, main_v109, main_v110, main_v111, main_v112, main_v113, main_v114, main_cst_23, main_v115, main_v116, main_v117, main_v118, main_v119, main_v120, main_v121, main_v122, main_v123, main_v124, main_v125, main_v126, main_v127, main_v128, main_v129, main_cst_24, main_v130, main_v131, main_v132, main_v133, main_v134, main_v135, main_v136, main_v137, main_v138, main_v139, main_v140, main_v141]
theorem main_part2_ops0_writes : (main_part2_ops0 : List (HloOp τ sig (Elt F))).Forall fun op => op.writes ⊆ (main_part2_ops0_W.map (Proc.devRef (τ := τ) .tc)).toFinset := by
  simp only [List.Forall]; and_intros <;> exact writes_sub (by decide)

variable (m : (ℓ : Loc nD τ sig) → Buf (Elt F) ℓ) (ρ : Dev nD → PrngReg)

/-- Away from a region's arrays its exit contents are its entry contents. -/
theorem withArrays_rest {gr W : ℕ} (win : Fin W → Pipeline.WinSpec sig gr) (c : Dev nD) (V : Valuation τ sig (Elt F)) (A) :
    ∀ b, b ∉ Finset.univ.image (Pipeline.arrRef win) → Pipeline.withArrays win c V A (Proc.devRef .tc b) = V (Proc.devRef .tc b) :=
  fun b hb => Pipeline.withArrays_of_ne win c V A b fun w e => hb (Finset.mem_image.mpr ⟨w, Finset.mem_univ _, e⟩)

/-- Only a region's output arrays change: an input array's exit contents are its entry contents, and a buffer that is no array is not replaced. -/
theorem withArrays_keep {cfg : Cfg sig Λ₀} (hinj : Function.Injective (Pipeline.arrRef cfg.spec)) {c : Dev nD}
    (V : Valuation τ sig (Elt F)) (dat : Dat τ (Elt F) Unit ℕ (UR sig nD τ) ℕ cfg c)
    (hA : ∀ w, dat.A w = V (Proc.devRef .tc (Pipeline.arrRef cfg.spec w)))
    (outs : List (Ref sig .tc)) (hout : ∀ w, Pipeline.arrRef cfg.spec w ∉ outs → (cfg.win w).isOut = false)
    (b : Ref sig .tc) (hb : b ∉ outs) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr _ hinj, dat.arrAt_in w (hout w hb), hA]
  · exact Pipeline.withArrays_of_ne _ c _ _ b fun w e => h ⟨w, e⟩

abbrev Wl : Dev nD → Valuation τ sig (Elt F) := fun c b => (s₀ m ρ).mem ((c : Dev nD), b)

abbrev Win0 : Dev nD → Valuation τ sig (Elt F) := fun c => StableHlo.after main_part0_ops0 (Wl m ρ c)
abbrev Vin0 : (c : Dev nD) → (b : Ref sig .tc) → Buf (Elt F) ((c : Thread nD τ).loc b) := fun c b => Win0 m ρ c b
def Wout0 (c : Dev nD) : Valuation τ sig (Elt F) :=
  Pipeline.withArrays spec0 c (Win0 m ρ c) fun w => (dat0 (Vin0 m ρ) c).arrAt w cfg0.N
theorem Wout0_arr (c : Dev nD) (w : Fin cfg0.W) :
    Wout0 m ρ c (Proc.devRef .tc (Pipeline.arrRef spec0 w)) = (dat0 (Vin0 m ρ) c).arrAt w cfg0.N :=
  Pipeline.withArrays_arr spec0 launch0.win.arr_inj c _ _ w
abbrev Vout0 : (c : Dev nD) → (b : Ref sig .tc) → Buf (Elt F) ((c : Thread nD τ).loc b) := fun c b => Wout0 m ρ c b
theorem hF0 (c : Dev nD) (w : Fin cfg0.W) : (dat0 (Vin0 m ρ) c).arrAt w cfg0.N = Vout0 m ρ c (Pipeline.arrRef spec0 w) :=
  (Wout0_arr m ρ c w).symm
theorem hrest0 (c : Dev nD) : ∀ b, b ∉ Finset.univ.image (Pipeline.arrRef spec0) → Vout0 m ρ c b = Vin0 m ρ c b :=
  withArrays_rest spec0 c _ _
theorem Wout0_keep (c : Dev nD) (b : Ref sig .tc) (hb : b ∉ ([main_v15] : List (Ref sig .tc))) :
    Wout0 m ρ c (Proc.devRef .tc b) = Win0 m ρ c (Proc.devRef .tc b) :=
  withArrays_keep launch0.win.arr_inj _ _ (A_eq0 _ c) _ (by decide) b hb

abbrev Win1 : Dev nD → Valuation τ sig (Elt F) := fun c => StableHlo.after main_part0_ops1 (Wout0 m ρ c)
abbrev Vin1 : (c : Dev nD) → (b : Ref sig .tc) → Buf (Elt F) ((c : Thread nD τ).loc b) := fun c b => Win1 m ρ c b
def Wout1 (c : Dev nD) : Valuation τ sig (Elt F) :=
  Pipeline.withArrays spec1 c (Win1 m ρ c) fun w => (dat1 (Vin1 m ρ) c).arrAt w cfg1.N
theorem Wout1_arr (c : Dev nD) (w : Fin cfg1.W) :
    Wout1 m ρ c (Proc.devRef .tc (Pipeline.arrRef spec1 w)) = (dat1 (Vin1 m ρ) c).arrAt w cfg1.N :=
  Pipeline.withArrays_arr spec1 launch1.win.arr_inj c _ _ w
abbrev Vout1 : (c : Dev nD) → (b : Ref sig .tc) → Buf (Elt F) ((c : Thread nD τ).loc b) := fun c b => Wout1 m ρ c b
theorem hF1 (c : Dev nD) (w : Fin cfg1.W) : (dat1 (Vin1 m ρ) c).arrAt w cfg1.N = Vout1 m ρ c (Pipeline.arrRef spec1 w) :=
  (Wout1_arr m ρ c w).symm
theorem hrest1 (c : Dev nD) : ∀ b, b ∉ Finset.univ.image (Pipeline.arrRef spec1) → Vout1 m ρ c b = Vin1 m ρ c b :=
  withArrays_rest spec1 c _ _
theorem Wout1_keep (c : Dev nD) (b : Ref sig .tc) (hb : b ∉ ([main_v33_0, main_v33_1, main_v33_2, main_v33_3, main_v33_4] : List (Ref sig .tc))) :
    Wout1 m ρ c (Proc.devRef .tc b) = Win1 m ρ c (Proc.devRef .tc b) :=
  withArrays_keep launch1.win.arr_inj _ _ (A_eq1 _ c) _ (by decide) b hb

abbrev Win2 : Dev nD → Valuation τ sig (Elt F) := fun c => StableHlo.after main_part0_ops2 (Wout1 m ρ c)
abbrev Vin2 : (c : Dev nD) → (b : Ref sig .tc) → Buf (Elt F) ((c : Thread nD τ).loc b) := fun c b => Win2 m ρ c b
def Wout2 (c : Dev nD) : Valuation τ sig (Elt F) :=
  Pipeline.withArrays spec2 c (Win2 m ρ c) fun w => (dat2 (Vin2 m ρ) c).arrAt w cfg2.N
theorem Wout2_arr (c : Dev nD) (w : Fin cfg2.W) :
    Wout2 m ρ c (Proc.devRef .tc (Pipeline.arrRef spec2 w)) = (dat2 (Vin2 m ρ) c).arrAt w cfg2.N :=
  Pipeline.withArrays_arr spec2 launch2.win.arr_inj c _ _ w
abbrev Vout2 : (c : Dev nD) → (b : Ref sig .tc) → Buf (Elt F) ((c : Thread nD τ).loc b) := fun c b => Wout2 m ρ c b
theorem hF2 (c : Dev nD) (w : Fin cfg2.W) : (dat2 (Vin2 m ρ) c).arrAt w cfg2.N = Vout2 m ρ c (Pipeline.arrRef spec2 w) :=
  (Wout2_arr m ρ c w).symm
theorem hrest2 (c : Dev nD) : ∀ b, b ∉ Finset.univ.image (Pipeline.arrRef spec2) → Vout2 m ρ c b = Vin2 m ρ c b :=
  withArrays_rest spec2 c _ _
theorem Wout2_keep (c : Dev nD) (b : Ref sig .tc) (hb : b ∉ ([main_v45_0, main_v45_1, main_v45_2] : List (Ref sig .tc))) :
    Wout2 m ρ c (Proc.devRef .tc b) = Win2 m ρ c (Proc.devRef .tc b) :=
  withArrays_keep launch2.win.arr_inj _ _ (A_eq2 _ c) _ (by decide) b hb

abbrev Wm : Dev nD → Valuation τ sig (Elt F) := fun c => StableHlo.after main_part0_ops3 (Wout2 m ρ c)

abbrev Win3 : Dev nD → Valuation τ sig (Elt F) := fun c => StableHlo.after main_part1_ops0 (Wm m ρ c)
abbrev Vin3 : (c : Dev nD) → (b : Ref sig .tc) → Buf (Elt F) ((c : Thread nD τ).loc b) := fun c b => Win3 m ρ c b
def Wout3 (c : Dev nD) : Valuation τ sig (Elt F) :=
  Pipeline.withArrays spec3 c (Win3 m ρ c) fun w => (dat3 (Vin3 m ρ) c).arrAt w cfg3.N
theorem Wout3_arr (c : Dev nD) (w : Fin cfg3.W) :
    Wout3 m ρ c (Proc.devRef .tc (Pipeline.arrRef spec3 w)) = (dat3 (Vin3 m ρ) c).arrAt w cfg3.N :=
  Pipeline.withArrays_arr spec3 launch3.win.arr_inj c _ _ w
abbrev Vout3 : (c : Dev nD) → (b : Ref sig .tc) → Buf (Elt F) ((c : Thread nD τ).loc b) := fun c b => Wout3 m ρ c b
theorem hF3 (c : Dev nD) (w : Fin cfg3.W) : (dat3 (Vin3 m ρ) c).arrAt w cfg3.N = Vout3 m ρ c (Pipeline.arrRef spec3 w) :=
  (Wout3_arr m ρ c w).symm
theorem hrest3 (c : Dev nD) : ∀ b, b ∉ Finset.univ.image (Pipeline.arrRef spec3) → Vout3 m ρ c b = Vin3 m ρ c b :=
  withArrays_rest spec3 c _ _
theorem Wout3_keep (c : Dev nD) (b : Ref sig .tc) (hb : b ∉ ([main_v82_0, main_v82_1, main_v82_2] : List (Ref sig .tc))) :
    Wout3 m ρ c (Proc.devRef .tc b) = Win3 m ρ c (Proc.devRef .tc b) :=
  withArrays_keep launch3.win.arr_inj _ _ (A_eq3 _ c) _ (by decide) b hb

abbrev Win4 : Dev nD → Valuation τ sig (Elt F) := fun c => Wout3 m ρ c
abbrev Vin4 : (c : Dev nD) → (b : Ref sig .tc) → Buf (Elt F) ((c : Thread nD τ).loc b) := fun c b => Win4 m ρ c b
def Wout4 (c : Dev nD) : Valuation τ sig (Elt F) :=
  Pipeline.withArrays spec4 c (Win4 m ρ c) fun w => (dat4 (Vin4 m ρ) c).arrAt w cfg4.N
theorem Wout4_arr (c : Dev nD) (w : Fin cfg4.W) :
    Wout4 m ρ c (Proc.devRef .tc (Pipeline.arrRef spec4 w)) = (dat4 (Vin4 m ρ) c).arrAt w cfg4.N :=
  Pipeline.withArrays_arr spec4 launch4.win.arr_inj c _ _ w
abbrev Vout4 : (c : Dev nD) → (b : Ref sig .tc) → Buf (Elt F) ((c : Thread nD τ).loc b) := fun c b => Wout4 m ρ c b
theorem hF4 (c : Dev nD) (w : Fin cfg4.W) : (dat4 (Vin4 m ρ) c).arrAt w cfg4.N = Vout4 m ρ c (Pipeline.arrRef spec4 w) :=
  (Wout4_arr m ρ c w).symm
theorem hrest4 (c : Dev nD) : ∀ b, b ∉ Finset.univ.image (Pipeline.arrRef spec4) → Vout4 m ρ c b = Vin4 m ρ c b :=
  withArrays_rest spec4 c _ _
theorem Wout4_keep (c : Dev nD) (b : Ref sig .tc) (hb : b ∉ ([main_v83_0, main_v83_1, main_v83_2] : List (Ref sig .tc))) :
    Wout4 m ρ c (Proc.devRef .tc b) = Win4 m ρ c (Proc.devRef .tc b) :=
  withArrays_keep launch4.win.arr_inj _ _ (A_eq4 _ c) _ (by decide) b hb

abbrev Wn : Dev nD → Valuation τ sig (Elt F) := fun c => StableHlo.after main_part1_ops1 (Wout4 m ρ c)
abbrev Wend : Dev nD → Valuation τ sig (Elt F) := fun c => StableHlo.after main_part2_ops0 (Wn m ρ c)

abbrev changed : List (Ref sig .tc) :=
  main_part0_ops0_W ++ main_part0_ops1_W ++ main_part0_ops2_W ++ main_part0_ops3_W ++ main_part1_ops0_W ++ main_part1_ops1_W ++ main_part2_ops0_W
    ++ [main_v15, main_v33_0, main_v33_1, main_v33_2, main_v33_3, main_v33_4, main_v45_0, main_v45_1, main_v45_2, main_v82_0, main_v82_1, main_v82_2, main_v83_0, main_v83_1, main_v83_2]

/-- Nothing between the regions and no region changes a buffer outside `changed`, so there the fold returns the launch contents. -/
theorem Wend_keep (c : Dev nD) (b : Ref sig .tc) (hb : b ∉ (changed : List (Ref sig .tc))) :
    Wend m ρ c (Proc.devRef .tc b) = m ((c : Thread nD τ).loc b) := by
  have h : ∀ l : List (Ref sig .tc), (∀ x ∈ l, x ∈ (changed : List (Ref sig .tc))) → b ∉ l := fun l hl hbl => hb (hl b hbl)
  exact (StableHlo.after_of_writes_sub _ _ main_part2_ops0_writes (h _ (by decide))).trans <|
    (StableHlo.after_of_writes_sub _ _ main_part1_ops1_writes (h _ (by decide))).trans <|
    (Wout4_keep m ρ c b (h _ (by decide))).trans <|
    (Wout3_keep m ρ c b (h _ (by decide))).trans <|
    (StableHlo.after_of_writes_sub _ _ main_part1_ops0_writes (h _ (by decide))).trans <|
    (StableHlo.after_of_writes_sub _ _ main_part0_ops3_writes (h _ (by decide))).trans <|
    (Wout2_keep m ρ c b (h _ (by decide))).trans <|
    (StableHlo.after_of_writes_sub _ _ main_part0_ops2_writes (h _ (by decide))).trans <|
    (Wout1_keep m ρ c b (h _ (by decide))).trans <|
    (StableHlo.after_of_writes_sub _ _ main_part0_ops1_writes (h _ (by decide))).trans <|
    (Wout0_keep m ρ c b (h _ (by decide))).trans <|
    StableHlo.after_of_writes_sub _ _ main_part0_ops0_writes (h _ (by decide))

end Cert.Kernel.Hand

end
-- ==== Proof.Kernel.Data.lean ====
import proofs.«121852_j34351148433892_2_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Kernel.Regs.lean ====
import proofs.«121852_j34351148433892_2_alg».proof.Proof.Kernel.Data

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

abbrev tcV (W : Dev nD → Valuation τ sig (Elt F)) (c : Dev nD) (b : Ref sig .tc) : Buf (Elt F) ((c : Thread nD τ).loc b) := W c b

def regOf {p : Fin 5} (kit : Pipeline.LaunchFacts (nD := nD) (τ := τ) cfgs p) (Wi Wo : Dev nD → Valuation τ sig (Elt F))
    (hb : ∀ c, BodyObligation (pdats m ρ p c) (defs₀ (F := F)) 𝒱₀ () Set.univ)
    (hF : ∀ c w, (pdats m ρ p c).arrAt w (cfgs p).N = tcV Wo c (Pipeline.arrRef (cfgs p).spec w))
    (hrest : ∀ c b, b ∉ Finset.univ.image (Pipeline.arrRef (cfgs p).spec) → tcV Wo c b = tcV Wi c b)
    (hq : ∀ c w, (pdats m ρ p c).q w = fullShare := by exact fun _ _ => rfl)
    (hA : ∀ c w, (pdats m ρ p c).A w = tcV Wi c (Pipeline.arrRef (cfgs p).spec w) := by exact fun _ _ => rfl)
    (hΦ : ∀ c t, (pdats m ρ p c).Φ t = Pipeline.ΦA (cfgs p).spec c := by exact fun _ _ => rfl)
    (h0 : ∀ c t, (pdats m ρ p c).owed t = 0 := by exact fun _ _ => rfl)
    (hr : ∀ c, (pdats m ρ p c).recorded 0 = Set.univ := by exact fun _ => rfl) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c (tcV Wi c)
  hentry c := by
    rw [Pipeline.ownSems0_none]
    have hsplit := Pipeline.arrays_of_unscopedBufs (p := p) (pcfgs (F := F)) adm (pdats m ρ) kit.win kit.arr_whole c
      ((pdats m ρ p c).share_full (hq c)) (tcV Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    rw [hΦ]; unfold Pipeline.ΦA
    iintro ⟨Hp, -, Hr⟩
    isplitl [Hr] <;> iassumption
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (tcV Wi c) (tcV Wo c) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 := regOf m ρ launch0 (Win0 m ρ) (Wout0 m ρ) (body_obligation0 (Vin0 m ρ)) (hF0 m ρ) (hrest0 m ρ)
def reg1 := regOf m ρ launch1 (Win1 m ρ) (Wout1 m ρ) (body_obligation1 (Vin1 m ρ)) (hF1 m ρ) (hrest1 m ρ)
def reg2 := regOf m ρ launch2 (Win2 m ρ) (Wout2 m ρ) (body_obligation2 (Vin2 m ρ)) (hF2 m ρ) (hrest2 m ρ)
def reg3 := regOf m ρ launch3 (Win3 m ρ) (Wout3 m ρ) (body_obligation3 (Vin3 m ρ)) (hF3 m ρ) (hrest3 m ρ)
def reg4 := regOf m ρ launch4 (Win4 m ρ) (Wout4 m ρ) (body_obligation4 (Vin4 m ρ)) (hF4 m ρ) (hrest4 m ρ)

end Cert.Kernel.Hand

end
-- ==== Proof.Kernel.RunAll.lean ====
import proofs.«121852_j34351148433892_2_alg».proof.Proof.Kernel.Regs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg main_part0_ops0 main_part0_ops0_sub main_part0_ops0_fresh (Wl m ρ)),
    .region (reg0 m ρ),
    .host (hseg main_part0_ops1 main_part0_ops1_sub main_part0_ops1_fresh (Wout0 m ρ)),
    .region (reg1 m ρ),
    .host (hseg main_part0_ops2 main_part0_ops2_sub main_part0_ops2_fresh (Wout1 m ρ)),
    .region (reg2 m ρ),
    .host (hseg main_part0_ops3 main_part0_ops3_sub main_part0_ops3_fresh (Wout2 m ρ)),
    .host (hseg main_part1_ops0 main_part1_ops0_sub main_part1_ops0_fresh (Wm m ρ)),
    .region (reg3 m ρ),
    .region (reg4 m ρ),
    .host (hseg main_part1_ops1 main_part1_ops1_sub main_part1_ops1_fresh (Wout4 m ρ)),
    .host (hseg main_part2_ops0 main_part2_ops0_sub main_part2_ops0_fresh (Wn m ρ)) ]

theorem main_run (c : Dev nD) : main (F := F) c = Pipeline.Seg.run (segs m ρ) := (main_chain_windows c).trans (by chain_rfl)

abbrev Tₙ (c : Dev nD) : sProp 𝕄 := iprop(StableHlo.held (c : Thread nD τ) (Pipeline.ucRefs τ sig) (Wend m ρ c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := by
      repeat refine ⟨fun _ => .rfl, ?_⟩
      exact fun c => sep_assoc.2)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

end Cert.Kernel.Hand

end
-- ==== Proof.KernelIdeal.Region0.lean ====
import proofs.«121852_j34351148433892_2_alg».proof.Proof.Gen.KernelIdeal.Launch
import proofs.«121852_j34351148433892_2_alg».proof.Proof.Gen.KernelIdeal.Skeleton
import proofs.«121852_j34351148433892_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

def out0_2 (x0 : Vec F S5000x128 .f32) (x1 : Vec F S128x384 .bf16) : Vec F S5000x384 .f32 :=
  View.canon [⟨r0_2, k0_pay1 (View.ld x0 r0_0) (View.ld x1 r0_1)⟩]

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x384 .bf16) (harg2 : arg2.IsWhole) (arg3 : Memref sig .tc .vmem S5000x384 .f32) (harg3 : arg3.IsWhole)
    (x0 : Vec F S5000x128 .f32) (x1 : Vec F S128x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists _; iframe H0; ipureintro; rfl
  isplitl [H1]; · iexists _; iframe H1; ipureintro; rfl
  iexists _; iframe H2; ipureintro
  exact View.read_writes_eq_canon _ _ _ (View.cover_of_tiled _ (Shape.size _) (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, after0_2]
  show _ ⊢ wp _ _ _ (bodyAt0 t) _
  rw [show (dat0 V c).Φ t.succ = (dat0 V c).Φ t.castSucc from rfl]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ
  isplitl [Ho]; · iexact Ho
  isplitl [H0]; · iexact H0
  isplitl [H1]; · iexact H1
  iexact H2

end Cert.KernelIdeal.Hand

end
-- ==== Proof.KernelIdeal.Region1.lean ====
import proofs.«121852_j34351148433892_2_alg».proof.Proof.Gen.KernelIdeal.Launch
import proofs.«121852_j34351148433892_2_alg».proof.Proof.Gen.KernelIdeal.Skeleton
import proofs.«121852_j34351148433892_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S2000x256 := Rect.unit (s := S2000x256) ![0, 0] S2000x128.size inb_S2000x256_S2000x128_0_0
abbrev r1_3 : Rect S2000x256 := Rect.unit (s := S2000x256) ![0, 128] S2000x128.size inb_S2000x256_S2000x128_0_128
abbrev r1_4 : Rect S128x8 := Rect.unit (s := S128x8) ![0, 0] S128x8.size inb_S128x8_S128x8_0_0
abbrev r1_5 : Rect S8x128 := Rect.unit (s := S8x128) ![0, 0] S8x128.size inb_S8x128_S8x128_0_0
abbrev r1_6 : Rect S2000x1 := Rect.unit (s := S2000x1) ![0, 0] S2000x1.size inb_S2000x1_S2000x1_0_0
abbrev r1_7 : Rect S1x128 := Rect.unit (s := S1x128) ![0, 0] S1x128.size inb_S1x128_S1x128_0_0
abbrev r1_8 : Rect S2000x8 := Rect.unit (s := S2000x8) ![0, 0] S2000x8.size inb_S2000x8_S2000x8_0_0

def out1_9 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S2000x128 .f32 :=
  View.canon [⟨r1_0, k1_pay1 (k1_pay7 (View.ld x0 r1_0) (View.ld x4 r1_1) (View.ld x1 r1_2) (View.ld x2 r1_0) (View.ld x5 r1_1)) (View.ld x6 r1_7)⟩]

def out1_10 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S2000x8 .f32 :=
  View.canon [⟨r1_8, k1_pay5 (View.ld x0 r1_0) (View.ld x4 r1_1) (View.ld x1 r1_2) (View.ld x2 r1_0) (View.ld x7 r1_4)⟩]

def out1_11 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S2000x128 .f32 :=
  View.canon [⟨r1_0, k1_pay6 (View.ld x0 r1_0) (View.ld x4 r1_1) (View.ld x1 r1_2) (View.ld x1 r1_3) (View.ld x2 r1_0) (View.ld x7 r1_4) (View.ld x8 r1_5) (View.ld x3 r1_6)⟩]

def out1_12 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S8x128 .f32 :=
  View.canon [⟨r1_5, k1_pay2 (k1_pay7 (View.ld x0 r1_0) (View.ld x4 r1_1) (View.ld x1 r1_2) (View.ld x2 r1_0) (View.ld x5 r1_1)) (View.ld x6 r1_7)⟩]

def out1_13 (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) : Vec F S8x128 .f32 :=
  View.canon [⟨r1_5, k1_pay3 (k1_pay7 (View.ld x0 r1_0) (View.ld x4 r1_1) (View.ld x1 r1_2) (View.ld x2 r1_0) (View.ld x5 r1_1)) (View.ld x6 r1_7)⟩]

set_option maxHeartbeats 4000000 in
theorem sound_kernel1 (c : Dev nD) (E : Set ℕ) (i : grid1.Coords) (arg1 : Memref sig .tc .vmem S2000x128 .f32) (harg1 : arg1.IsWhole) (arg2 : Memref sig .tc .vmem S2000x256 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x8 .f32) (harg8 : arg8.IsWhole) (arg9 : Memref sig .tc .vmem S8x128 .f32) (harg9 : arg9.IsWhole) (arg10 : Memref sig .tc .vmem S2000x128 .f32) (harg10 : arg10.IsWhole) (arg11 : Memref sig .tc .vmem S2000x8 .f32) (harg11 : arg11.IsWhole) (arg12 : Memref sig .tc .vmem S2000x128 .f32) (harg12 : arg12.IsWhole) (arg13 : Memref sig .tc .vmem S8x128 .f32) (harg13 : arg13.IsWhole) (arg14 : Memref sig .tc .vmem S8x128 .f32) (harg14 : arg14.IsWhole)
    (x0 : Vec F S2000x128 .f32) (x1 : Vec F S2000x256 .f32) (x2 : Vec F S2000x128 .f32) (x3 : Vec F S2000x1 .f32) (x4 x5 : Vec F S128x128 .bf16) (x6 : Vec F S1x128 .f32) (x7 : Vec F S128x8 .f32) (x8 : Vec F S8x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d) ∗ (∃ d, owns c arg11 fullShare d) ∗ (∃ d, owns c arg12 fullShare d) ∗ (∃ d, owns c arg13 fullShare d) ∗ (∃ d, owns c arg14 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out1_9 x0 x1 x2 x3 x4 x5 x6 x7 x8) ∗ owns c arg11 fullShare (out1_10 x0 x1 x2 x3 x4 x5 x6 x7 x8) ∗ owns c arg12 fullShare (out1_11 x0 x1 x2 x3 x4 x5 x6 x7 x8) ∗ owns c arg13 fullShare (out1_12 x0 x1 x2 x3 x4 x5 x6 x7 x8) ∗ owns c arg14 fullShare (out1_13 x0 x1 x2 x3 x4 x5 x6 x7 x8)) -∗ K ⟨⟩))
      ⊢ wp frame (wpE (defs₀ (F := F)) Variants.none c none) E (cc1__e_branch_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__e_branch_kernel_eq_skeleton]; unfold cc1__e_branch_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro; exact View.read_writes_eq_canon _ _ _ (View.cover_of_tiled _ (Shape.size _) (by rfl))
  isplitl [H10]
  · iexists _; isplitr; swap; · iexact H10
    ipureintro; exact View.read_writes_eq_canon _ _ _ (View.cover_of_tiled _ (Shape.size _) (by rfl))
  isplitl [H11]
  · iexists _; isplitr; swap; · iexact H11
    ipureintro; exact View.read_writes_eq_canon _ _ _ (View.cover_of_tiled _ (Shape.size _) (by rfl))
  isplitl [H12]
  · iexists _; isplitr; swap; · iexact H12
    ipureintro; exact View.read_writes_eq_canon _ _ _ (View.cover_of_tiled _ (Shape.size _) (by rfl))
  iexists _; isplitr; swap; · iexact H13
  ipureintro; exact View.read_writes_eq_canon _ _ _ (View.cover_of_tiled _ (Shape.size _) (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := rfl

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl

set_option maxHeartbeats 1000000 in
theorem body_obligation1 (c : Dev nD) : BodyObligation (dat1 (F := F) V c) (defs₀ (F := F)) Variants.none () Set.univ := fun t => by
  rw [bigSep_W1, bigSep_W1]
  show _ ⊢ wp frame _ _ (bodyAt1 t) _
  simp only [before1_0 V, before1_1 V, before1_2 V, before1_3 V, before1_4 V, before1_5 V, before1_6 V, before1_7 V, before1_8 V]
  rw [show (dat1 V c).Φ t.succ = (dat1 V c).Φ t.castSucc from rfl,
    show (dat1 V c).owesAt () t.succ = (dat1 V c).owesAt () t.castSucc from rfl,
    after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply sound_kernel1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro H
  isplitl [HΦ]; · iexact HΦ
  isplitl [Ho]; · iexact Ho
  iexact H

end Region1

end Cert.KernelIdeal.Hand

end
-- ==== Proof.KernelIdeal.Region2.lean ====
import proofs.«121852_j34351148433892_2_alg».proof.Proof.Gen.KernelIdeal.Launch
import proofs.«121852_j34351148433892_2_alg».proof.Proof.Gen.KernelIdeal.Skeleton
import proofs.«121852_j34351148433892_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S8x128 := Rect.unit (s := S8x128) ![0, 0] S8x128.size inb_S8x128_S8x128_0_0

def out2_4 (x0 : Vec F S5000x128 .f32) (x1 : Vec F S5000x128 .f32) (x2 : Vec F S128x128 .bf16) (x3 : Vec F S1x128 .f32) : Vec F S5000x128 .f32 :=
  View.canon [⟨r2_0, k2_pay1 (View.ld x1 r2_0) (View.ld x2 r2_1) (View.ld x0 r2_0) (View.ld x3 r2_2)⟩]

def out2_5 (x0 : Vec F S5000x128 .f32) (x1 : Vec F S5000x128 .f32) (x2 : Vec F S128x128 .bf16) (x3 : Vec F S1x128 .f32) : Vec F S8x128 .f32 :=
  View.canon [⟨r2_3, k2_pay2 (View.ld x1 r2_0) (View.ld x2 r2_1) (View.ld x0 r2_0) (View.ld x3 r2_2)⟩]

def out2_6 (x0 : Vec F S5000x128 .f32) (x1 : Vec F S5000x128 .f32) (x2 : Vec F S128x128 .bf16) (x3 : Vec F S1x128 .f32) : Vec F S8x128 .f32 :=
  View.canon [⟨r2_3, k2_pay3 (View.ld x1 r2_0) (View.ld x2 r2_1) (View.ld x0 r2_0) (View.ld x3 r2_2)⟩]

set_option maxHeartbeats 2000000 in
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S5000x128 .f32) (harg5 : arg5.IsWhole) (arg6 : Memref sig .tc .vmem S8x128 .f32) (harg6 : arg6.IsWhole) (arg7 : Memref sig .tc .vmem S8x128 .f32) (harg7 : arg7.IsWhole)
    (x0 : Vec F S5000x128 .f32) (x1 : Vec F S5000x128 .f32) (x2 : Vec F S128x128 .bf16) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3) ∗ owns (c : Thread nD τ) arg7 fullShare (out2_6 x0 x1 x2 x3)) -∗ K ⟨⟩))
      ⊢ wp frame (wpE (defs₀ (F := F)) Variants.none c none) E (cc2__outproj_kernel i arg1 harg1 arg2 harg2 arg3 harg3 arg4 harg4 arg5 harg5 arg6 harg6 arg7 harg7) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]; · iexists _; iframe H0; ipureintro; rfl
  isplitl [H1]; · iexists _; iframe H1; ipureintro; rfl
  isplitl [H2]; · iexists _; iframe H2; ipureintro; rfl
  isplitl [H3]; · iexists _; iframe H3; ipureintro; rfl
  isplitl [H4]; · iexists _; iframe H4; ipureintro; exact View.read_writes_eq_canon _ _ _ (View.cover_of_tiled _ (Shape.size _) (by rfl))
  isplitl [H5]; · iexists _; iframe H5; ipureintro; exact View.read_writes_eq_canon _ _ _ (View.cover_of_tiled _ (Shape.size _) (by rfl))
  iexists _; iframe H6; ipureintro
  exact View.read_writes_eq_canon _ _ _ (View.cover_of_tiled _ (Shape.size _) (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = out2_6 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2, before2_3, after2_4, after2_5, after2_6]
  show _ ⊢ wp _ _ _ (bodyAt2 t) _
  rw [show (dat2 V c).Φ t.succ = (dat2 V c).Φ t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.KernelIdeal.Hand

end
-- ==== Proof.KernelIdeal.Region3.lean ====
import proofs.«121852_j34351148433892_2_alg».proof.Proof.Gen.KernelIdeal.Launch
import proofs.«121852_j34351148433892_2_alg».proof.Proof.Gen.KernelIdeal.Skeleton
import proofs.«121852_j34351148433892_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S128x256 := Rect.unit (s := S128x256) ![0, 0] S128x256.size inb_S128x256_S128x256_0_0
abbrev r3_3 : Rect S1x256 := Rect.unit (s := S1x256) ![0, 0] S1x256.size inb_S1x256_S1x256_0_0
abbrev r3_4 : Rect S256x128 := Rect.unit (s := S256x128) ![0, 0] S256x128.size inb_S256x128_S256x128_0_0
abbrev r3_5 : Rect S8x128 := Rect.unit (s := S8x128) ![0, 0] S8x128.size inb_S8x128_S8x128_0_0

section
variable (x0 : Vec F S5000x128 .f32) (x1 x2 x3 x4 : Vec F S1x128 .f32) (x5 : Vec F S128x256 .bf16) (x6 : Vec F S1x256 .f32)
  (x7 : Vec F S256x128 .bf16) (x8 : Vec F S1x128 .f32)

abbrev norm3 : FVec F S5000x128 .f32 :=
  k3_pay4 (View.ld x0 r3_0) (View.ld x1 r3_1) (View.ld x2 r3_1) (View.ld x3 r3_1) (View.ld x4 r3_1)

abbrev ffn3 : FVec F S5000x128 .f32 :=
  k3_pay5 (View.ld x0 r3_0) (View.ld x1 r3_1) (View.ld x2 r3_1) (View.ld x3 r3_1) (View.ld x4 r3_1) (View.ld x5 r3_2) (View.ld x6 r3_3) (View.ld x7 r3_4)

abbrev bias3 : FVec F S1x128 .f32 := k3_pay6 (View.ld x8 r3_1)

def out3_9 : Vec F S5000x128 .f32 :=
  View.canon [⟨r3_0, k3_pay1 (norm3 x0 x1 x2 x3 x4) (ffn3 x0 x1 x2 x3 x4 x5 x6 x7) (bias3 x8)⟩]

def out3_10 : Vec F S8x128 .f32 :=
  View.canon [⟨r3_5, k3_pay2 (norm3 x0 x1 x2 x3 x4) (ffn3 x0 x1 x2 x3 x4 x5 x6 x7) (bias3 x8)⟩]

def out3_11 : Vec F S8x128 .f32 :=
  View.canon [⟨r3_5, k3_pay3 (norm3 x0 x1 x2 x3 x4) (ffn3 x0 x1 x2 x3 x4 x5 x6 x7) (bias3 x8)⟩]

set_option maxHeartbeats 4000000 in
theorem sound_kernel3 {c : Dev nD} {E : Set ℕ} {i : grid3.Coords} {arg1 arg10 : Memref sig .tc .vmem S5000x128 .f32} {arg2 arg3 arg4 arg5 arg9 : Memref sig .tc .vmem S1x128 .f32}
    {arg6 : Memref sig .tc .vmem S128x256 .bf16} {arg7 : Memref sig .tc .vmem S1x256 .f32} {arg8 : Memref sig .tc .vmem S256x128 .bf16} {arg11 arg12 : Memref sig .tc .vmem S8x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {harg10 : arg10.IsWhole} {harg11 : arg11.IsWhole} {harg12 : arg12.IsWhole} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d) ∗ (∃ d, owns c arg11 fullShare d) ∗ (∃ d, owns c arg12 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out3_9 x0 x1 x2 x3 x4 x5 x6 x7 x8) ∗ owns c arg11 fullShare (out3_10 x0 x1 x2 x3 x4 x5 x6 x7 x8) ∗ owns c arg12 fullShare (out3_11 x0 x1 x2 x3 x4 x5 x6 x7 x8)) -∗ K ⟨⟩))
      ⊢ wp frame (wpE (defs₀ (F := F)) Variants.none c none) E (cc3__ffn_kernel i arg1 harg1 arg2 harg2 arg3 harg3 arg4 harg4 arg5 harg5 arg6 harg6 arg7 harg7 arg8 harg8 arg9 harg9 arg10 harg10 arg11 harg11 arg12 harg12) K := by
  simp only [cc3__ffn_kernel_eq_skeleton]; unfold cc3__ffn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]
  · iexists _; iframe H9; ipureintro
    exact View.read_writes_eq_canon _ _ _ (View.cover_of_tiled _ S5000x128.size (by rfl))
  isplitl [H10]
  · iexists _; iframe H10; ipureintro
    exact View.read_writes_eq_canon _ _ _ (View.cover_of_tiled _ S8x128.size (by rfl))
  iexists _; iframe H11; ipureintro
  exact View.read_writes_eq_canon _ _ _ (View.cover_of_tiled _ S8x128.size (by rfl))

end

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t)
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]
theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3 (c : Dev nD) (w : Fin cfg3.W) (hw : w ∈ ([0, 1, 2, 3, 4, 5, 6, 7, 8] : List (Fin cfg3.W))) (t : Fin cfg3.N) (d) :
    (dat3 V c).before w t d = (dat3 V c).after w t := by
  simp only [List.mem_cons, List.not_mem_nil, or_false] at hw
  rcases hw with rfl | rfl | rfl | rfl | rfl | rfl | rfl | rfl | rfl <;>
    exact ((dat3 V c).before_in_eq_fetched _ rfl (fun _ => rfl) (fun _ _ _ => rfl) (fun t => by dsimp only [dat3, Dat.blockOf, iblk3]; try rfl) t d).trans
      (by dsimp only [dat3, Dat.fetched, Dat.blockOf, iblk3]; try rfl)

theorem sound_body3 (c : Dev nD) (t : Fin cfg3.N) :
    iprop((dat3 V c).Φ t.castSucc ∗ (dat3 V c).owesAt () t.castSucc
      ∗ bigSep Finset.univ fun w : Fin cfg3.W => iprop(∃ d, owns c ((cfg3.win w).stage (cfg3.slots t w)) fullShare ((dat3 V c).before w t d)))
    ⊢ wp frame (wpE (defs₀ (F := F)) Variants.none c none) Set.univ (bodyAt3 t) fun _ =>
      iprop((dat3 V c).Φ t.castSucc ∗ (dat3 V c).owesAt () t.castSucc
        ∗ bigSep Finset.univ fun w : Fin cfg3.W => owns c ((cfg3.win w).stage (cfg3.slots t w)) fullShare ((dat3 V c).after w t)) := by
  rw [bigSep_W3, bigSep_W3]
  unfold bodyAt3
  simp (disch := decide) only [before3]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 (iblk3 V c 0 t) (iblk3 V c 1 t) (iblk3 V c 2 t) (iblk3 V c 3 t) (iblk3 V c 4 t) (iblk3 V c 5 t) (iblk3 V c 6 t) (iblk3 V c 7 t) (iblk3 V c 8 t))
  iframe H0 H1 H2 H3 H4 H5 H6 H7 H8
  isplitl [H9]; · iexists _; iexact H9
  isplitl [H10]; · iexists _; iexact H10
  isplitl [H11]; · iexists _; iexact H11
  iintro ⟨H0, H1, H2, H3, H4, H5, H6, H7, H8, H9, H10, H11⟩
  iframe

theorem body_obligation3 (c : Dev nD) : BodyObligation (dat3 (F := F) V c) (defs₀ (F := F)) Variants.none () Set.univ :=
  fun t => sound_body3 V c t

end Cert.KernelIdeal.Hand
-- ==== Proof.KernelIdeal.Region4.lean ====
import proofs.«121852_j34351148433892_2_alg».proof.Proof.Gen.KernelIdeal.Launch
import proofs.«121852_j34351148433892_2_alg».proof.Proof.Gen.KernelIdeal.Skeleton
import proofs.«121852_j34351148433892_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0
abbrev r4_2 : Rect S128x256 := Rect.unit (s := S128x256) ![0, 0] S128x256.size inb_S128x256_S128x256_0_0
abbrev r4_3 : Rect S1x256 := Rect.unit (s := S1x256) ![0, 0] S1x256.size inb_S1x256_S1x256_0_0
abbrev r4_4 : Rect S256x128 := Rect.unit (s := S256x128) ![0, 0] S256x128.size inb_S256x128_S256x128_0_0
abbrev r4_5 : Rect S8x128 := Rect.unit (s := S8x128) ![0, 0] S8x128.size inb_S8x128_S8x128_0_0

section
variable (x0 : Vec F S5000x128 .f32) (x1 x2 x3 x4 : Vec F S1x128 .f32) (x5 : Vec F S128x256 .bf16) (x6 : Vec F S1x256 .f32)
  (x7 : Vec F S256x128 .bf16) (x8 : Vec F S1x128 .f32)

abbrev norm4 : FVec F S5000x128 .f32 :=
  k4_pay4 (View.ld x0 r4_0) (View.ld x1 r4_1) (View.ld x2 r4_1) (View.ld x3 r4_1) (View.ld x4 r4_1)

abbrev ffn4 : FVec F S5000x128 .f32 :=
  k4_pay5 (View.ld x0 r4_0) (View.ld x1 r4_1) (View.ld x2 r4_1) (View.ld x3 r4_1) (View.ld x4 r4_1) (View.ld x5 r4_2) (View.ld x6 r4_3) (View.ld x7 r4_4)

abbrev bias4 : FVec F S1x128 .f32 := k4_pay6 (View.ld x8 r4_1)

def out4_9 : Vec F S5000x128 .f32 :=
  View.canon [⟨r4_0, k4_pay1 (norm4 x0 x1 x2 x3 x4) (ffn4 x0 x1 x2 x3 x4 x5 x6 x7) (bias4 x8)⟩]

def out4_10 : Vec F S8x128 .f32 :=
  View.canon [⟨r4_5, k4_pay2 (norm4 x0 x1 x2 x3 x4) (ffn4 x0 x1 x2 x3 x4 x5 x6 x7) (bias4 x8)⟩]

def out4_11 : Vec F S8x128 .f32 :=
  View.canon [⟨r4_5, k4_pay3 (norm4 x0 x1 x2 x3 x4) (ffn4 x0 x1 x2 x3 x4 x5 x6 x7) (bias4 x8)⟩]

set_option maxHeartbeats 4000000 in
theorem sound_kernel4 {c : Dev nD} {E : Set ℕ} {i : grid4.Coords} {arg1 arg10 : Memref sig .tc .vmem S5000x128 .f32} {arg2 arg3 arg4 arg5 arg9 : Memref sig .tc .vmem S1x128 .f32}
    {arg6 : Memref sig .tc .vmem S128x256 .bf16} {arg7 : Memref sig .tc .vmem S1x256 .f32} {arg8 : Memref sig .tc .vmem S256x128 .bf16} {arg11 arg12 : Memref sig .tc .vmem S8x128 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    {harg10 : arg10.IsWhole} {harg11 : arg11.IsWhole} {harg12 : arg12.IsWhole} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d) ∗ (∃ d, owns c arg11 fullShare d) ∗ (∃ d, owns c arg12 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out4_9 x0 x1 x2 x3 x4 x5 x6 x7 x8) ∗ owns c arg11 fullShare (out4_10 x0 x1 x2 x3 x4 x5 x6 x7 x8) ∗ owns c arg12 fullShare (out4_11 x0 x1 x2 x3 x4 x5 x6 x7 x8)) -∗ K ⟨⟩))
      ⊢ wp frame (wpE (defs₀ (F := F)) Variants.none c none) E (cc4__ffn_kernel i arg1 harg1 arg2 harg2 arg3 harg3 arg4 harg4 arg5 harg5 arg6 harg6 arg7 harg7 arg8 harg8 arg9 harg9 arg10 harg10 arg11 harg11 arg12 harg12) K := by
  simp only [cc4__ffn_kernel_eq_skeleton]; unfold cc4__ffn_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  isplitl [H7]; · iexists f7; iframe H7; ipureintro; rfl
  isplitl [H8]; · iexists f8; iframe H8; ipureintro; rfl
  isplitl [H9]
  · iexists _; iframe H9; ipureintro
    exact View.read_writes_eq_canon _ _ _ (View.cover_of_tiled _ S5000x128.size (by rfl))
  isplitl [H10]
  · iexists _; iframe H10; ipureintro
    exact View.read_writes_eq_canon _ _ _ (View.cover_of_tiled _ S8x128.size (by rfl))
  iexists _; iframe H11; ipureintro
  exact View.read_writes_eq_canon _ _ _ (View.cover_of_tiled _ S8x128.size (by rfl))

end

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t)
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4 (c : Dev nD) (w : Fin cfg4.W) (hw : w ∈ ([0, 1, 2, 3, 4, 5, 6, 7, 8] : List (Fin cfg4.W))) (t : Fin cfg4.N) (d) :
    (dat4 V c).before w t d = (dat4 V c).after w t := by
  simp only [List.mem_cons, List.not_mem_nil, or_false] at hw
  rcases hw with rfl | rfl | rfl | rfl | rfl | rfl | rfl | rfl | rfl <;>
    exact ((dat4 V c).before_in_eq_fetched _ rfl (fun _ => rfl) (fun _ _ _ => rfl) (fun t => by dsimp only [dat4, Dat.blockOf, iblk4]; try rfl) t d).trans
      (by dsimp only [dat4, Dat.fetched, Dat.blockOf, iblk4]; try rfl)

theorem sound_body4 (c : Dev nD) (t : Fin cfg4.N) :
    iprop((dat4 V c).Φ t.castSucc ∗ (dat4 V c).owesAt () t.castSucc
      ∗ bigSep Finset.univ fun w : Fin cfg4.W => iprop(∃ d, owns c ((cfg4.win w).stage (cfg4.slots t w)) fullShare ((dat4 V c).before w t d)))
    ⊢ wp frame (wpE (defs₀ (F := F)) Variants.none c none) Set.univ (bodyAt4 t) fun _ =>
      iprop((dat4 V c).Φ t.castSucc ∗ (dat4 V c).owesAt () t.castSucc
        ∗ bigSep Finset.univ fun w : Fin cfg4.W => owns c ((cfg4.win w).stage (cfg4.slots t w)) fullShare ((dat4 V c).after w t)) := by
  rw [bigSep_W4, bigSep_W4]
  unfold bodyAt4
  simp (disch := decide) only [before4]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel4 (iblk4 V c 0 t) (iblk4 V c 1 t) (iblk4 V c 2 t) (iblk4 V c 3 t) (iblk4 V c 4 t) (iblk4 V c 5 t) (iblk4 V c 6 t) (iblk4 V c 7 t) (iblk4 V c 8 t))
  iframe H0 H1 H2 H3 H4 H5 H6 H7 H8
  isplitl [H9]; · iexists _; iexact H9
  isplitl [H10]; · iexists _; iexact H10
  isplitl [H11]; · iexists _; iexact H11
  iintro ⟨H0, H1, H2, H3, H4, H5, H6, H7, H8, H9, H10, H11⟩
  iframe

theorem body_obligation4 (c : Dev nD) : BodyObligation (dat4 (F := F) V c) (defs₀ (F := F)) Variants.none () Set.univ :=
  fun t => sound_body4 V c t

end Cert.KernelIdeal.Hand
-- ==== Proof.KernelIdeal.Fold.lean ====
import proofs.«121852_j34351148433892_2_alg».proof.Proof.KernelIdeal.Region0
import proofs.«121852_j34351148433892_2_alg».proof.Proof.KernelIdeal.Region1
import proofs.«121852_j34351148433892_2_alg».proof.Proof.KernelIdeal.Region2
import proofs.«121852_j34351148433892_2_alg».proof.Proof.KernelIdeal.Region3
import proofs.«121852_j34351148433892_2_alg».proof.Proof.KernelIdeal.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.ShloMosaic.Pipeline (Dat Cfg)

variable {F : FTy → Type} [FloatOps F]

/-- An operation whose one written buffer is a listed reference writes inside the list. -/
theorem writes_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem main_part0_ops0_fresh : (main_part0_ops0 : List (HloOp τ sig (Elt F))).Forall fun op => op.fresh = ∅ := by
  simp only [List.Forall]; repeat' constructor
abbrev main_part0_ops0_W : List (Ref sig .tc) := [main_cst, main_cst_0, main_v0, main_v1, main_v2, main_v3, main_v4, main_v5, main_v6, main_v7, main_v8, main_v9, main_v10, main_v11, main_v12, main_v13, main_v14]
theorem main_part0_ops0_writes : (main_part0_ops0 : List (HloOp τ sig (Elt F))).Forall fun op => op.writes ⊆ (main_part0_ops0_W.map (Proc.devRef (τ := τ) .tc)).toFinset := by
  simp only [List.Forall]; and_intros <;> exact writes_sub (by decide)

theorem main_part0_ops1_fresh : (main_part0_ops1 : List (HloOp τ sig (Elt F))).Forall fun op => op.fresh = ∅ := by
  simp only [List.Forall]; repeat' constructor
abbrev main_part0_ops1_W : List (Ref sig .tc) := [main_v16, main_v17, main_c, main_v18, main_v19, main_c_1, main_v20, main_v21, main_v22, main_v23, main_v24, main_c_2, main_v25, main_v26, main_c_3, main_v27, main_v28, main_v29, main_v30, main_v31, main_v32]
theorem main_part0_ops1_writes : (main_part0_ops1 : List (HloOp τ sig (Elt F))).Forall fun op => op.writes ⊆ (main_part0_ops1_W.map (Proc.devRef (τ := τ) .tc)).toFinset := by
  simp only [List.Forall]; and_intros <;> exact writes_sub (by decide)

theorem main_part0_ops2_fresh : (main_part0_ops2 : List (HloOp τ sig (Elt F))).Forall fun op => op.fresh = ∅ := by
  simp only [List.Forall]; repeat' constructor
abbrev main_part0_ops2_W : List (Ref sig .tc) := [main_cst_4, main_v34, main_v35, main_v36, main_cst_5, main_v37, main_v38, main_v39, main_v40, main_v41, main_cst_6, main_v42, main_v43, main_v44]
theorem main_part0_ops2_writes : (main_part0_ops2 : List (HloOp τ sig (Elt F))).Forall fun op => op.writes ⊆ (main_part0_ops2_W.map (Proc.devRef (τ := τ) .tc)).toFinset := by
  simp only [List.Forall]; and_intros <;> exact writes_sub (by decide)

theorem main_part0_ops3_fresh : (main_part0_ops3 : List (HloOp τ sig (Elt F))).Forall fun op => op.fresh = ∅ := by
  simp only [List.Forall]; repeat' constructor
abbrev main_part0_ops3_W : List (Ref sig .tc) := [main_v46, main_v47, main_v48, main_cst_7, main_v49]
theorem main_part0_ops3_writes : (main_part0_ops3 : List (HloOp τ sig (Elt F))).Forall fun op => op.writes ⊆ (main_part0_ops3_W.map (Proc.devRef (τ := τ) .tc)).toFinset := by
  simp only [List.Forall]; and_intros <;> exact writes_sub (by decide)

theorem main_part1_ops0_fresh : (main_part1_ops0 : List (HloOp τ sig (Elt F))).Forall fun op => op.fresh = ∅ := by
  simp only [List.Forall]; repeat' constructor
abbrev main_part1_ops0_W : List (Ref sig .tc) := [main_v50, main_v51, main_v52, main_cst_8, main_v53, main_cst_9, main_v54, main_v55, main_cst_10, main_v56, main_v57, main_v58, main_v59, main_v60, main_v61, main_v62, main_cst_11, main_v63, main_v64, main_v65, main_v66, main_cst_12, main_v67, main_cst_13, main_v68, main_v69, main_cst_14, main_v70, main_v71, main_v72, main_v73, main_v74, main_v75, main_v76, main_v77, main_v78, main_v79, main_v80, main_v81]
theorem main_part1_ops0_writes : (main_part1_ops0 : List (HloOp τ sig (Elt F))).Forall fun op => op.writes ⊆ (main_part1_ops0_W.map (Proc.devRef (τ := τ) .tc)).toFinset := by
  simp only [List.Forall]; and_intros <;> exact writes_sub (by decide)

theorem main_part1_ops1_fresh : (main_part1_ops1 : List (HloOp τ sig (Elt F))).Forall fun op => op.fresh = ∅ := by
  simp only [List.Forall]; repeat' constructor
abbrev main_part1_ops1_W : List (Ref sig .tc) := [main_v84, main_v85, main_v86, main_cst_15, main_v87, main_v88, main_v89, main_v90, main_cst_16, main_v91, main_cst_17, main_v92, main_v93, main_cst_18, main_v94, main_v95, main_v96, main_v97, main_v98]
theorem main_part1_ops1_writes : (main_part1_ops1 : List (HloOp τ sig (Elt F))).Forall fun op => op.writes ⊆ (main_part1_ops1_W.map (Proc.devRef (τ := τ) .tc)).toFinset := by
  simp only [List.Forall]; and_intros <;> exact writes_sub (by decide)

theorem main_part2_ops0_fresh : (main_part2_ops0 : List (HloOp τ sig (Elt F))).Forall fun op => op.fresh = ∅ := by
  simp only [List.Forall]; repeat' constructor
abbrev main_part2_ops0_W : List (Ref sig .tc) := [main_v99, main_v100, main_cst_19, main_v101, main_v102, main_v103, main_v104, main_cst_20, main_v105, main_cst_21, main_v106, main_v107, main_cst_22, main_v108, main_v109, main_v110, main_v111, main_v112, main_v113, main_v114, main_cst_23, main_v115, main_v116, main_v117, main_v118, main_v119, main_v120, main_v121, main_v122, main_v123, main_v124, main_v125, main_v126, main_v127, main_v128, main_v129, main_cst_24, main_v130, main_v131, main_v132, main_v133, main_v134, main_v135, main_v136, main_v137, main_v138, main_v139, main_v140, main_v141]
theorem main_part2_ops0_writes : (main_part2_ops0 : List (HloOp τ sig (Elt F))).Forall fun op => op.writes ⊆ (main_part2_ops0_W.map (Proc.devRef (τ := τ) .tc)).toFinset := by
  simp only [List.Forall]; and_intros <;> exact writes_sub (by decide)

variable (m : (ℓ : Loc nD τ sig) → Buf (Elt F) ℓ) (ρ : Dev nD → PrngReg)

/-- Away from a region's arrays its exit contents are its entry contents. -/
theorem withArrays_rest {gr W : ℕ} (win : Fin W → Pipeline.WinSpec sig gr) (c : Dev nD) (V : Valuation τ sig (Elt F)) (A) :
    ∀ b, b ∉ Finset.univ.image (Pipeline.arrRef win) → Pipeline.withArrays win c V A (Proc.devRef .tc b) = V (Proc.devRef .tc b) :=
  fun b hb => Pipeline.withArrays_of_ne win c V A b fun w e => hb (Finset.mem_image.mpr ⟨w, Finset.mem_univ _, e⟩)

/-- Only a region's output arrays change: an input array's exit contents are its entry contents, and a buffer that is no array is not replaced. -/
theorem withArrays_keep {cfg : Cfg sig Λ₀} (hinj : Function.Injective (Pipeline.arrRef cfg.spec)) {c : Dev nD}
    (V : Valuation τ sig (Elt F)) (dat : Dat τ (Elt F) Unit ℕ (UR sig nD τ) ℕ cfg c)
    (hA : ∀ w, dat.A w = V (Proc.devRef .tc (Pipeline.arrRef cfg.spec w)))
    (outs : List (Ref sig .tc)) (hout : ∀ w, Pipeline.arrRef cfg.spec w ∉ outs → (cfg.win w).isOut = false)
    (b : Ref sig .tc) (hb : b ∉ outs) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr _ hinj, dat.arrAt_in w (hout w hb), hA]
  · exact Pipeline.withArrays_of_ne _ c _ _ b fun w e => h ⟨w, e⟩

abbrev Wl : Dev nD → Valuation τ sig (Elt F) := fun c b => (s₀ m ρ).mem ((c : Dev nD), b)

abbrev Win0 : Dev nD → Valuation τ sig (Elt F) := fun c => StableHlo.after main_part0_ops0 (Wl m ρ c)
abbrev Vin0 : (c : Dev nD) → (b : Ref sig .tc) → Buf (Elt F) ((c : Thread nD τ).loc b) := fun c b => Win0 m ρ c b
def Wout0 (c : Dev nD) : Valuation τ sig (Elt F) :=
  Pipeline.withArrays spec0 c (Win0 m ρ c) fun w => (dat0 (Vin0 m ρ) c).arrAt w cfg0.N
theorem Wout0_arr (c : Dev nD) (w : Fin cfg0.W) :
    Wout0 m ρ c (Proc.devRef .tc (Pipeline.arrRef spec0 w)) = (dat0 (Vin0 m ρ) c).arrAt w cfg0.N :=
  Pipeline.withArrays_arr spec0 launch0.win.arr_inj c _ _ w
abbrev Vout0 : (c : Dev nD) → (b : Ref sig .tc) → Buf (Elt F) ((c : Thread nD τ).loc b) := fun c b => Wout0 m ρ c b
theorem hF0 (c : Dev nD) (w : Fin cfg0.W) : (dat0 (Vin0 m ρ) c).arrAt w cfg0.N = Vout0 m ρ c (Pipeline.arrRef spec0 w) :=
  (Wout0_arr m ρ c w).symm
theorem hrest0 (c : Dev nD) : ∀ b, b ∉ Finset.univ.image (Pipeline.arrRef spec0) → Vout0 m ρ c b = Vin0 m ρ c b :=
  withArrays_rest spec0 c _ _
theorem Wout0_keep (c : Dev nD) (b : Ref sig .tc) (hb : b ∉ ([main_v15] : List (Ref sig .tc))) :
    Wout0 m ρ c (Proc.devRef .tc b) = Win0 m ρ c (Proc.devRef .tc b) :=
  withArrays_keep launch0.win.arr_inj _ _ (A_eq0 _ c) _ (by decide) b hb

abbrev Win1 : Dev nD → Valuation τ sig (Elt F) := fun c => StableHlo.after main_part0_ops1 (Wout0 m ρ c)
abbrev Vin1 : (c : Dev nD) → (b : Ref sig .tc) → Buf (Elt F) ((c : Thread nD τ).loc b) := fun c b => Win1 m ρ c b
def Wout1 (c : Dev nD) : Valuation τ sig (Elt F) :=
  Pipeline.withArrays spec1 c (Win1 m ρ c) fun w => (dat1 (Vin1 m ρ) c).arrAt w cfg1.N
theorem Wout1_arr (c : Dev nD) (w : Fin cfg1.W) :
    Wout1 m ρ c (Proc.devRef .tc (Pipeline.arrRef spec1 w)) = (dat1 (Vin1 m ρ) c).arrAt w cfg1.N :=
  Pipeline.withArrays_arr spec1 launch1.win.arr_inj c _ _ w
abbrev Vout1 : (c : Dev nD) → (b : Ref sig .tc) → Buf (Elt F) ((c : Thread nD τ).loc b) := fun c b => Wout1 m ρ c b
theorem hF1 (c : Dev nD) (w : Fin cfg1.W) : (dat1 (Vin1 m ρ) c).arrAt w cfg1.N = Vout1 m ρ c (Pipeline.arrRef spec1 w) :=
  (Wout1_arr m ρ c w).symm
theorem hrest1 (c : Dev nD) : ∀ b, b ∉ Finset.univ.image (Pipeline.arrRef spec1) → Vout1 m ρ c b = Vin1 m ρ c b :=
  withArrays_rest spec1 c _ _
theorem Wout1_keep (c : Dev nD) (b : Ref sig .tc) (hb : b ∉ ([main_v33_0, main_v33_1, main_v33_2, main_v33_3, main_v33_4] : List (Ref sig .tc))) :
    Wout1 m ρ c (Proc.devRef .tc b) = Win1 m ρ c (Proc.devRef .tc b) :=
  withArrays_keep launch1.win.arr_inj _ _ (A_eq1 _ c) _ (by decide) b hb

abbrev Win2 : Dev nD → Valuation τ sig (Elt F) := fun c => StableHlo.after main_part0_ops2 (Wout1 m ρ c)
abbrev Vin2 : (c : Dev nD) → (b : Ref sig .tc) → Buf (Elt F) ((c : Thread nD τ).loc b) := fun c b => Win2 m ρ c b
def Wout2 (c : Dev nD) : Valuation τ sig (Elt F) :=
  Pipeline.withArrays spec2 c (Win2 m ρ c) fun w => (dat2 (Vin2 m ρ) c).arrAt w cfg2.N
theorem Wout2_arr (c : Dev nD) (w : Fin cfg2.W) :
    Wout2 m ρ c (Proc.devRef .tc (Pipeline.arrRef spec2 w)) = (dat2 (Vin2 m ρ) c).arrAt w cfg2.N :=
  Pipeline.withArrays_arr spec2 launch2.win.arr_inj c _ _ w
abbrev Vout2 : (c : Dev nD) → (b : Ref sig .tc) → Buf (Elt F) ((c : Thread nD τ).loc b) := fun c b => Wout2 m ρ c b
theorem hF2 (c : Dev nD) (w : Fin cfg2.W) : (dat2 (Vin2 m ρ) c).arrAt w cfg2.N = Vout2 m ρ c (Pipeline.arrRef spec2 w) :=
  (Wout2_arr m ρ c w).symm
theorem hrest2 (c : Dev nD) : ∀ b, b ∉ Finset.univ.image (Pipeline.arrRef spec2) → Vout2 m ρ c b = Vin2 m ρ c b :=
  withArrays_rest spec2 c _ _
theorem Wout2_keep (c : Dev nD) (b : Ref sig .tc) (hb : b ∉ ([main_v45_0, main_v45_1, main_v45_2] : List (Ref sig .tc))) :
    Wout2 m ρ c (Proc.devRef .tc b) = Win2 m ρ c (Proc.devRef .tc b) :=
  withArrays_keep launch2.win.arr_inj _ _ (A_eq2 _ c) _ (by decide) b hb

abbrev Wm : Dev nD → Valuation τ sig (Elt F) := fun c => StableHlo.after main_part0_ops3 (Wout2 m ρ c)

abbrev Win3 : Dev nD → Valuation τ sig (Elt F) := fun c => StableHlo.after main_part1_ops0 (Wm m ρ c)
abbrev Vin3 : (c : Dev nD) → (b : Ref sig .tc) → Buf (Elt F) ((c : Thread nD τ).loc b) := fun c b => Win3 m ρ c b
def Wout3 (c : Dev nD) : Valuation τ sig (Elt F) :=
  Pipeline.withArrays spec3 c (Win3 m ρ c) fun w => (dat3 (Vin3 m ρ) c).arrAt w cfg3.N
theorem Wout3_arr (c : Dev nD) (w : Fin cfg3.W) :
    Wout3 m ρ c (Proc.devRef .tc (Pipeline.arrRef spec3 w)) = (dat3 (Vin3 m ρ) c).arrAt w cfg3.N :=
  Pipeline.withArrays_arr spec3 launch3.win.arr_inj c _ _ w
abbrev Vout3 : (c : Dev nD) → (b : Ref sig .tc) → Buf (Elt F) ((c : Thread nD τ).loc b) := fun c b => Wout3 m ρ c b
theorem hF3 (c : Dev nD) (w : Fin cfg3.W) : (dat3 (Vin3 m ρ) c).arrAt w cfg3.N = Vout3 m ρ c (Pipeline.arrRef spec3 w) :=
  (Wout3_arr m ρ c w).symm
theorem hrest3 (c : Dev nD) : ∀ b, b ∉ Finset.univ.image (Pipeline.arrRef spec3) → Vout3 m ρ c b = Vin3 m ρ c b :=
  withArrays_rest spec3 c _ _
theorem Wout3_keep (c : Dev nD) (b : Ref sig .tc) (hb : b ∉ ([main_v82_0, main_v82_1, main_v82_2] : List (Ref sig .tc))) :
    Wout3 m ρ c (Proc.devRef .tc b) = Win3 m ρ c (Proc.devRef .tc b) :=
  withArrays_keep launch3.win.arr_inj _ _ (A_eq3 _ c) _ (by decide) b hb

abbrev Win4 : Dev nD → Valuation τ sig (Elt F) := fun c => Wout3 m ρ c
abbrev Vin4 : (c : Dev nD) → (b : Ref sig .tc) → Buf (Elt F) ((c : Thread nD τ).loc b) := fun c b => Win4 m ρ c b
def Wout4 (c : Dev nD) : Valuation τ sig (Elt F) :=
  Pipeline.withArrays spec4 c (Win4 m ρ c) fun w => (dat4 (Vin4 m ρ) c).arrAt w cfg4.N
theorem Wout4_arr (c : Dev nD) (w : Fin cfg4.W) :
    Wout4 m ρ c (Proc.devRef .tc (Pipeline.arrRef spec4 w)) = (dat4 (Vin4 m ρ) c).arrAt w cfg4.N :=
  Pipeline.withArrays_arr spec4 launch4.win.arr_inj c _ _ w
abbrev Vout4 : (c : Dev nD) → (b : Ref sig .tc) → Buf (Elt F) ((c : Thread nD τ).loc b) := fun c b => Wout4 m ρ c b
theorem hF4 (c : Dev nD) (w : Fin cfg4.W) : (dat4 (Vin4 m ρ) c).arrAt w cfg4.N = Vout4 m ρ c (Pipeline.arrRef spec4 w) :=
  (Wout4_arr m ρ c w).symm
theorem hrest4 (c : Dev nD) : ∀ b, b ∉ Finset.univ.image (Pipeline.arrRef spec4) → Vout4 m ρ c b = Vin4 m ρ c b :=
  withArrays_rest spec4 c _ _
theorem Wout4_keep (c : Dev nD) (b : Ref sig .tc) (hb : b ∉ ([main_v83_0, main_v83_1, main_v83_2] : List (Ref sig .tc))) :
    Wout4 m ρ c (Proc.devRef .tc b) = Win4 m ρ c (Proc.devRef .tc b) :=
  withArrays_keep launch4.win.arr_inj _ _ (A_eq4 _ c) _ (by decide) b hb

abbrev Wn : Dev nD → Valuation τ sig (Elt F) := fun c => StableHlo.after main_part1_ops1 (Wout4 m ρ c)
abbrev Wend : Dev nD → Valuation τ sig (Elt F) := fun c => StableHlo.after main_part2_ops0 (Wn m ρ c)

abbrev changed : List (Ref sig .tc) :=
  main_part0_ops0_W ++ main_part0_ops1_W ++ main_part0_ops2_W ++ main_part0_ops3_W ++ main_part1_ops0_W ++ main_part1_ops1_W ++ main_part2_ops0_W
    ++ [main_v15, main_v33_0, main_v33_1, main_v33_2, main_v33_3, main_v33_4, main_v45_0, main_v45_1, main_v45_2, main_v82_0, main_v82_1, main_v82_2, main_v83_0, main_v83_1, main_v83_2]

/-- Nothing between the regions and no region changes a buffer outside `changed`, so there the fold returns the launch contents. -/
theorem Wend_keep (c : Dev nD) (b : Ref sig .tc) (hb : b ∉ (changed : List (Ref sig .tc))) :
    Wend m ρ c (Proc.devRef .tc b) = m ((c : Thread nD τ).loc b) := by
  have h : ∀ l : List (Ref sig .tc), (∀ x ∈ l, x ∈ (changed : List (Ref sig .tc))) → b ∉ l := fun l hl hbl => hb (hl b hbl)
  exact (StableHlo.after_of_writes_sub _ _ main_part2_ops0_writes (h _ (by decide))).trans <|
    (StableHlo.after_of_writes_sub _ _ main_part1_ops1_writes (h _ (by decide))).trans <|
    (Wout4_keep m ρ c b (h _ (by decide))).trans <|
    (Wout3_keep m ρ c b (h _ (by decide))).trans <|
    (StableHlo.after_of_writes_sub _ _ main_part1_ops0_writes (h _ (by decide))).trans <|
    (StableHlo.after_of_writes_sub _ _ main_part0_ops3_writes (h _ (by decide))).trans <|
    (Wout2_keep m ρ c b (h _ (by decide))).trans <|
    (StableHlo.after_of_writes_sub _ _ main_part0_ops2_writes (h _ (by decide))).trans <|
    (Wout1_keep m ρ c b (h _ (by decide))).trans <|
    (StableHlo.after_of_writes_sub _ _ main_part0_ops1_writes (h _ (by decide))).trans <|
    (Wout0_keep m ρ c b (h _ (by decide))).trans <|
    StableHlo.after_of_writes_sub _ _ main_part0_ops0_writes (h _ (by decide))

end Cert.KernelIdeal.Hand

end
-- ==== Proof.KernelIdeal.Data.lean ====
import proofs.«121852_j34351148433892_2_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KernelIdeal.Regs.lean ====
import proofs.«121852_j34351148433892_2_alg».proof.Proof.KernelIdeal.Data

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false

abbrev tcV (W : Dev nD → Valuation τ sig (Elt F)) (c : Dev nD) (b : Ref sig .tc) : Buf (Elt F) ((c : Thread nD τ).loc b) := W c b

def regOf {p : Fin 5} (kit : Pipeline.LaunchFacts (nD := nD) (τ := τ) cfgs p) (Wi Wo : Dev nD → Valuation τ sig (Elt F))
    (hb : ∀ c, BodyObligation (pdats m ρ p c) (defs₀ (F := F)) 𝒱₀ () Set.univ)
    (hF : ∀ c w, (pdats m ρ p c).arrAt w (cfgs p).N = tcV Wo c (Pipeline.arrRef (cfgs p).spec w))
    (hrest : ∀ c b, b ∉ Finset.univ.image (Pipeline.arrRef (cfgs p).spec) → tcV Wo c b = tcV Wi c b)
    (hq : ∀ c w, (pdats m ρ p c).q w = fullShare := by exact fun _ _ => rfl)
    (hA : ∀ c w, (pdats m ρ p c).A w = tcV Wi c (Pipeline.arrRef (cfgs p).spec w) := by exact fun _ _ => rfl)
    (hΦ : ∀ c t, (pdats m ρ p c).Φ t = Pipeline.ΦA (cfgs p).spec c := by exact fun _ _ => rfl)
    (h0 : ∀ c t, (pdats m ρ p c).owed t = 0 := by exact fun _ _ => rfl)
    (hr : ∀ c, (pdats m ρ p c).recorded 0 = Set.univ := by exact fun _ => rfl) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c (tcV Wi c)
  hentry c := by
    rw [Pipeline.ownSems0_none]
    have hsplit := Pipeline.arrays_of_unscopedBufs (p := p) (pcfgs (F := F)) adm (pdats m ρ) kit.win kit.arr_whole c
      ((pdats m ρ p c).share_full (hq c)) (tcV Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    rw [hΦ]; unfold Pipeline.ΦA
    iintro ⟨Hp, -, Hr⟩
    isplitl [Hr] <;> iassumption
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (tcV Wi c) (tcV Wo c) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 := regOf m ρ launch0 (Win0 m ρ) (Wout0 m ρ) (body_obligation0 (Vin0 m ρ)) (hF0 m ρ) (hrest0 m ρ)
def reg1 := regOf m ρ launch1 (Win1 m ρ) (Wout1 m ρ) (body_obligation1 (Vin1 m ρ)) (hF1 m ρ) (hrest1 m ρ)
def reg2 := regOf m ρ launch2 (Win2 m ρ) (Wout2 m ρ) (body_obligation2 (Vin2 m ρ)) (hF2 m ρ) (hrest2 m ρ)
def reg3 := regOf m ρ launch3 (Win3 m ρ) (Wout3 m ρ) (body_obligation3 (Vin3 m ρ)) (hF3 m ρ) (hrest3 m ρ)
def reg4 := regOf m ρ launch4 (Win4 m ρ) (Wout4 m ρ) (body_obligation4 (Vin4 m ρ)) (hF4 m ρ) (hrest4 m ρ)

end Cert.KernelIdeal.Hand

end
-- ==== Proof.KernelIdeal.RunAll.lean ====
import proofs.«121852_j34351148433892_2_alg».proof.Proof.KernelIdeal.Regs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg main_part0_ops0 main_part0_ops0_sub main_part0_ops0_fresh (Wl m ρ)),
    .region (reg0 m ρ),
    .host (hseg main_part0_ops1 main_part0_ops1_sub main_part0_ops1_fresh (Wout0 m ρ)),
    .region (reg1 m ρ),
    .host (hseg main_part0_ops2 main_part0_ops2_sub main_part0_ops2_fresh (Wout1 m ρ)),
    .region (reg2 m ρ),
    .host (hseg main_part0_ops3 main_part0_ops3_sub main_part0_ops3_fresh (Wout2 m ρ)),
    .host (hseg main_part1_ops0 main_part1_ops0_sub main_part1_ops0_fresh (Wm m ρ)),
    .region (reg3 m ρ),
    .region (reg4 m ρ),
    .host (hseg main_part1_ops1 main_part1_ops1_sub main_part1_ops1_fresh (Wout4 m ρ)),
    .host (hseg main_part2_ops0 main_part2_ops0_sub main_part2_ops0_fresh (Wn m ρ)) ]

theorem main_run (c : Dev nD) : main (F := F) c = Pipeline.Seg.run (segs m ρ) := (main_chain_windows c).trans (by chain_rfl)

abbrev Tₙ (c : Dev nD) : sProp 𝕄 := iprop(StableHlo.held (c : Thread nD τ) (Pipeline.ucRefs τ sig) (Wend m ρ c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ R c)) (Tₙ := Tₙ m ρ)
    (hch := by
      repeat refine ⟨fun _ => .rfl, ?_⟩
      exact fun c => sep_assoc.2)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

end Cert.KernelIdeal.Hand

end
-- ==== Proof.Reference.Ops.lean ====
import proofs.«121852_j34351148433892_2_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev ops0_0 : List (HloOp τ sig (Elt F)) :=
  [ StableHlo.binary main_arg0 main_arg5 main_v0 (fun l r => Host.dotGeneral dot_S50000x128_S128x128_S50000x128_1_0_0_1_n_n none l r),
    StableHlo.reshape main_v0 main_v1 rfl shapeCasts_S50000x128_S50000x8x16,
    StableHlo.binary main_arg0 main_arg6 main_v2 (fun l r => Host.dotGeneral dot_S50000x128_S128x128_S50000x128_1_0_0_1_n_n none l r),
    StableHlo.reshape main_v2 main_v3 rfl shapeCasts_S50000x128_S50000x8x16,
    StableHlo.binary main_arg0 main_arg7 main_v4 (fun l r => Host.dotGeneral dot_S50000x128_S128x128_S50000x128_1_0_0_1_n_n none l r),
    StableHlo.reshape main_v4 main_v5 rfl shapeCasts_S50000x128_S50000x8x16,
    StableHlo.binary main_arg1 main_arg8 main_v6 (fun l r => Host.dotGeneral dot_S500000x128_S128x128_S500000x128_1_0_0_1_n_n none l r),
    StableHlo.reshape main_v6 main_v7 rfl shapeCasts_S500000x128_S500000x8x16,
    StableHlo.nullary main_c (constantI S_ 32 0#32),
    StableHlo.unary main_c main_v8 (broadcastInDim S500000 ![] bcast_S_S500000),
    StableHlo.binary main_arg3 main_v8 main_v9 (cmpi .slt),
    StableHlo.nullary main_c_0 (constantI S_ 32 50000#32),
    StableHlo.unary main_c_0 main_v10 (broadcastInDim S500000 ![] bcast_S_S500000),
    StableHlo.binary main_arg3 main_v10 main_v11 addi,
    StableHlo.ternary main_v9 main_v11 main_arg3 main_v12 select,
    StableHlo.unary main_v12 main_v13 (broadcastInDim S500000x1 ![0] bcast_S500000_S500000x1_0),
    StableHlo.binary main_v3 main_v13 main_v14 (fun x i => Host.gather gather_S50000x8x16_S500000x1_S500000x8x16_12_0_n_n_0_1_1816 x i),
    StableHlo.nullary main_c_1 (constantI S_ 32 0#32),
    StableHlo.unary main_c_1 main_v15 (broadcastInDim S500000 ![] bcast_S_S500000),
    StableHlo.binary main_arg4 main_v15 main_v16 (cmpi .slt),
    StableHlo.nullary main_c_2 (constantI S_ 32 50000#32),
    StableHlo.unary main_c_2 main_v17 (broadcastInDim S500000 ![] bcast_S_S500000),
    StableHlo.binary main_arg4 main_v17 main_v18 addi,
    StableHlo.ternary main_v16 main_v18 main_arg4 main_v19 select,
    StableHlo.unary main_v19 main_v20 (broadcastInDim S500000x1 ![0] bcast_S500000_S500000x1_0),
    StableHlo.binary main_v1 main_v20 main_v21 (fun x i => Host.gather gather_S50000x8x16_S500000x1_S500000x8x16_12_0_n_n_0_1_1816 x i),
    StableHlo.binary main_v14 main_v21 main_v22 mulf,
    StableHlo.nullary main_cst (constant S_ .f32 0x40800000#32),
    StableHlo.unary main_cst main_v23 (broadcastInDim S500000x8x16 ![] bcast_S_S500000x8x16),
    StableHlo.binary main_v22 main_v23 main_v24 Host.divf,
    StableHlo.binary main_v24 main_v7 main_v25 mulf,
    StableHlo.reshape main_v25 main_v26 rfl shapeCasts_S500000x8x16_S500000x128,
    StableHlo.nullary main_cst_3 (constant S_ .f32 0x00000000#32) ]

abbrev ops0_1 : List (HloOp τ sig (Elt F)) :=
  [ StableHlo.binary main_v25 main_cst_3 main_v27 (fun x v => Host.reduceAdd x v reducesTo_S500000x8x16_S500000x8_d2 h_S_),
    StableHlo.unary main_v27 main_v28 (broadcastInDim S500000x8x1 ![0, 1] bcast_S500000x8_S500000x8x1_0_1),
    StableHlo.nullary main_cst_4 (constant S_ .f32 0xC0A00000#32),
    StableHlo.nullary main_cst_5 (constant S_ .f32 0x40A00000#32),
    StableHlo.TRef.unary (.of main_cst_4 : StableHlo.TRef sig ⟨S_, .f32⟩) main_call0.v0 id,
    StableHlo.TRef.unary main_call0.v0 main_call0.v1 (broadcastInDim S500000x8x1 ![] bcast_S_S500000x8x1),
    StableHlo.TRef.binary main_call0.v1 (.of main_v28 : StableHlo.TRef sig ⟨S500000x8x1, .f32⟩) main_call0.v2 maximumf,
    StableHlo.TRef.unary (.of main_cst_5 : StableHlo.TRef sig ⟨S_, .f32⟩) main_call0.v3 id,
    StableHlo.TRef.unary main_call0.v3 main_call0.v4 (broadcastInDim S500000x8x1 ![] bcast_S_S500000x8x1),
    StableHlo.TRef.binary main_call0.v4 main_call0.v2 main_call0.v5 minimumf,
    StableHlo.unary main_v29 main_v30 Host.exp,
    StableHlo.nullary main_c_6 (constantI S_ 32 0#32),
    StableHlo.unary main_c_6 main_v31 (broadcastInDim S500000 ![] bcast_S_S500000),
    StableHlo.binary main_arg3 main_v31 main_v32 (cmpi .slt),
    StableHlo.nullary main_c_7 (constantI S_ 32 50000#32),
    StableHlo.unary main_c_7 main_v33 (broadcastInDim S500000 ![] bcast_S_S500000),
    StableHlo.binary main_arg3 main_v33 main_v34 addi,
    StableHlo.ternary main_v32 main_v34 main_arg3 main_v35 select,
    StableHlo.unary main_v35 main_v36 (broadcastInDim S500000x1 ![0] bcast_S500000_S500000x1_0),
    StableHlo.binary main_v5 main_v36 main_v37 (fun x i => Host.gather gather_S50000x8x16_S500000x1_S500000x8x16_12_0_n_n_0_1_1816 x i),
    StableHlo.unary main_arg2 main_v38 (broadcastInDim S500000x8x16 ![0, 1, 2] bcast_S500000x1x1_S500000x8x16_0_1_2),
    StableHlo.binary main_v37 main_v38 main_v39 mulf,
    StableHlo.unary main_v30 main_v40 (broadcastInDim S500000x8x16 ![0, 1, 2] bcast_S500000x8x1_S500000x8x16_0_1_2),
    StableHlo.binary main_v39 main_v40 main_v41 mulf,
    StableHlo.nullary main_cst_8 (constant S_ .f32 0x00000000#32),
    StableHlo.unary main_cst_8 main_v42 (broadcastInDim S50000x8x16 ![] bcast_S_S50000x8x16),
    StableHlo.unary main_arg4 main_v43 (broadcastInDim S500000x1 ![0] bcast_S500000_S500000x1_0),
    StableHlo.ternary main_v42 main_v43 main_v41 main_v44 (fun x i u => Host.scatterAdd scatter_S50000x8x16_S500000x1_S500000x8x16_12_0_0_1 x i u),
    StableHlo.nullary main_cst_9 (constant S_ .f32 0x00000000#32),
    StableHlo.unary main_cst_9 main_v45 (broadcastInDim S50000x8x1 ![] bcast_S_S50000x8x1),
    StableHlo.unary main_arg4 main_v46 (broadcastInDim S500000x1 ![0] bcast_S500000_S500000x1_0),
    StableHlo.ternary main_v45 main_v46 main_v30 main_v47 (fun x i u => Host.scatterAdd scatter_S50000x8x1_S500000x1_S500000x8x1_12_0_0_1 x i u) ]

abbrev part0 : List (HloOp τ sig (Elt F)) := ops0_0 (F := F) ++ ops0_1 (F := F)

abbrev ops1_0 : List (HloOp τ sig (Elt F)) :=
  [ StableHlo.nullary main_cst_10 (constant S_ .f32 0x358637BD#32),
    StableHlo.unary main_cst_10 main_v48 (broadcastInDim S50000x8x1 ![] bcast_S_S50000x8x1),
    StableHlo.binary main_v47 main_v48 main_v49 addf,
    StableHlo.unary main_v49 main_v50 (broadcastInDim S50000x8x16 ![0, 1, 2] bcast_S50000x8x1_S50000x8x16_0_1_2),
    StableHlo.binary main_v44 main_v50 main_v51 Host.divf,
    StableHlo.reshape main_v51 main_v52 rfl shapeCasts_S50000x8x16_S50000x128,
    StableHlo.binary main_v52 main_arg9 main_v53 (fun l r => Host.dotGeneral dot_S50000x128_S128x128_S50000x128_1_0_0_1_n_n none l r),
    StableHlo.unary main_arg10 main_v54 (broadcastInDim S1x128 ![1] bcast_S128_S1x128_1),
    StableHlo.unary main_v54 main_v55 (broadcastInDim S50000x128 ![0, 1] bcast_S1x128_S50000x128_0_1),
    StableHlo.binary main_v53 main_v55 main_v56 addf,
    StableHlo.binary main_arg0 main_v56 main_v57 addf,
    StableHlo.nullary main_cst_11 (constant S_ .f32 0x00000000#32),
    StableHlo.binary main_v57 main_cst_11 main_v58 (fun x v => Host.reduceAdd x v reducesTo_S50000x128_S128_d0 h_S_),
    StableHlo.nullary main_cst_12 (constant S_ .f32 0x47435000#32),
    StableHlo.unary main_cst_12 main_v59 (broadcastInDim S128 ![] bcast_S_S128),
    StableHlo.binary main_v58 main_v59 main_v60 Host.divf,
    StableHlo.nullary main_c_13 (constantI S_ 32 0#32),
    StableHlo.TRef.nullary main_call1.cst (constant S_ .f32 0x00000000#32),
    StableHlo.TRef.binary (.of main_v57 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v57 : StableHlo.TRef sig ⟨S50000x128, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32) ]

abbrev ops1_1 : List (HloOp τ sig (Elt F)) :=
  [ StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v60 main_v62 (broadcastInDim S1x128 ![1] bcast_S128_S1x128_1),
    StableHlo.unary main_v62 main_v63 (broadcastInDim S50000x128 ![0, 1] bcast_S1x128_S50000x128_0_1),
    StableHlo.binary main_v57 main_v63 main_v64 subf,
    StableHlo.nullary main_cst_14 (constant S_ .f32 0x3727C5AC#32),
    StableHlo.unary main_cst_14 main_v65 (broadcastInDim S128 ![] bcast_S_S128),
    StableHlo.binary main_v61 main_v65 main_v66 addf,
    StableHlo.unary main_v66 main_v67 Host.rsqrt,
    StableHlo.unary main_v67 main_v68 (broadcastInDim S1x128 ![1] bcast_S128_S1x128_1),
    StableHlo.unary main_v68 main_v69 (broadcastInDim S50000x128 ![0, 1] bcast_S1x128_S50000x128_0_1),
    StableHlo.binary main_v64 main_v69 main_v70 mulf,
    StableHlo.unary main_arg13 main_v71 (broadcastInDim S1x128 ![1] bcast_S128_S1x128_1),
    StableHlo.unary main_v71 main_v72 (broadcastInDim S50000x128 ![0, 1] bcast_S1x128_S50000x128_0_1),
    StableHlo.binary main_v70 main_v72 main_v73 mulf,
    StableHlo.unary main_arg14 main_v74 (broadcastInDim S1x128 ![1] bcast_S128_S1x128_1),
    StableHlo.unary main_v74 main_v75 (broadcastInDim S50000x128 ![0, 1] bcast_S1x128_S50000x128_0_1),
    StableHlo.binary main_v73 main_v75 main_v76 addf,
    StableHlo.binary main_v26 main_arg11 main_v77 (fun l r => Host.dotGeneral dot_S500000x128_S128x128_S500000x128_1_0_0_1_n_n none l r),
    StableHlo.unary main_arg12 main_v78 (broadcastInDim S1x128 ![1] bcast_S128_S1x128_1),
    StableHlo.unary main_v78 main_v79 (broadcastInDim S500000x128 ![0, 1] bcast_S1x128_S500000x128_0_1),
    StableHlo.binary main_v77 main_v79 main_v80 addf,
    StableHlo.binary main_arg1 main_v80 main_v81 addf,
    StableHlo.nullary main_cst_15 (constant S_ .f32 0x00000000#32),
    StableHlo.binary main_v81 main_cst_15 main_v82 (fun x v => Host.reduceAdd x v reducesTo_S500000x128_S128_d0 h_S_),
    StableHlo.nullary main_cst_16 (constant S_ .f32 0x48F42400#32),
    StableHlo.unary main_cst_16 main_v83 (broadcastInDim S128 ![] bcast_S_S128),
    StableHlo.binary main_v82 main_v83 main_v84 Host.divf,
    StableHlo.nullary main_c_17 (constantI S_ 32 0#32),
    StableHlo.TRef.nullary main_call2.cst (constant S_ .f32 0x00000000#32),
    StableHlo.TRef.binary (.of main_v81 : StableHlo.TRef sig ⟨S500000x128, .f32⟩) main_call2.cst main_call2.v0 (fun x v => Host.reduceAdd x v reducesTo_S500000x128_S128_d0 h_S_) ]

abbrev ops1_2 : List (HloOp τ sig (Elt F)) :=
  [ StableHlo.TRef.unary main_call2.v0 main_call2.v1 (broadcastInDim S1x128 ![1] bcast_S128_S1x128_1),
    StableHlo.TRef.nullary main_call2.cst_0 (constant S_ .f32 0x48F42400#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S500000x128 ![0, 1] bcast_S1x128_S500000x128_0_1),
    StableHlo.TRef.binary (.of main_v81 : StableHlo.TRef sig ⟨S500000x128, .f32⟩) main_call2.v4 main_call2.v5 subf,
    StableHlo.TRef.binary main_call2.v5 main_call2.v5 main_call2.v6 mulf,
    StableHlo.TRef.unary (.of main_c_17 : StableHlo.TRef sig ⟨S_, .i32⟩) main_call2.v7 (sitofp .f32),
    StableHlo.TRef.nullary main_call2.cst_1 (constant S_ .f32 0x48F42400#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S500000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v84 main_v86 (broadcastInDim S1x128 ![1] bcast_S128_S1x128_1),
    StableHlo.unary main_v86 main_v87 (broadcastInDim S500000x128 ![0, 1] bcast_S1x128_S500000x128_0_1),
    StableHlo.binary main_v81 main_v87 main_v88 subf,
    StableHlo.nullary main_cst_18 (constant S_ .f32 0x3727C5AC#32),
    StableHlo.unary main_cst_18 main_v89 (broadcastInDim S128 ![] bcast_S_S128),
    StableHlo.binary main_v85 main_v89 main_v90 addf,
    StableHlo.unary main_v90 main_v91 Host.rsqrt,
    StableHlo.unary main_v91 main_v92 (broadcastInDim S1x128 ![1] bcast_S128_S1x128_1),
    StableHlo.unary main_v92 main_v93 (broadcastInDim S500000x128 ![0, 1] bcast_S1x128_S500000x128_0_1),
    StableHlo.binary main_v88 main_v93 main_v94 mulf,
    StableHlo.unary main_arg15 main_v95 (broadcastInDim S1x128 ![1] bcast_S128_S1x128_1),
    StableHlo.unary main_v95 main_v96 (broadcastInDim S500000x128 ![0, 1] bcast_S1x128_S500000x128_0_1),
    StableHlo.binary main_v94 main_v96 main_v97 mulf,
    StableHlo.unary main_arg16 main_v98 (broadcastInDim S1x128 ![1] bcast_S128_S1x128_1) ]

abbrev part1 : List (HloOp τ sig (Elt F)) := ops1_0 (F := F) ++ ops1_1 (F := F) ++ ops1_2 (F := F)

abbrev ops2_0 : List (HloOp τ sig (Elt F)) :=
  [ StableHlo.unary main_v98 main_v99 (broadcastInDim S500000x128 ![0, 1] bcast_S1x128_S500000x128_0_1),
    StableHlo.binary main_v97 main_v99 main_v100 addf,
    StableHlo.binary main_v76 main_arg17 main_v101 (fun l r => Host.dotGeneral dot_S50000x128_S128x256_S50000x256_1_0_0_1_n_n none l r),
    StableHlo.unary main_arg18 main_v102 (broadcastInDim S1x256 ![1] bcast_S256_S1x256_1),
    StableHlo.unary main_v102 main_v103 (broadcastInDim S50000x256 ![0, 1] bcast_S1x256_S50000x256_0_1),
    StableHlo.binary main_v101 main_v103 main_v104 addf,
    StableHlo.TRef.nullary main_call3.cst (constant S_ .f32 0x00000000#32),
    StableHlo.TRef.unary main_call3.cst main_call3.v0 (broadcastInDim S50000x256 ![] bcast_S_S50000x256),
    StableHlo.TRef.binary (.of main_v104 : StableHlo.TRef sig ⟨S50000x256, .f32⟩) main_call3.v0 main_call3.v1 maximumf,
    StableHlo.binary main_v105 main_arg19 main_v106 (fun l r => Host.dotGeneral dot_S50000x256_S256x128_S50000x128_1_0_0_1_n_n none l r),
    StableHlo.unary main_arg20 main_v107 (broadcastInDim S1x128 ![1] bcast_S128_S1x128_1),
    StableHlo.unary main_v107 main_v108 (broadcastInDim S50000x128 ![0, 1] bcast_S1x128_S50000x128_0_1),
    StableHlo.binary main_v106 main_v108 main_v109 addf,
    StableHlo.binary main_v76 main_v109 main_v110 addf,
    StableHlo.nullary main_cst_19 (constant S_ .f32 0x00000000#32),
    StableHlo.binary main_v110 main_cst_19 main_v111 (fun x v => Host.reduceAdd x v reducesTo_S50000x128_S128_d0 h_S_),
    StableHlo.nullary main_cst_20 (constant S_ .f32 0x47435000#32),
    StableHlo.unary main_cst_20 main_v112 (broadcastInDim S128 ![] bcast_S_S128),
    StableHlo.binary main_v111 main_v112 main_v113 Host.divf,
    StableHlo.nullary main_c_21 (constantI S_ 32 0#32),
    StableHlo.TRef.nullary main_call4.cst (constant S_ .f32 0x00000000#32),
    StableHlo.TRef.binary (.of main_v110 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v110 : StableHlo.TRef sig ⟨S50000x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf ]

abbrev ops2_1 : List (HloOp τ sig (Elt F)) :=
  [ StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v113 main_v115 (broadcastInDim S1x128 ![1] bcast_S128_S1x128_1),
    StableHlo.unary main_v115 main_v116 (broadcastInDim S50000x128 ![0, 1] bcast_S1x128_S50000x128_0_1),
    StableHlo.binary main_v110 main_v116 main_v117 subf,
    StableHlo.nullary main_cst_22 (constant S_ .f32 0x3727C5AC#32),
    StableHlo.unary main_cst_22 main_v118 (broadcastInDim S128 ![] bcast_S_S128),
    StableHlo.binary main_v114 main_v118 main_v119 addf,
    StableHlo.unary main_v119 main_v120 Host.rsqrt,
    StableHlo.unary main_v120 main_v121 (broadcastInDim S1x128 ![1] bcast_S128_S1x128_1),
    StableHlo.unary main_v121 main_v122 (broadcastInDim S50000x128 ![0, 1] bcast_S1x128_S50000x128_0_1),
    StableHlo.binary main_v117 main_v122 main_v123 mulf,
    StableHlo.unary main_arg25 main_v124 (broadcastInDim S1x128 ![1] bcast_S128_S1x128_1),
    StableHlo.unary main_v124 main_v125 (broadcastInDim S50000x128 ![0, 1] bcast_S1x128_S50000x128_0_1),
    StableHlo.binary main_v123 main_v125 main_v126 mulf,
    StableHlo.unary main_arg26 main_v127 (broadcastInDim S1x128 ![1] bcast_S128_S1x128_1),
    StableHlo.unary main_v127 main_v128 (broadcastInDim S50000x128 ![0, 1] bcast_S1x128_S50000x128_0_1),
    StableHlo.binary main_v126 main_v128 main_v129 addf,
    StableHlo.binary main_v100 main_arg21 main_v130 (fun l r => Host.dotGeneral dot_S500000x128_S128x256_S500000x256_1_0_0_1_n_n none l r),
    StableHlo.unary main_arg22 main_v131 (broadcastInDim S1x256 ![1] bcast_S256_S1x256_1),
    StableHlo.unary main_v131 main_v132 (broadcastInDim S500000x256 ![0, 1] bcast_S1x256_S500000x256_0_1),
    StableHlo.binary main_v130 main_v132 main_v133 addf,
    StableHlo.TRef.nullary main_call5.cst (constant S_ .f32 0x00000000#32),
    StableHlo.TRef.unary main_call5.cst main_call5.v0 (broadcastInDim S500000x256 ![] bcast_S_S500000x256),
    StableHlo.TRef.binary (.of main_v133 : StableHlo.TRef sig ⟨S500000x256, .f32⟩) main_call5.v0 main_call5.v1 maximumf,
    StableHlo.binary main_v134 main_arg23 main_v135 (fun l r => Host.dotGeneral dot_S500000x256_S256x128_S500000x128_1_0_0_1_n_n none l r),
    StableHlo.unary main_arg24 main_v136 (broadcastInDim S1x128 ![1] bcast_S128_S1x128_1),
    StableHlo.unary main_v136 main_v137 (broadcastInDim S500000x128 ![0, 1] bcast_S1x128_S500000x128_0_1),
    StableHlo.binary main_v135 main_v137 main_v138 addf,
    StableHlo.binary main_v100 main_v138 main_v139 addf,
    StableHlo.nullary main_cst_23 (constant S_ .f32 0x00000000#32),
    StableHlo.binary main_v139 main_cst_23 main_v140 (fun x v => Host.reduceAdd x v reducesTo_S500000x128_S128_d0 h_S_) ]

abbrev ops2_2 : List (HloOp τ sig (Elt F)) :=
  [ StableHlo.nullary main_cst_24 (constant S_ .f32 0x48F42400#32),
    StableHlo.unary main_cst_24 main_v141 (broadcastInDim S128 ![] bcast_S_S128),
    StableHlo.binary main_v140 main_v141 main_v142 Host.divf,
    StableHlo.nullary main_c_25 (constantI S_ 32 0#32),
    StableHlo.TRef.nullary main_call6.cst (constant S_ .f32 0x00000000#32),
    StableHlo.TRef.binary (.of main_v139 : StableHlo.TRef sig ⟨S500000x128, .f32⟩) main_call6.cst main_call6.v0 (fun x v => Host.reduceAdd x v reducesTo_S500000x128_S128_d0 h_S_),
    StableHlo.TRef.unary main_call6.v0 main_call6.v1 (broadcastInDim S1x128 ![1] bcast_S128_S1x128_1),
    StableHlo.TRef.nullary main_call6.cst_0 (constant S_ .f32 0x48F42400#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S500000x128 ![0, 1] bcast_S1x128_S500000x128_0_1),
    StableHlo.TRef.binary (.of main_v139 : StableHlo.TRef sig ⟨S500000x128, .f32⟩) main_call6.v4 main_call6.v5 subf,
    StableHlo.TRef.binary main_call6.v5 main_call6.v5 main_call6.v6 mulf,
    StableHlo.TRef.unary (.of main_c_25 : StableHlo.TRef sig ⟨S_, .i32⟩) main_call6.v7 (sitofp .f32),
    StableHlo.TRef.nullary main_call6.cst_1 (constant S_ .f32 0x48F42400#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S500000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v142 main_v144 (broadcastInDim S1x128 ![1] bcast_S128_S1x128_1),
    StableHlo.unary main_v144 main_v145 (broadcastInDim S500000x128 ![0, 1] bcast_S1x128_S500000x128_0_1),
    StableHlo.binary main_v139 main_v145 main_v146 subf,
    StableHlo.nullary main_cst_26 (constant S_ .f32 0x3727C5AC#32),
    StableHlo.unary main_cst_26 main_v147 (broadcastInDim S128 ![] bcast_S_S128),
    StableHlo.binary main_v143 main_v147 main_v148 addf,
    StableHlo.unary main_v148 main_v149 Host.rsqrt,
    StableHlo.unary main_v149 main_v150 (broadcastInDim S1x128 ![1] bcast_S128_S1x128_1) ]

abbrev part2 : List (HloOp τ sig (Elt F)) := ops2_0 (F := F) ++ ops2_1 (F := F) ++ ops2_2 (F := F)

abbrev ops3_0 : List (HloOp τ sig (Elt F)) :=
  [ StableHlo.unary main_v150 main_v151 (broadcastInDim S500000x128 ![0, 1] bcast_S1x128_S500000x128_0_1),
    StableHlo.binary main_v146 main_v151 main_v152 mulf,
    StableHlo.unary main_arg27 main_v153 (broadcastInDim S1x128 ![1] bcast_S128_S1x128_1),
    StableHlo.unary main_v153 main_v154 (broadcastInDim S500000x128 ![0, 1] bcast_S1x128_S500000x128_0_1),
    StableHlo.binary main_v152 main_v154 main_v155 mulf,
    StableHlo.unary main_arg28 main_v156 (broadcastInDim S1x128 ![1] bcast_S128_S1x128_1),
    StableHlo.unary main_v156 main_v157 (broadcastInDim S500000x128 ![0, 1] bcast_S1x128_S500000x128_0_1),
    StableHlo.binary main_v155 main_v157 main_v158 addf ]

abbrev part3 : List (HloOp τ sig (Elt F)) := ops3_0 (F := F)

abbrev ops : List (HloOp τ sig (Elt F)) := part0 (F := F) ++ (part1 (F := F) ++ (part2 (F := F) ++ (part3 (F := F))))

end Cert.ReferenceIdeal.RunH

end
-- ==== Proof.Reference.Run.lean ====
import proofs.«121852_j34351148433892_2_alg».proof.Proof.Reference.Ops
import Idealize.ShloMosaic.Lib.StableHlo.Run
import Mathlib.Data.List.Basic

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

section
set_option maxRecDepth 8192
set_option maxHeartbeats 4000000

theorem main_part0_eq (c : Dev nD) : main_part0 (F := F) c = seq part0 := rfl
theorem main_part1_eq (c : Dev nD) : main_part1 (F := F) c = seq part1 := rfl
theorem main_part2_eq (c : Dev nD) : main_part2 (F := F) c = seq part2 := rfl

end

theorem main_part3_eq (c : Dev nD) : main_part3 (F := F) c = seq part3 := rfl

/-- The program is four straight lines run in order, and lines run in order are their concatenation run as one line. -/
theorem main_eq (c : Dev nD) : main (F := F) c = seq ops := by
  show (main_part0 c >>= fun _ => main_part1 c >>= fun _ => main_part2 c >>= fun _ => main_part3 c)
    = seq (part0 ++ (part1 ++ (part2 ++ part3)))
  rw [main_part0_eq c, main_part1_eq c, main_part2_eq c, main_part3_eq c]
  exact ((seq_append part0 _).trans (congrArg (seq part0 >>= ·) (funext fun _ =>
    (seq_append part1 _).trans (congrArg (seq part1 >>= ·) (funext fun _ => seq_append part2 part3))))).symm

abbrev Tame (op : HloOp τ sig (Elt F)) : Prop := op.bufs ⊆ tcRefs τ sig ∧ op.fresh = ∅

macro "tame_one" : tactic =>
  `(tactic| exact ⟨by (first | with_reducible exact nullary_bufs_sub .. | with_reducible exact unary_bufs_sub ..
                             | with_reducible exact binary_bufs_sub .. | with_reducible exact ternary_bufs_sub ..
                             | with_reducible exact reshape_bufs_sub ..), rfl⟩)

syntax "tame_all" : tactic
macro_rules
  | `(tactic| tame_all) => `(tactic| first | (refine ⟨?_, ?_⟩ <;> [tame_one; tame_all]) | tame_one)

set_option maxRecDepth 8192 in
/-- Every operation's buffers are among the program's own, and it leaves none of them undetermined. -/
theorem ops_tame : (ops : List (HloOp τ sig (Elt F))).Forall Tame := by
  refine List.forall_append.mpr ⟨List.forall_append.mpr ⟨?_, ?_⟩,
    List.forall_append.mpr ⟨List.forall_append.mpr ⟨List.forall_append.mpr ⟨?_, ?_⟩, ?_⟩,
      List.forall_append.mpr ⟨List.forall_append.mpr ⟨List.forall_append.mpr ⟨?_, ?_⟩, ?_⟩, ?_⟩⟩⟩ <;> tame_all

theorem ops_sub : (ops : List (HloOp τ sig (Elt F))).Forall fun op => op.bufs ⊆ tcRefs τ sig :=
  ops_tame.imp fun _ h => h.1

theorem ops_fresh : ∀ op ∈ (ops : List (HloOp τ sig (Elt F))), op.fresh = ∅ :=
  fun op h => (List.forall_iff_forall_mem.mp ops_tame op h).2

theorem scopedRefs_eq : (Finset.univ.filter fun b : Ref sig .tc => b.isScoped) = ∅ := by decide
theorem scopedSems_eq : (Finset.univ.filter fun sm : SemLoc sig => sm.isScoped .tc) = ∅ := by decide

/-- A straight line terminates under every weakly fair execution, and each buffer then holds the fold of the line's results over the starting contents. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD, ∀ b : Ref sig .tc,
      r.2.mem ((c.tc : Thread nD τ).loc b) = StableHlo.after ops (fun b => m ((c : Dev nD), b)) (Proc.devRef .tc b)) :=
  run_seq scopedRefs_eq scopedSems_eq defs main (fun _ => ops) main_eq (fun _ => ops_sub) m ρ (fun _ => ops_fresh)

end Cert.ReferenceIdeal.RunH

end
-- ==== Proof.Reference.Written.lean ====
import proofs.«121852_j34351148433892_2_alg».proof.Proof.Reference.Ops

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev opsW : List (Ref sig .tc) :=
  [main_v0, main_v1, main_v2, main_v3, main_v4, main_v5, main_v6, main_v7, main_c, main_v8, main_v9, main_c_0, main_v10, main_v11, main_v12, main_v13, main_v14, main_c_1, main_v15, main_v16, main_c_2, main_v17, main_v18, main_v19, main_v20, main_v21, main_v22, main_cst, main_v23, main_v24, main_v25, main_v26, main_cst_3,
   main_v27, main_v28, main_cst_4, main_cst_5, main_call0.v0.ref, main_call0.v1.ref, main_call0.v2.ref, main_call0.v3.ref, main_call0.v4.ref, main_call0.v5.ref, main_v30, main_c_6, main_v31, main_v32, main_c_7, main_v33, main_v34, main_v35, main_v36, main_v37, main_v38, main_v39, main_v40, main_v41, main_cst_8, main_v42, main_v43, main_v44, main_cst_9, main_v45, main_v46, main_v47,
   main_cst_10, main_v48, main_v49, main_v50, main_v51, main_v52, main_v53, main_v54, main_v55, main_v56, main_v57, main_cst_11, main_v58, main_cst_12, main_v59, main_v60, main_c_13, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref,
   main_call1.v12.ref, main_call1.cst_4.ref, main_call1.call0.v0.ref, main_call1.call0.v1.ref, main_call1.call0.v2.ref, main_v62, main_v63, main_v64, main_cst_14, main_v65, main_v66, main_v67, main_v68, main_v69, main_v70, main_v71, main_v72, main_v73, main_v74, main_v75, main_v76, main_v77, main_v78, main_v79, main_v80, main_v81, main_cst_15, main_v82, main_cst_16, main_v83, main_v84, main_c_17, main_call2.cst.ref, main_call2.v0.ref,
   main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v86, main_v87, main_v88, main_cst_18, main_v89, main_v90, main_v91, main_v92, main_v93, main_v94, main_v95, main_v96, main_v97, main_v98,
   main_v99, main_v100, main_v101, main_v102, main_v103, main_v104, main_call3.cst.ref, main_call3.v0.ref, main_call3.v1.ref, main_v106, main_v107, main_v108, main_v109, main_v110, main_cst_19, main_v111, main_cst_20, main_v112, main_v113, main_c_21, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref,
   main_call4.cst_3.ref, main_call4.v12.ref, main_call4.cst_4.ref, main_call4.call0.v0.ref, main_call4.call0.v1.ref, main_call4.call0.v2.ref, main_v115, main_v116, main_v117, main_cst_22, main_v118, main_v119, main_v120, main_v121, main_v122, main_v123, main_v124, main_v125, main_v126, main_v127, main_v128, main_v129, main_v130, main_v131, main_v132, main_v133, main_call5.cst.ref, main_call5.v0.ref, main_call5.v1.ref, main_v135, main_v136, main_v137, main_v138, main_v139, main_cst_23, main_v140,
   main_cst_24, main_v141, main_v142, main_c_25, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v144, main_v145, main_v146, main_cst_26, main_v147, main_v148, main_v149, main_v150,
   main_v151, main_v152, main_v153, main_v154, main_v155, main_v156, main_v157, main_v158]

end Cert.ReferenceIdeal.RunH

end
-- ==== Proof.Reference.Keep.lean ====
import proofs.«121852_j34351148433892_2_alg».proof.Proof.Reference.Run
import proofs.«121852_j34351148433892_2_alg».proof.Proof.Reference.Written
import Mathlib.Data.List.Basic
import Mathlib.Data.Finset.Basic

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev WritesListed (op : HloOp τ sig (Elt F)) : Prop :=
  op.writes ⊆ (opsW.map (Proc.devRef (τ := τ) .tc)).toFinset

macro "writes_one" : tactic =>
  `(tactic| exact Finset.singleton_subset_iff.mpr (List.mem_toFinset.mpr (List.mem_map_of_mem (by decide +kernel))))

syntax "writes_all" : tactic
macro_rules
  | `(tactic| writes_all) => `(tactic| first | (refine ⟨?_, ?_⟩ <;> [writes_one; writes_all]) | writes_one)

set_option maxRecDepth 8192 in
/-- Each operation writes exactly its result's buffer, and that buffer is in the list of written buffers. -/
theorem ops_writes : (ops : List (HloOp τ sig (Elt F))).Forall WritesListed := by
  refine List.forall_append.mpr ⟨List.forall_append.mpr ⟨?_, ?_⟩,
    List.forall_append.mpr ⟨List.forall_append.mpr ⟨List.forall_append.mpr ⟨?_, ?_⟩, ?_⟩,
      List.forall_append.mpr ⟨List.forall_append.mpr ⟨List.forall_append.mpr ⟨?_, ?_⟩, ?_⟩, ?_⟩⟩⟩ <;> writes_all

/-- A buffer no operation writes keeps its contents through the whole line. -/
theorem arg_keep (V : Valuation τ sig (Elt F)) (b : Ref sig .tc) (hb : b ∉ opsW) :
    StableHlo.after ops V (Proc.devRef .tc b) = V (Proc.devRef .tc b) :=
  after_of_writes_sub ops V ops_writes hb

/-- No argument buffer is written, so every argument array ends as it started. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run _ _ _).mono (fun _ h c => by
    and_intros <;> exact (h c _).trans (arg_keep _ _ (by decide +kernel))) (run m ρ)

end Cert.ReferenceIdeal.RunH

end
-- ==== Proof.Frames.lean ====
import proofs.«121852_j34351148433892_2_alg».proof.Defs
import proofs.«121852_j34351148433892_2_alg».proof.Proof.Kernel.RunAll
import proofs.«121852_j34351148433892_2_alg».proof.Proof.KernelIdeal.RunAll
import proofs.«121852_j34351148433892_2_alg».proof.Proof.Reference.Keep
import proofs.«121852_j34351148433892_2_alg».proof.Proof.Gen.Pre_finite_inputs

set_option maxRecDepth 16384

noncomputable section

namespace Cert.Proof

open Idealize.ShloMosaic Idealize.SL.Sem

-- Every argument ends at the last contents of the fold, and the fold never writes an argument.
theorem frame_k : Cert.frame_Kernel := fun m ρ _ =>
  (θ_run (Cert.Kernel.defs (F := Bits)) _ _).mono (fun r h c => by
      and_intros <;> exact (h c _ (Cert.Kernel.Hand.mem_uc _ (by decide))).trans
        (Cert.Kernel.Hand.Wend_keep m ρ c _ (by decide)))
    (Cert.Kernel.Hand.run_all (F := Bits) m ρ)

theorem frame_ki : Cert.frame_KernelIdeal := fun m ρ _ =>
  (θ_run (Cert.KernelIdeal.defs (F := Ideal)) _ _).mono (fun r h c => by
      and_intros <;> exact (h c _ (Cert.KernelIdeal.Hand.mem_uc _ (by decide))).trans
        (Cert.KernelIdeal.Hand.Wend_keep m ρ c _ (by decide)))
    (Cert.KernelIdeal.Hand.run_all (F := Ideal) m ρ)

theorem frame_ri : Cert.frame_ReferenceIdeal := fun m ρ _ => Cert.ReferenceIdeal.RunH.frame (F := Ideal) m ρ

end Cert.Proof

end
-- ==== Proof.Spec.lean ====
import Idealize.ShloMosaic.PureOps.Ideal

open scoped BigOperators

noncomputable section

namespace Cert.Spec

structure Args where
  v : Fin 50000 → Fin 128 → ℝ
  e : Fin 500000 → Fin 128 → ℝ
  env : Fin 500000 → ℝ
  gs : Fin 500000 → Fin 50000
  gd : Fin 500000 → Fin 50000
  sd : Fin 500000 → Option (Fin 50000)
  WQ : Fin 128 → Fin 128 → ℝ
  WK : Fin 128 → Fin 128 → ℝ
  WV : Fin 128 → Fin 128 → ℝ
  We : Fin 128 → Fin 128 → ℝ
  WOv : Fin 128 → Fin 128 → ℝ
  WOe : Fin 128 → Fin 128 → ℝ
  bOv : Fin 128 → ℝ
  bOe : Fin 128 → ℝ
  g1v : Fin 128 → ℝ
  b1v : Fin 128 → ℝ
  g1e : Fin 128 → ℝ
  b1e : Fin 128 → ℝ
  g2v : Fin 128 → ℝ
  b2v : Fin 128 → ℝ
  g2e : Fin 128 → ℝ
  b2e : Fin 128 → ℝ
  W1v : Fin 128 → Fin 256 → ℝ
  W1e : Fin 128 → Fin 256 → ℝ
  c1v : Fin 256 → ℝ
  c1e : Fin 256 → ℝ
  W2v : Fin 256 → Fin 128 → ℝ
  W2e : Fin 256 → Fin 128 → ℝ
  c2v : Fin 128 → ℝ
  c2e : Fin 128 → ℝ
  eps5 : ℝ
  eps6 : ℝ
  heps5 : 0 < eps5
  heps6 : 0 < eps6

def hd (d : Fin 128) : Fin 8 := ⟨d.val / 16, by have := d.isLt; omega⟩

def lane (h : Fin 8) (j : Fin 16) : Fin 128 :=
  ⟨16 * h.val + j.val, by have := h.isLt; have := j.isLt; omega⟩

variable (a : Args)

def Q (n : Fin 50000) (d : Fin 128) : ℝ := ∑ k, a.v n k * a.WQ k d
def K (n : Fin 50000) (d : Fin 128) : ℝ := ∑ k, a.v n k * a.WK k d
def Vv (n : Fin 50000) (d : Fin 128) : ℝ := ∑ k, a.v n k * a.WV k d
def pe (r : Fin 500000) (d : Fin 128) : ℝ := ∑ k, a.e r k * a.We k d

def score (r : Fin 500000) (d : Fin 128) : ℝ :=
  K a (a.gs r) d * Q a (a.gd r) d / 4 * pe a r d

def hsum (r : Fin 500000) (h : Fin 8) : ℝ := ∑ j : Fin 16, score a r (lane h j)

def s (r : Fin 500000) (h : Fin 8) : ℝ := Real.exp (min 5 (max (-5) (hsum a r h)))

def msg (r : Fin 500000) (d : Fin 128) : ℝ := Vv a (a.gs r) d * a.env r * s a r (hd d)

def wV (n : Fin 50000) (d : Fin 128) : ℝ :=
  ∑ r ∈ Finset.univ.filter (fun r => a.sd r = some n), msg a r d

def z (n : Fin 50000) (h : Fin 8) : ℝ :=
  ∑ r ∈ Finset.univ.filter (fun r => a.sd r = some n), s a r h

def vattn (n : Fin 50000) (d : Fin 128) : ℝ := wV a n d / (z a n (hd d) + a.eps6)

def preV1 (n : Fin 50000) (d : Fin 128) : ℝ :=
  a.v n d + (∑ k, vattn a n k * a.WOv k d + a.bOv d)

def preE1 (r : Fin 500000) (d : Fin 128) : ℝ :=
  a.e r d + (∑ k, score a r k * a.WOe k d + a.bOe d)

def mean {M : ℕ} (x : Fin M → Fin 128 → ℝ) (d : Fin 128) : ℝ := (∑ i, x i d) / (M : ℝ)

def var {M : ℕ} (x : Fin M → Fin 128 → ℝ) (d : Fin 128) : ℝ :=
  (∑ i, (x i d - mean x d) ^ 2) / (M : ℝ)

def bn {M : ℕ} (x : Fin M → Fin 128 → ℝ) (g b : Fin 128 → ℝ) (eps : ℝ)
    (i : Fin M) (d : Fin 128) : ℝ :=
  (x i d - mean x d) * (Real.sqrt (var x d + eps))⁻¹ * g d + b d

def ffn {M : ℕ} (x : Fin M → Fin 128 → ℝ) (W1 : Fin 128 → Fin 256 → ℝ) (c1 : Fin 256 → ℝ)
    (W2 : Fin 256 → Fin 128 → ℝ) (c2 : Fin 128 → ℝ) (i : Fin M) (d : Fin 128) : ℝ :=
  x i d + (∑ k, max (∑ j, x i j * W1 j k + c1 k) 0 * W2 k d + c2 d)

def v1 : Fin 50000 → Fin 128 → ℝ := bn (preV1 a) a.g1v a.b1v a.eps5
def e1 : Fin 500000 → Fin 128 → ℝ := bn (preE1 a) a.g1e a.b1e a.eps5

def fV : Fin 50000 → Fin 128 → ℝ := ffn (v1 a) a.W1v a.c1v a.W2v a.c2v
def fE : Fin 500000 → Fin 128 → ℝ := ffn (e1 a) a.W1e a.c1e a.W2e a.c2e

def outV : Fin 50000 → Fin 128 → ℝ := bn (fV a) a.g2v a.b2v a.eps5
def outE : Fin 500000 → Fin 128 → ℝ := bn (fE a) a.g2e a.b2e a.eps5

end Cert.Spec
-- ==== Proof.SpecLaws.lean ====
import Idealize.ShloMosaic.PureOps.Ideal
import proofs.«121852_j34351148433892_2_alg».proof.Proof.Spec
import Idealize.ShloMosaic.PureOps.Ideal.Laws
import Idealize.ShloMosaic.Lib.ValueIdx
import Mathlib.Algebra.BigOperators.Fin
import Mathlib.Algebra.Order.BigOperators.Group.Finset
import Mathlib.Logic.Equiv.Fin.Basic
import Mathlib.Tactic.Ring
import Mathlib.Tactic.FieldSimp
import Mathlib.Tactic.Positivity
import Mathlib.Tactic.NormNum

open scoped BigOperators
open Idealize.ShloMosaic

namespace Cert.SpecLaws

theorem coe_add (a b : ℝ) : (a : EReal) + (b : EReal) = ((a + b : ℝ) : EReal) :=
  (EReal.coe_add a b).symm

theorem coe_sub (a b : ℝ) : (a : EReal) - (b : EReal) = ((a - b : ℝ) : EReal) :=
  (EReal.coe_sub a b).symm

theorem coe_mul (a b : ℝ) : (a : EReal) * (b : EReal) = ((a * b : ℝ) : EReal) :=
  (EReal.coe_mul a b).symm

theorem coe_zero : (0 : EReal) = ((0 : ℝ) : EReal) := rfl

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem coe_sum_mul {ι : Type*} (s : Finset ι) (f g : ι → ℝ) :
    ∑ i ∈ s, ((f i : ℝ) : EReal) * ((g i : ℝ) : EReal) = ((∑ i ∈ s, f i * g i : ℝ) : EReal) := by
  rw [← coe_sum]; exact Finset.sum_congr rfl fun i _ => coe_mul _ _

theorem coe_add_sum_mul {ι : Type*} (s : Finset ι) (c : ℝ) (f g : ι → ℝ) :
    (c : EReal) + ∑ i ∈ s, ((f i : ℝ) : EReal) * ((g i : ℝ) : EReal)
      = ((c + ∑ i ∈ s, f i * g i : ℝ) : EReal) := by
  rw [coe_sum_mul, coe_add]

theorem coe_add_sum {ι : Type*} (s : Finset ι) (c : ℝ) (f : ι → ℝ) :
    (c : EReal) + ∑ i ∈ s, ((f i : ℝ) : EReal) = ((c + ∑ i ∈ s, f i : ℝ) : EReal) := by
  rw [coe_sum, coe_add]

theorem div_coe (a b : ℝ) (hb : b ≠ 0) :
    Ideal.div (a : EReal) (b : EReal) = ((a / b : ℝ) : EReal) := by
  rw [Ideal.div_coe hb, coe_mul, mul_one_div]

theorem exp_coe (a : ℝ) : Ideal.exp (a : EReal) = ((Real.exp a : ℝ) : EReal) := rfl

theorem rsqrt_coe (a : ℝ) (ha : 0 < a) :
    Ideal.rsqrt (a : EReal) = (((Real.sqrt a)⁻¹ : ℝ) : EReal) := by
  rw [Ideal.rsqrt_coe, if_neg (not_lt.mpr ha.le), if_neg ha.ne']

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

section Named
variable {φ : FTy}

theorem addf_coe (a b : ℝ) :
    FloatOps.addf (F := Ideal) (φ := φ) (a : EReal) (b : EReal) = ((a + b : ℝ) : EReal) := coe_add a b

theorem subf_coe (a b : ℝ) :
    FloatOps.subf (F := Ideal) (φ := φ) (a : EReal) (b : EReal) = ((a - b : ℝ) : EReal) := coe_sub a b

theorem mulf_coe (a b : ℝ) :
    FloatOps.mulf (F := Ideal) (φ := φ) (a : EReal) (b : EReal) = ((a * b : ℝ) : EReal) := coe_mul a b

theorem hostDivf_coe (a b : ℝ) (hb : b ≠ 0) :
    FloatOps.hostDivf (F := Ideal) (φ := φ) (a : EReal) (b : EReal) = ((a / b : ℝ) : EReal) := div_coe a b hb

theorem maximumf_coe (a b : ℝ) :
    FloatOps.maximumf (F := Ideal) (φ := φ) (a : EReal) (b : EReal) = ((max a b : ℝ) : EReal) := max_coe a b

theorem hostRsqrt_coe (a : ℝ) (ha : 0 < a) :
    FloatOps.hostUnary (F := Ideal) (φ := φ) .rsqrt (a : EReal) = (((Real.sqrt a)⁻¹ : ℝ) : EReal) :=
  rsqrt_coe a ha

end Named

theorem lit_zero : Ideal.ofBits .f32 0x00000000#32 = ((0 : ℝ) : EReal) := Ideal.ofBits_zero_f32

theorem lit_one : Ideal.ofBits .f32 0x3F800000#32 = ((1 : ℝ) : EReal) := by
  simp [Ideal.ofBits, Ideal.ieee, -EReal.coe_mul]; norm_num

theorem lit_quarter : Ideal.ofBits .f32 0x3E800000#32 = ((1 / 4 : ℝ) : EReal) := by
  simp [Ideal.ofBits, Ideal.ieee, -EReal.coe_mul]; norm_num

theorem lit_four : Ideal.ofBits .f32 0x40800000#32 = ((4 : ℝ) : EReal) := by
  simp [Ideal.ofBits, Ideal.ieee, -EReal.coe_mul]; norm_num

theorem lit_five : Ideal.ofBits .f32 0x40A00000#32 = ((5 : ℝ) : EReal) := by
  simp [Ideal.ofBits, Ideal.ieee, -EReal.coe_mul]; norm_num

theorem lit_neg_five : Ideal.ofBits .f32 0xC0A00000#32 = ((-5 : ℝ) : EReal) := by
  simp [Ideal.ofBits, Ideal.ieee, -EReal.coe_mul]; norm_num

theorem lit_50000 : Ideal.ofBits .f32 0x47435000#32 = ((50000 : ℝ) : EReal) := by
  simp [Ideal.ofBits, Ideal.ieee, -EReal.coe_mul]; norm_num

theorem lit_500000 : Ideal.ofBits .f32 0x48F42400#32 = ((500000 : ℝ) : EReal) := by
  simp [Ideal.ofBits, Ideal.ieee, -EReal.coe_mul]; norm_num

noncomputable def eps5 : ℝ := 10995116 * (2 : ℝ) ^ (-40 : ℤ)

noncomputable def eps6 : ℝ := 8796093 * (2 : ℝ) ^ (-43 : ℤ)

theorem eps5_pos : 0 < eps5 := by unfold eps5; positivity

theorem eps6_pos : 0 < eps6 := by unfold eps6; positivity

theorem lit_eps5 : Ideal.ofBits .f32 0x3727C5AC#32 = ((eps5 : ℝ) : EReal) := by
  simp [Ideal.ofBits, Ideal.ieee, -EReal.coe_mul, eps5]

theorem lit_eps6 : Ideal.ofBits .f32 0x358637BD#32 = ((eps6 : ℝ) : EReal) := by
  simp [Ideal.ofBits, Ideal.ieee, -EReal.coe_mul, eps6]

theorem cmp_ogt_pos {a : ℝ} (ha : 0 < a) : Ideal.cmp .ogt (a : EReal) ((0 : ℝ) : EReal) = 1#1 := by
  unfold Ideal.cmp
  simp [ha]

theorem sitofp_zero {φ : FTy} :
    FloatOps.sitofp (F := Ideal) φ (0#32) = ((0 : ℝ) : EReal) := by
  show (((0#32 : BitVec 32).toInt : ℝ) : EReal) = _
  simp

-- Row j of tile t, among T tiles of B rows, is row B · t + j.
theorem tile_lt {M T B : ℕ} (h : T * B = M) (t : Fin T) (j : Fin B) : B * t.val + j.val < M := by
  have := t.isLt; have := j.isLt
  calc B * t.val + j.val < B * t.val + B := by omega
    _ = B * (t.val + 1) := by ring
    _ ≤ B * T := Nat.mul_le_mul_left _ (by omega)
    _ = M := by rw [Nat.mul_comm]; exact h

theorem sum_tiles {α : Type*} [AddCommMonoid α] {M : ℕ} (T B : ℕ) (h : T * B = M) (f : Fin M → α) :
    ∑ i, f i = ∑ t : Fin T, ∑ j : Fin B, f ⟨B * t.val + j.val, tile_lt h t j⟩ := by
  subst h
  rw [← finProdFinEquiv.sum_comp, Fintype.sum_prod_type]
  refine Finset.sum_congr rfl fun t _ => Finset.sum_congr rfl fun j _ => ?_
  congr 1
  apply Fin.ext
  simp [finProdFinEquiv, Nat.add_comm]

theorem var_eq {M : ℕ} (hM : (M : ℝ) ≠ 0) (x : Fin M → ℝ) :
    (∑ i, x i * x i) / (M : ℝ) - (∑ i, x i) / (M : ℝ) * ((∑ i, x i) / (M : ℝ))
      = (∑ i, (x i - (∑ i, x i) / (M : ℝ)) ^ 2) / (M : ℝ) := by
  have hx : ∀ i, (x i - (∑ i, x i) / (M : ℝ)) ^ 2
      = x i * x i - 2 * ((∑ i, x i) / (M : ℝ)) * x i + ((∑ i, x i) / (M : ℝ)) ^ 2 := fun i => by ring
  simp only [hx, Finset.sum_add_distrib, Finset.sum_sub_distrib, ← Finset.mul_sum, Finset.sum_const,
    Finset.card_univ, Fintype.card_fin, nsmul_eq_mul]
  field_simp
  ring

theorem var_eq_moments {M : ℕ} (hM : (M : ℝ) ≠ 0) (x : Fin M → Fin 128 → ℝ) (d : Fin 128) :
    (∑ i, x i d * x i d) / (M : ℝ) - Cert.Spec.mean x d * Cert.Spec.mean x d = Cert.Spec.var x d := by
  unfold Cert.Spec.var Cert.Spec.mean
  exact var_eq hM fun i => x i d

theorem var_add_pos {M : ℕ} (x : Fin M → Fin 128 → ℝ) (d : Fin 128) {eps : ℝ} (h : 0 < eps) :
    0 < Cert.Spec.var x d + eps :=
  add_pos_of_nonneg_of_pos (div_nonneg (Finset.sum_nonneg fun _ _ => sq_nonneg _) (Nat.cast_nonneg M)) h

theorem cast_50000_ne : ((50000 : ℕ) : ℝ) ≠ 0 := by norm_num

theorem cast_500000_ne : ((500000 : ℕ) : ℝ) ≠ 0 := by norm_num

theorem cast_50000 : ((50000 : ℕ) : ℝ) = 50000 := by norm_num

theorem cast_500000 : ((500000 : ℕ) : ℝ) = 500000 := by norm_num

theorem z_add_eps_ne (a : Cert.Spec.Args) (n : Fin 50000) (h : Fin 8) :
    Cert.Spec.z a n h + a.eps6 ≠ 0 :=
  (add_pos_of_nonneg_of_pos (Finset.sum_nonneg fun _ _ => (Real.exp_pos _).le) a.heps6).ne'

theorem hd_lane (h : Fin 8) (j : Fin 16) : Cert.Spec.hd (Cert.Spec.lane h j) = h := by
  apply Fin.ext
  have := j.isLt
  simp only [Cert.Spec.hd, Cert.Spec.lane]
  omega

theorem sum_lanes {α : Type*} [AddCommMonoid α] (f : Fin 128 → α) :
    ∑ d, f d = ∑ h : Fin 8, ∑ j : Fin 16, f (Cert.Spec.lane h j) :=
  sum_tiles 8 16 rfl f

theorem onehot_reduce (f : Fin 128 → ℝ) (h : Fin 8) :
    ∑ d : Fin 128, f d * (if Cert.Spec.hd d = h then 1 else 0)
      = ∑ j : Fin 16, f (Cert.Spec.lane h j) := by
  rw [sum_lanes]
  simp only [hd_lane, mul_ite, mul_one, mul_zero]
  rw [Finset.sum_eq_single h]
  · simp
  · intro t _ ht; simp [ht]
  · intro hh; exact absurd (Finset.mem_univ h) hh

theorem onehot_bcast (g : Fin 8 → ℝ) (d : Fin 128) :
    ∑ h : Fin 8, g h * (if Cert.Spec.hd d = h then 1 else 0) = g (Cert.Spec.hd d) := by
  simp [mul_ite, Finset.sum_ite_eq]

theorem hd_eq_iff (d : Fin 128) (h : Fin 8) : Cert.Spec.hd d = h ↔ d.val / 16 = h.val := by
  rw [Fin.ext_iff]; rfl

theorem quarter_regroup (k q p : ℝ) : k * q * p * (1 / 4) = k * q / 4 * p := by ring

theorem sq_eq_mul (x : ℝ) : x ^ 2 = x * x := pow_two x

end Cert.SpecLaws
-- ==== Proof.Bridge.Index.lean ====
import Idealize.ShloMosaic.PureOps

namespace Cert.Bridge

open Idealize.ShloMosaic

def wrapW (w : BitVec 32) : BitVec 32 :=
  Scalar.select (IntOp.cmpi .slt w 0#32) (IntOp.addi w 50000#32) w

def gRow (w : BitVec 32) : Fin 50000 := ⟨min (wrapW w).toInt.toNat 49999, by omega⟩

def sRow (w : BitVec 32) : Option (Fin 50000) :=
  if h : 0 ≤ w.toInt ∧ w.toInt < 50000 then some ⟨w.toInt.toNat, by omega⟩ else none

-- A word selects row n for the scatter exactly when its signed value is n.
theorem sRow_eq_some_iff (w : BitVec 32) (n : Fin 50000) : sRow w = some n ↔ w.toInt = (n.val : Int) := by
  have := n.isLt
  unfold sRow
  split
  · rw [Option.some.injEq, Fin.ext_iff]
    show w.toInt.toNat = n.val ↔ _
    omega
  · exact ⟨nofun, fun e => by omega⟩

end Cert.Bridge
-- ==== Proof.Bridge.Args.lean ====
import proofs.«121852_j34351148433892_2_alg».proof.Proof.Spec
import proofs.«121852_j34351148433892_2_alg».proof.Proof.SpecLaws
import proofs.«121852_j34351148433892_2_alg».proof.Proof.Bridge.Index
import Idealize.ShloMosaic.PureOps.Ideal
import Idealize.ShloMosaic.Lib.ValueIdx

noncomputable section

namespace Cert.Bridge

open Idealize.ShloMosaic Idealize.ShloMosaic.ValueIdx

structure Bufs where
  a0 : (⟨2, ![50000, 128]⟩ : Shape).Idx → EReal
  a1 : (⟨2, ![500000, 128]⟩ : Shape).Idx → EReal
  a2 : (⟨3, ![500000, 1, 1]⟩ : Shape).Idx → EReal
  a3 : (⟨1, ![500000]⟩ : Shape).Idx → BitVec 32
  a4 : (⟨1, ![500000]⟩ : Shape).Idx → BitVec 32
  a5 : (⟨2, ![128, 128]⟩ : Shape).Idx → EReal
  a6 : (⟨2, ![128, 128]⟩ : Shape).Idx → EReal
  a7 : (⟨2, ![128, 128]⟩ : Shape).Idx → EReal
  a8 : (⟨2, ![128, 128]⟩ : Shape).Idx → EReal
  a9 : (⟨2, ![128, 128]⟩ : Shape).Idx → EReal
  a10 : (⟨1, ![128]⟩ : Shape).Idx → EReal
  a11 : (⟨2, ![128, 128]⟩ : Shape).Idx → EReal
  a12 : (⟨1, ![128]⟩ : Shape).Idx → EReal
  a13 : (⟨1, ![128]⟩ : Shape).Idx → EReal
  a14 : (⟨1, ![128]⟩ : Shape).Idx → EReal
  a15 : (⟨1, ![128]⟩ : Shape).Idx → EReal
  a16 : (⟨1, ![128]⟩ : Shape).Idx → EReal
  a17 : (⟨2, ![128, 256]⟩ : Shape).Idx → EReal
  a18 : (⟨1, ![256]⟩ : Shape).Idx → EReal
  a19 : (⟨2, ![256, 128]⟩ : Shape).Idx → EReal
  a20 : (⟨1, ![128]⟩ : Shape).Idx → EReal
  a21 : (⟨2, ![128, 256]⟩ : Shape).Idx → EReal
  a22 : (⟨1, ![256]⟩ : Shape).Idx → EReal
  a23 : (⟨2, ![256, 128]⟩ : Shape).Idx → EReal
  a24 : (⟨1, ![128]⟩ : Shape).Idx → EReal
  a25 : (⟨1, ![128]⟩ : Shape).Idx → EReal
  a26 : (⟨1, ![128]⟩ : Shape).Idx → EReal
  a27 : (⟨1, ![128]⟩ : Shape).Idx → EReal
  a28 : (⟨1, ![128]⟩ : Shape).Idx → EReal

def IsReal {ι : Type} (a : ι → EReal) : Prop := ∀ i, ∃ x : ℝ, a i = (x : EReal)

theorem IsReal.coe_toReal {ι : Type} {a : ι → EReal} (h : IsReal a) (i : ι) : ((a i).toReal : EReal) = a i := by
  obtain ⟨x, hx⟩ := h i
  rw [hx, EReal.toReal_coe]

structure Bufs.Finite (b : Bufs) : Prop where
  h0 : IsReal b.a0
  h1 : IsReal b.a1
  h2 : IsReal b.a2
  h5 : IsReal b.a5
  h6 : IsReal b.a6
  h7 : IsReal b.a7
  h8 : IsReal b.a8
  h9 : IsReal b.a9
  h10 : IsReal b.a10
  h11 : IsReal b.a11
  h12 : IsReal b.a12
  h13 : IsReal b.a13
  h14 : IsReal b.a14
  h15 : IsReal b.a15
  h16 : IsReal b.a16
  h17 : IsReal b.a17
  h18 : IsReal b.a18
  h19 : IsReal b.a19
  h20 : IsReal b.a20
  h21 : IsReal b.a21
  h22 : IsReal b.a22
  h23 : IsReal b.a23
  h24 : IsReal b.a24
  h25 : IsReal b.a25
  h26 : IsReal b.a26
  h27 : IsReal b.a27
  h28 : IsReal b.a28

def E1 {n : ℕ} (f : Fin n → ℝ) : (⟨1, ![n]⟩ : Shape).Idx → EReal := fun i => ((f (i 0) : ℝ) : EReal)

def E2 {n d : ℕ} (f : Fin n → Fin d → ℝ) : (⟨2, ![n, d]⟩ : Shape).Idx → EReal :=
  fun i => ((f (i 0) (i 1) : ℝ) : EReal)

def E3 {n : ℕ} (f : Fin n → ℝ) : (⟨3, ![n, 1, 1]⟩ : Shape).Idx → EReal := fun i => ((f (i 0) : ℝ) : EReal)

@[simp] theorem E1_apply {n : ℕ} (f : Fin n → ℝ) (a : Fin n) : E1 f (ix1 a) = ((f a : ℝ) : EReal) := rfl
@[simp] theorem E2_apply {n d : ℕ} (f : Fin n → Fin d → ℝ) (a : Fin n) (c : Fin d) :
    E2 f (ix2 a c) = ((f a c : ℝ) : EReal) := rfl
@[simp] theorem E3_apply {n : ℕ} (f : Fin n → ℝ) (a : Fin n) (c c' : Fin 1) :
    E3 f (ix3 a c c') = ((f a : ℝ) : EReal) := rfl
theorem E1_idx {n : ℕ} (f : Fin n → ℝ) (i : (⟨1, ![n]⟩ : Shape).Idx) : E1 f i = ((f (i 0) : ℝ) : EReal) := rfl
theorem E2_idx {n d : ℕ} (f : Fin n → Fin d → ℝ) (i : (⟨2, ![n, d]⟩ : Shape).Idx) :
    E2 f i = ((f (i 0) (i 1) : ℝ) : EReal) := rfl
theorem E3_idx {n : ℕ} (f : Fin n → ℝ) (i : (⟨3, ![n, 1, 1]⟩ : Shape).Idx) : E3 f i = ((f (i 0) : ℝ) : EReal) := rfl

theorem eq_E1 {n : ℕ} {a : (⟨1, ![n]⟩ : Shape).Idx → EReal} (h : IsReal a) :
    a = E1 fun k => (a (ix1 k)).toReal := by
  funext i
  rw [E1_idx, h.coe_toReal]
  exact congrArg a (eq_ix1 i)

theorem eq_E2 {n d : ℕ} {a : (⟨2, ![n, d]⟩ : Shape).Idx → EReal} (h : IsReal a) :
    a = E2 fun k j => (a (ix2 k j)).toReal := by
  funext i
  rw [E2_idx, h.coe_toReal]
  exact congrArg a (eq_ix2 i)

theorem eq_E3 {n : ℕ} {a : (⟨3, ![n, 1, 1]⟩ : Shape).Idx → EReal} (h : IsReal a) :
    a = E3 fun k => (a (ix3 k 0 0)).toReal := by
  funext i
  rw [E3_idx, h.coe_toReal]
  refine congrArg a (funext fun c => ?_)
  match c with
  | ⟨0, _⟩ => rfl
  | ⟨1, _⟩ => exact Subsingleton.elim (α := Fin 1) _ _
  | ⟨2, _⟩ => exact Subsingleton.elim (α := Fin 1) _ _

def argsOf (b : Bufs) : Cert.Spec.Args where
  v n d := (b.a0 (ix2 n d)).toReal
  e n d := (b.a1 (ix2 n d)).toReal
  env r := (b.a2 (ix3 r 0 0)).toReal
  WQ n d := (b.a5 (ix2 n d)).toReal
  WK n d := (b.a6 (ix2 n d)).toReal
  WV n d := (b.a7 (ix2 n d)).toReal
  We n d := (b.a8 (ix2 n d)).toReal
  WOv n d := (b.a9 (ix2 n d)).toReal
  bOv d := (b.a10 (ix1 d)).toReal
  WOe n d := (b.a11 (ix2 n d)).toReal
  bOe d := (b.a12 (ix1 d)).toReal
  g1v d := (b.a13 (ix1 d)).toReal
  b1v d := (b.a14 (ix1 d)).toReal
  g1e d := (b.a15 (ix1 d)).toReal
  b1e d := (b.a16 (ix1 d)).toReal
  W1v n d := (b.a17 (ix2 n d)).toReal
  c1v d := (b.a18 (ix1 d)).toReal
  W2v n d := (b.a19 (ix2 n d)).toReal
  c2v d := (b.a20 (ix1 d)).toReal
  W1e n d := (b.a21 (ix2 n d)).toReal
  c1e d := (b.a22 (ix1 d)).toReal
  W2e n d := (b.a23 (ix2 n d)).toReal
  c2e d := (b.a24 (ix1 d)).toReal
  g2v d := (b.a25 (ix1 d)).toReal
  b2v d := (b.a26 (ix1 d)).toReal
  g2e d := (b.a27 (ix1 d)).toReal
  b2e d := (b.a28 (ix1 d)).toReal
  gs r := gRow (b.a3 (ix1 r))
  gd r := gRow (b.a4 (ix1 r))
  sd r := sRow (b.a4 (ix1 r))
  eps5 := Cert.SpecLaws.eps5
  eps6 := Cert.SpecLaws.eps6
  heps5 := Cert.SpecLaws.eps5_pos
  heps6 := Cert.SpecLaws.eps6_pos

variable {b : Bufs}

theorem a0_eq (hb : b.Finite) : b.a0 = E2 (argsOf b).v := eq_E2 hb.h0
theorem a1_eq (hb : b.Finite) : b.a1 = E2 (argsOf b).e := eq_E2 hb.h1
theorem a2_eq (hb : b.Finite) : b.a2 = E3 (argsOf b).env := eq_E3 hb.h2
theorem a5_eq (hb : b.Finite) : b.a5 = E2 (argsOf b).WQ := eq_E2 hb.h5
theorem a6_eq (hb : b.Finite) : b.a6 = E2 (argsOf b).WK := eq_E2 hb.h6
theorem a7_eq (hb : b.Finite) : b.a7 = E2 (argsOf b).WV := eq_E2 hb.h7
theorem a8_eq (hb : b.Finite) : b.a8 = E2 (argsOf b).We := eq_E2 hb.h8
theorem a9_eq (hb : b.Finite) : b.a9 = E2 (argsOf b).WOv := eq_E2 hb.h9
theorem a10_eq (hb : b.Finite) : b.a10 = E1 (argsOf b).bOv := eq_E1 hb.h10
theorem a11_eq (hb : b.Finite) : b.a11 = E2 (argsOf b).WOe := eq_E2 hb.h11
theorem a12_eq (hb : b.Finite) : b.a12 = E1 (argsOf b).bOe := eq_E1 hb.h12
theorem a13_eq (hb : b.Finite) : b.a13 = E1 (argsOf b).g1v := eq_E1 hb.h13
theorem a14_eq (hb : b.Finite) : b.a14 = E1 (argsOf b).b1v := eq_E1 hb.h14
theorem a15_eq (hb : b.Finite) : b.a15 = E1 (argsOf b).g1e := eq_E1 hb.h15
theorem a16_eq (hb : b.Finite) : b.a16 = E1 (argsOf b).b1e := eq_E1 hb.h16
theorem a17_eq (hb : b.Finite) : b.a17 = E2 (argsOf b).W1v := eq_E2 hb.h17
theorem a18_eq (hb : b.Finite) : b.a18 = E1 (argsOf b).c1v := eq_E1 hb.h18
theorem a19_eq (hb : b.Finite) : b.a19 = E2 (argsOf b).W2v := eq_E2 hb.h19
theorem a20_eq (hb : b.Finite) : b.a20 = E1 (argsOf b).c2v := eq_E1 hb.h20
theorem a21_eq (hb : b.Finite) : b.a21 = E2 (argsOf b).W1e := eq_E2 hb.h21
theorem a22_eq (hb : b.Finite) : b.a22 = E1 (argsOf b).c1e := eq_E1 hb.h22
theorem a23_eq (hb : b.Finite) : b.a23 = E2 (argsOf b).W2e := eq_E2 hb.h23
theorem a24_eq (hb : b.Finite) : b.a24 = E1 (argsOf b).c2e := eq_E1 hb.h24
theorem a25_eq (hb : b.Finite) : b.a25 = E1 (argsOf b).g2v := eq_E1 hb.h25
theorem a26_eq (hb : b.Finite) : b.a26 = E1 (argsOf b).b2v := eq_E1 hb.h26
theorem a27_eq (hb : b.Finite) : b.a27 = E1 (argsOf b).g2e := eq_E1 hb.h27
theorem a28_eq (hb : b.Finite) : b.a28 = E1 (argsOf b).b2e := eq_E1 hb.h28

theorem lit_eps5 (b : Bufs) : Ideal.ofBits .f32 0x3727C5AC#32 = (((argsOf b).eps5 : ℝ) : EReal) := Cert.SpecLaws.lit_eps5
theorem lit_eps6 (b : Bufs) : Ideal.ofBits .f32 0x358637BD#32 = (((argsOf b).eps6 : ℝ) : EReal) := Cert.SpecLaws.lit_eps6

@[simp] theorem argsOf_gs (b : Bufs) (r : Fin 500000) : (argsOf b).gs r = gRow (b.a3 (ix1 r)) := rfl
@[simp] theorem argsOf_gd (b : Bufs) (r : Fin 500000) : (argsOf b).gd r = gRow (b.a4 (ix1 r)) := rfl
@[simp] theorem argsOf_sd (b : Bufs) (r : Fin 500000) : (argsOf b).sd r = sRow (b.a4 (ix1 r)) := rfl

end Cert.Bridge

end
-- ==== Proof.Bridge.Finite.lean ====
import proofs.«121852_j34351148433892_2_alg».proof.Pre_finite_inputs
import proofs.«121852_j34351148433892_2_alg».proof.Proof.Bridge.Args
import Idealize.ShloMosaic.Lib.ReduceAll

namespace Cert.Bridge

open Idealize.ShloMosaic Idealize.ShloMosaic.ValueIdx

instance subsingleton_scalarIdx_finite : Subsingleton (⟨0, ![]⟩ : Shape).Idx := ⟨fun _ _ => funext fun d => d.elim0⟩

theorem andi_idx {s : Shape} {w : Nat} (x y : IVec s w) (i : s.Idx) : andi x y i = IntOp.andi (x i) (y i) := rfl

-- Each comparison is 1 when their conjunction over all entries is, and the absolute value of either infinity is +∞ itself.
theorem isReal_of_all {s : Shape} {axes : List (Fin s.rank)} {a : s.Idx → EReal}
    {hb : (⟨0, ![]⟩ : Shape).BroadcastsInDim s (![] : Fin 0 → Fin s.rank)}
    {hr : s.ReducesTo axes ⟨0, ![]⟩} {hu : 0 < (⟨0, ![]⟩ : Shape).numel} {init : IVec ⟨0, ![]⟩ 1}
    (e : Host.reduce IntOp.andi
        (cmpf (F := Ideal) .olt (Host.absf (F := Ideal) (φ := .f32) a)
          (broadcastInDim s ![] hb (constant (F := Ideal) ⟨0, ![]⟩ .f32 0x7F800000#32)))
        init hr hu ix0 = 1#1) : IsReal a := by
  intro i
  have h : Ideal.cmp .olt (max (a i) (-(a i))) (Ideal.ofBits .f32 0x7F800000#32) = 1#1 :=
    Host.reduce_andi_all _ init hr hu ix0 e i
  generalize a i = x at h
  induction x using EReal.rec with
  | coe r => exact ⟨r, rfl⟩
  | bot => simp [Ideal.cmp, Ideal.ofBits, Ideal.ieee] at h
  | top => simp [Ideal.cmp, Ideal.ofBits, Ideal.ieee] at h

open Cert.Pre_finite_inputs in
-- The precondition is the conjunction of one such word per float argument.
theorem finite_of_pre [Cert.Pre_finite_inputs.Facts] (b : Bufs)
    (h : fn (F := Ideal) b.a0 b.a1 b.a2 b.a3 b.a4 b.a5 b.a6 b.a7 b.a8 b.a9 b.a10 b.a11 b.a12 b.a13 b.a14 b.a15 b.a16
      b.a17 b.a18 b.a19 b.a20 b.a21 b.a22 b.a23 b.a24 b.a25 b.a26 b.a27 b.a28 = fun _ => 1#1) : b.Finite := by
  have h0 := congrFun h ix0
  dsimp only [fn, fn_part1, fn_part2, fn_part3, fn_part4, fn_part5, fn_part6, fn_part7] at h0
  simp only [andi_idx, IntOp.andi_eq_one, and_assoc] at h0
  obtain ⟨e0, e1, e2, e5, e6, e7, e8, e9, e10, e11, e12, e13, e14, e15, e16, e17, e18, e19, e20, e21, e22, e23, e24,
    e25, e26, e27, e28⟩ := h0
  exact ⟨isReal_of_all e0, isReal_of_all e1, isReal_of_all e2, isReal_of_all e5, isReal_of_all e6, isReal_of_all e7,
    isReal_of_all e8, isReal_of_all e9, isReal_of_all e10, isReal_of_all e11, isReal_of_all e12, isReal_of_all e13,
    isReal_of_all e14, isReal_of_all e15, isReal_of_all e16, isReal_of_all e17, isReal_of_all e18, isReal_of_all e19,
    isReal_of_all e20, isReal_of_all e21, isReal_of_all e22, isReal_of_all e23, isReal_of_all e24, isReal_of_all e25,
    isReal_of_all e26, isReal_of_all e27, isReal_of_all e28⟩

end Cert.Bridge
-- ==== Proof.Bridge.Agree.lean ====
import proofs.«121852_j34351148433892_2_alg».proof.Defs
import proofs.«121852_j34351148433892_2_alg».proof.Proof.Bridge.Finite

namespace Cert.Bridge

open Idealize.ShloMosaic Idealize.SL.Sem

section
open Cert.KernelIdeal

abbrev bufsK (m : (ℓ : Loc nD τ sig) → Buf (Elt Ideal) ℓ) (c : Dev nD) : Bufs :=
  Bufs.mk
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18)) (m ((c.tc : Thread nD τ).loc main_arg19)) (m ((c.tc : Thread nD τ).loc main_arg20))
    (m ((c.tc : Thread nD τ).loc main_arg21)) (m ((c.tc : Thread nD τ).loc main_arg22)) (m ((c.tc : Thread nD τ).loc main_arg23))
    (m ((c.tc : Thread nD τ).loc main_arg24)) (m ((c.tc : Thread nD τ).loc main_arg25)) (m ((c.tc : Thread nD τ).loc main_arg26))
    (m ((c.tc : Thread nD τ).loc main_arg27)) (m ((c.tc : Thread nD τ).loc main_arg28))

theorem finiteK [Cert.Pre_finite_inputs.Facts] (m : (ℓ : Loc nD τ sig) → Buf (Elt Ideal) ℓ)
    (h : Cert.Pre_KernelIdeal m) (c : Dev nD) : (bufsK m c).Finite := by
  apply finite_of_pre
  exact h c

end

open Cert.ReferenceIdeal in
abbrev bufsR (m' : (ℓ : Loc nD τ sig) → Buf (Elt Ideal) ℓ) (c : Dev nD) : Bufs :=
  Bufs.mk
    (m' ((c.tc : Thread nD τ).loc main_arg0)) (m' ((c.tc : Thread nD τ).loc main_arg1)) (m' ((c.tc : Thread nD τ).loc main_arg2))
    (m' ((c.tc : Thread nD τ).loc main_arg3)) (m' ((c.tc : Thread nD τ).loc main_arg4)) (m' ((c.tc : Thread nD τ).loc main_arg5))
    (m' ((c.tc : Thread nD τ).loc main_arg6)) (m' ((c.tc : Thread nD τ).loc main_arg7)) (m' ((c.tc : Thread nD τ).loc main_arg8))
    (m' ((c.tc : Thread nD τ).loc main_arg9)) (m' ((c.tc : Thread nD τ).loc main_arg10)) (m' ((c.tc : Thread nD τ).loc main_arg11))
    (m' ((c.tc : Thread nD τ).loc main_arg12)) (m' ((c.tc : Thread nD τ).loc main_arg13)) (m' ((c.tc : Thread nD τ).loc main_arg14))
    (m' ((c.tc : Thread nD τ).loc main_arg15)) (m' ((c.tc : Thread nD τ).loc main_arg16)) (m' ((c.tc : Thread nD τ).loc main_arg17))
    (m' ((c.tc : Thread nD τ).loc main_arg18)) (m' ((c.tc : Thread nD τ).loc main_arg19)) (m' ((c.tc : Thread nD τ).loc main_arg20))
    (m' ((c.tc : Thread nD τ).loc main_arg21)) (m' ((c.tc : Thread nD τ).loc main_arg22)) (m' ((c.tc : Thread nD τ).loc main_arg23))
    (m' ((c.tc : Thread nD τ).loc main_arg24)) (m' ((c.tc : Thread nD τ).loc main_arg25)) (m' ((c.tc : Thread nD τ).loc main_arg26))
    (m' ((c.tc : Thread nD τ).loc main_arg27)) (m' ((c.tc : Thread nD τ).loc main_arg28))

end Cert.Bridge
-- ==== Proof.SpecLawsMore.lean ====
import proofs.«121852_j34351148433892_2_alg».proof.Proof.SpecLaws

open scoped BigOperators
open Idealize.ShloMosaic

namespace Cert.SpecLaws

theorem coe_zero_add_sum {ι : Type*} (s : Finset ι) (f : ι → ℝ) :
    ((0 : ℝ) : EReal) + ∑ i ∈ s, ((f i : ℝ) : EReal) = ((∑ i ∈ s, f i : ℝ) : EReal) := by
  rw [coe_add_sum, zero_add]

def tileRow {M : ℕ} (T B : ℕ) (h : T * B = M) (t : Fin T) (j : Fin B) : Fin M :=
  ⟨B * t.val + j.val, tile_lt h t j⟩

theorem tileRow_val {M : ℕ} (T B : ℕ) (h : T * B = M) (t : Fin T) (j : Fin B) :
    (tileRow T B h t j).val = B * t.val + j.val := rfl

theorem sum_tileRow {α : Type*} [AddCommMonoid α] {M : ℕ} (T B : ℕ) (h : T * B = M) (f : Fin M → α) :
    ∑ i, f i = ∑ t : Fin T, ∑ j : Fin B, f (tileRow T B h t j) :=
  sum_tiles T B h f

section AtIndex
variable {s : Shape} {φ : FTy}

theorem hostDivf_apply (a b : FVec Ideal s φ) (i : s.Idx) :
    Host.divf a b i = Ideal.div (a i) (b i) := rfl

end AtIndex

end Cert.SpecLaws
-- ==== Proof.Bridge.Layout.lean ====
import proofs.«121852_j34351148433892_2_alg».proof.Proof.Spec
import proofs.«121852_j34351148433892_2_alg».proof.Proof.SpecLawsMore
import proofs.«121852_j34351148433892_2_alg».proof.Proof.Bridge.Args

noncomputable section

namespace Cert.Bridge

open Idealize.ShloMosaic Idealize.ShloMosaic.ValueIdx Cert.Spec Cert.SpecLaws

def row1 {n : ℕ} (f : Fin n → ℝ) : (⟨2, ![1, n]⟩ : Shape).Idx → EReal := fun i => ((f (i 1) : ℝ) : EReal)
def col1 {n : ℕ} (f : Fin n → ℝ) : (⟨2, ![n, 1]⟩ : Shape).Idx → EReal := fun i => ((f (i 0) : ℝ) : EReal)
@[simp] theorem row1_apply {n : ℕ} (f : Fin n → ℝ) (z : Fin 1) (k : Fin n) : row1 f (ix2 z k) = ((f k : ℝ) : EReal) := rfl
@[simp] theorem col1_apply {n : ℕ} (f : Fin n → ℝ) (k : Fin n) (z : Fin 1) : col1 f (ix2 k z) = ((f k : ℝ) : EReal) := rfl

def cat3 {n : ℕ} (x y z : Fin n → Fin 128 → ℝ) : Fin n → Fin 384 → ℝ := fun r j =>
  if h : j.val < 128 then x r ⟨j.val, h⟩
  else if h' : j.val < 256 then y r ⟨j.val - 128, by omega⟩
  else z r ⟨j.val - 256, by have := j.isLt; omega⟩
def cat2 {n : ℕ} (x y : Fin n → Fin 128 → ℝ) : Fin n → Fin 256 → ℝ := fun r j =>
  if h : j.val < 128 then x r ⟨j.val, h⟩ else y r ⟨j.val - 128, by have := j.isLt; omega⟩

variable (a : Args)

def wqkv : Fin 128 → Fin 384 → ℝ := cat3 a.WQ a.WK a.WV
def qkvCat : Fin 50000 → Fin 384 → ℝ := cat3 (Q a) (K a) (Vv a)
def kvNode : Fin 50000 → Fin 256 → ℝ := cat2 (K a) (Vv a)
def kvEdge : Fin 500000 → Fin 256 → ℝ := fun r j => kvNode a (a.gs r) j
def qEdge : Fin 500000 → Fin 128 → ℝ := fun r d => Q a (a.gd r) d

def laneHead : Fin 128 → Fin 8 → ℝ := fun d h => if hd d = h then 1 else 0
def headLane : Fin 8 → Fin 128 → ℝ := fun h d => if hd d = h then 1 else 0

def tiles250 (x : Fin 500000 → Fin 128 → ℝ) : Fin 2000 → Fin 128 → ℝ := fun q d =>
  ∑ j : Fin 2000, x (tileRow 250 2000 rfl ⟨q.val / 8, by have := q.isLt; omega⟩ j) d
def tiles10 (x : Fin 50000 → Fin 128 → ℝ) : Fin 80 → Fin 128 → ℝ := fun q d =>
  ∑ j : Fin 5000, x (tileRow 10 5000 rfl ⟨q.val / 8, by have := q.isLt; omega⟩ j) d
def tiles100 (x : Fin 500000 → Fin 128 → ℝ) : Fin 800 → Fin 128 → ℝ := fun q d =>
  ∑ j : Fin 5000, x (tileRow 100 5000 rfl ⟨q.val / 8, by have := q.isLt; omega⟩ j) d
def sq {n : ℕ} (x : Fin n → Fin 128 → ℝ) : Fin n → Fin 128 → ℝ := fun i d => x i d * x i d

end Cert.Bridge

end
-- ==== Proof.KernelIdeal.StageHost0.lean ====
import proofs.«121852_j34351148433892_2_alg».proof.Proof.Gen.KernelIdeal.Launch
import proofs.«121852_j34351148433892_2_alg».proof.Proof.Bridge.Layout
import proofs.«121852_j34351148433892_2_alg».proof.Proof.SpecLawsMore
import Idealize.ShloMosaic.Lib.StableHlo.Run
import Idealize.ShloMosaic.Lib.ValueLayout

noncomputable section

namespace Cert.KernelIdeal.HandVal

open Idealize.ShloMosaic Idealize.ShloMosaic.ValueIdx Idealize.ShloMosaic.StableHlo
open Cert.KernelIdeal Cert.KernelIdeal.Gen Cert.Bridge Cert.Spec Cert.SpecLaws

theorem shapeCast_E1_host0 {n : ℕ} {v : (⟨1, ![n]⟩ : Shape).Idx → EReal} {f : Fin n → ℝ} (e : v = E1 f)
    (h : (⟨1, ![n]⟩ : Shape).ShapeCasts ⟨2, ![1, n]⟩) : shapeCast ⟨2, ![1, n]⟩ v h = row1 f := by
  subst e
  funext i
  obtain ⟨u, k, rfl⟩ : ∃ u k, i = ix2 u k := ⟨_, _, eq_ix2 i⟩
  rw [shapeCast_a_1a_apply, E1_apply, row1_apply]

-- Column c of three 128-column blocks side by side lies in block c / 128, at column c mod 128.
theorem concatenate_E2_three_host0 {n : ℕ} {x y z : Fin n → Fin 128 → ℝ}
    {wx wy wz : (⟨2, ![n, 128]⟩ : Shape).Idx → EReal} (hx : wx = E2 x) (hy : wy = E2 y) (hz : wz = E2 z)
    (h : Shape.Concatenates [(⟨2, ![n, 128]⟩ : Shape), ⟨2, ![n, 128]⟩, ⟨2, ![n, 128]⟩] ⟨2, ![n, 384]⟩ 1) :
    concatenate (⟨2, ![n, 384]⟩ : Shape) 1
      [⟨(⟨2, ![n, 128]⟩ : Shape), wx⟩, ⟨(⟨2, ![n, 128]⟩ : Shape), wy⟩, ⟨(⟨2, ![n, 128]⟩ : Shape), wz⟩] h
      = E2 (cat3 x y z) := by
  subst hx hy hz
  funext j
  obtain ⟨r, c, rfl⟩ : ∃ r c, j = ix2 r c := ⟨_, _, eq_ix2 j⟩
  have hc := c.isLt
  have hoff : ∀ (c' : Fin 128) (b : Fin 2), b.cast (rfl : (2 : ℕ) = 2) ≠ (1 : Fin 2) →
      ((ix2 r c' : (⟨2, ![n, 128]⟩ : Shape).Idx) b).val
        = ((ix2 r c : (⟨2, ![n, 384]⟩ : Shape).Idx) (b.cast rfl)).val := by
    intro c' b hb
    match b with
    | ⟨0, _⟩ => rfl
    | ⟨1, _⟩ => exact absurd rfl hb
  have P := concatenate_apply_piece (t := (⟨2, ![n, 384]⟩ : Shape)) 1
    [⟨(⟨2, ![n, 128]⟩ : Shape), E2 x⟩, ⟨(⟨2, ![n, 128]⟩ : Shape), E2 y⟩, ⟨(⟨2, ![n, 128]⟩ : Shape), E2 z⟩] h (ix2 r c)
  rw [E2_apply]
  unfold cat3
  by_cases h1 : c.val < 128
  · rw [P 0 (by show (0 : ℕ) < 3; omega) _ _ rfl rfl 0 rfl (ix2 r ⟨c.val, h1⟩) (hoff _) (by show 0 + c.val = c.val; omega), E2_apply,
      dif_pos h1]
  · by_cases h2 : c.val < 256
    · rw [P 1 (by show (1 : ℕ) < 3; omega) _ _ rfl rfl 128 rfl (ix2 r ⟨c.val - 128, by omega⟩) (hoff _)
        (by show 128 + (c.val - 128) = c.val; omega), E2_apply, dif_neg h1, dif_pos h2]
    · rw [P 2 (by show (2 : ℕ) < 3; omega) _ _ rfl rfl 256 rfl (ix2 r ⟨c.val - 256, by omega⟩) (hoff _)
        (by show 256 + (c.val - 256) = c.val; omega), E2_apply, dif_neg h1, dif_neg h2]

theorem lit0_onehot_host0 : ∀ (dd : Fin 128) (h : Fin 8),
    lit0 ⟨dd.val * 8 + h.val, by have := dd.isLt; have := h.isLt; omega⟩
      = if dd.val / 16 = h.val then 0x3F800000#32 else 0x00000000#32 := by decide

theorem lit1_onehot_host0 : ∀ (h : Fin 8) (dd : Fin 128),
    lit1 ⟨h.val * 128 + dd.val, by have := dd.isLt; have := h.isLt; omega⟩
      = if dd.val / 16 = h.val then 0x3F800000#32 else 0x00000000#32 := by decide

-- The word of 1 where the lane lies in the head, the word of 0 elsewhere.
theorem onehot_host0 (d : Fin 128) (h : Fin 8) :
    Ideal.ofBits .f32 (if d.val / 16 = h.val then 0x3F800000#32 else 0x00000000#32)
      = (((if hd d = h then 1 else 0 : ℝ)) : EReal) := by
  by_cases hh : d.val / 16 = h.val
  · rw [if_pos hh, if_pos ((hd_eq_iff _ _).2 hh), lit_one]
  · rw [if_neg hh, if_neg (fun e' => hh ((hd_eq_iff _ _).1 e')), lit_zero]

theorem cst_laneHead_host0 :
    (fun i => FloatOps.ofBits (F := Ideal) .f32 (lit0 (S128x8.rowMajor i)) : S128x8.Idx → EReal) = E2 laneHead := by
  funext i
  have h0 := idx2_lt0 i
  have h1 := idx2_lt1 i
  have e : S128x8.rowMajor i = (⟨(i 0).val * 8 + (i 1).val, by omega⟩ : Fin 1024) :=
    Fin.ext (Shape.rowMajor_val_two i)
  rw [e, lit0_onehot_host0 (i 0) (i 1), E2_idx]
  exact onehot_host0 (i 0) (i 1)

theorem cst_headLane_host0 :
    (fun i => FloatOps.ofBits (F := Ideal) .f32 (lit1 (S8x128.rowMajor i)) : S8x128.Idx → EReal) = E2 headLane := by
  funext i
  have h0 := idx2_lt0 i
  have h1 := idx2_lt1 i
  have e : S8x128.rowMajor i = (⟨(i 0).val * 128 + (i 1).val, by omega⟩ : Fin 1024) :=
    Fin.ext (Shape.rowMajor_val_two i)
  rw [e, lit1_onehot_host0 (i 0) (i 1), E2_idx]
  exact onehot_host0 (i 1) (i 0)

theorem v1_host0 (W : Valuation τ sig (Elt Ideal)) {x y z : Fin 128 → Fin 128 → ℝ}
    (h5 : W (Proc.devRef .tc main_arg5) = E2 x) (h6 : W (Proc.devRef .tc main_arg6) = E2 y)
    (h7 : W (Proc.devRef .tc main_arg7) = E2 z) :
    StableHlo.after main_part0_ops0 W (Proc.devRef .tc main_v1) = E2 (cat3 x y z) := by
  dsimp only [main_part0_ops0]
  after_results
  exact concatenate_E2_three_host0 h5 h6 h7 Facts₀.concatenates_S128x128_S128x128_S128x128_S128x384_d1

theorem host0 (W : Valuation τ sig (Elt Ideal)) (a : Cert.Spec.Args)
    (h5 : W (Proc.devRef .tc main_arg5) = E2 a.WQ) (h6 : W (Proc.devRef .tc main_arg6) = E2 a.WK) (h7 : W (Proc.devRef .tc main_arg7) = E2 a.WV)
    (h8 : W (Proc.devRef .tc main_arg8) = E2 a.We) (h9 : W (Proc.devRef .tc main_arg9) = E2 a.WOv) (h10 : W (Proc.devRef .tc main_arg10) = E1 a.bOv)
    (h11 : W (Proc.devRef .tc main_arg11) = E2 a.WOe) (h12 : W (Proc.devRef .tc main_arg12) = E1 a.bOe)
    (h17 : W (Proc.devRef .tc main_arg17) = E2 a.W1v) (h18 : W (Proc.devRef .tc main_arg18) = E1 a.c1v) (h19 : W (Proc.devRef .tc main_arg19) = E2 a.W2v)
    (h20 : W (Proc.devRef .tc main_arg20) = E1 a.c2v) (h21 : W (Proc.devRef .tc main_arg21) = E2 a.W1e) (h22 : W (Proc.devRef .tc main_arg22) = E1 a.c1e)
    (h23 : W (Proc.devRef .tc main_arg23) = E2 a.W2e) (h24 : W (Proc.devRef .tc main_arg24) = E1 a.c2e) :
    let W' := StableHlo.after main_part0_ops0 W
    W' (Proc.devRef .tc main_v1) = E2 (wqkv a) ∧ W' (Proc.devRef .tc main_v2) = E2 a.We ∧ W' (Proc.devRef .tc main_v3) = E2 a.WOv ∧ W' (Proc.devRef .tc main_v4) = E2 a.WOe
    ∧ W' (Proc.devRef .tc main_v5) = E2 a.W1v ∧ W' (Proc.devRef .tc main_v6) = E2 a.W2v ∧ W' (Proc.devRef .tc main_v7) = E2 a.W1e ∧ W' (Proc.devRef .tc main_v8) = E2 a.W2e
    ∧ W' (Proc.devRef .tc main_v9) = row1 a.bOv ∧ W' (Proc.devRef .tc main_v10) = row1 a.bOe ∧ W' (Proc.devRef .tc main_v11) = row1 a.c1v
    ∧ W' (Proc.devRef .tc main_v12) = row1 a.c2v ∧ W' (Proc.devRef .tc main_v13) = row1 a.c1e ∧ W' (Proc.devRef .tc main_v14) = row1 a.c2e
    ∧ W' (Proc.devRef .tc main_cst) = E2 laneHead ∧ W' (Proc.devRef .tc main_cst_0) = E2 headLane := by
  intro W'
  refine ⟨v1_host0 W h5 h6 h7, ?_⟩
  dsimp only [W', main_part0_ops0]
  after_results_simp
  exact ⟨h8, h9, h11, h17, h19, h21, h23, shapeCast_E1_host0 h10 _,
    shapeCast_E1_host0 h12 _, shapeCast_E1_host0 h18 _, shapeCast_E1_host0 h20 _, shapeCast_E1_host0 h22 _,
    shapeCast_E1_host0 h24 _, cst_laneHead_host0, cst_headLane_host0⟩

end Cert.KernelIdeal.HandVal

end
-- ==== Proof.KernelIdeal.Val0.lean ====
import proofs.«121852_j34351148433892_2_alg».proof.Proof.KernelIdeal.Region0
import Idealize.ShloMosaic.Lib.Pipeline.Value
import Idealize.ShloMosaic.Lib.ValueIdx
import Idealize.ShloMosaic.Lib.StackMember
import Idealize.ShloMosaic.Lib.ValueLayout
import Idealize.ShloMosaic.PureOps.Ideal.Laws

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- An m×k block times a k×n block into a zero accumulator is the plain product: row against column.
theorem matmul_plain_apply {m k n : Nat} {φ₁ φ₂ : FTy} (D : DotDims ⟨2, ![m, k]⟩ ⟨2, ![k, n]⟩ ⟨2, ![m, n]⟩)
    (hD : D = DotDims.plain m k n) (a : FVec Ideal ⟨2, ![m, k]⟩ φ₁) (b : FVec Ideal ⟨2, ![k, n]⟩ φ₂)
    (j : (⟨2, ![m, n]⟩ : Shape).Idx) :
    matmul D none a b (constant ⟨2, ![m, n]⟩ .f32 0x00000000#32) j = ∑ c : Fin k, a (ix2 (j 0) c) * b (ix2 c (j 1)) := by
  subst hD
  rw [matmul_zero_eq_dotGeneral]
  exact (congrArg _ (eq_ix2 j)).trans (StackMember.dotGeneral_plain_apply none a b (j 0) (j 1))

theorem pay0_apply (x0 : FVec Ideal S5000x128 .f32) (x1 : FVec Ideal S128x384 .bf16) (j : S5000x384.Idx) :
    k0_pay1 (F := Ideal) x0 x1 j = ∑ k : Fin 128, x0 (ix2 (j 0) k) * x1 (ix2 k (j 1)) := by
  refine (matmul_plain_apply _ rfl _ _ j).trans ?_
  rw [shapeCast_self]
  rfl

open Cert.KernelIdeal.Hand

variable (V : (c : Dev nD) → (b : Ref sig .tc) → Buf (Elt Ideal) ((c : Thread nD τ).loc b))

theorem offsets_zero : (![0, 0] : Fin 2 → Nat) = fun _ => 0 := funext fun a => by fin_cases a <;> rfl

-- Row `n` of the features against column `j` of the weights: qkv[n, j] = Σ_k v[n, k] · w[k, j].
def qkv (v : S50000x128.Idx → EReal) (w : S128x384.Idx → EReal) : S50000x384.Idx → EReal :=
  fun i => ∑ k : Fin 128, v (ix2 (i 0) k) * w (ix2 k (i 1))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- Block `t` of the output is block `t` of `qkv`: a block element sits in its array at block index times block size plus its own coordinate.
theorem flushed0_2_eq (c : Dev nD) (t : Fin cfg0.N) :
    (dat0 (F := Ideal) V c).flushed 2 t = ((cfg0.win 2).blk t).view.read (Elt Ideal)
      (qkv (V c (Pipeline.arrRef spec0 0)) (V c (Pipeline.arrRef spec0 1))) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x384) offsets_zero]
  obtain ⟨e0, e1, e2, e3, e4, e5⟩ := idx_facts0 t
  funext j
  refine (pay0_apply _ _ j).trans ?_
  show _ = qkv (V c (Pipeline.arrRef spec0 0)) (V c (Pipeline.arrRef spec0 1)) (((cfg0.win 2).blk t).view.emb j)
  unfold qkv
  refine Finset.sum_congr rfl fun k _ => ?_
  have h0 : iblk0 V c 0 t (ix2 (j 0) k) = V c (Pipeline.arrRef spec0 0) (ix2 ((((cfg0.win 2).blk t).view.emb j) 0) k) :=
    congrArg (V c (Pipeline.arrRef spec0 0)) (Shape.idx_ext₂
      (by show win0_0.index t (0 : Fin 2) * 5000 + 1 * (j 0).val = win0_2.index t (0 : Fin 2) * 5000 + 1 * (j 0).val; omega)
      (by show win0_0.index t (1 : Fin 2) * 128 + 1 * k.val = k.val; omega))
  have h1 : iblk0 V c 1 t (ix2 k (j 1)) = V c (Pipeline.arrRef spec0 1) (ix2 k ((((cfg0.win 2).blk t).view.emb j) 1)) :=
    congrArg (V c (Pipeline.arrRef spec0 1)) (Shape.idx_ext₂
      (by show win0_1.index t (0 : Fin 2) * 128 + 1 * k.val = k.val; omega)
      (by show win0_1.index t (1 : Fin 2) * 384 + 1 * (j 1).val = win0_2.index t (1 : Fin 2) * 384 + 1 * (j 1).val; omega))
  rw [h0, h1]

-- Row `n` of the output lies in the block of point `n / 5000`.
theorem covered0_2 (i : S50000x384.Idx) :
    ∃ t : Fin cfg0.N, (cfg0.win 2).flush t = true ∧ i ∈ ((cfg0.win 2).blk t).view.set := by
  have hi0 := idx2_lt0 i
  have hi1 := idx2_lt1 i
  obtain ⟨t, ht⟩ : ∃ t : Fin cfg0.N, t.val = (i 0).val / 5000 := ⟨⟨(i 0).val / 5000, by rw [show cfg0.N = 10 from N_0]; omega⟩, rfl⟩
  obtain ⟨e0, e1, e2, e3, e4, e5⟩ := idx_facts0 t
  refine ⟨t, flush0_2 t, ?_⟩
  show i ∈ ((View.whole main_v15).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 384 ≤ (i 1).val ∧ (i 1).val < win0_2.index t (1 : Fin 2) * 384 + 384; omega

theorem arr0_2 (c : Dev nD) :
    (dat0 (F := Ideal) V c).arrAt 2 cfg0.N = qkv (V c (Pipeline.arrRef spec0 0)) (V c (Pipeline.arrRef spec0 1)) :=
  (dat0 (F := Ideal) V c).arrAt_eq_of_cover 2 _ (fun t _ => flushed0_2_eq V c t) covered0_2

end Cert.KernelIdeal.HandVal

end
-- ==== Proof.KernelIdeal.Val2.lean ====
import proofs.«121852_j34351148433892_2_alg».proof.Proof.KernelIdeal.Region2
import proofs.«121852_j34351148433892_2_alg».proof.Proof.KernelIdeal.Val0

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- The first payload at an index: the residual, plus the row-by-column product, plus the bias row.
theorem pay2_1_apply (v0 : FVec Ideal S5000x128 .f32) (v3 : FVec Ideal S128x128 .bf16) (v6 : FVec Ideal S5000x128 .f32) (v8 : FVec Ideal S1x128 .f32) (j : S5000x128.Idx) :
    k2_pay1 (F := Ideal) v0 v3 v6 v8 j = (v6 j + ∑ k : Fin 128, v0 (ix2 (j 0) k) * v3 (ix2 k (j 1))) + v8 (ix2 (0 : Fin 1) (j 1)) := by
  unfold k2_pay1
  simp only [shapeCast_self]
  exact congrArg₂ (fun a b : EReal => a + b) (congrArg (fun z : EReal => v6 j + z) (matmul_plain_apply _ rfl _ _ j))
    ((congrArg _ (eq_ix2 j)).trans (broadcastTo_1b_ab_apply v8 _ (j 0) (j 1)))

-- The per-block column sums of a [50000, 128] array, a block of 5000 rows to 8 rows: s[8 t + r, d] = Σ_{i < 5000} o[5000 t + i, d].
def osum (o : S50000x128.Idx → EReal) : S80x128.Idx → EReal :=
  fun i => ∑ r : Fin 5000, o (ix2 (⟨5000 * ((i 0).val / 8) + r.val, by have := idx2_lt0 i; omega⟩ : Fin 50000) (i 1))

-- The column sums of a block whose rows are rows `5000 t + ·` of `o`, laid along 8 rows, are rows `8 t + ·` of `osum o`.
theorem colsum2_blk (t : Nat) (p : FVec Ideal S5000x128 .f32) (o : S50000x128.Idx → EReal)
    (hp : ∀ (r : Fin 5000) (d : Fin 128) (i : S50000x128.Idx), (i 0).val = 5000 * t + r.val → (i 1).val = d.val → p (ix2 r d) = o i)
    (j : S8x128.Idx) (i : S80x128.Idx) (h0 : (i 0).val = 8 * t + (j 0).val) (h1 : (i 1).val = (j 1).val) :
    broadcastTo S8x128 (shapeCast S1x128 (shapeCast S1x128
        (multiReduction .add [0] S128 p 0x00000000#32 reduces_S5000x128_S128 (.inl rfl) rfl) shapeCasts_S128_S1x128) shapeCasts_S1x128_S1x128)
      broadcasts_S1x128_S8x128 j = osum o i := by
  have hj := idx2_lt0 j
  rw [shapeCast_self]
  refine ((congrArg _ (eq_ix2 j)).trans (broadcastTo_1b_ab_apply _ _ (j 0) (j 1))).trans ?_
  refine (shapeCast_a_1a_apply _ shapeCasts_S128_S1x128 0 (j 1)).trans ?_
  refine (Ideal.multiReduction_add_single p _ reduces_S5000x128_S128 (.inl rfl) rfl (ix1 (j 1))).trans ?_
  show _ = ∑ r : Fin 5000, (_ : EReal)
  refine Finset.sum_congr rfl fun r _ => (congrArg p (Shape.idx_ext₂ (y := ix2 r (j 1)) ?_ ?_)).trans (hp r (j 1) _ ?_ h1)
  · rfl
  · rfl
  · show 5000 * ((i 0).val / 8) + r.val = 5000 * t + r.val; omega

open Cert.KernelIdeal.Hand

variable (V : (c : Dev nD) → (b : Ref sig .tc) → Buf (Elt Ideal) ((c : Thread nD τ).loc b))

-- The output projection: o[n, d] = (x[n, d] + Σ_k a[n, k] · w[k, d]) + b[0, d].
def oproj (x a : S50000x128.Idx → EReal) (w : S128x128.Idx → EReal) (b : S1x128.Idx → EReal) : S50000x128.Idx → EReal :=
  fun i => (x i + ∑ k : Fin 128, a (ix2 (i 0) k) * w (ix2 k (i 1))) + b (ix2 (0 : Fin 1) (i 1))

-- `oproj` of the four input arrays as the call finds them.
def oprojV (c : Dev nD) : S50000x128.Idx → EReal :=
  oproj (V c (Pipeline.arrRef spec2 0)) (V c (Pipeline.arrRef spec2 1)) (V c (Pipeline.arrRef spec2 2)) (V c (Pipeline.arrRef spec2 3))

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

-- Row `r`, column `d` of the first payload of point `t`'s blocks is `oproj` of the arrays at row `5000 t + r`, column `d`.
theorem blk2_pay1_row (c : Dev nD) (t : Fin cfg2.N) (r : Fin 5000) (d : Fin 128) (i : S50000x128.Idx)
    (h0 : (i 0).val = 5000 * t.val + r.val) (h1 : (i 1).val = d.val) :
    k2_pay1 (F := Ideal) (iblk2 V c 1 t) (iblk2 V c 2 t) (iblk2 V c 0 t) (iblk2 V c 3 t) (ix2 r d) = oprojV V c i := by
  obtain ⟨e0, e1, e2, e3, e4, e5, e6, e7, -⟩ := idx_facts2 t
  refine (pay2_1_apply _ _ _ _ (ix2 r d)).trans ?_
  have hx : iblk2 V c 0 t (ix2 r d) = V c (Pipeline.arrRef spec2 0) i :=
    congrArg (V c (Pipeline.arrRef spec2 0)) (Shape.idx_ext₂
      (by show win2_0.index t (0 : Fin 2) * 5000 + 1 * r.val = (i 0).val; omega)
      (by show win2_0.index t (1 : Fin 2) * 128 + 1 * d.val = (i 1).val; omega))
  have ha : ∀ k : Fin 128, iblk2 V c 1 t (ix2 r k) = V c (Pipeline.arrRef spec2 1) (ix2 (i 0) k) := fun k =>
    congrArg (V c (Pipeline.arrRef spec2 1)) (Shape.idx_ext₂
      (by show win2_1.index t (0 : Fin 2) * 5000 + 1 * r.val = (i 0).val; omega)
      (by show win2_1.index t (1 : Fin 2) * 128 + 1 * k.val = k.val; omega))
  have hw : ∀ k : Fin 128, iblk2 V c 2 t (ix2 k d) = V c (Pipeline.arrRef spec2 2) (ix2 k (i 1)) := fun k =>
    congrArg (V c (Pipeline.arrRef spec2 2)) (Shape.idx_ext₂
      (by show win2_2.index t (0 : Fin 2) * 128 + 1 * k.val = k.val; omega)
      (by show win2_2.index t (1 : Fin 2) * 128 + 1 * d.val = (i 1).val; omega))
  have hb : iblk2 V c 3 t (ix2 (0 : Fin 1) d) = V c (Pipeline.arrRef spec2 3) (ix2 (0 : Fin 1) (i 1)) :=
    congrArg (V c (Pipeline.arrRef spec2 3)) (Shape.idx_ext₂
      (by show win2_3.index t (0 : Fin 2) * 1 + 1 * 0 = 0; omega)
      (by show win2_3.index t (1 : Fin 2) * 128 + 1 * d.val = (i 1).val; omega))
  exact congrArg₂ (· + ·) (congrArg₂ (· + ·) hx (Finset.sum_congr rfl fun k _ => congrArg₂ (· * ·) (ha k) (hw k))) hb

theorem flushed2_4_eq (c : Dev nD) (t : Fin cfg2.N) :
    (dat2 (F := Ideal) V c).flushed 4 t = ((cfg2.win 4).blk t).view.read (Elt Ideal) (oprojV V c) := by
  show (cfg2.win 4).cut (grid2.coords t) ((dat2 V c).after 4 t) = _
  rw [after2_4]
  unfold out2_4
  rw [View.canon_unit_zero offsets_zero]
  simp only [View.ld_unit_zero (S := S5000x128) offsets_zero, View.ld_unit_zero (S := S128x128) offsets_zero, View.ld_unit_zero (S := S1x128) offsets_zero]
  obtain ⟨-, -, -, -, -, -, -, -, e8, e9, -⟩ := idx_facts2 t
  funext j
  refine (congrArg _ (eq_ix2 j)).trans (blk2_pay1_row V c t (j 0) (j 1) (((cfg2.win 4).blk t).view.emb j) ?_ ?_)
  · show win2_4.index t (0 : Fin 2) * 5000 + 1 * (j 0).val = 5000 * t.val + (j 0).val; omega
  · show win2_4.index t (1 : Fin 2) * 128 + 1 * (j 1).val = (j 1).val; omega

theorem covered2_4 (i : S50000x128.Idx) :
    ∃ t : Fin cfg2.N, (cfg2.win 4).flush t = true ∧ i ∈ ((cfg2.win 4).blk t).view.set := by
  have hi0 := idx2_lt0 i
  have hi1 := idx2_lt1 i
  obtain ⟨t, ht⟩ : ∃ t : Fin cfg2.N, t.val = (i 0).val / 5000 := ⟨⟨(i 0).val / 5000, by rw [show cfg2.N = 10 from N_2]; omega⟩, rfl⟩
  obtain ⟨-, -, -, -, -, -, -, -, e8, e9, -⟩ := idx_facts2 t
  refine ⟨t, flush2_4 t, ?_⟩
  show i ∈ ((View.whole main_v45_0).slice (win2_4.rect t)).set
  rw [View.set_slice_whole, Rect.mem_set_unit]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

theorem arr2_4 (c : Dev nD) : (dat2 (F := Ideal) V c).arrAt 4 cfg2.N = oprojV V c :=
  (dat2 (F := Ideal) V c).arrAt_eq_of_cover 4 _ (fun t _ => flushed2_4_eq V c t) covered2_4

theorem flushed2_5_eq (c : Dev nD) (t : Fin cfg2.N) :
    (dat2 (F := Ideal) V c).flushed 5 t = ((cfg2.win 5).blk t).view.read (Elt Ideal) (osum (oprojV V c)) := by
  show (cfg2.win 5).cut (grid2.coords t) ((dat2 V c).after 5 t) = _
  rw [after2_5]
  unfold out2_5
  rw [View.canon_unit_zero offsets_zero]
  simp only [View.ld_unit_zero (S := S5000x128) offsets_zero, View.ld_unit_zero (S := S128x128) offsets_zero, View.ld_unit_zero (S := S1x128) offsets_zero]
  obtain ⟨-, -, -, -, -, -, -, -, -, -, e10, e11, -⟩ := idx_facts2 t
  funext j
  refine colsum2_blk t.val _ _ (blk2_pay1_row V c t) j (((cfg2.win 5).blk t).view.emb j) ?_ ?_
  · show win2_5.index t (0 : Fin 2) * 8 + 1 * (j 0).val = 8 * t.val + (j 0).val; omega
  · show win2_5.index t (1 : Fin 2) * 128 + 1 * (j 1).val = (j 1).val; omega

theorem covered2_5 (i : S80x128.Idx) :
    ∃ t : Fin cfg2.N, (cfg2.win 5).flush t = true ∧ i ∈ ((cfg2.win 5).blk t).view.set := by
  have hi0 := idx2_lt0 i
  have hi1 := idx2_lt1 i
  obtain ⟨t, ht⟩ : ∃ t : Fin cfg2.N, t.val = (i 0).val / 8 := ⟨⟨(i 0).val / 8, by rw [show cfg2.N = 10 from N_2]; omega⟩, rfl⟩
  obtain ⟨-, -, -, -, -, -, -, -, -, -, e10, e11, -⟩ := idx_facts2 t
  refine ⟨t, flush2_5 t, ?_⟩
  show i ∈ ((View.whole main_v45_1).slice (win2_5.rect t)).set
  rw [View.set_slice_whole, Rect.mem_set_unit]
  intro a
  match a with
  | ⟨0, _⟩ => show win2_5.index t (0 : Fin 2) * 8 ≤ (i 0).val ∧ (i 0).val < win2_5.index t (0 : Fin 2) * 8 + 8; omega
  | ⟨1, _⟩ => show win2_5.index t (1 : Fin 2) * 128 ≤ (i 1).val ∧ (i 1).val < win2_5.index t (1 : Fin 2) * 128 + 128; omega

theorem arr2_5 (c : Dev nD) : (dat2 (F := Ideal) V c).arrAt 5 cfg2.N = osum (oprojV V c) :=
  (dat2 (F := Ideal) V c).arrAt_eq_of_cover 5 _ (fun t _ => flushed2_5_eq V c t) covered2_5

theorem flushed2_6_eq (c : Dev nD) (t : Fin cfg2.N) :
    (dat2 (F := Ideal) V c).flushed 6 t = ((cfg2.win 6).blk t).view.read (Elt Ideal) (osum fun i => oprojV V c i * oprojV V c i) := by
  show (cfg2.win 6).cut (grid2.coords t) ((dat2 V c).after 6 t) = _
  rw [after2_6]
  unfold out2_6
  rw [View.canon_unit_zero offsets_zero]
  simp only [View.ld_unit_zero (S := S5000x128) offsets_zero, View.ld_unit_zero (S := S128x128) offsets_zero, View.ld_unit_zero (S := S1x128) offsets_zero]
  obtain ⟨-, -, -, -, -, -, -, -, -, -, -, -, e12, e13⟩ := idx_facts2 t
  funext j
  refine colsum2_blk t.val (mulf _ _) (fun i => oprojV V c i * oprojV V c i) ?_ j (((cfg2.win 6).blk t).view.emb j) ?_ ?_
  · exact fun r d i h0 h1 => congrArg (fun z : EReal => z * z) (blk2_pay1_row V c t r d i h0 h1)
  · show win2_6.index t (0 : Fin 2) * 8 + 1 * (j 0).val = 8 * t.val + (j 0).val; omega
  · show win2_6.index t (1 : Fin 2) * 128 + 1 * (j 1).val = (j 1).val; omega

theorem covered2_6 (i : S80x128.Idx) :
    ∃ t : Fin cfg2.N, (cfg2.win 6).flush t = true ∧ i ∈ ((cfg2.win 6).blk t).view.set := by
  have hi0 := idx2_lt0 i
  have hi1 := idx2_lt1 i
  obtain ⟨t, ht⟩ : ∃ t : Fin cfg2.N, t.val = (i 0).val / 8 := ⟨⟨(i 0).val / 8, by rw [show cfg2.N = 10 from N_2]; omega⟩, rfl⟩
  obtain ⟨-, -, -, -, -, -, -, -, -, -, -, -, e12, e13⟩ := idx_facts2 t
  refine ⟨t, flush2_6 t, ?_⟩
  show i ∈ ((View.whole main_v45_2).slice (win2_6.rect t)).set
  rw [View.set_slice_whole, Rect.mem_set_unit]
  intro a
  match a with
  | ⟨0, _⟩ => show win2_6.index t (0 : Fin 2) * 8 ≤ (i 0).val ∧ (i 0).val < win2_6.index t (0 : Fin 2) * 8 + 8; omega
  | ⟨1, _⟩ => show win2_6.index t (1 : Fin 2) * 128 ≤ (i 1).val ∧ (i 1).val < win2_6.index t (1 : Fin 2) * 128 + 128; omega

theorem arr2_6 (c : Dev nD) : (dat2 (F := Ideal) V c).arrAt 6 cfg2.N = osum fun i => oprojV V c i * oprojV V c i :=
  (dat2 (F := Ideal) V c).arrAt_eq_of_cover 6 _ (fun t _ => flushed2_6_eq V c t) covered2_6

end Cert.KernelIdeal.HandVal

end
-- ==== Proof.KernelIdeal.Spec02.lean ====
import proofs.«121852_j34351148433892_2_alg».proof.Proof.KernelIdeal.Val0
import proofs.«121852_j34351148433892_2_alg».proof.Proof.KernelIdeal.Val2
import proofs.«121852_j34351148433892_2_alg».proof.Proof.Bridge.Layout

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Cert.Bridge Cert.Spec Cert.SpecLaws
open scoped BigOperators

-- Column `j` of the concatenated weights is a column of one of the three weight matrices, so the product lands in that projection.
theorem qkv_real (a : Args) (r : Fin 50000) (j : Fin 384) : ∑ k : Fin 128, a.v r k * wqkv a k j = qkvCat a r j := by
  unfold wqkv qkvCat cat3
  by_cases h : j.val < 128
  · simp only [dif_pos h]; rfl
  · by_cases h' : j.val < 256
    · simp only [dif_neg h, dif_pos h']; rfl
    · simp only [dif_neg h, dif_neg h']; rfl

theorem qkv_spec (a : Args) : qkv (E2 a.v) (E2 (wqkv a)) = E2 (qkvCat a) := by
  funext i
  obtain ⟨r, j, rfl⟩ : ∃ (r : Fin 50000) (j : Fin 384), i = ix2 r j := ⟨i 0, i 1, eq_ix2 i⟩
  show ∑ k : Fin 128, E2 a.v (ix2 r k) * E2 (wqkv a) (ix2 k j) = ((qkvCat a r j : ℝ) : EReal)
  simp only [E2_apply]
  rw [coe_sum_mul]
  exact congrArg (fun x : ℝ => (x : EReal)) (qkv_real a r j)

theorem oproj_spec (a : Args) : oproj (E2 a.v) (E2 (vattn a)) (E2 a.WOv) (row1 a.bOv) = E2 (preV1 a) := by
  funext i
  obtain ⟨r, d, rfl⟩ : ∃ (r : Fin 50000) (d : Fin 128), i = ix2 r d := ⟨i 0, i 1, eq_ix2 i⟩
  show (E2 a.v (ix2 r d) + ∑ k : Fin 128, E2 (vattn a) (ix2 r k) * E2 a.WOv (ix2 k d)) + row1 a.bOv (ix2 (0 : Fin 1) d)
    = ((preV1 a r d : ℝ) : EReal)
  simp only [E2_apply, row1_apply]
  rw [coe_sum_mul, coe_add, coe_add]
  refine congrArg (fun x : ℝ => (x : EReal)) ?_
  unfold preV1
  ring

-- The per-block column sums of a real array are its per-tile sums.
theorem osum_spec (x : Fin 50000 → Fin 128 → ℝ) : osum (E2 x) = E2 (tiles10 x) := by
  funext i
  obtain ⟨q, d, rfl⟩ : ∃ (q : Fin 80) (d : Fin 128), i = ix2 q d := ⟨i 0, i 1, eq_ix2 i⟩
  show ∑ r : Fin 5000, E2 x (ix2 (⟨5000 * (q.val / 8) + r.val, by have := q.isLt; omega⟩ : Fin 50000) d) = ((tiles10 x q d : ℝ) : EReal)
  simp only [E2_apply]
  rw [coe_sum]
  refine congrArg (fun x : ℝ => (x : EReal)) ?_
  unfold tiles10
  exact Finset.sum_congr rfl fun r _ => congrArg (fun n => x n d) (Fin.ext (by rw [tileRow_val]))

theorem E2_sq (x : Fin 50000 → Fin 128 → ℝ) : (fun i => E2 x i * E2 x i) = E2 (Cert.Bridge.sq x) := by
  funext i
  obtain ⟨r, d, rfl⟩ : ∃ (r : Fin 50000) (d : Fin 128), i = ix2 r d := ⟨i 0, i 1, eq_ix2 i⟩
  simp only [E2_apply]
  exact (EReal.coe_mul _ _).symm

variable (V : (c : Dev nD) → (b : Ref sig .tc) → Buf (Elt Ideal) ((c : Thread nD τ).loc b))

theorem region0_spec (c : Dev nD) (a : Cert.Spec.Args)
    (h0 : @Eq (S50000x128.Idx → EReal) (V c (Pipeline.arrRef spec0 0)) (E2 a.v))
    (h1 : @Eq (S128x384.Idx → EReal) (V c (Pipeline.arrRef spec0 1)) (E2 (wqkv a))) :
    @Eq (S50000x384.Idx → EReal) ((dat0 (F := Ideal) V c).arrAt 2 cfg0.N) (E2 (qkvCat a)) := by
  refine (arr0_2 V c).trans ?_
  rw [h0, h1]
  exact qkv_spec a

theorem region2_spec (c : Dev nD) (a : Cert.Spec.Args)
    (h0 : @Eq (S50000x128.Idx → EReal) (V c (Pipeline.arrRef spec2 0)) (E2 a.v))
    (h1 : @Eq (S50000x128.Idx → EReal) (V c (Pipeline.arrRef spec2 1)) (E2 (vattn a)))
    (h2 : @Eq (S128x128.Idx → EReal) (V c (Pipeline.arrRef spec2 2)) (E2 a.WOv))
    (h3 : @Eq (S1x128.Idx → EReal) (V c (Pipeline.arrRef spec2 3)) (row1 a.bOv)) :
    @Eq (S50000x128.Idx → EReal) ((dat2 (F := Ideal) V c).arrAt 4 cfg2.N) (E2 (preV1 a))
      ∧ @Eq (S80x128.Idx → EReal) ((dat2 (F := Ideal) V c).arrAt 5 cfg2.N) (E2 (tiles10 (preV1 a)))
      ∧ @Eq (S80x128.Idx → EReal) ((dat2 (F := Ideal) V c).arrAt 6 cfg2.N) (E2 (tiles10 (Cert.Bridge.sq (preV1 a)))) := by
  have ho : @Eq (S50000x128.Idx → EReal) (oprojV V c) (E2 (preV1 a)) := by
    unfold oprojV
    rw [h0, h1, h2, h3]
    exact oproj_spec a
  exact ⟨Eq.trans (α := S50000x128.Idx → EReal) (arr2_4 V c) ho,
    Eq.trans (α := S80x128.Idx → EReal) (arr2_5 V c) ((congrArg osum ho).trans (osum_spec _)),
    Eq.trans (α := S80x128.Idx → EReal) (arr2_6 V c) ((congrArg osum (by rw [ho]; exact E2_sq _)).trans (osum_spec _))⟩

end Cert.KernelIdeal.HandVal

end
-- ==== Proof.Bridge.IndexOps.lean ====
import Idealize.ShloMosaic.PureOps
import Idealize.ShloMosaic.PureOps.Ideal
import Idealize.ShloMosaic.Lib.ValueIdx

noncomputable section

open scoped BigOperators

namespace Cert.Bridge

open Idealize.ShloMosaic Idealize.ShloMosaic.ValueIdx

theorem forall_fin3 {P : Fin 3 → Prop} : (∀ a, P a) ↔ P 0 ∧ P 1 ∧ P 2 :=
  ⟨fun h => ⟨h 0, h 1, h 2⟩, fun h a => match a with | ⟨0, _⟩ => h.1 | ⟨1, _⟩ => h.2.1 | ⟨2, _⟩ => h.2.2⟩

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

-- Entry (r, 0) of a vector laid out as a column is the vector's entry r.
theorem bcastCol_apply {α : Type} {R : Nat} (hR : R ≠ 1)
    (hb : (⟨1, ![R]⟩ : Shape).BroadcastsInDim ⟨2, ![R, 1]⟩ ![0])
    (a : (⟨1, ![R]⟩ : Shape).Idx → α) (r : Fin R) (z : Fin 1) :
    broadcastInDim ⟨2, ![R, 1]⟩ ![0] hb a (ix2 r z) = a (ix1 r) := by
  unfold broadcastInDim
  congr 1
  funext b
  match b with
  | ⟨0, _⟩ =>
    have h1 : ¬ (⟨1, ![R]⟩ : Shape).size ⟨0, Nat.one_pos⟩ = 1 := hR
    rw [dif_neg h1]
    rfl

-- The one fact about where an update lands that both ranks use: on every axis, window start plus window coordinate.
theorem resultIdx?_eq_some_iff {s si u : Shape} (d : ScatterDims s si u) {w : Nat} (j : u.Idx) (idx : IVec si w)
    (i : s.Idx) : d.resultIdx? j idx = some i ↔ ∀ a, d.start j idx a + d.window j a = ((i a).val : Int) := by
  unfold ScatterDims.resultIdx?
  split
  · rename_i h
    rw [Option.some.injEq, funext_iff]
    refine forall_congr' fun a => ?_
    have := h a
    rw [Fin.ext_iff]
    show (d.start j idx a + d.window j a).toNat = (i a).val ↔ _
    omega
  · rename_i h
    refine ⟨nofun, fun e => absurd (fun a => ?_) h⟩
    have := e a
    have := (i a).isLt
    omega

section Rank2

abbrev rowDims2 (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

-- Result row r of the gather is the table's row "word r read signed, clamped into [0, N - 1]"; the other coordinates are kept.
theorem gather_rows2_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims2 N R C wf) x idx (ix2 r c)
      = x (ix2 ⟨min (idx (ix2 r 0)).toInt.toNat (N - 1), by omega⟩ c) := by
  unfold Host.gather
  congr 1
  funext a
  refine Fin.ext ?_
  revert a
  refine Fin.forall_fin_two.2 ⟨?_, show 0 + 0 + c.val = c.val by omega⟩
  exact congrArg (fun i => min (idx i).toInt.toNat (N - 1)) (funext (Fin.forall_fin_two.2 ⟨rfl, rfl⟩))

abbrev addDims2 (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N R C w : Nat} (wf : ScatterDims.WF ⟨2, ![N, C]⟩ ⟨2, ![R, 1]⟩ ⟨2, ![R, C]⟩ [1] [0] [0] 1)
  (idx : IVec ⟨2, ![R, 1]⟩ w) (r : Fin R) (c : Fin C)

theorem addDims2_start0 : (addDims2 N R C wf).start (ix2 r c) idx 0 = (idx (ix2 r 0)).toInt := by
  unfold ScatterDims.start
  rw [dif_pos (show (0 : Fin 2) ∈ (addDims2 N R C wf).scatterDimsToOperandDims from List.mem_singleton.mpr rfl)]
  exact congrArg (fun i => (idx i).toInt) (funext (Fin.forall_fin_two.2 ⟨rfl, rfl⟩))

theorem addDims2_resultIdx_eq_some_iff (c' : Fin C) (n : Fin N) :
    (addDims2 N R C wf).resultIdx? (ix2 r c') idx = some (ix2 n c)
      ↔ (idx (ix2 r 0)).toInt = (n.val : Int) ∧ c' = c := by
  rw [resultIdx?_eq_some_iff, Fin.forall_fin_two, addDims2_start0, Fin.ext_iff]
  show _ + ((0 : Nat) : Int) = (n.val : Int) ∧ (0 : Int) + ((c'.val : Nat) : Int) = (c.val : Int) ↔ _
  omega

-- With exact sums the scatter's result at (n, c) is the operand's element plus the update elements (r, c) of the rows r whose word, read signed, is n.
theorem scatterAdd_rows2_apply (x : (⟨2, ![N, C]⟩ : Shape).Idx → EReal) (u : (⟨2, ![R, C]⟩ : Shape).Idx → EReal)
    (n : Fin N) :
    Ideal.hostScatterAdd (addDims2 N R C wf) x idx u (ix2 n c)
      = x (ix2 n c)
        + ∑ r ∈ Finset.univ.filter (fun r : Fin R => (idx (ix2 r 0)).toInt = (n.val : Int)), u (ix2 r c) := by
  unfold Ideal.hostScatterAdd
  congr 1
  rw [Finset.sum_filter, sum_idx2, Finset.sum_filter]
  refine Finset.sum_congr rfl fun r _ => ?_
  simp only [addDims2_resultIdx_eq_some_iff]
  by_cases h : (idx (ix2 r 0)).toInt = (n.val : Int) <;> simp [h]

end

end Rank2

section Rank3

abbrev rowDims3 (N R H J : Nat)
    (wf : GatherDims.WF ⟨3, ![N, H, J]⟩ ⟨2, ![R, 1]⟩ ⟨3, ![R, H, J]⟩ [1, 2] [0] [] [0] [] 1 ![1, H, J]) :
    GatherDims ⟨3, ![N, H, J]⟩ ⟨2, ![R, 1]⟩ ⟨3, ![R, H, J]⟩ where
  offsetDims := [1, 2]
  collapsedSliceDims := [0]
  operandBatchingDims := []
  startIndicesBatchingDims := []
  startIndexMap := [0]
  indexVectorDim := 1
  sliceSizes := ![1, H, J]
  wf := wf

theorem gather_rows3_apply {α : Type} {N R H J w : Nat} (hN : 0 < N)
    (wf : GatherDims.WF ⟨3, ![N, H, J]⟩ ⟨2, ![R, 1]⟩ ⟨3, ![R, H, J]⟩ [1, 2] [0] [] [0] [] 1 ![1, H, J])
    (x : (⟨3, ![N, H, J]⟩ : Shape).Idx → α) (idx : IVec ⟨2, ![R, 1]⟩ w) (r : Fin R) (h : Fin H) (j : Fin J) :
    Host.gather (rowDims3 N R H J wf) x idx (ix3 r h j)
      = x (ix3 ⟨min (idx (ix2 r 0)).toInt.toNat (N - 1), by omega⟩ h j) := by
  unfold Host.gather
  congr 1
  funext a
  refine Fin.ext ?_
  revert a
  refine forall_fin3.2 ⟨?_, show 0 + 0 + h.val = h.val by omega, show 0 + 0 + j.val = j.val by omega⟩
  exact congrArg (fun i => min (idx i).toInt.toNat (N - 1)) (funext (Fin.forall_fin_two.2 ⟨rfl, rfl⟩))

abbrev addDims3 (N R H J : Nat)
    (wf : ScatterDims.WF ⟨3, ![N, H, J]⟩ ⟨2, ![R, 1]⟩ ⟨3, ![R, H, J]⟩ [1, 2] [0] [0] 1) :
    ScatterDims ⟨3, ![N, H, J]⟩ ⟨2, ![R, 1]⟩ ⟨3, ![R, H, J]⟩ where
  updateWindowDims := [1, 2]
  insertedWindowDims := [0]
  scatterDimsToOperandDims := [0]
  indexVectorDim := 1
  wf := wf

section
variable {N R H J w : Nat} (wf : ScatterDims.WF ⟨3, ![N, H, J]⟩ ⟨2, ![R, 1]⟩ ⟨3, ![R, H, J]⟩ [1, 2] [0] [0] 1)
  (idx : IVec ⟨2, ![R, 1]⟩ w) (r : Fin R) (h : Fin H) (j : Fin J)

theorem addDims3_start0 : (addDims3 N R H J wf).start (ix3 r h j) idx 0 = (idx (ix2 r 0)).toInt := by
  unfold ScatterDims.start
  rw [dif_pos (show (0 : Fin 3) ∈ (addDims3 N R H J wf).scatterDimsToOperandDims from List.mem_singleton.mpr rfl)]
  exact congrArg (fun i => (idx i).toInt) (funext (Fin.forall_fin_two.2 ⟨rfl, rfl⟩))

theorem addDims3_resultIdx_eq_some_iff (h' : Fin H) (j' : Fin J) (n : Fin N) :
    (addDims3 N R H J wf).resultIdx? (ix3 r h' j') idx = some (ix3 n h j)
      ↔ (idx (ix2 r 0)).toInt = (n.val : Int) ∧ h' = h ∧ j' = j := by
  rw [resultIdx?_eq_some_iff, forall_fin3, addDims3_start0, Fin.ext_iff, Fin.ext_iff]
  show _ + ((0 : Nat) : Int) = (n.val : Int) ∧ (0 : Int) + ((h'.val : Nat) : Int) = (h.val : Int)
    ∧ (0 : Int) + ((j'.val : Nat) : Int) = (j.val : Int) ↔ _
  omega

theorem scatterAdd_rows3_apply (x : (⟨3, ![N, H, J]⟩ : Shape).Idx → EReal)
    (u : (⟨3, ![R, H, J]⟩ : Shape).Idx → EReal) (n : Fin N) :
    Ideal.hostScatterAdd (addDims3 N R H J wf) x idx u (ix3 n h j)
      = x (ix3 n h j)
        + ∑ r ∈ Finset.univ.filter (fun r : Fin R => (idx (ix2 r 0)).toInt = (n.val : Int)), u (ix3 r h j) := by
  unfold Ideal.hostScatterAdd
  congr 1
  rw [Finset.sum_filter, sum_idx3, Finset.sum_filter]
  refine Finset.sum_congr rfl fun r _ => ?_
  simp only [addDims3_resultIdx_eq_some_iff]
  by_cases hr : (idx (ix2 r 0)).toInt = (n.val : Int) <;> simp [hr, ite_and]

end

end Rank3

-- The table an accumulating scatter starts from is 0 everywhere: the word with all bits clear encodes the real number 0.
theorem zeroTable_apply {t : Shape} (hb : (⟨0, ![]⟩ : Shape).BroadcastsInDim t ![]) (i : t.Idx) :
    broadcastInDim t ![] hb (constant (F := Ideal) ⟨0, ![]⟩ .f32 0x00000000#32) i = 0 := by
  unfold broadcastInDim
  rw [constant_apply]
  simp [Ideal.ofBits, Ideal.ieee]

end Cert.Bridge
-- ==== Proof.Bridge.GatherK.lean ====
import proofs.«121852_j34351148433892_2_alg».proof.KernelIdeal
import proofs.«121852_j34351148433892_2_alg».proof.Proof.Bridge.Index
import proofs.«121852_j34351148433892_2_alg».proof.Proof.Bridge.IndexOps

noncomputable section

open scoped BigOperators

namespace Cert.Bridge.K

open Idealize.ShloMosaic Idealize.ShloMosaic.ValueIdx Cert.KernelIdeal

variable [Facts₀]
open Facts₀

abbrev idxWrap (a : IVec S500000 32) : IVec S500000x1 32 :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 50000#32))) a)

abbrev idxRaw (a : IVec S500000 32) : IVec S500000x1 32 :=
  broadcastInDim S500000x1 ![0] bcast_S500000_S500000x1_0 a

theorem idxRaw_apply (a : IVec S500000 32) (r : Fin 500000) (z : Fin 1) : idxRaw a (ix2 r z) = a (ix1 r) :=
  bcastCol_apply (R := 500000) (by decide) _ a r z

-- Entry r of the rewritten column is the rewriting of word r: comparison, sum and choice are elementwise.
theorem idxWrap_apply (a : IVec S500000 32) (r : Fin 500000) (z : Fin 1) : idxWrap a (ix2 r z) = wrapW (a (ix1 r)) :=
  bcastCol_apply (R := 500000) (by decide) _ _ r z

theorem gather128_apply {α : Type} (x : S50000x128.Idx → α) (a : IVec S500000 32) (r : Fin 500000) (d : Fin 128) :
    Host.gather gather_S50000x128_S500000x1_S500000x128_1_0_n_n_0_1_1128 x (idxWrap a) (ix2 r d)
      = x (ix2 (gRow (a (ix1 r))) d) :=
  (gather_rows2_apply (N := 50000) (by decide) gather_S50000x128_S500000x1_S500000x128_1_0_n_n_0_1_1128_wf x
    (idxWrap a) r d).trans (congrArg (fun t => x (ix2 t d))
      (Fin.ext (congrArg (fun v : BitVec 32 => min v.toInt.toNat 49999) (idxWrap_apply a r 0))))

theorem gather256_apply {α : Type} (x : S50000x256.Idx → α) (a : IVec S500000 32) (r : Fin 500000) (d : Fin 256) :
    Host.gather gather_S50000x256_S500000x1_S500000x256_1_0_n_n_0_1_1256 x (idxWrap a) (ix2 r d)
      = x (ix2 (gRow (a (ix1 r))) d) :=
  (gather_rows2_apply (N := 50000) (by decide) gather_S50000x256_S500000x1_S500000x256_1_0_n_n_0_1_1256_wf x
    (idxWrap a) r d).trans (congrArg (fun t => x (ix2 t d))
      (Fin.ext (congrArg (fun v : BitVec 32 => min v.toInt.toNat 49999) (idxWrap_apply a r 0))))

abbrev zeros128 : FVec Ideal S50000x128 .f32 :=
  broadcastInDim S50000x128 ![] bcast_S_S50000x128 (constant S_ .f32 0x00000000#32)

theorem scatter128_apply (u : S500000x128.Idx → EReal) (a : IVec S500000 32) (n : Fin 50000) (d : Fin 128) :
    Host.scatterAdd (F := Ideal) (φ := .f32) scatter_S50000x128_S500000x1_S500000x128_1_0_0_1 zeros128 (idxRaw a) u (ix2 n d)
      = ∑ r ∈ Finset.univ.filter (fun r : Fin 500000 => sRow (a (ix1 r)) = some n), u (ix2 r d) := by
  have e : scatter_S50000x128_S500000x1_S500000x128_1_0_0_1
      = addDims2 50000 500000 128 scatter_S50000x128_S500000x1_S500000x128_1_0_0_1_wf := rfl
  have hz : zeros128 (ix2 n d) = 0 := zeroTable_apply _ _
  unfold Host.scatterAdd
  rw [Ideal.hostScatterAdd_def, e, scatterAdd_rows2_apply, hz, zero_add]
  refine Finset.sum_congr (Finset.filter_congr fun r _ => ?_) fun _ _ => rfl
  rw [sRow_eq_some_iff, idxRaw_apply]

abbrev zeros8 : FVec Ideal S50000x8 .f32 :=
  broadcastInDim S50000x8 ![] bcast_S_S50000x8 (constant S_ .f32 0x00000000#32)

theorem scatter8_apply (u : S500000x8.Idx → EReal) (a : IVec S500000 32) (n : Fin 50000) (d : Fin 8) :
    Host.scatterAdd (F := Ideal) (φ := .f32) scatter_S50000x8_S500000x1_S500000x8_1_0_0_1 zeros8 (idxRaw a) u (ix2 n d)
      = ∑ r ∈ Finset.univ.filter (fun r : Fin 500000 => sRow (a (ix1 r)) = some n), u (ix2 r d) := by
  have e : scatter_S50000x8_S500000x1_S500000x8_1_0_0_1
      = addDims2 50000 500000 8 scatter_S50000x8_S500000x1_S500000x8_1_0_0_1_wf := rfl
  have hz : zeros8 (ix2 n d) = 0 := zeroTable_apply _ _
  unfold Host.scatterAdd
  rw [Ideal.hostScatterAdd_def, e, scatterAdd_rows2_apply, hz, zero_add]
  refine Finset.sum_congr (Finset.filter_congr fun r _ => ?_) fun _ _ => rfl
  rw [sRow_eq_some_iff, idxRaw_apply]

end Cert.Bridge.K
-- ==== Proof.KernelIdeal.StageGather.lean ====
import proofs.«121852_j34351148433892_2_alg».proof.Proof.Gen.KernelIdeal.Launch
import proofs.«121852_j34351148433892_2_alg».proof.Proof.Bridge.GatherK
import proofs.«121852_j34351148433892_2_alg».proof.Proof.Bridge.Layout
import proofs.«121852_j34351148433892_2_alg».proof.Proof.SpecLawsMore
import Idealize.ShloMosaic.Lib.StableHlo.Run
import Idealize.ShloMosaic.Lib.Pipeline.Value

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.ValueIdx
open Idealize.ShloMosaic.StableHlo
open Cert.Bridge Cert.Spec
open scoped BigOperators

private theorem cat3_fst_sg {n : ℕ} (x y z : Fin n → Fin 128 → ℝ) (r : Fin n) (k : Fin 384) (c : Fin 128)
    (hk : k.val = c.val) : cat3 x y z r k = x r c := by
  unfold cat3
  have hc := c.isLt
  rw [dif_pos (by omega : k.val < 128)]
  exact congrArg (x r) (Fin.ext hk)

private theorem cat3_tail_sg {n : ℕ} (x y z : Fin n → Fin 128 → ℝ) (r : Fin n) (k : Fin 384) (j : Fin 256)
    (hk : k.val = 128 + j.val) : cat3 x y z r k = cat2 y z r j := by
  unfold cat3 cat2
  have hj := j.isLt
  rw [dif_neg (by omega : ¬ k.val < 128)]
  by_cases h : j.val < 128
  · rw [dif_pos (by omega : k.val < 256), dif_pos h]
    exact congrArg (y r) (Fin.ext (by show k.val - 128 = j.val; omega))
  · rw [dif_neg (by omega : ¬ k.val < 256), dif_neg h]
    exact congrArg (z r) (Fin.ext (by show k.val - 256 = j.val - 128; omega))

private theorem litTable_apply_sg {t : Shape} (b : BitVec 32) (hb : S_.BroadcastsInDim t ![]) (i : t.Idx) :
    broadcastInDim t ![] hb (constant (F := Ideal) S_ .f32 b) i = Ideal.ofBits .f32 b := by
  unfold broadcastInDim
  rw [constant_apply]

private theorem scat_sum_sg {C : ℕ} (f : Fin 500000 → Fin C → ℝ) (dst : S500000.Idx → BitVec 32)
    (sd : Fin 500000 → Option (Fin 50000)) (hsd : ∀ r, sd r = sRow (dst (ix1 r))) (n : Fin 50000) (c : Fin C) :
    ∑ r ∈ Finset.univ.filter (fun r : Fin 500000 => sRow (dst (ix1 r)) = some n), E2 f (ix2 r c)
      = ((∑ r ∈ Finset.univ.filter (fun r : Fin 500000 => sd r = some n), f r c : ℝ) : EReal) := by
  rw [← Cert.SpecLaws.coe_sum]
  refine Finset.sum_congr (Finset.filter_congr fun r _ => ?_) fun r _ => rfl
  rw [hsd]

section Stretches
variable (W : Valuation τ sig (Elt Ideal))

set_option maxHeartbeats 1600000 in
private theorem v31_eq_sg :
    @Eq (S500000x256.Idx → EReal) (StableHlo.after (main_part0_ops1 (F := Ideal)) W (Proc.devRef .tc main_v31))
      (Host.gather gather_S50000x256_S500000x1_S500000x256_1_0_n_n_0_1_1256
        (extractStridedSlice S50000x256 ![0, 128] (W (Proc.devRef .tc main_v15)) slices_S50000x384_S50000x256_0_128)
        (Cert.Bridge.K.idxWrap (W (Proc.devRef .tc main_arg3)))) := by
  after_results_simp
  all_goals rfl

-- Cutting the projections, rewriting the words and gathering reads the specification's rows of the sources and destinations.
theorem gatherStretch (a : Cert.Spec.Args) (src dst : S500000.Idx → BitVec 32)
    (h15 : @Eq (S50000x384.Idx → EReal) (W (Proc.devRef .tc main_v15)) (E2 (qkvCat a)))
    (h2 : @Eq (S500000x1x1.Idx → EReal) (W (Proc.devRef .tc main_arg2)) (E3 a.env))
    (h3 : @Eq (S500000.Idx → BitVec 32) (W (Proc.devRef .tc main_arg3)) src)
    (h4 : @Eq (S500000.Idx → BitVec 32) (W (Proc.devRef .tc main_arg4)) dst)
    (hgs : ∀ r, a.gs r = gRow (src (ix1 r))) (hgd : ∀ r, a.gd r = gRow (dst (ix1 r))) :
    @Eq (S500000x128.Idx → EReal) (StableHlo.after (main_part0_ops1 (F := Ideal)) W (Proc.devRef .tc main_v24))
        (E2 (qEdge a))
      ∧ @Eq (S500000x256.Idx → EReal) (StableHlo.after (main_part0_ops1 (F := Ideal)) W (Proc.devRef .tc main_v31))
        (E2 (kvEdge a))
      ∧ @Eq (S500000x1.Idx → EReal) (StableHlo.after (main_part0_ops1 (F := Ideal)) W (Proc.devRef .tc main_v32))
        (col1 a.env) := by
  refine ⟨?_, ?_, ?_⟩
  · after_results
    rw [h15, h4]
    funext i
    obtain ⟨r, c, rfl⟩ : ∃ r c, i = ix2 r c := ⟨_, _, eq_ix2 i⟩
    rw [Cert.Bridge.K.gather128_apply]
    refine (extractStridedSlice_apply _ _ _ _
      (ix2 (gRow (dst (ix1 r))) (⟨c.val, by have := c.isLt; omega⟩ : Fin 384)) ?_).trans ?_
    · intro ax
      match ax with
      | ⟨0, _⟩ | ⟨1, _⟩ => exact (Nat.zero_add _).symm
    · rw [E2_apply, E2_apply]
      refine congrArg (fun t : ℝ => (t : EReal)) ?_
      show cat3 (Q a) (K a) (Vv a) (gRow (dst (ix1 r))) _ = Q a (a.gd r) c
      rw [hgd]
      exact cat3_fst_sg _ _ _ _ _ c rfl
  · refine (v31_eq_sg W).trans ?_
    rw [h15, h3]
    funext i
    obtain ⟨r, j, rfl⟩ : ∃ r j, i = ix2 r j := ⟨_, _, eq_ix2 i⟩
    rw [Cert.Bridge.K.gather256_apply]
    refine (extractStridedSlice_apply _ _ _ _
      (ix2 (gRow (src (ix1 r))) (⟨128 + j.val, by have := j.isLt; omega⟩ : Fin 384)) ?_).trans ?_
    · intro ax
      match ax with
      | ⟨0, _⟩ => exact (Nat.zero_add _).symm
      | ⟨1, _⟩ => rfl
    · rw [E2_apply, E2_apply]
      refine congrArg (fun t : ℝ => (t : EReal)) ?_
      show cat3 (Q a) (K a) (Vv a) (gRow (src (ix1 r))) _ = cat2 (K a) (Vv a) (a.gs r) j
      rw [hgs]
      exact cat3_tail_sg _ _ _ _ _ j rfl
  · after_results
    show shapeCast S500000x1 _ _ = _
    rw [h2]
    funext i
    obtain ⟨r, z, rfl⟩ : ∃ r z, i = ix2 r z := ⟨_, _, eq_ix2 i⟩
    have hz : z.val = 0 := by have := z.isLt; omega
    refine (shapeCast_apply _ _ _ (ix3 r 0 0) ?_).trans ?_
    · rw [Shape.rowMajor_val_three, Shape.rowMajor_val_two]
      show (r.val * 1 + 0) * 1 + 0 = r.val * 1 + z.val
      omega
    · rw [E3_apply, col1_apply]

-- The two accumulating scatters are the sums over the edges sent to a node; the weights are spread over the lanes, regularised, divided.
theorem scatterStretch (a : Cert.Spec.Args) (dst : S500000.Idx → BitVec 32)
    (h1 : @Eq (S500000x8.Idx → EReal) (W (Proc.devRef .tc main_v33_1)) (E2 (s a)))
    (h2 : @Eq (S500000x128.Idx → EReal) (W (Proc.devRef .tc main_v33_2)) (E2 (msg a)))
    (h4 : @Eq (S500000.Idx → BitVec 32) (W (Proc.devRef .tc main_arg4)) dst)
    (hsd : ∀ r, a.sd r = sRow (dst (ix1 r)))
    (hlit : Ideal.ofBits .f32 0x358637BD#32 = ((a.eps6 : ℝ) : EReal)) :
    @Eq (S50000x128.Idx → EReal) (StableHlo.after (main_part0_ops2 (F := Ideal)) W (Proc.devRef .tc main_v44))
      (E2 (vattn a)) := by
  after_results_simp
  show Host.divf _ (addf (shapeCast S50000x128 _ _) _) = _
  rw [h1, h2, h4]
  funext i
  obtain ⟨n, c, rfl⟩ : ∃ n c, i = ix2 n c := ⟨_, _, eq_ix2 i⟩
  have hdiv : ∀ (X Y : FVec Ideal S50000x128 .f32) (j : S50000x128.Idx),
      Host.divf X Y j = FloatOps.hostDivf (X j) (Y j) := fun _ _ _ => rfl
  have hk1 : (S50000x8x16.rowMajor (ix3 n (hd c) (⟨c.val % 16, Nat.mod_lt _ (by decide)⟩ : Fin 16))).val
      = (S50000x128.rowMajor (ix2 n c)).val := by
    rw [Shape.rowMajor_val_three, Shape.rowMajor_val_two]
    show (n.val * 8 + c.val / 16) * 16 + c.val % 16 = n.val * 128 + c.val
    omega
  have hk2 : ∀ ax : Fin S50000x8.rank, ((ix2 n (hd c) : S50000x8.Idx) ax).val
      = if S50000x8.size ax = 1 then 0
        else ((ix3 n (hd c) (⟨c.val % 16, Nat.mod_lt _ (by decide)⟩ : Fin 16) : S50000x8x16.Idx)
          ((![0, 1] : Fin 2 → Fin S50000x8x16.rank) ax)).val := by
    intro ax
    match ax with
    | ⟨0, _⟩ | ⟨1, _⟩ => rfl
  rw [hdiv, addf_apply, Cert.Bridge.K.scatter128_apply, scat_sum_sg (msg a) dst a.sd hsd n c,
    shapeCast_apply _ _ (ix2 n c) (ix3 n (hd c) (⟨c.val % 16, Nat.mod_lt _ (by decide)⟩ : Fin 16)) hk1,
    broadcastInDim_apply _ _ _ _ (ix2 n (hd c)) hk2,
    Cert.Bridge.K.scatter8_apply, scat_sum_sg (s a) dst a.sd hsd n (hd c),
    litTable_apply_sg, hlit, Cert.SpecLaws.coe_add,
    Cert.SpecLaws.hostDivf_coe _ _
      (show (∑ r ∈ Finset.univ.filter (fun r : Fin 500000 => a.sd r = some n), s a r (hd c)) + a.eps6 ≠ 0 from
        Cert.SpecLaws.z_add_eps_ne a n (hd c)), E2_apply]
  rfl

end Stretches

end Cert.KernelIdeal.HandVal
-- ==== Proof.KernelIdeal.Val1.lean ====
import proofs.«121852_j34351148433892_2_alg».proof.Proof.KernelIdeal.Region1
import proofs.«121852_j34351148433892_2_alg».proof.Proof.SpecLawsMore
import Idealize.ShloMosaic.Lib.Pipeline.Value
import Idealize.ShloMosaic.Lib.ValueIdx
import Idealize.ShloMosaic.PureOps.Ideal.Laws

set_option maxRecDepth 16384

noncomputable section

namespace Cert.KernelIdeal.HandVal.R1

open Cert.KernelIdeal Cert.KernelIdeal.Gen
open Idealize.ShloMosaic Idealize.ShloMosaic.ValueIdx
open scoped BigOperators

theorem bcastRow_apply {α : Type} {n m : ℕ} (v : (⟨2, ![1, m]⟩ : Shape).Idx → α)
    (h : (⟨2, ![1, m]⟩ : Shape).Broadcasts ⟨2, ![n, m]⟩) (p : Fin n) (c : Fin m) :
    broadcastTo ⟨2, ![n, m]⟩ v h (ix2 p c) = v (ix2 (0 : Fin 1) c) := by
  refine broadcastTo_apply v h (ix2 p c) (ix2 (0 : Fin 1) c) fun ax => ?_
  match ax with
  | ⟨0, _⟩ => rfl
  | ⟨1, _⟩ => show c.val = if m = 1 then 0 else c.val; split <;> omega

theorem bcastCol_apply {α : Type} {n m : ℕ} (v : (⟨2, ![n, 1]⟩ : Shape).Idx → α)
    (h : (⟨2, ![n, 1]⟩ : Shape).Broadcasts ⟨2, ![n, m]⟩) (p : Fin n) (c : Fin m) :
    broadcastTo ⟨2, ![n, m]⟩ v h (ix2 p c) = v (ix2 p (0 : Fin 1)) := by
  refine broadcastTo_apply v h (ix2 p c) (ix2 p (0 : Fin 1)) fun ax => ?_
  match ax with
  | ⟨0, _⟩ => show p.val = if n = 1 then 0 else p.val; split <;> omega
  | ⟨1, _⟩ => rfl

theorem castRow_apply {α : Type} {m : ℕ} (x : (⟨1, ![m]⟩ : Shape).Idx → α)
    (h : (⟨1, ![m]⟩ : Shape).ShapeCasts ⟨2, ![1, m]⟩) (u : Fin 1) (c : Fin m) :
    shapeCast ⟨2, ![1, m]⟩ x h (ix2 u c) = x (ix1 c) :=
  shapeCast_apply x h _ _ (by
    have hu : u.val = 0 := by omega
    rw [Shape.rowMajor_val_two, Shape.rowMajor_val_one]
    show c.val = u.val * m + c.val
    rw [hu, Nat.zero_mul, Nat.zero_add])

theorem colsum_apply (src : FVec Ideal S2000x128 .f32) (hacc : (0x00000000#32 : BitVec 32) = 0x00000000#32) (c : Fin 128) :
    multiReduction (F := Ideal) .add [0] S128 src 0x00000000#32 reduces_S2000x128_S128 (.inl rfl) hacc (ix1 c)
      = ∑ q : Fin 2000, src (ix2 q c) := by
  refine (Ideal.multiReduction_add_single src 0x00000000#32 reduces_S2000x128_S128 (.inl rfl) hacc (ix1 c)).trans ?_
  show ∑ q : Fin 2000, src (reduces_S2000x128_S128.lift (ix1 c) q) = _
  refine Finset.sum_congr rfl fun q _ => congrArg src (funext fun a => Fin.ext ?_)
  match a with
  | ⟨0, _⟩ => rfl
  | ⟨1, _⟩ => rfl

theorem plain_lhs0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from fun h => nomatch h), dif_pos (show (0 : Fin 2) ∈ (DotDims.plain M K N).lhsNonContracting from List.mem_singleton.mpr rfl)]
  rfl
theorem plain_rhs1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from fun h => nomatch h), dif_pos (show (1 : Fin 2) ∈ (DotDims.plain M K N).rhsNonContracting from List.mem_singleton.mpr rfl)]
  rfl

-- A plain [M,K]·[K,N] product into a zero accumulator is, at an index, the row of the left factor against the column of the right one.
theorem plain_matmul_apply {M K N : ℕ} {φ₁ φ₂ : FTy} (prec : Option ContractPrecision)
    (a : FVec Ideal ⟨2, ![M, K]⟩ φ₁) (b : FVec Ideal ⟨2, ![K, N]⟩ φ₂) (j : (⟨2, ![M, N]⟩ : Shape).Idx) :
    FloatOps.matmul (DotDims.plain M K N) prec a b (constant (F := Ideal) ⟨2, ![M, N]⟩ .f32 0x00000000#32) j
      = ∑ k : Fin K, a (ix2 (j 0) k) * b (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    Shape.idx_ext₂ (plain_lhs0 _ _) (((DotDims.plain M K N).lhsIdx_val_of_single rfl _ _).trans hk)
  have er : (DotDims.plain M K N).rhsIdx j ((contrEquiv1 (DotDims.plain M K N) K rfl rfl).symm k) = ix2 k (j 1) :=
    Shape.idx_ext₂ (((DotDims.plain M K N).rhsIdx_val_of_single rfl _ _).trans hk) (plain_rhs1 _ _)
  rw [el, er]
  rfl

variable (v0 : FVec Ideal S2000x128 .f32) (v2 : FVec Ideal S128x128 .bf16) (v5 v7 v9 : FVec Ideal S2000x128 .f32) (v15 : FVec Ideal S128x8 .f32)
  (v22 : FVec Ideal S8x128 .f32) (v24 : FVec Ideal S2000x1 .f32) (v30 : FVec Ideal S128x128 .bf16) (v33 : FVec Ideal S2000x128 .f32) (v34 : FVec Ideal S1x128 .f32)

theorem pay4_apply (p : Fin 2000) (c : Fin 128) :
    k1_pay4 (F := Ideal) v0 v2 v5 v9 (ix2 p c)
      = ((v5 (ix2 p c) * v9 (ix2 p c)) * ∑ k : Fin 128, v0 (ix2 p k) * v2 (ix2 k c)) * Ideal.ofBits .f32 0x3E800000#32 := by
  simp only [k1_pay4, shapeCast_self]
  show ((v5 (ix2 p c) * v9 (ix2 p c)) * FloatOps.matmul (F := Ideal) (.plain _ _ _) _ _ v2 _ _) * _ = _
  rw [plain_matmul_apply]
  rfl

theorem pay5_apply (p : Fin 2000) (c : Fin 8) :
    k1_pay5 (F := Ideal) v0 v2 v5 v9 v15 (ix2 p c)
      = Ideal.exp (min (Ideal.ofBits .f32 0x40A00000#32) (max (Ideal.ofBits .f32 0xC0A00000#32)
          (∑ d : Fin 128, k1_pay4 (F := Ideal) v0 v2 v5 v9 (ix2 p d) * v15 (ix2 d c)))) := by
  show Ideal.exp (min _ (max _ (FloatOps.matmul (F := Ideal) (.plain _ _ _) _ _ v15 _ _))) = _
  rw [plain_matmul_apply]
  rfl

theorem pay6_apply (p : Fin 2000) (c : Fin 128) :
    k1_pay6 (F := Ideal) v0 v2 v5 v7 v9 v15 v22 v24 (ix2 p c)
      = (v7 (ix2 p c) * v24 (ix2 p (0 : Fin 1))) * ∑ h : Fin 8, k1_pay5 (F := Ideal) v0 v2 v5 v9 v15 (ix2 p h) * v22 (ix2 h c) := by
  simp only [k1_pay6, shapeCast_self]
  show (v7 (ix2 p c) * broadcastTo S2000x128 v24 _ (ix2 p c)) * FloatOps.matmul (F := Ideal) (.plain _ _ _) _ _ v22 _ _ = _
  rw [plain_matmul_apply, bcastCol_apply]

theorem pay7_apply (p : Fin 2000) (c : Fin 128) :
    k1_pay7 (F := Ideal) v0 v2 v5 v9 v30 (ix2 p c)
      = v0 (ix2 p c) + ∑ k : Fin 128, k1_pay4 (F := Ideal) v0 v2 v5 v9 (ix2 p k) * v30 (ix2 k c) := by
  simp only [k1_pay7, shapeCast_self]
  show v0 (ix2 p c) + FloatOps.matmul (F := Ideal) (.plain _ _ _) _ _ v30 _ _ = _
  rw [plain_matmul_apply]
  rfl

theorem pay1_apply (p : Fin 2000) (c : Fin 128) :
    k1_pay1 (F := Ideal) v33 v34 (ix2 p c) = v33 (ix2 p c) + v34 (ix2 (0 : Fin 1) c) := by
  simp only [k1_pay1, shapeCast_self]
  show v33 (ix2 p c) + broadcastTo S2000x128 v34 _ (ix2 p c) = _
  rw [bcastRow_apply]

theorem pay2_apply (p : Fin 8) (c : Fin 128) :
    k1_pay2 (F := Ideal) v33 v34 (ix2 p c) = ∑ q : Fin 2000, k1_pay1 (F := Ideal) v33 v34 (ix2 q c) := by
  simp only [k1_pay2, shapeCast_self]
  rw [bcastRow_apply, castRow_apply, colsum_apply]

theorem pay3_apply (p : Fin 8) (c : Fin 128) :
    k1_pay3 (F := Ideal) v33 v34 (ix2 p c)
      = ∑ q : Fin 2000, k1_pay1 (F := Ideal) v33 v34 (ix2 q c) * k1_pay1 (F := Ideal) v33 v34 (ix2 q c) := by
  simp only [k1_pay3, shapeCast_self]
  rw [bcastRow_apply, castRow_apply, colsum_apply]
  rfl

end Cert.KernelIdeal.HandVal.R1

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.SpecLaws (tileRow tileRow_val)
open scoped BigOperators

def colK1 (d : Fin 128) : Fin 256 := ⟨d.val, by have := d.isLt; omega⟩

def colV1 (d : Fin 128) : Fin 256 := ⟨128 + d.val, by have := d.isLt; omega⟩

theorem colV1_val (d : Fin 128) : (colV1 d).val = 128 + d.val := rfl

def tileOf8_1 (p : Fin 2000) : Fin 250 := ⟨p.val / 8, by have := p.isLt; omega⟩

def pe1 (e : S500000x128.Idx → EReal) (we : S128x128.Idx → EReal) (r : Fin 500000) (d : Fin 128) : EReal :=
  ∑ k : Fin 128, e (ix2 r k) * we (ix2 k d)

def score1 (e : S500000x128.Idx → EReal) (kv : S500000x256.Idx → EReal) (qg : S500000x128.Idx → EReal) (we : S128x128.Idx → EReal)
    (r : Fin 500000) (d : Fin 128) : EReal :=
  ((kv (ix2 r (colK1 d)) * qg (ix2 r d)) * pe1 e we r d) * Ideal.ofBits .f32 0x3E800000#32

def s1 (e : S500000x128.Idx → EReal) (kv : S500000x256.Idx → EReal) (qg : S500000x128.Idx → EReal) (we : S128x128.Idx → EReal)
    (gred : S128x8.Idx → EReal) (r : Fin 500000) (h : Fin 8) : EReal :=
  Ideal.exp (min (Ideal.ofBits .f32 0x40A00000#32) (max (Ideal.ofBits .f32 0xC0A00000#32)
    (∑ d : Fin 128, score1 e kv qg we r d * gred (ix2 d h))))

def msg1 (e : S500000x128.Idx → EReal) (kv : S500000x256.Idx → EReal) (qg : S500000x128.Idx → EReal) (env : S500000x1.Idx → EReal)
    (we : S128x128.Idx → EReal) (gred : S128x8.Idx → EReal) (gbro : S8x128.Idx → EReal) (r : Fin 500000) (d : Fin 128) : EReal :=
  (kv (ix2 r (colV1 d)) * env (ix2 r (0 : Fin 1))) * ∑ h : Fin 8, s1 e kv qg we gred r h * gbro (ix2 h d)

def pre1 (e : S500000x128.Idx → EReal) (kv : S500000x256.Idx → EReal) (qg : S500000x128.Idx → EReal) (we woe : S128x128.Idx → EReal)
    (boe : S1x128.Idx → EReal) (r : Fin 500000) (d : Fin 128) : EReal :=
  (e (ix2 r d) + ∑ k : Fin 128, score1 e kv qg we r k * woe (ix2 k d)) + boe (ix2 (0 : Fin 1) d)

namespace R1

theorem offsets_zero : (![0, 0] : Fin 2 → Nat) = fun _ => 0 := funext fun a => by
  match a with
  | ⟨0, _⟩ => rfl
  | ⟨1, _⟩ => rfl

-- Reading through the whole rectangle at zero offsets is the identity.
theorem ld0 {n m : ℕ} {e : EltTy} (inb) (x : Vec Ideal ⟨2, ![n, m]⟩ e) : View.ld x (Rect.unit ![0, 0] (⟨2, ![n, m]⟩ : Shape).size inb) = x :=
  View.ld_unit_zero offsets_zero inb x

theorem ld_left (x1 : Vec Ideal S2000x256 .f32) (p : Fin 2000) (d : Fin 128) :
    View.ld x1 r1_2 (ix2 p d) = x1 (ix2 p (colK1 d)) := by
  show x1 (r1_2.idx (ix2 p d)) = _
  refine congrArg x1 (funext fun a => Fin.ext ?_)
  match a with
  | ⟨0, _⟩ => show 0 + 1 * p.val = p.val; omega
  | ⟨1, _⟩ => show 0 + 1 * d.val = d.val; omega

theorem ld_right (x1 : Vec Ideal S2000x256 .f32) (p : Fin 2000) (d : Fin 128) :
    View.ld x1 r1_3 (ix2 p d) = x1 (ix2 p (colV1 d)) := by
  show x1 (r1_3.idx (ix2 p d)) = _
  refine congrArg x1 (funext fun a => Fin.ext ?_)
  match a with
  | ⟨0, _⟩ => show 0 + 1 * p.val = p.val; omega
  | ⟨1, _⟩ => show 128 + 1 * d.val = 128 + d.val; omega

structure BlockOf (e : S500000x128.Idx → EReal) (kv : S500000x256.Idx → EReal) (qg : S500000x128.Idx → EReal) (env : S500000x1.Idx → EReal) (we : S128x128.Idx → EReal) (woe : S128x128.Idx → EReal) (boe : S1x128.Idx → EReal) (gred : S128x8.Idx → EReal) (gbro : S8x128.Idx → EReal)
    (x0 : Vec Ideal S2000x128 .f32) (x1 : Vec Ideal S2000x256 .f32) (x2 : Vec Ideal S2000x128 .f32) (x3 : Vec Ideal S2000x1 .f32) (x4 x5 : Vec Ideal S128x128 .bf16) (x6 : Vec Ideal S1x128 .f32) (x7 : Vec Ideal S128x8 .f32) (x8 : Vec Ideal S8x128 .f32) (ρ : Fin 2000 → Fin 500000) : Prop where
  h0 : ∀ (p : Fin 2000) (c : Fin 128), x0 (ix2 p c) = e (ix2 (ρ p) c)
  h1 : ∀ (p : Fin 2000) (c : Fin 256), x1 (ix2 p c) = kv (ix2 (ρ p) c)
  h2 : ∀ (p : Fin 2000) (c : Fin 128), x2 (ix2 p c) = qg (ix2 (ρ p) c)
  h3 : ∀ (p : Fin 2000) (u : Fin 1), x3 (ix2 p u) = env (ix2 (ρ p) u)
  h4 : x4 = we
  h5 : x5 = woe
  h6 : x6 = boe
  h7 : x7 = gred
  h8 : x8 = gbro

section Block
variable {e : S500000x128.Idx → EReal} {kv : S500000x256.Idx → EReal} {qg : S500000x128.Idx → EReal} {env : S500000x1.Idx → EReal}
  {we woe : S128x128.Idx → EReal} {boe : S1x128.Idx → EReal} {gred : S128x8.Idx → EReal} {gbro : S8x128.Idx → EReal}
  {x0 : Vec Ideal S2000x128 .f32} {x1 : Vec Ideal S2000x256 .f32} {x2 : Vec Ideal S2000x128 .f32} {x3 : Vec Ideal S2000x1 .f32} {x4 x5 : Vec Ideal S128x128 .bf16} {x6 : Vec Ideal S1x128 .f32} {x7 : Vec Ideal S128x8 .f32} {x8 : Vec Ideal S8x128 .f32}
  {ρ : Fin 2000 → Fin 500000}
  (H : BlockOf e kv qg env we woe boe gred gbro x0 x1 x2 x3 x4 x5 x6 x7 x8 ρ)
include H

theorem blk_score (p : Fin 2000) (d : Fin 128) :
    k1_pay4 (F := Ideal) (View.ld x0 r1_0) (View.ld x4 r1_1) (View.ld x1 r1_2) (View.ld x2 r1_0) (ix2 p d) = score1 e kv qg we (ρ p) d := by
  rw [pay4_apply, ld_left, ld0 _ x0, ld0 _ x2, ld0 _ x4]
  unfold score1 pe1
  simp only [H.h0, H.h1, H.h2, H.h4]

theorem blk_s (p : Fin 2000) (h : Fin 8) :
    k1_pay5 (F := Ideal) (View.ld x0 r1_0) (View.ld x4 r1_1) (View.ld x1 r1_2) (View.ld x2 r1_0) (View.ld x7 r1_4) (ix2 p h) = s1 e kv qg we gred (ρ p) h := by
  rw [pay5_apply, ld0 _ x7]
  unfold s1
  simp only [blk_score H, H.h7]

theorem blk_msg (p : Fin 2000) (d : Fin 128) :
    k1_pay6 (F := Ideal) (View.ld x0 r1_0) (View.ld x4 r1_1) (View.ld x1 r1_2) (View.ld x1 r1_3) (View.ld x2 r1_0) (View.ld x7 r1_4) (View.ld x8 r1_5) (View.ld x3 r1_6) (ix2 p d) = msg1 e kv qg env we gred gbro (ρ p) d := by
  rw [pay6_apply, ld_right, ld0 _ x3, ld0 _ x8]
  unfold msg1
  simp only [blk_s H, H.h1, H.h3, H.h8]

theorem blk_pre (p : Fin 2000) (d : Fin 128) :
    k1_pay1 (F := Ideal) (k1_pay7 (F := Ideal) (View.ld x0 r1_0) (View.ld x4 r1_1) (View.ld x1 r1_2) (View.ld x2 r1_0) (View.ld x5 r1_1)) (View.ld x6 r1_7) (ix2 p d) = pre1 e kv qg we woe boe (ρ p) d := by
  rw [pay1_apply, pay7_apply, ld0 _ x5, ld0 _ x6]
  unfold pre1
  simp only [blk_score H, H.h5, H.h6]
  rw [ld0 _ x0, H.h0]

theorem out9_at (j : S2000x128.Idx) :
    out1_9 (F := Ideal) x0 x1 x2 x3 x4 x5 x6 x7 x8 j = pre1 e kv qg we woe boe (ρ (j 0)) (j 1) := by
  unfold out1_9
  rw [View.canon_unit_zero offsets_zero]
  exact (congrArg _ (eq_ix2 j)).trans (blk_pre H (j 0) (j 1))

theorem out10_at (j : S2000x8.Idx) :
    out1_10 (F := Ideal) x0 x1 x2 x3 x4 x5 x6 x7 x8 j = s1 e kv qg we gred (ρ (j 0)) (j 1) := by
  unfold out1_10
  rw [View.canon_unit_zero offsets_zero]
  exact (congrArg _ (eq_ix2 j)).trans (blk_s H (j 0) (j 1))

theorem out11_at (j : S2000x128.Idx) :
    out1_11 (F := Ideal) x0 x1 x2 x3 x4 x5 x6 x7 x8 j = msg1 e kv qg env we gred gbro (ρ (j 0)) (j 1) := by
  unfold out1_11
  rw [View.canon_unit_zero offsets_zero]
  exact (congrArg _ (eq_ix2 j)).trans (blk_msg H (j 0) (j 1))

theorem out12_at (j : S8x128.Idx) :
    out1_12 (F := Ideal) x0 x1 x2 x3 x4 x5 x6 x7 x8 j = ∑ q : Fin 2000, pre1 e kv qg we woe boe (ρ q) (j 1) := by
  unfold out1_12
  rw [View.canon_unit_zero offsets_zero]
  refine (congrArg _ (eq_ix2 j)).trans ?_
  exact (pay2_apply _ _ (j 0) (j 1)).trans (Finset.sum_congr rfl fun q _ => blk_pre H q (j 1))

theorem out13_at (j : S8x128.Idx) :
    out1_13 (F := Ideal) x0 x1 x2 x3 x4 x5 x6 x7 x8 j = ∑ q : Fin 2000, pre1 e kv qg we woe boe (ρ q) (j 1) * pre1 e kv qg we woe boe (ρ q) (j 1) := by
  unfold out1_13
  rw [View.canon_unit_zero offsets_zero]
  refine (congrArg _ (eq_ix2 j)).trans ?_
  exact (pay3_apply _ _ (j 0) (j 1)).trans (Finset.sum_congr rfl fun q _ => congrArg₂ (· * ·) (blk_pre H q (j 1)) (blk_pre H q (j 1)))

end Block

def tileAt (t : Fin cfg1.N) : Fin 250 := ⟨t.val, Nat.lt_of_lt_of_eq t.isLt (show cfg1.N = 250 from N_1)⟩

theorem idx_in : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

theorem idx_out : ∀ t : Fin cfg1.N,
    (win1_9.index t (0 : Fin 2) = t.val ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0)
    ∧ (win1_12.index t (0 : Fin 2) = t.val ∧ win1_12.index t (1 : Fin 2) = 0)
    ∧ (win1_13.index t (0 : Fin 2) = t.val ∧ win1_13.index t (1 : Fin 2) = 0) :=
  (by decide +kernel : ∀ t : Fin grid1.N, _)

end R1

open R1

variable (V : (c : Dev nD) → (b : Ref sig .tc) → Buf (Elt Ideal) ((c : Thread nD τ).loc b))

namespace R1

set_option maxHeartbeats 4000000 in
theorem block_at (c : Dev nD) (t : Fin cfg1.N) :
    BlockOf (V c (Pipeline.arrRef spec1 0) : S500000x128.Idx → EReal)
      (V c (Pipeline.arrRef spec1 1) : S500000x256.Idx → EReal)
      (V c (Pipeline.arrRef spec1 2) : S500000x128.Idx → EReal)
      (V c (Pipeline.arrRef spec1 3) : S500000x1.Idx → EReal)
      (V c (Pipeline.arrRef spec1 4) : S128x128.Idx → EReal)
      (V c (Pipeline.arrRef spec1 5) : S128x128.Idx → EReal)
      (V c (Pipeline.arrRef spec1 6) : S1x128.Idx → EReal)
      (V c (Pipeline.arrRef spec1 7) : S128x8.Idx → EReal)
      (V c (Pipeline.arrRef spec1 8) : S8x128.Idx → EReal)
      (iblk1 V c 0 t) (iblk1 V c 1 t) (iblk1 V c 2 t) (iblk1 V c 3 t) (iblk1 V c 4 t) (iblk1 V c 5 t) (iblk1 V c 6 t) (iblk1 V c 7 t) (iblk1 V c 8 t)
      (fun p => tileRow 250 2000 rfl (tileAt t) p) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_in t
  refine ⟨fun p c' => ?_, fun p c' => ?_, fun p c' => ?_, fun p u => ?_, funext fun j => ?_, funext fun j => ?_, funext fun j => ?_, funext fun j => ?_, funext fun j => ?_⟩
  · exact congrArg (V c (Pipeline.arrRef spec1 0)) (Shape.idx_ext₂
      (by show win1_0.index t (0 : Fin 2) * 2000 + 1 * p.val = 2000 * t.val + p.val; omega)
      (by show win1_0.index t (1 : Fin 2) * 128 + 1 * c'.val = c'.val; omega))
  · exact congrArg (V c (Pipeline.arrRef spec1 1)) (Shape.idx_ext₂
      (by show win1_1.index t (0 : Fin 2) * 2000 + 1 * p.val = 2000 * t.val + p.val; omega)
      (by show win1_1.index t (1 : Fin 2) * 256 + 1 * c'.val = c'.val; omega))
  · exact congrArg (V c (Pipeline.arrRef spec1 2)) (Shape.idx_ext₂
      (by show win1_2.index t (0 : Fin 2) * 2000 + 1 * p.val = 2000 * t.val + p.val; omega)
      (by show win1_2.index t (1 : Fin 2) * 128 + 1 * c'.val = c'.val; omega))
  · exact congrArg (V c (Pipeline.arrRef spec1 3)) (Shape.idx_ext₂
      (by show win1_3.index t (0 : Fin 2) * 2000 + 1 * p.val = 2000 * t.val + p.val; omega)
      (by show win1_3.index t (1 : Fin 2) * 1 + 1 * u.val = u.val; omega))
  · exact congrArg (V c (Pipeline.arrRef spec1 4)) (Shape.idx_ext₂
      (by show win1_4.index t (0 : Fin 2) * 128 + 1 * (j 0).val = (j 0).val; omega)
      (by show win1_4.index t (1 : Fin 2) * 128 + 1 * (j 1).val = (j 1).val; omega))
  · exact congrArg (V c (Pipeline.arrRef spec1 5)) (Shape.idx_ext₂
      (by show win1_5.index t (0 : Fin 2) * 128 + 1 * (j 0).val = (j 0).val; omega)
      (by show win1_5.index t (1 : Fin 2) * 128 + 1 * (j 1).val = (j 1).val; omega))
  · exact congrArg (V c (Pipeline.arrRef spec1 6)) (Shape.idx_ext₂
      (by show win1_6.index t (0 : Fin 2) * 1 + 1 * (j 0).val = (j 0).val; omega)
      (by show win1_6.index t (1 : Fin 2) * 128 + 1 * (j 1).val = (j 1).val; omega))
  · exact congrArg (V c (Pipeline.arrRef spec1 7)) (Shape.idx_ext₂
      (by show win1_7.index t (0 : Fin 2) * 128 + 1 * (j 0).val = (j 0).val; omega)
      (by show win1_7.index t (1 : Fin 2) * 8 + 1 * (j 1).val = (j 1).val; omega))
  · exact congrArg (V c (Pipeline.arrRef spec1 8)) (Shape.idx_ext₂
      (by show win1_8.index t (0 : Fin 2) * 8 + 1 * (j 0).val = (j 0).val; omega)
      (by show win1_8.index t (1 : Fin 2) * 128 + 1 * (j 1).val = (j 1).val; omega))

end R1
-- Row blocks of height b tile an array of 250·b rows: every index lies in the block its row names.
theorem rows_cover {n m b : ℕ} (hn : n = b * 250) (idx : Fin cfg1.N → Fin 2 → ℕ)
    (h : ∀ t, idx t 0 = t.val ∧ idx t 1 = 0) (i : (⟨2, ![n, m]⟩ : Shape).Idx) :
    ∃ t : Fin cfg1.N, ∀ a : Fin 2, idx t a * (⟨2, ![b, m]⟩ : Shape).size a ≤ (i a).val
      ∧ (i a).val < idx t a * (⟨2, ![b, m]⟩ : Shape).size a + (⟨2, ![b, m]⟩ : Shape).size a := by
  have hi0 : (i 0).val < b * 250 := by have := idx2_lt0 i; omega
  have hi1 : (i 1).val < m := idx2_lt1 i
  have hb : 0 < b := by omega
  obtain ⟨t, ht⟩ : ∃ t : Fin cfg1.N, t.val = (i 0).val / b := ⟨⟨_, (Nat.div_lt_of_lt_mul hi0).trans_eq N_1.symm⟩, rfl⟩
  obtain ⟨h0, h1⟩ := h t
  refine ⟨t, fun a => ?_⟩
  match a with
  | ⟨0, _⟩ =>
    show idx t 0 * b ≤ (i 0).val ∧ (i 0).val < idx t 0 * b + b
    rw [h0, ht]
    exact ⟨Nat.div_mul_le_self _ _, Nat.lt_div_mul_add hb⟩
  | ⟨1, _⟩ =>
    show idx t 1 * m ≤ (i 1).val ∧ (i 1).val < idx t 1 * m + m
    rw [h1]
    omega

theorem covered1_9 (i : S500000x128.Idx) :
    ∃ t : Fin cfg1.N, (cfg1.win 9).flush t = true ∧ i ∈ ((cfg1.win 9).blk t).view.set := by
  obtain ⟨t, h⟩ := rows_cover (b := 2000) rfl win1_9.index (fun t => (R1.idx_out t).1) i
  refine ⟨t, flush1_9 t, ?_⟩
  show i ∈ ((View.whole main_v33_0).slice (win1_9.rect t)).set
  rw [View.set_slice_whole, Rect.mem_set_unit]
  exact h

set_option maxHeartbeats 2000000 in
theorem arr1_9 (c : Dev nD) :
    (dat1 (F := Ideal) V c).arrAt 9 cfg1.N = fun i : S500000x128.Idx => pre1 (V c (Pipeline.arrRef spec1 0) : S500000x128.Idx → EReal) (V c (Pipeline.arrRef spec1 1) : S500000x256.Idx → EReal) (V c (Pipeline.arrRef spec1 2) : S500000x128.Idx → EReal) (V c (Pipeline.arrRef spec1 4) : S128x128.Idx → EReal) (V c (Pipeline.arrRef spec1 5) : S128x128.Idx → EReal) (V c (Pipeline.arrRef spec1 6) : S1x128.Idx → EReal) (i 0) (i 1) :=
  (dat1 (F := Ideal) V c).arrAt_eq_of_cover 9 _ (fun t _ => by
    show (cfg1.win 9).cut (grid1.coords t) ((dat1 V c).after 9 t) = _
    rw [after1_9]
    obtain ⟨a0, a1⟩ := (R1.idx_out t).1
    funext j
    refine (R1.out9_at (R1.block_at V c t) j).trans ?_
    exact congrArg₂ (pre1 _ _ _ _ _ _)
      (Fin.ext (by show 2000 * t.val + (j 0).val = win1_9.index t (0 : Fin 2) * 2000 + 1 * (j 0).val; omega))
      (Fin.ext (by show (j 1).val = win1_9.index t (1 : Fin 2) * 128 + 1 * (j 1).val; omega))) covered1_9

theorem covered1_10 (i : S500000x8.Idx) :
    ∃ t : Fin cfg1.N, (cfg1.win 10).flush t = true ∧ i ∈ ((cfg1.win 10).blk t).view.set := by
  obtain ⟨t, h⟩ := rows_cover (b := 2000) rfl win1_10.index (fun t => (R1.idx_out t).2.1) i
  refine ⟨t, flush1_10 t, ?_⟩
  show i ∈ ((View.whole main_v33_1).slice (win1_10.rect t)).set
  rw [View.set_slice_whole, Rect.mem_set_unit]
  exact h

set_option maxHeartbeats 2000000 in
theorem arr1_10 (c : Dev nD) :
    (dat1 (F := Ideal) V c).arrAt 10 cfg1.N = fun i : S500000x8.Idx => s1 (V c (Pipeline.arrRef spec1 0) : S500000x128.Idx → EReal) (V c (Pipeline.arrRef spec1 1) : S500000x256.Idx → EReal) (V c (Pipeline.arrRef spec1 2) : S500000x128.Idx → EReal) (V c (Pipeline.arrRef spec1 4) : S128x128.Idx → EReal) (V c (Pipeline.arrRef spec1 7) : S128x8.Idx → EReal) (i 0) (i 1) :=
  (dat1 (F := Ideal) V c).arrAt_eq_of_cover 10 _ (fun t _ => by
    show (cfg1.win 10).cut (grid1.coords t) ((dat1 V c).after 10 t) = _
    rw [after1_10]
    obtain ⟨a0, a1⟩ := (R1.idx_out t).2.1
    funext j
    refine (R1.out10_at (R1.block_at V c t) j).trans ?_
    exact congrArg₂ (s1 _ _ _ _ _)
      (Fin.ext (by show 2000 * t.val + (j 0).val = win1_10.index t (0 : Fin 2) * 2000 + 1 * (j 0).val; omega))
      (Fin.ext (by show (j 1).val = win1_10.index t (1 : Fin 2) * 8 + 1 * (j 1).val; omega))) covered1_10

theorem covered1_11 (i : S500000x128.Idx) :
    ∃ t : Fin cfg1.N, (cfg1.win 11).flush t = true ∧ i ∈ ((cfg1.win 11).blk t).view.set := by
  obtain ⟨t, h⟩ := rows_cover (b := 2000) rfl win1_11.index (fun t => (R1.idx_out t).2.2.1) i
  refine ⟨t, flush1_11 t, ?_⟩
  show i ∈ ((View.whole main_v33_2).slice (win1_11.rect t)).set
  rw [View.set_slice_whole, Rect.mem_set_unit]
  exact h

set_option maxHeartbeats 2000000 in
theorem arr1_11 (c : Dev nD) :
    (dat1 (F := Ideal) V c).arrAt 11 cfg1.N = fun i : S500000x128.Idx => msg1 (V c (Pipeline.arrRef spec1 0) : S500000x128.Idx → EReal) (V c (Pipeline.arrRef spec1 1) : S500000x256.Idx → EReal) (V c (Pipeline.arrRef spec1 2) : S500000x128.Idx → EReal) (V c (Pipeline.arrRef spec1 3) : S500000x1.Idx → EReal) (V c (Pipeline.arrRef spec1 4) : S128x128.Idx → EReal) (V c (Pipeline.arrRef spec1 7) : S128x8.Idx → EReal) (V c (Pipeline.arrRef spec1 8) : S8x128.Idx → EReal) (i 0) (i 1) :=
  (dat1 (F := Ideal) V c).arrAt_eq_of_cover 11 _ (fun t _ => by
    show (cfg1.win 11).cut (grid1.coords t) ((dat1 V c).after 11 t) = _
    rw [after1_11]
    obtain ⟨a0, a1⟩ := (R1.idx_out t).2.2.1
    funext j
    refine (R1.out11_at (R1.block_at V c t) j).trans ?_
    exact congrArg₂ (msg1 _ _ _ _ _ _ _)
      (Fin.ext (by show 2000 * t.val + (j 0).val = win1_11.index t (0 : Fin 2) * 2000 + 1 * (j 0).val; omega))
      (Fin.ext (by show (j 1).val = win1_11.index t (1 : Fin 2) * 128 + 1 * (j 1).val; omega))) covered1_11

theorem covered1_12 (i : S2000x128.Idx) :
    ∃ t : Fin cfg1.N, (cfg1.win 12).flush t = true ∧ i ∈ ((cfg1.win 12).blk t).view.set := by
  obtain ⟨t, h⟩ := rows_cover (b := 8) rfl win1_12.index (fun t => (R1.idx_out t).2.2.2.1) i
  refine ⟨t, flush1_12 t, ?_⟩
  show i ∈ ((View.whole main_v33_3).slice (win1_12.rect t)).set
  rw [View.set_slice_whole, Rect.mem_set_unit]
  exact h

set_option maxHeartbeats 2000000 in
theorem arr1_12 (c : Dev nD) :
    (dat1 (F := Ideal) V c).arrAt 12 cfg1.N = fun i : S2000x128.Idx => ∑ q : Fin 2000, pre1 (V c (Pipeline.arrRef spec1 0) : S500000x128.Idx → EReal) (V c (Pipeline.arrRef spec1 1) : S500000x256.Idx → EReal) (V c (Pipeline.arrRef spec1 2) : S500000x128.Idx → EReal) (V c (Pipeline.arrRef spec1 4) : S128x128.Idx → EReal) (V c (Pipeline.arrRef spec1 5) : S128x128.Idx → EReal) (V c (Pipeline.arrRef spec1 6) : S1x128.Idx → EReal) (tileRow 250 2000 rfl (tileOf8_1 (i 0)) q) (i 1) :=
  (dat1 (F := Ideal) V c).arrAt_eq_of_cover 12 _ (fun t _ => by
    show (cfg1.win 12).cut (grid1.coords t) ((dat1 V c).after 12 t) = _
    rw [after1_12]
    obtain ⟨a0, a1⟩ := (R1.idx_out t).2.2.2.1
    funext j
    refine (R1.out12_at (R1.block_at V c t) j).trans ?_
    have hj : (j 0).val < 8 := (j 0).isLt
    exact Finset.sum_congr rfl fun q _ => congrArg₂ (fun (τ : Fin 250) (c' : Fin 128) => pre1 _ _ _ _ _ _ (tileRow 250 2000 rfl τ q) c')
      (Fin.ext (by show t.val = (win1_12.index t (0 : Fin 2) * 8 + 1 * (j 0).val) / 8; omega))
      (Fin.ext (by show (j 1).val = win1_12.index t (1 : Fin 2) * 128 + 1 * (j 1).val; omega))) covered1_12

theorem covered1_13 (i : S2000x128.Idx) :
    ∃ t : Fin cfg1.N, (cfg1.win 13).flush t = true ∧ i ∈ ((cfg1.win 13).blk t).view.set := by
  obtain ⟨t, h⟩ := rows_cover (b := 8) rfl win1_13.index (fun t => (R1.idx_out t).2.2.2.2) i
  refine ⟨t, flush1_13 t, ?_⟩
  show i ∈ ((View.whole main_v33_4).slice (win1_13.rect t)).set
  rw [View.set_slice_whole, Rect.mem_set_unit]
  exact h

set_option maxHeartbeats 2000000 in
theorem arr1_13 (c : Dev nD) :
    (dat1 (F := Ideal) V c).arrAt 13 cfg1.N = fun i : S2000x128.Idx => ∑ q : Fin 2000, pre1 (V c (Pipeline.arrRef spec1 0) : S500000x128.Idx → EReal) (V c (Pipeline.arrRef spec1 1) : S500000x256.Idx → EReal) (V c (Pipeline.arrRef spec1 2) : S500000x128.Idx → EReal) (V c (Pipeline.arrRef spec1 4) : S128x128.Idx → EReal) (V c (Pipeline.arrRef spec1 5) : S128x128.Idx → EReal) (V c (Pipeline.arrRef spec1 6) : S1x128.Idx → EReal) (tileRow 250 2000 rfl (tileOf8_1 (i 0)) q) (i 1) * pre1 (V c (Pipeline.arrRef spec1 0) : S500000x128.Idx → EReal) (V c (Pipeline.arrRef spec1 1) : S500000x256.Idx → EReal) (V c (Pipeline.arrRef spec1 2) : S500000x128.Idx → EReal) (V c (Pipeline.arrRef spec1 4) : S128x128.Idx → EReal) (V c (Pipeline.arrRef spec1 5) : S128x128.Idx → EReal) (V c (Pipeline.arrRef spec1 6) : S1x128.Idx → EReal) (tileRow 250 2000 rfl (tileOf8_1 (i 0)) q) (i 1) :=
  (dat1 (F := Ideal) V c).arrAt_eq_of_cover 13 _ (fun t _ => by
    show (cfg1.win 13).cut (grid1.coords t) ((dat1 V c).after 13 t) = _
    rw [after1_13]
    obtain ⟨a0, a1⟩ := (R1.idx_out t).2.2.2.2
    funext j
    refine (R1.out13_at (R1.block_at V c t) j).trans ?_
    have hj : (j 0).val < 8 := (j 0).isLt
    exact Finset.sum_congr rfl fun q _ => congrArg₂ (fun (τ : Fin 250) (c' : Fin 128) => pre1 _ _ _ _ _ _ (tileRow 250 2000 rfl τ q) c' * pre1 _ _ _ _ _ _ (tileRow 250 2000 rfl τ q) c')
      (Fin.ext (by show t.val = (win1_13.index t (0 : Fin 2) * 8 + 1 * (j 0).val) / 8; omega))
      (Fin.ext (by show (j 1).val = win1_13.index t (1 : Fin 2) * 128 + 1 * (j 1).val; omega))) covered1_13

end Cert.KernelIdeal.HandVal

end
-- ==== Proof.KernelIdeal.Spec1.lean ====
import proofs.«121852_j34351148433892_2_alg».proof.Proof.KernelIdeal.Val1
import proofs.«121852_j34351148433892_2_alg».proof.Proof.Bridge.Layout

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Bridge Cert.SpecLaws
open scoped BigOperators

namespace R1

variable (a : Cert.Spec.Args)

theorem kvEdge_left (r : Fin 500000) (d : Fin 128) : kvEdge a r (colK1 d) = Cert.Spec.K a (a.gs r) d := by
  unfold kvEdge kvNode cat2
  exact dif_pos (show (colK1 d).val < 128 from d.isLt)

theorem kvEdge_right (r : Fin 500000) (d : Fin 128) : kvEdge a r (colV1 d) = Cert.Spec.Vv a (a.gs r) d := by
  unfold kvEdge kvNode cat2
  refine (dif_neg (show ¬ (colV1 d).val < 128 by rw [colV1_val]; omega)).trans ?_
  exact congrArg (Cert.Spec.Vv a (a.gs r)) (Fin.ext (by show 128 + d.val - 128 = d.val; omega))

theorem pe1_coe (r : Fin 500000) (d : Fin 128) :
    pe1 (E2 a.e) (E2 a.We) r d = ((Cert.Spec.pe a r d : ℝ) : EReal) := by
  unfold pe1 Cert.Spec.pe
  simp only [E2_apply]
  exact coe_sum_mul Finset.univ (fun k => a.e r k) (fun k => a.We k d)

theorem score1_coe (r : Fin 500000) (d : Fin 128) :
    score1 (E2 a.e) (E2 (kvEdge a)) (E2 (qEdge a)) (E2 a.We) r d = ((Cert.Spec.score a r d : ℝ) : EReal) := by
  unfold score1
  rw [pe1_coe, lit_quarter]
  simp only [E2_apply]
  rw [kvEdge_left, coe_mul, coe_mul, coe_mul, quarter_regroup]
  rfl

theorem s1_coe (r : Fin 500000) (h : Fin 8) :
    s1 (E2 a.e) (E2 (kvEdge a)) (E2 (qEdge a)) (E2 a.We) (E2 laneHead) r h = ((Cert.Spec.s a r h : ℝ) : EReal) := by
  unfold s1
  simp only [score1_coe, E2_apply]
  rw [coe_sum_mul, lit_five, lit_neg_five, max_coe, min_coe, exp_coe]
  have e : (∑ d : Fin 128, Cert.Spec.score a r d * laneHead d h) = ∑ j : Fin 16, Cert.Spec.score a r (Cert.Spec.lane h j) :=
    onehot_reduce (fun d => Cert.Spec.score a r d) h
  exact congrArg (fun z : ℝ => ((Real.exp (min 5 (max (-5) z)) : ℝ) : EReal)) e

theorem msg1_coe (r : Fin 500000) (d : Fin 128) :
    msg1 (E2 a.e) (E2 (kvEdge a)) (E2 (qEdge a)) (col1 a.env) (E2 a.We) (E2 laneHead) (E2 headLane) r d = ((Cert.Spec.msg a r d : ℝ) : EReal) := by
  unfold msg1
  simp only [s1_coe, E2_apply, col1_apply]
  rw [kvEdge_right, coe_sum_mul, coe_mul, coe_mul]
  have e : (∑ h : Fin 8, Cert.Spec.s a r h * headLane h d) = Cert.Spec.s a r (Cert.Spec.hd d) :=
    onehot_bcast (fun h => Cert.Spec.s a r h) d
  exact congrArg (fun z : ℝ => ((Cert.Spec.Vv a (a.gs r) d * a.env r * z : ℝ) : EReal)) e

theorem pre1_coe (r : Fin 500000) (d : Fin 128) :
    pre1 (E2 a.e) (E2 (kvEdge a)) (E2 (qEdge a)) (E2 a.We) (E2 a.WOe) (row1 a.bOe) r d = ((Cert.Spec.preE1 a r d : ℝ) : EReal) := by
  unfold pre1
  simp only [score1_coe, E2_apply, row1_apply]
  rw [coe_sum_mul, coe_add, coe_add, add_assoc]
  rfl

end R1

variable (V : (c : Dev nD) → (b : Ref sig .tc) → Buf (Elt Ideal) ((c : Thread nD τ).loc b))

set_option maxHeartbeats 2000000 in
theorem region1_spec (c : Dev nD) (a : Cert.Spec.Args)
    (h0 : @Eq (S500000x128.Idx → EReal) (V c (Pipeline.arrRef spec1 0)) (E2 a.e))
    (h1 : @Eq (S500000x256.Idx → EReal) (V c (Pipeline.arrRef spec1 1)) (E2 (kvEdge a)))
    (h2 : @Eq (S500000x128.Idx → EReal) (V c (Pipeline.arrRef spec1 2)) (E2 (qEdge a)))
    (h3 : @Eq (S500000x1.Idx → EReal) (V c (Pipeline.arrRef spec1 3)) (col1 a.env))
    (h4 : @Eq (S128x128.Idx → EReal) (V c (Pipeline.arrRef spec1 4)) (E2 a.We))
    (h5 : @Eq (S128x128.Idx → EReal) (V c (Pipeline.arrRef spec1 5)) (E2 a.WOe))
    (h6 : @Eq (S1x128.Idx → EReal) (V c (Pipeline.arrRef spec1 6)) (row1 a.bOe))
    (h7 : @Eq (S128x8.Idx → EReal) (V c (Pipeline.arrRef spec1 7)) (E2 laneHead))
    (h8 : @Eq (S8x128.Idx → EReal) (V c (Pipeline.arrRef spec1 8)) (E2 headLane)) :
    (dat1 (F := Ideal) V c).arrAt 9 cfg1.N = E2 (Cert.Spec.preE1 a)
    ∧ (dat1 (F := Ideal) V c).arrAt 10 cfg1.N = E2 (Cert.Spec.s a)
    ∧ (dat1 (F := Ideal) V c).arrAt 11 cfg1.N = E2 (Cert.Spec.msg a)
    ∧ (dat1 (F := Ideal) V c).arrAt 12 cfg1.N = E2 (tiles250 (Cert.Spec.preE1 a))
    ∧ (dat1 (F := Ideal) V c).arrAt 13 cfg1.N = E2 (tiles250 (sq (Cert.Spec.preE1 a))) := by
  refine ⟨?_, ?_, ?_, ?_, ?_⟩
  · refine (arr1_9 V c).trans (funext fun i => ?_)
    rw [h0, h1, h2, h4, h5, h6]
    exact R1.pre1_coe a _ _
  · refine (arr1_10 V c).trans (funext fun i => ?_)
    rw [h0, h1, h2, h4, h7]
    exact R1.s1_coe a _ _
  · refine (arr1_11 V c).trans (funext fun i => ?_)
    rw [h0, h1, h2, h3, h4, h7, h8]
    exact R1.msg1_coe a _ _
  · refine (arr1_12 V c).trans (funext fun i => ?_)
    rw [h0, h1, h2, h4, h5, h6]
    exact (Finset.sum_congr rfl fun q _ => R1.pre1_coe a _ _).trans (coe_sum Finset.univ _)
  · refine (arr1_13 V c).trans (funext fun i => ?_)
    rw [h0, h1, h2, h4, h5, h6]
    exact (Finset.sum_congr rfl fun q _ => congrArg₂ (· * ·) (R1.pre1_coe a _ _) (R1.pre1_coe a _ _)).trans (coe_sum_mul Finset.univ _ _)

end Cert.KernelIdeal.HandVal

end
-- ==== Proof.KernelIdeal.StageStats.lean ====
import proofs.«121852_j34351148433892_2_alg».proof.Proof.Gen.KernelIdeal.Launch
import proofs.«121852_j34351148433892_2_alg».proof.Proof.Bridge.Layout
import proofs.«121852_j34351148433892_2_alg».proof.Proof.Bridge.Args
import proofs.«121852_j34351148433892_2_alg».proof.Proof.SpecLawsMore
import Idealize.ShloMosaic.Lib.StableHlo.Run
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.HandVal

open Cert.KernelIdeal Cert.KernelIdeal.Gen Cert.Bridge Cert.Spec Cert.SpecLaws
open Idealize.ShloMosaic Idealize.ShloMosaic.ValueIdx
open scoped BigOperators

namespace Stg

section Algebra
variable {n m : ℕ}

theorem mulf_E1 (f g : Fin n → ℝ) :
    mulf (F := Ideal) (φ := .f32) (E1 f) (E1 g) = E1 (fun c => f c * g c) :=
  funext fun i => coe_mul _ _

theorem subf_E1 (f g : Fin n → ℝ) :
    subf (F := Ideal) (φ := .f32) (E1 f) (E1 g) = E1 (fun c => f c - g c) :=
  funext fun i => coe_sub _ _

theorem mulf_E2 (f g : Fin n → Fin m → ℝ) :
    mulf (F := Ideal) (φ := .f32) (E2 f) (E2 g) = E2 (fun i c => f i c * g i c) :=
  funext fun i => coe_mul _ _

theorem subf_E2 (f g : Fin n → Fin m → ℝ) :
    subf (F := Ideal) (φ := .f32) (E2 f) (E2 g) = E2 (fun i c => f i c - g i c) :=
  funext fun i => coe_sub _ _

theorem addf_E2 (f g : Fin n → Fin m → ℝ) :
    addf (F := Ideal) (φ := .f32) (E2 f) (E2 g) = E2 (fun i c => f i c + g i c) :=
  funext fun i => coe_add _ _

theorem hostRsqrt_E1 (f : Fin n → ℝ) (hf : ∀ c, 0 < f c) :
    Host.rsqrt (F := Ideal) (φ := .f32) (E1 f) = E1 (fun c => (Real.sqrt (f c))⁻¹) :=
  funext fun i => rsqrt_coe _ (hf (i 0))

theorem toRow1 {v : (⟨1, ![n]⟩ : Shape).Idx → EReal} {f : Fin n → ℝ} (e : v = E1 f)
    (h : (⟨1, ![n]⟩ : Shape).ShapeCasts ⟨2, ![1, n]⟩) : shapeCast ⟨2, ![1, n]⟩ v h = row1 f := by
  subst e
  funext i
  obtain ⟨u, c, rfl⟩ : ∃ u c, i = ix2 u c := ⟨_, _, eq_ix2 i⟩
  rw [shapeCast_a_1a_apply, row1_apply, E1_apply]

end Algebra

-- The per-tile column sums over T tiles of B rows, each tile's sums held on 8 equal rows.
def tilesG {R T B M : ℕ} (hR : R = 8 * T) (hM : T * B = M) (X : Fin M → Fin 128 → ℝ) : Fin R → Fin 128 → ℝ :=
  fun q d => ∑ j : Fin B, X (tileRow T B hM ⟨q.val / 8, by have := q.isLt; omega⟩ j) d

abbrev dv (K : BitVec 32) (v : S128.Idx → EReal) : S128.Idx → EReal :=
  Host.divf (F := Ideal) (φ := .f32) v (broadcastInDim S128 ![] bcast_S_S128 (constant (F := Ideal) S_ .f32 K))

theorem dv_eq {K : BitVec 32} {k : ℝ} (hk0 : k ≠ 0) (hK : Ideal.ofBits .f32 K = ((k : ℝ) : EReal)) (f : Fin 128 → ℝ) :
    dv K (E1 f) = E1 (fun c => f c / k) :=
  funext fun i => (congrArg (Ideal.div ((f (i 0) : ℝ) : EReal)) hK).trans (div_coe _ _ hk0)

section Tiled
variable {R T B M : ℕ} (hR : R = 8 * T) (hM : T * B = M) {K : BitVec 32} {k : ℝ} (hk0 : k ≠ 0)
  (hK : Ideal.ofBits .f32 K = ((k : ℝ) : EReal)) (hk : ((M : ℕ) : ℝ) = k)
  (h1 : (⟨2, ![R, 128]⟩ : Shape).ShapeCasts ⟨3, ![T, 8, 128]⟩)
  (h2 : (⟨3, ![T, 8, 128]⟩ : Shape).Slices ![0, 0, 0] ⟨3, ![T, 1, 128]⟩)
  (h3 : (⟨3, ![T, 1, 128]⟩ : Shape).ShapeCasts ⟨2, ![T, 128]⟩)
  (hred : (⟨2, ![T, 128]⟩ : Shape).ReducesTo [0] S128)
  (hr : (⟨2, ![T, 128]⟩ : Shape).Reduces [0] S128)
  (hb : S1x128.BroadcastsInDim ⟨2, ![M, 128]⟩ ![0, 1])
  {X : Fin M → Fin 128 → ℝ} {w1 w2 : (⟨2, ![R, 128]⟩ : Shape).Idx → EReal}

-- Row 0 of each group of 8 rows, summed over the T groups.
abbrev cs (x : (⟨2, ![R, 128]⟩ : Shape).Idx → EReal) : S128.Idx → EReal :=
  Host.reduceAdd (F := Ideal) (φ := .f32)
    (shapeCast ⟨2, ![T, 128]⟩ (extractStridedSlice ⟨3, ![T, 1, 128]⟩ ![0, 0, 0] (shapeCast ⟨3, ![T, 8, 128]⟩ x h1) h2) h3)
    (constant (F := Ideal) S_ .f32 0x00000000#32) hred h_S_

include hr in
-- Read as [T, 8, 128], row 0 of group t is row 8 t; the tiles' sums, added over the tiles, are the column sums of all T · B rows.
theorem cs_eq (X : Fin M → Fin 128 → ℝ) :
    cs h1 h2 h3 hred (E2 (tilesG hR hM X)) = E1 (fun c => ∑ i, X i c) := by
  funext j
  obtain ⟨c, rfl⟩ : ∃ c, j = ix1 c := ⟨_, eq_ix1 j⟩
  show Ideal.hostReduceAdd hred _ _ (ix1 c) = _
  rw [Ideal.hostReduceAdd_single hred hr, E1_apply]
  show Ideal.ofBits .f32 0x00000000#32 + ∑ k : Fin T, _ = _
  rw [lit_zero, sum_tileRow T B hM, ← coe_zero_add_sum]
  congr 1
  refine Finset.sum_congr rfl fun k _ => ?_
  have hl : hr.lift (ix1 c) k = ix2 k c := by
    funext a
    match a with
    | ⟨0, _⟩ => rfl
    | ⟨1, _⟩ => rfl
  have e : (⟨8 * k.val / 8, by have := k.isLt; omega⟩ : Fin T) = k :=
    Fin.ext (Nat.mul_div_cancel_left k.val (by norm_num))
  rw [hl]
  refine (shapeCast_apply _ h3 (ix2 k c) (ix3 k 0 c) ?_).trans
    ((extractStridedSlice_apply _ _ h2 (ix3 k 0 c) (ix3 k 0 c) ?_).trans
      ((shapeCast_apply _ h1 (ix3 k 0 c) (ix2 ⟨8 * k.val, by have := k.isLt; omega⟩ c) ?_).trans ?_))
  · rw [Shape.rowMajor_val_three, Shape.rowMajor_val_two]
    show (k.val * 1 + 0) * 128 + c.val = k.val * 128 + c.val
    omega
  · intro a
    match a with
    | ⟨0, _⟩ | ⟨1, _⟩ | ⟨2, _⟩ => exact (Nat.zero_add _).symm
  · rw [Shape.rowMajor_val_three, Shape.rowMajor_val_two]
    show 8 * k.val * 128 + c.val = (k.val * 8 + 0) * 128 + c.val
    omega
  rw [E2_apply]
  show ((∑ j : Fin B, X (tileRow T B hM ⟨8 * k.val / 8, _⟩ j) c : ℝ) : EReal) = _
  rw [e]

abbrev epsv : S128.Idx → EReal :=
  broadcastInDim S128 ![] bcast_S_S128 (constant (F := Ideal) S_ .f32 0x3727C5AC#32)

theorem add_epsv (f : Fin 128 → ℝ) (eps : ℝ) (hlit : Ideal.ofBits .f32 0x3727C5AC#32 = ((eps : ℝ) : EReal)) :
    addf (F := Ideal) (φ := .f32) (E1 f) epsv = E1 (fun c => f c + eps) :=
  funext fun i => (congrArg (((f (i 0) : ℝ) : EReal) + ·) hlit).trans (coe_add _ _)

abbrev bc (v : S128.Idx → EReal) : (⟨2, ![M, 128]⟩ : Shape).Idx → EReal :=
  broadcastInDim ⟨2, ![M, 128]⟩ ![0, 1] hb (broadcastInDim S1x128 ![1] bcast_S128_S1x128_1 v)

theorem bc_eq (f : Fin 128 → ℝ) : bc hb (E1 f) = E2 (fun _ c => f c) :=
  funext fun _ => rfl

include hr hk0 hK hk

theorem meanH (hw1 : w1 = E2 (tilesG hR hM X)) : dv K (cs h1 h2 h3 hred w1) = E1 (mean X) := by
  rw [hw1, cs_eq hR hM h1 h2 h3 hred hr, dv_eq hk0 hK]
  subst hk
  rfl

-- The variance is the mean of the squares minus the squared mean.
theorem varH (hw1 : w1 = E2 (tilesG hR hM X)) (hw2 : w2 = E2 (tilesG hR hM (sq X))) :
    subf (F := Ideal) (φ := .f32) (dv K (cs h1 h2 h3 hred w2))
        (mulf (F := Ideal) (φ := .f32) (dv K (cs h1 h2 h3 hred w1)) (dv K (cs h1 h2 h3 hred w1)))
      = E1 (var X) := by
  rw [hw1, hw2, cs_eq hR hM h1 h2 h3 hred hr, cs_eq hR hM h1 h2 h3 hred hr, dv_eq hk0 hK, dv_eq hk0 hK, mulf_E1,
    subf_E1]
  subst hk
  refine congrArg E1 (funext fun c => ?_)
  have h := var_eq_moments hk0 X c
  unfold mean at h
  exact h

-- The centred entry times the reciprocal root of the regularised variance, times the scale, plus the shift.
theorem bnH {g b : Fin 128 → ℝ} {eps : ℝ} (heps : 0 < eps)
    (hlit : Ideal.ofBits .f32 0x3727C5AC#32 = ((eps : ℝ) : EReal))
    {w0 : (⟨2, ![M, 128]⟩ : Shape).Idx → EReal} {wg wb : S128.Idx → EReal}
    (h0 : w0 = E2 X) (hw1 : w1 = E2 (tilesG hR hM X)) (hw2 : w2 = E2 (tilesG hR hM (sq X)))
    (hg : wg = E1 g) (hbb : wb = E1 b) :
    addf (F := Ideal) (φ := .f32)
      (mulf (F := Ideal) (φ := .f32)
        (mulf (F := Ideal) (φ := .f32)
          (subf (F := Ideal) (φ := .f32) w0 (bc hb (dv K (cs h1 h2 h3 hred w1))))
          (bc hb (Host.rsqrt (F := Ideal) (φ := .f32) (addf (F := Ideal) (φ := .f32)
            (subf (F := Ideal) (φ := .f32) (dv K (cs h1 h2 h3 hred w2))
              (mulf (F := Ideal) (φ := .f32) (dv K (cs h1 h2 h3 hred w1)) (dv K (cs h1 h2 h3 hred w1)))) epsv))))
        (bc hb wg))
      (bc hb wb) = E2 (bn X g b eps) := by
  rw [varH hR hM hk0 hK hk h1 h2 h3 hred hr hw1 hw2, meanH hR hM hk0 hK hk h1 h2 h3 hred hr hw1, h0, hg, hbb,
    add_epsv _ eps hlit, hostRsqrt_E1 _ (fun c => var_add_pos X c heps), bc_eq, bc_eq, bc_eq, bc_eq,
    subf_E2, mulf_E2, mulf_E2, addf_E2]
  rfl

end Tiled

abbrev W1 (W : Valuation τ sig (Elt Ideal)) : Valuation τ sig (Elt Ideal) :=
  StableHlo.after main_part1_ops0 (StableHlo.after main_part0_ops3 W)

theorem stats_v74 (W : Valuation τ sig (Elt Ideal)) {X : Fin 50000 → Fin 128 → ℝ} {Y : Fin 500000 → Fin 128 → ℝ}
    (h1 : W (Proc.devRef .tc main_v45_1) = E2 (tiles10 X)) (h2 : W (Proc.devRef .tc main_v45_2) = E2 (tiles10 (sq X)))
    (h3 : W (Proc.devRef .tc main_v33_3) = E2 (tiles250 Y)) (h4 : W (Proc.devRef .tc main_v33_4) = E2 (tiles250 (sq Y))) :
    W1 W (Proc.devRef .tc main_v74) = row1 (mean X) ∧ W1 W (Proc.devRef .tc main_v75) = row1 (var X) ∧
    W1 W (Proc.devRef .tc main_v76) = row1 (mean Y) ∧ W1 W (Proc.devRef .tc main_v77) = row1 (var Y) := by
  refine ⟨?_, ?_, ?_, ?_⟩ <;> dsimp only [W1, main_part0_ops3, main_part1_ops0] <;> after_results_simp
  exacts [toRow1 (meanH (R := 80) (T := 10) (B := 5000) rfl rfl (by norm_num) lit_50000 cast_50000 _ _ _ _ (by decide) h1) _,
    toRow1 (varH (R := 80) (T := 10) (B := 5000) rfl rfl (by norm_num) lit_50000 cast_50000 _ _ _ _ (by decide) h1 h2) _,
    toRow1 (meanH (R := 2000) (T := 250) (B := 2000) rfl rfl (by norm_num) lit_500000 cast_500000 _ _ _ _ (by decide) h3) _,
    toRow1 (varH (R := 2000) (T := 250) (B := 2000) rfl rfl (by norm_num) lit_500000 cast_500000 _ _ _ _ (by decide) h3 h4) _]

theorem stats_v78 (W : Valuation τ sig (Elt Ideal)) {g1v b1v g1e b1e : Fin 128 → ℝ}
    (h13 : W (Proc.devRef .tc main_arg13) = E1 g1v) (h14 : W (Proc.devRef .tc main_arg14) = E1 b1v)
    (h15 : W (Proc.devRef .tc main_arg15) = E1 g1e) (h16 : W (Proc.devRef .tc main_arg16) = E1 b1e) :
    W1 W (Proc.devRef .tc main_v78) = row1 g1v ∧ W1 W (Proc.devRef .tc main_v79) = row1 b1v ∧
    W1 W (Proc.devRef .tc main_v80) = row1 g1e ∧ W1 W (Proc.devRef .tc main_v81) = row1 b1e := by
  refine ⟨?_, ?_, ?_, ?_⟩ <;> dsimp only [W1, main_part0_ops3, main_part1_ops0] <;> after_results_simp
  exacts [toRow1 h13 _, toRow1 h14 _, toRow1 h15 _, toRow1 h16 _]

end Stg

open Stg

theorem stats (W : Valuation τ sig (Elt Ideal)) (X : Fin 50000 → Fin 128 → ℝ) (Y : Fin 500000 → Fin 128 → ℝ)
    (g1v b1v g1e b1e : Fin 128 → ℝ)
    (h1 : W (Proc.devRef .tc main_v45_1) = E2 (tiles10 X)) (h2 : W (Proc.devRef .tc main_v45_2) = E2 (tiles10 (sq X)))
    (h3 : W (Proc.devRef .tc main_v33_3) = E2 (tiles250 Y)) (h4 : W (Proc.devRef .tc main_v33_4) = E2 (tiles250 (sq Y)))
    (h13 : W (Proc.devRef .tc main_arg13) = E1 g1v) (h14 : W (Proc.devRef .tc main_arg14) = E1 b1v)
    (h15 : W (Proc.devRef .tc main_arg15) = E1 g1e) (h16 : W (Proc.devRef .tc main_arg16) = E1 b1e) :
    let W' := StableHlo.after main_part1_ops0 (StableHlo.after main_part0_ops3 W)
    W' (Proc.devRef .tc main_v74) = row1 (mean X) ∧ W' (Proc.devRef .tc main_v75) = row1 (var X) ∧
    W' (Proc.devRef .tc main_v76) = row1 (mean Y) ∧ W' (Proc.devRef .tc main_v77) = row1 (var Y) ∧
    W' (Proc.devRef .tc main_v78) = row1 g1v ∧ W' (Proc.devRef .tc main_v79) = row1 b1v ∧
    W' (Proc.devRef .tc main_v80) = row1 g1e ∧ W' (Proc.devRef .tc main_v81) = row1 b1e :=
  have ⟨a, b, c, d⟩ := stats_v74 W h1 h2 h3 h4
  ⟨a, b, c, d, stats_v78 W h13 h14 h15 h16⟩

end Cert.KernelIdeal.HandVal
-- ==== Proof.KernelIdeal.FfnRows.lean ====
import proofs.«121852_j34351148433892_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.HandVal

open Cert.KernelIdeal Cert.KernelIdeal.Gen
open Idealize.ShloMosaic Idealize.ShloMosaic.ValueIdx
open scoped BigOperators

abbrev rowOf_ffn {R C : Nat} (A : (⟨2, ![R, C]⟩ : Shape).Idx → EReal) (n : Fin R) : Fin C → EReal := fun d => A (ix2 n d)

abbrev mat_ffn {R C : Nat} (A : (⟨2, ![R, C]⟩ : Shape).Idx → EReal) : Fin R → Fin C → EReal := fun a b => A (ix2 a b)

def ffnEps : EReal := Ideal.ofBits .f32 0x3727C5AC#32

def normRow_ffn (p m v g b : Fin 128 → EReal) : Fin 128 → EReal :=
  fun d => ((p d - m d) * Ideal.rsqrt (v d + ffnEps)) * g d + b d

def hidRow_ffn (x : Fin 128 → EReal) (w1 : Fin 128 → Fin 256 → EReal) (bh : Fin 256 → EReal) : Fin 256 → EReal :=
  fun k => max (∑ j : Fin 128, x j * w1 j k + bh k) 0

def outRow_ffn (x : Fin 128 → EReal) (h : Fin 256 → EReal) (w2 : Fin 256 → Fin 128 → EReal) (b2 : Fin 128 → EReal) : Fin 128 → EReal :=
  fun d => x d + (∑ k : Fin 256, h k * w2 k d + b2 d)

def ffnRow (p m v g b : Fin 128 → EReal) (w1 : Fin 128 → Fin 256 → EReal) (bh : Fin 256 → EReal)
    (w2 : Fin 256 → Fin 128 → EReal) (b2 : Fin 128 → EReal) : Fin 128 → EReal :=
  outRow_ffn (normRow_ffn p m v g b) (hidRow_ffn (normRow_ffn p m v g b) w1 bh) w2 b2

theorem hz_ffn : (![0, 0] : Fin 2 → Nat) = fun _ => 0 := funext fun a => by fin_cases a <;> rfl

theorem bcRows_ffn {α : Type} (v : S1x128.Idx → α) (y : S5000x128.Idx) :
    broadcastTo S5000x128 v broadcasts_S1x128_S5000x128 y = v (ix2 0 (y 1)) :=
  broadcastTo_apply v _ y (ix2 0 (y 1)) (fun a => by
    match a with
    | ⟨0, _⟩ => rfl
    | ⟨1, _⟩ => rfl)

theorem bcHid_ffn {α : Type} (v : S1x256.Idx → α) (y : S5000x256.Idx) :
    broadcastTo S5000x256 v broadcasts_S1x256_S5000x256 y = v (ix2 0 (y 1)) :=
  broadcastTo_apply v _ y (ix2 0 (y 1)) (fun a => by
    match a with
    | ⟨0, _⟩ => rfl
    | ⟨1, _⟩ => rfl)

theorem bcSum_ffn {α : Type} (v : S1x128.Idx → α) (y : S8x128.Idx) :
    broadcastTo S8x128 v broadcasts_S1x128_S8x128 y = v (ix2 0 (y 1)) :=
  broadcastTo_apply v _ y (ix2 0 (y 1)) (fun a => by
    match a with
    | ⟨0, _⟩ => rfl
    | ⟨1, _⟩ => rfl)

local notation "dotA" => dot_S5000x128_S128x256_S5000x256_1_0_0_1_n_n
local notation "dotB" => dot_S5000x256_S256x128_S5000x128_1_0_0_1_n_n

theorem mmA_ffn (L : FVec Ideal S5000x128 .bf16) (R : FVec Ideal S128x256 .bf16) (a : Fin 5000) (k : Fin 256) :
    FloatOps.matmul dotA none L R (constant S5000x256 .f32 0x00000000#32) (ix2 a k) = ∑ j : Fin 128, L (ix2 a j) * R (ix2 j k) := by
  rw [Ideal.matmul_constant_zero_apply, ← Equiv.sum_comp (contrEquiv1 dotA 128 rfl rfl).symm]
  refine Finset.sum_congr rfl fun j _ => ?_
  have hl : DotDims.lhsIdx dotA (ix2 a k) ((contrEquiv1 dotA 128 rfl rfl).symm j) = ix2 a j := by
    funext c; apply Fin.ext
    match c with
    | ⟨0, _⟩ => rfl
    | ⟨1, _⟩ => exact contrEquiv1_symm_val dotA 128 rfl rfl j
  have hr : DotDims.rhsIdx dotA (ix2 a k) ((contrEquiv1 dotA 128 rfl rfl).symm j) = ix2 j k := by
    funext c; apply Fin.ext
    match c with
    | ⟨0, _⟩ => exact contrEquiv1_symm_val dotA 128 rfl rfl j
    | ⟨1, _⟩ => rfl
  rw [hl, hr]

theorem mmB_ffn (L : FVec Ideal S5000x256 .bf16) (R : FVec Ideal S256x128 .bf16) (a : Fin 5000) (b : Fin 128) :
    FloatOps.matmul dotB none L R (constant S5000x128 .f32 0x00000000#32) (ix2 a b) = ∑ k : Fin 256, L (ix2 a k) * R (ix2 k b) := by
  rw [Ideal.matmul_constant_zero_apply, ← Equiv.sum_comp (contrEquiv1 dotB 256 rfl rfl).symm]
  refine Finset.sum_congr rfl fun k _ => ?_
  have hl : DotDims.lhsIdx dotB (ix2 a b) ((contrEquiv1 dotB 256 rfl rfl).symm k) = ix2 a k := by
    funext c; apply Fin.ext
    match c with
    | ⟨0, _⟩ => rfl
    | ⟨1, _⟩ => exact contrEquiv1_symm_val dotB 256 rfl rfl k
  have hr : DotDims.rhsIdx dotB (ix2 a b) ((contrEquiv1 dotB 256 rfl rfl).symm k) = ix2 k b := by
    funext c; apply Fin.ext
    match c with
    | ⟨0, _⟩ => exact contrEquiv1_symm_val dotB 256 rfl rfl k
    | ⟨1, _⟩ => rfl
  rw [hl, hr]

theorem sumRows_ffn (src : FVec Ideal S5000x128 .f32) (hφ : FKind.Formats .f32) (hacc : (0x00000000#32 : BitVec 32) = 0x00000000#32)
    (q : Fin 8) (b : Fin 128) :
    broadcastTo S8x128 (shapeCast S1x128 (multiReduction .add [0] S128 src 0x00000000#32 reduces_S5000x128_S128 hφ hacc) shapeCasts_S128_S1x128)
        broadcasts_S1x128_S8x128 (ix2 q b)
      = ∑ i : Fin 5000, src (ix2 i b) := by
  rw [bcSum_ffn, shapeCast_addUnit_apply (d := ![128])]
  refine (Ideal.multiReduction_add_single src 0x00000000#32 reduces_S5000x128_S128 hφ hacc _).trans ?_
  refine Finset.sum_congr rfl fun i _ => congrArg src (funext fun c => Fin.ext ?_)
  match c with
  | ⟨0, _⟩ => rfl
  | ⟨1, _⟩ => rfl

end Cert.KernelIdeal.HandVal
-- ==== Proof.KernelIdeal.Val3.lean ====
import proofs.«121852_j34351148433892_2_alg».proof.Proof.KernelIdeal.Region3
import proofs.«121852_j34351148433892_2_alg».proof.Proof.KernelIdeal.FfnRows
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

theorem payNorm3 (x0 : Vec Ideal S5000x128 .f32) (x1 x2 x3 x4 : Vec Ideal S1x128 .f32) (a : Fin 5000) (b : Fin 128) :
    k3_pay4 x0 x1 x2 x3 x4 (ix2 a b) = normRow_ffn (rowOf_ffn x0 a) (rowOf_ffn x1 0) (rowOf_ffn x2 0) (rowOf_ffn x3 0) (rowOf_ffn x4 0) b := by
  unfold k3_pay4 normRow_ffn ffnEps
  simp only [shapeCast_self]
  rw [addf_apply, mulf_apply, mulf_apply, subf_apply, bcRows_ffn, bcRows_ffn, bcRows_ffn, bcRows_ffn]
  rfl

theorem payFfn3 (x0 : Vec Ideal S5000x128 .f32) (x1 x2 x3 x4 : Vec Ideal S1x128 .f32) (x5 : Vec Ideal S128x256 .bf16)
    (x6 : Vec Ideal S1x256 .f32) (x7 : Vec Ideal S256x128 .bf16) (a : Fin 5000) (b : Fin 128) :
    k3_pay5 x0 x1 x2 x3 x4 x5 x6 x7 (ix2 a b)
      = ∑ k : Fin 256, hidRow_ffn (normRow_ffn (rowOf_ffn x0 a) (rowOf_ffn x1 0) (rowOf_ffn x2 0) (rowOf_ffn x3 0) (rowOf_ffn x4 0)) (mat_ffn x5) (rowOf_ffn x6 0) k * mat_ffn x7 k b := by
  unfold k3_pay5
  simp only [shapeCast_self, matmul]
  rw [mmB_ffn]
  refine Finset.sum_congr rfl fun k _ => ?_
  rw [truncf_apply, maximumf_apply, addf_apply, bcHid_ffn, mmA_ffn, broadcast_apply,
    show (Scalar.ofBits .f32 0x00000000#32 : Ideal .f32) = 0 from Ideal.ofBits_zero_f32]
  simp only [truncf_apply, payNorm3]
  rfl

theorem payOut3 (x0 : Vec Ideal S5000x128 .f32) (x1 x2 x3 x4 : Vec Ideal S1x128 .f32) (x5 : Vec Ideal S128x256 .bf16)
    (x6 : Vec Ideal S1x256 .f32) (x7 : Vec Ideal S256x128 .bf16) (x8 : Vec Ideal S1x128 .f32) (a : Fin 5000) (b : Fin 128) :
    k3_pay1 (k3_pay4 x0 x1 x2 x3 x4) (k3_pay5 x0 x1 x2 x3 x4 x5 x6 x7) (k3_pay6 x8) (ix2 a b)
      = ffnRow (rowOf_ffn x0 a) (rowOf_ffn x1 0) (rowOf_ffn x2 0) (rowOf_ffn x3 0) (rowOf_ffn x4 0) (mat_ffn x5) (rowOf_ffn x6 0) (mat_ffn x7) (rowOf_ffn x8 0) b := by
  unfold k3_pay1 k3_pay6 ffnRow outRow_ffn
  rw [addf_apply, addf_apply, bcRows_ffn, shapeCast_self, payNorm3, payFfn3]

theorem paySum3 (v20 v34 : FVec Ideal S5000x128 .f32) (v36 : FVec Ideal S1x128 .f32) (q : Fin 8) (b : Fin 128) :
    k3_pay2 v20 v34 v36 (ix2 q b) = ∑ i : Fin 5000, k3_pay1 v20 v34 v36 (ix2 i b) := by
  unfold k3_pay2
  simp only [shapeCast_self]
  exact sumRows_ffn _ _ _ q b

theorem paySq3 (v20 v34 : FVec Ideal S5000x128 .f32) (v36 : FVec Ideal S1x128 .f32) (q : Fin 8) (b : Fin 128) :
    k3_pay3 v20 v34 v36 (ix2 q b) = ∑ i : Fin 5000, k3_pay1 v20 v34 v36 (ix2 i b) * k3_pay1 v20 v34 v36 (ix2 i b) := by
  unfold k3_pay3
  simp only [shapeCast_self]
  exact (sumRows_ffn _ _ _ q b).trans rfl

abbrev Arr (r c : ℕ) := (⟨2, ![r, c]⟩ : Shape).Idx → EReal

-- The layer's output rows of an array of `n` rows: row `r` is the layer applied to row `r` of `pre`.
def ffnOut {n : ℕ} (pre : Arr n 128) (m var g1 b1 : Arr 1 128) (w1 : Arr 128 256) (bh : Arr 1 256) (w2 : Arr 256 128)
    (b2 : Arr 1 128) : Arr n 128 :=
  fun i => ffnRow (rowOf_ffn pre (i 0)) (rowOf_ffn m 0) (rowOf_ffn var 0) (rowOf_ffn g1 0) (rowOf_ffn b1 0) (mat_ffn w1) (rowOf_ffn bh 0) (mat_ffn w2) (rowOf_ffn b2 0) (i 1)

-- Row `k` of the tile of 5000 rows owning row `q` of the sums' array: each of the `T` tiles owns 8 rows there.
def blockRow {n m T : ℕ} (hn : 5000 * T = n) (hm : 8 * T = m) (q : Fin m) (k : Fin 5000) : Fin n :=
  ⟨5000 * (q.val / 8) + k.val, by have := q.isLt; have := k.isLt; omega⟩

def ffnSum {n m T : ℕ} (hn : 5000 * T = n) (hm : 8 * T = m) (o : Arr n 128) : Arr m 128 :=
  fun i => ∑ k : Fin 5000, o (ix2 (blockRow hn hm (i 0) k) (i 1))

def ffnSq {n m T : ℕ} (hn : 5000 * T = n) (hm : 8 * T = m) (o : Arr n 128) : Arr m 128 :=
  fun i => ∑ k : Fin 5000, o (ix2 (blockRow hn hm (i 0) k) (i 1)) * o (ix2 (blockRow hn hm (i 0) k) (i 1))

section Point

variable {n m T : ℕ} (hn : 5000 * T = n) (hm : 8 * T = m)
  {x0 : Vec Ideal S5000x128 .f32} {x1 x2 x3 x4 : Vec Ideal S1x128 .f32} {x5 : Vec Ideal S128x256 .bf16}
  {x6 : Vec Ideal S1x256 .f32} {x7 : Vec Ideal S256x128 .bf16} {x8 : Vec Ideal S1x128 .f32}
  {A0 : Arr n 128} {A1 A2 A3 A4 : Arr 1 128} {A5 : Arr 128 256} {A6 : Arr 1 256} {A7 : Arr 256 128} {A8 : Arr 1 128}
  (p : ℕ) (h0 : ∀ (a : Fin 5000) (r : Fin n), r.val = 5000 * p + a.val → rowOf_ffn x0 a = rowOf_ffn A0 r)
  (h1 : x1 = A1) (h2 : x2 = A2) (h3 : x3 = A3) (h4 : x4 = A4) (h5 : x5 = A5) (h6 : x6 = A6) (h7 : x7 = A7) (h8 : x8 = A8)
include h0 h1 h2 h3 h4 h5 h6 h7 h8

-- Tile `p`'s output block, whose first operand holds rows `5000 p …` of `A0`, is those rows of the layer's output.
theorem pointOut (y : S5000x128.Idx) (i : (⟨2, ![n, 128]⟩ : Shape).Idx)
    (hi0 : (i 0).val = 5000 * p + (y 0).val) (hi1 : (i 1).val = (y 1).val) :
    k3_pay1 (k3_pay4 x0 x1 x2 x3 x4) (k3_pay5 x0 x1 x2 x3 x4 x5 x6 x7) (k3_pay6 x8) y = ffnOut A0 A1 A2 A3 A4 A5 A6 A7 A8 i := by
  subst h1 h2 h3 h4 h5 h6 h7 h8
  obtain ⟨a, b, rfl⟩ : ∃ a b, y = ix2 a b := ⟨y 0, y 1, eq_ix2 y⟩
  rw [payOut3]
  unfold ffnOut
  rw [h0 a (i 0) hi0, show b = i 1 from Fin.ext hi1.symm]

theorem pointSum (y : S8x128.Idx) (i : (⟨2, ![m, 128]⟩ : Shape).Idx)
    (hi0 : (i 0).val = 8 * p + (y 0).val) (hi1 : (i 1).val = (y 1).val) :
    k3_pay2 (k3_pay4 x0 x1 x2 x3 x4) (k3_pay5 x0 x1 x2 x3 x4 x5 x6 x7) (k3_pay6 x8) y = ffnSum hn hm (ffnOut A0 A1 A2 A3 A4 A5 A6 A7 A8) i := by
  obtain ⟨q, b, rfl⟩ : ∃ q b, y = ix2 q b := ⟨y 0, y 1, eq_ix2 y⟩
  have hq : (i 0).val = 8 * p + q.val := hi0
  rw [paySum3]
  unfold ffnSum
  refine Finset.sum_congr rfl fun k _ => ?_
  exact pointOut p h0 h1 h2 h3 h4 h5 h6 h7 h8 (ix2 k b) (ix2 (blockRow hn hm (i 0) k) (i 1))
    (by show 5000 * ((i 0).val / 8) + k.val = 5000 * p + k.val; have := q.isLt; omega) hi1

theorem pointSq (y : S8x128.Idx) (i : (⟨2, ![m, 128]⟩ : Shape).Idx)
    (hi0 : (i 0).val = 8 * p + (y 0).val) (hi1 : (i 1).val = (y 1).val) :
    k3_pay3 (k3_pay4 x0 x1 x2 x3 x4) (k3_pay5 x0 x1 x2 x3 x4 x5 x6 x7) (k3_pay6 x8) y = ffnSq hn hm (ffnOut A0 A1 A2 A3 A4 A5 A6 A7 A8) i := by
  obtain ⟨q, b, rfl⟩ : ∃ q b, y = ix2 q b := ⟨y 0, y 1, eq_ix2 y⟩
  have hq : (i 0).val = 8 * p + q.val := hi0
  rw [paySq3]
  unfold ffnSq
  refine Finset.sum_congr rfl fun k _ => ?_
  rw [pointOut p h0 h1 h2 h3 h4 h5 h6 h7 h8 (ix2 k b) (ix2 (blockRow hn hm (i 0) k) (i 1))
    (by show 5000 * ((i 0).val / 8) + k.val = 5000 * p + k.val; have := q.isLt; omega) hi1]

end Point

variable (V : (c : Dev nD) → (b : Ref sig .tc) → Buf (Elt Ideal) ((c : Thread nD τ).loc b))

theorem idx_in3 : ∀ t : Fin cfg3.N, (win3_0.index t (0 : Fin 2) = t.val ∧ win3_0.index t (1 : Fin 2) = 0)
    ∧ (∀ a, win3_1.index t a = 0) ∧ (∀ a, win3_2.index t a = 0) ∧ (∀ a, win3_3.index t a = 0) ∧ (∀ a, win3_4.index t a = 0)
    ∧ (∀ a, win3_5.index t a = 0) ∧ (∀ a, win3_6.index t a = 0) ∧ (∀ a, win3_7.index t a = 0) ∧ ∀ a, win3_8.index t a = 0 :=
  (by decide +kernel : ∀ t : Fin grid3.N, _)

theorem idx_out3 : ∀ t : Fin cfg3.N,
    win3_9.index t (0 : Fin 2) = t.val ∧ win3_9.index t (1 : Fin 2) = 0
    ∧ win3_10.index t (0 : Fin 2) = t.val ∧ win3_10.index t (1 : Fin 2) = 0
    ∧ win3_11.index t (0 : Fin 2) = t.val ∧ win3_11.index t (1 : Fin 2) = 0 :=
  (by decide +kernel : ∀ t : Fin grid3.N, _)

theorem blk3_0 (c : Dev nD) (t : Fin cfg3.N) (a : Fin 5000) (b : Fin 128) (n : Fin 50000) (hn : n.val = 5000 * t.val + a.val) :
    (iblk3 V c 0 t : Vec Ideal S5000x128 .f32) (ix2 a b) = (V c (Pipeline.arrRef spec3 0) : S50000x128.Idx → EReal) (ix2 n b) := by
  obtain ⟨⟨i0r, i0c⟩, -⟩ := idx_in3 t
  unfold iblk3
  rw [View.read_apply]
  show V c (Pipeline.arrRef spec3 0) _ = V c (Pipeline.arrRef spec3 0) _
  congr 1
  funext d
  apply Fin.ext
  match d with
  | ⟨0, _⟩ => show win3_0.index t 0 * 5000 + 1 * a.val = n.val; rw [i0r, hn]; omega
  | ⟨1, _⟩ => show win3_0.index t 1 * 128 + 1 * b.val = b.val; rw [i0c]; omega

-- A block whose index is zero on every axis is the array itself.
theorem blk3_1 (c : Dev nD) (t : Fin cfg3.N) :
    (iblk3 V c 1 t : Vec Ideal S1x128 .f32) = (V c (Pipeline.arrRef spec3 1) : S1x128.Idx → EReal) := by
  obtain ⟨-, h, -⟩ := idx_in3 t
  funext y
  unfold iblk3
  rw [View.read_apply]
  exact congrArg (V c (Pipeline.arrRef spec3 1)) (funext fun d => Fin.ext (win3_1.rect_emb_val_of_index_zero t d (h d) y))

theorem blk3_2 (c : Dev nD) (t : Fin cfg3.N) :
    (iblk3 V c 2 t : Vec Ideal S1x128 .f32) = (V c (Pipeline.arrRef spec3 2) : S1x128.Idx → EReal) := by
  obtain ⟨-, -, h, -⟩ := idx_in3 t
  funext y
  unfold iblk3
  rw [View.read_apply]
  exact congrArg (V c (Pipeline.arrRef spec3 2)) (funext fun d => Fin.ext (win3_2.rect_emb_val_of_index_zero t d (h d) y))

theorem blk3_3 (c : Dev nD) (t : Fin cfg3.N) :
    (iblk3 V c 3 t : Vec Ideal S1x128 .f32) = (V c (Pipeline.arrRef spec3 3) : S1x128.Idx → EReal) := by
  obtain ⟨-, -, -, h, -⟩ := idx_in3 t
  funext y
  unfold iblk3
  rw [View.read_apply]
  exact congrArg (V c (Pipeline.arrRef spec3 3)) (funext fun d => Fin.ext (win3_3.rect_emb_val_of_index_zero t d (h d) y))

theorem blk3_4 (c : Dev nD) (t : Fin cfg3.N) :
    (iblk3 V c 4 t : Vec Ideal S1x128 .f32) = (V c (Pipeline.arrRef spec3 4) : S1x128.Idx → EReal) := by
  obtain ⟨-, -, -, -, h, -⟩ := idx_in3 t
  funext y
  unfold iblk3
  rw [View.read_apply]
  exact congrArg (V c (Pipeline.arrRef spec3 4)) (funext fun d => Fin.ext (win3_4.rect_emb_val_of_index_zero t d (h d) y))

theorem blk3_5 (c : Dev nD) (t : Fin cfg3.N) :
    (iblk3 V c 5 t : Vec Ideal S128x256 .bf16) = (V c (Pipeline.arrRef spec3 5) : S128x256.Idx → EReal) := by
  obtain ⟨-, -, -, -, -, h, -⟩ := idx_in3 t
  funext y
  unfold iblk3
  rw [View.read_apply]
  exact congrArg (V c (Pipeline.arrRef spec3 5)) (funext fun d => Fin.ext (win3_5.rect_emb_val_of_index_zero t d (h d) y))

theorem blk3_6 (c : Dev nD) (t : Fin cfg3.N) :
    (iblk3 V c 6 t : Vec Ideal S1x256 .f32) = (V c (Pipeline.arrRef spec3 6) : S1x256.Idx → EReal) := by
  obtain ⟨-, -, -, -, -, -, h, -⟩ := idx_in3 t
  funext y
  unfold iblk3
  rw [View.read_apply]
  exact congrArg (V c (Pipeline.arrRef spec3 6)) (funext fun d => Fin.ext (win3_6.rect_emb_val_of_index_zero t d (h d) y))

theorem blk3_7 (c : Dev nD) (t : Fin cfg3.N) :
    (iblk3 V c 7 t : Vec Ideal S256x128 .bf16) = (V c (Pipeline.arrRef spec3 7) : S256x128.Idx → EReal) := by
  obtain ⟨-, -, -, -, -, -, -, h, -⟩ := idx_in3 t
  funext y
  unfold iblk3
  rw [View.read_apply]
  exact congrArg (V c (Pipeline.arrRef spec3 7)) (funext fun d => Fin.ext (win3_7.rect_emb_val_of_index_zero t d (h d) y))

theorem blk3_8 (c : Dev nD) (t : Fin cfg3.N) :
    (iblk3 V c 8 t : Vec Ideal S1x128 .f32) = (V c (Pipeline.arrRef spec3 8) : S1x128.Idx → EReal) := by
  obtain ⟨-, -, -, -, -, -, -, -, h⟩ := idx_in3 t
  funext y
  unfold iblk3
  rw [View.read_apply]
  exact congrArg (V c (Pipeline.arrRef spec3 8)) (funext fun d => Fin.ext (win3_8.rect_emb_val_of_index_zero t d (h d) y))

def o3 (c : Dev nD) : S50000x128.Idx → EReal :=
  ffnOut (n := 50000) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))

abbrev ffnSum3 := @ffnSum 50000 80 10 rfl rfl
abbrev ffnSq3 := @ffnSq 50000 80 10 rfl rfl

theorem arr3_9 (c : Dev nD) : (dat3 (F := Ideal) V c).arrAt 9 cfg3.N = fun i =>
    o3 V c i := by
  refine (dat3 (F := Ideal) V c).arrAt_eq_of_cover 9 _ (fun t _ => ?_) fun (i : S50000x128.Idx) => ?_
  · unfold o3
    show (cfg3.win 9).cut (grid3.coords t) ((dat3 V c).after 9 t) = _
    rw [after3_9]
    unfold out3_9 norm3 ffn3 bias3
    rw [View.canon_unit_zero hz_ffn]
    simp only [View.ld_unit_zero (S := S5000x128) hz_ffn, View.ld_unit_zero (S := S1x128) hz_ffn, View.ld_unit_zero (S := S128x256) hz_ffn,
      View.ld_unit_zero (S := S1x256) hz_ffn, View.ld_unit_zero (S := S256x128) hz_ffn]
    obtain ⟨o9r, o9c, -, -, -, -⟩ := idx_out3 t
    funext y
    exact pointOut t.val (fun a n hn => funext fun d => blk3_0 V c t a d n hn)
      (blk3_1 V c t) (blk3_2 V c t) (blk3_3 V c t) (blk3_4 V c t) (blk3_5 V c t) (blk3_6 V c t) (blk3_7 V c t) (blk3_8 V c t) y (((cfg3.win 9).blk t).view.emb y)
      (by show win3_9.index t 0 * 5000 + 1 * (y 0).val = 5000 * t.val + (y 0).val; rw [o9r]; omega)
      (by show win3_9.index t 1 * 128 + 1 * (y 1).val = (y 1).val; rw [o9c]; omega)
  · have hi0 : (i 0).val < 50000 := (i 0).isLt
    have hi1 : (i 1).val < 128 := (i 1).isLt
    have hlt : (i 0).val / 5000 < cfg3.N := by show _ < grid3.N; rw [N_3]; omega
    obtain ⟨o9r, o9c, -, -, -, -⟩ := idx_out3 ⟨(i 0).val / 5000, hlt⟩
    refine ⟨⟨(i 0).val / 5000, hlt⟩, flush3_9 _, ?_⟩
    show i ∈ ((View.whole main_v82_0).slice (win3_9.rect ⟨(i 0).val / 5000, hlt⟩)).set
    rw [View.set_slice_whole, Rect.mem_set_unit]
    intro a
    match a with
    | ⟨0, _⟩ =>
      show win3_9.index ⟨(i 0).val / 5000, hlt⟩ 0 * 5000 ≤ (i 0).val ∧ (i 0).val < win3_9.index ⟨(i 0).val / 5000, hlt⟩ 0 * 5000 + 5000
      rw [o9r]; show (i 0).val / 5000 * 5000 ≤ (i 0).val ∧ (i 0).val < (i 0).val / 5000 * 5000 + 5000; omega
    | ⟨1, _⟩ =>
      show win3_9.index ⟨(i 0).val / 5000, hlt⟩ 1 * 128 ≤ (i 1).val ∧ (i 1).val < win3_9.index ⟨(i 0).val / 5000, hlt⟩ 1 * 128 + 128
      rw [o9c]; omega

theorem arr3_10 (c : Dev nD) : (dat3 (F := Ideal) V c).arrAt 10 cfg3.N = fun i =>
    ffnSum3 (o3 V c) i := by
  refine (dat3 (F := Ideal) V c).arrAt_eq_of_cover 10 _ (fun t _ => ?_) fun (i : S80x128.Idx) => ?_
  · unfold o3
    show (cfg3.win 10).cut (grid3.coords t) ((dat3 V c).after 10 t) = _
    rw [after3_10]
    unfold out3_10 norm3 ffn3 bias3
    rw [View.canon_unit_zero hz_ffn]
    simp only [View.ld_unit_zero (S := S5000x128) hz_ffn, View.ld_unit_zero (S := S1x128) hz_ffn, View.ld_unit_zero (S := S128x256) hz_ffn,
      View.ld_unit_zero (S := S1x256) hz_ffn, View.ld_unit_zero (S := S256x128) hz_ffn]
    obtain ⟨-, -, o10r, o10c, -, -⟩ := idx_out3 t
    funext y
    exact pointSum (n := 50000) (m := 80) (T := 10) rfl rfl t.val (fun a n hn => funext fun d => blk3_0 V c t a d n hn)
      (blk3_1 V c t) (blk3_2 V c t) (blk3_3 V c t) (blk3_4 V c t) (blk3_5 V c t) (blk3_6 V c t) (blk3_7 V c t) (blk3_8 V c t) y (((cfg3.win 10).blk t).view.emb y)
      (by show win3_10.index t 0 * 8 + 1 * (y 0).val = 8 * t.val + (y 0).val; rw [o10r]; omega)
      (by show win3_10.index t 1 * 128 + 1 * (y 1).val = (y 1).val; rw [o10c]; omega)
  · have hi0 : (i 0).val < 80 := (i 0).isLt
    have hi1 : (i 1).val < 128 := (i 1).isLt
    have hlt : (i 0).val / 8 < cfg3.N := by show _ < grid3.N; rw [N_3]; omega
    obtain ⟨-, -, o10r, o10c, -, -⟩ := idx_out3 ⟨(i 0).val / 8, hlt⟩
    refine ⟨⟨(i 0).val / 8, hlt⟩, flush3_10 _, ?_⟩
    show i ∈ ((View.whole main_v82_1).slice (win3_10.rect ⟨(i 0).val / 8, hlt⟩)).set
    rw [View.set_slice_whole, Rect.mem_set_unit]
    intro a
    match a with
    | ⟨0, _⟩ =>
      show win3_10.index ⟨(i 0).val / 8, hlt⟩ 0 * 8 ≤ (i 0).val ∧ (i 0).val < win3_10.index ⟨(i 0).val / 8, hlt⟩ 0 * 8 + 8
      rw [o10r]; show (i 0).val / 8 * 8 ≤ (i 0).val ∧ (i 0).val < (i 0).val / 8 * 8 + 8; omega
    | ⟨1, _⟩ =>
      show win3_10.index ⟨(i 0).val / 8, hlt⟩ 1 * 128 ≤ (i 1).val ∧ (i 1).val < win3_10.index ⟨(i 0).val / 8, hlt⟩ 1 * 128 + 128
      rw [o10c]; omega

theorem arr3_11 (c : Dev nD) : (dat3 (F := Ideal) V c).arrAt 11 cfg3.N = fun i =>
    ffnSq3 (o3 V c) i := by
  refine (dat3 (F := Ideal) V c).arrAt_eq_of_cover 11 _ (fun t _ => ?_) fun (i : S80x128.Idx) => ?_
  · unfold o3
    show (cfg3.win 11).cut (grid3.coords t) ((dat3 V c).after 11 t) = _
    rw [after3_11]
    unfold out3_11 norm3 ffn3 bias3
    rw [View.canon_unit_zero hz_ffn]
    simp only [View.ld_unit_zero (S := S5000x128) hz_ffn, View.ld_unit_zero (S := S1x128) hz_ffn, View.ld_unit_zero (S := S128x256) hz_ffn,
      View.ld_unit_zero (S := S1x256) hz_ffn, View.ld_unit_zero (S := S256x128) hz_ffn]
    obtain ⟨-, -, -, -, o11r, o11c⟩ := idx_out3 t
    funext y
    exact pointSq (n := 50000) (m := 80) (T := 10) rfl rfl t.val (fun a n hn => funext fun d => blk3_0 V c t a d n hn)
      (blk3_1 V c t) (blk3_2 V c t) (blk3_3 V c t) (blk3_4 V c t) (blk3_5 V c t) (blk3_6 V c t) (blk3_7 V c t) (blk3_8 V c t) y (((cfg3.win 11).blk t).view.emb y)
      (by show win3_11.index t 0 * 8 + 1 * (y 0).val = 8 * t.val + (y 0).val; rw [o11r]; omega)
      (by show win3_11.index t 1 * 128 + 1 * (y 1).val = (y 1).val; rw [o11c]; omega)
  · have hi0 : (i 0).val < 80 := (i 0).isLt
    have hi1 : (i 1).val < 128 := (i 1).isLt
    have hlt : (i 0).val / 8 < cfg3.N := by show _ < grid3.N; rw [N_3]; omega
    obtain ⟨-, -, -, -, o11r, o11c⟩ := idx_out3 ⟨(i 0).val / 8, hlt⟩
    refine ⟨⟨(i 0).val / 8, hlt⟩, flush3_11 _, ?_⟩
    show i ∈ ((View.whole main_v82_2).slice (win3_11.rect ⟨(i 0).val / 8, hlt⟩)).set
    rw [View.set_slice_whole, Rect.mem_set_unit]
    intro a
    match a with
    | ⟨0, _⟩ =>
      show win3_11.index ⟨(i 0).val / 8, hlt⟩ 0 * 8 ≤ (i 0).val ∧ (i 0).val < win3_11.index ⟨(i 0).val / 8, hlt⟩ 0 * 8 + 8
      rw [o11r]; show (i 0).val / 8 * 8 ≤ (i 0).val ∧ (i 0).val < (i 0).val / 8 * 8 + 8; omega
    | ⟨1, _⟩ =>
      show win3_11.index ⟨(i 0).val / 8, hlt⟩ 1 * 128 ≤ (i 1).val ∧ (i 1).val < win3_11.index ⟨(i 0).val / 8, hlt⟩ 1 * 128 + 128
      rw [o11c]; omega

end Cert.KernelIdeal.HandVal
-- ==== Proof.KernelIdeal.FfnSpec.lean ====
import proofs.«121852_j34351148433892_2_alg».proof.Proof.KernelIdeal.FfnRows
import proofs.«121852_j34351148433892_2_alg».proof.Proof.Spec
import proofs.«121852_j34351148433892_2_alg».proof.Proof.SpecLaws

noncomputable section

namespace Cert.KernelIdeal.HandVal

open Idealize.ShloMosaic Idealize.ShloMosaic.ValueIdx Cert.Spec Cert.SpecLaws
open scoped BigOperators

def normRowR_ffn (p mu vr g b : Fin 128 → ℝ) (eps : ℝ) : Fin 128 → ℝ :=
  fun d => (p d - mu d) * (Real.sqrt (vr d + eps))⁻¹ * g d + b d

theorem normRow_coe_ffn (p mu vr g b : Fin 128 → ℝ) (eps : ℝ) (hpos : ∀ d, 0 < vr d + eps)
    (hlit : Ideal.ofBits .f32 0x3727C5AC#32 = ((eps : ℝ) : EReal)) (d : Fin 128) :
    normRow_ffn (fun d => ((p d : ℝ) : EReal)) (fun d => ((mu d : ℝ) : EReal)) (fun d => ((vr d : ℝ) : EReal))
        (fun d => ((g d : ℝ) : EReal)) (fun d => ((b d : ℝ) : EReal)) d
      = ((normRowR_ffn p mu vr g b eps d : ℝ) : EReal) := by
  unfold normRow_ffn ffnEps normRowR_ffn
  try dsimp only
  rw [hlit, coe_sub, coe_add, rsqrt_coe _ (hpos d), coe_mul, coe_mul, coe_add]

theorem hidRow_coe_ffn (x : Fin 128 → ℝ) (W1 : Fin 128 → Fin 256 → ℝ) (c1 : Fin 256 → ℝ) (k : Fin 256) :
    hidRow_ffn (fun j => ((x j : ℝ) : EReal)) (fun j k => ((W1 j k : ℝ) : EReal)) (fun k => ((c1 k : ℝ) : EReal)) k
      = ((max (∑ j, x j * W1 j k + c1 k) 0 : ℝ) : EReal) := by
  unfold hidRow_ffn
  try dsimp only
  rw [coe_sum_mul, coe_add, coe_zero, max_coe]

theorem outRow_coe_ffn (x : Fin 128 → ℝ) (h : Fin 256 → ℝ) (W2 : Fin 256 → Fin 128 → ℝ) (c2 : Fin 128 → ℝ) (d : Fin 128) :
    outRow_ffn (fun d => ((x d : ℝ) : EReal)) (fun k => ((h k : ℝ) : EReal)) (fun k d => ((W2 k d : ℝ) : EReal))
        (fun d => ((c2 d : ℝ) : EReal)) d
      = ((x d + (∑ k, h k * W2 k d + c2 d) : ℝ) : EReal) := by
  unfold outRow_ffn
  try dsimp only
  rw [coe_sum_mul, coe_add, coe_add]

theorem ffnRow_spec {M : ℕ} (X : Fin M → Fin 128 → ℝ) (mu vr g b : Fin 128 → ℝ) (W1 : Fin 128 → Fin 256 → ℝ)
    (c1 : Fin 256 → ℝ) (W2 : Fin 256 → Fin 128 → ℝ) (c2 : Fin 128 → ℝ) (eps : ℝ) (hpos : ∀ d, 0 < vr d + eps)
    (hlit : Ideal.ofBits .f32 0x3727C5AC#32 = ((eps : ℝ) : EReal)) (n : Fin M) (d : Fin 128) :
    ffnRow (fun d => ((X n d : ℝ) : EReal)) (fun d => ((mu d : ℝ) : EReal)) (fun d => ((vr d : ℝ) : EReal))
        (fun d => ((g d : ℝ) : EReal)) (fun d => ((b d : ℝ) : EReal)) (fun j k => ((W1 j k : ℝ) : EReal))
        (fun k => ((c1 k : ℝ) : EReal)) (fun k d => ((W2 k d : ℝ) : EReal)) (fun d => ((c2 d : ℝ) : EReal)) d
      = ((ffn (fun i d => (X i d - mu d) * (Real.sqrt (vr d + eps))⁻¹ * g d + b d) W1 c1 W2 c2 n d : ℝ) : EReal) := by
  unfold ffnRow
  have hn : normRow_ffn (fun d => ((X n d : ℝ) : EReal)) (fun d => ((mu d : ℝ) : EReal)) (fun d => ((vr d : ℝ) : EReal))
      (fun d => ((g d : ℝ) : EReal)) (fun d => ((b d : ℝ) : EReal))
      = fun d => ((normRowR_ffn (X n) mu vr g b eps d : ℝ) : EReal) :=
    funext (normRow_coe_ffn (X n) mu vr g b eps hpos hlit)
  rw [hn]
  have hh : hidRow_ffn (fun d => ((normRowR_ffn (X n) mu vr g b eps d : ℝ) : EReal)) (fun j k => ((W1 j k : ℝ) : EReal))
      (fun k => ((c1 k : ℝ) : EReal))
      = fun k => ((max (∑ j, normRowR_ffn (X n) mu vr g b eps j * W1 j k + c1 k) 0 : ℝ) : EReal) :=
    funext (hidRow_coe_ffn (normRowR_ffn (X n) mu vr g b eps) W1 c1)
  rw [hh, outRow_coe_ffn]
  rfl

end Cert.KernelIdeal.HandVal
-- ==== Proof.KernelIdeal.Spec3.lean ====
import proofs.«121852_j34351148433892_2_alg».proof.Proof.KernelIdeal.Val3
import proofs.«121852_j34351148433892_2_alg».proof.Proof.KernelIdeal.FfnSpec
import proofs.«121852_j34351148433892_2_alg».proof.Proof.Bridge.Layout

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Bridge Cert.SpecLaws
open scoped BigOperators

-- Over real arrays the layer's output rows are the coercion of the specification's feed-forward block of the normalised rows.
theorem ffnOut_spec {n : ℕ} (X : Fin n → Fin 128 → ℝ) (mu vr g b : Fin 128 → ℝ) (W1 : Fin 128 → Fin 256 → ℝ)
    (c1 : Fin 256 → ℝ) (W2 : Fin 256 → Fin 128 → ℝ) (c2 : Fin 128 → ℝ) (eps : ℝ) (hpos : ∀ d, 0 < vr d + eps)
    (hlit : Ideal.ofBits .f32 0x3727C5AC#32 = ((eps : ℝ) : EReal)) :
    ffnOut (E2 X) (row1 mu) (row1 vr) (row1 g) (row1 b) (E2 W1) (row1 c1) (E2 W2) (row1 c2)
      = E2 (Cert.Spec.ffn (fun i d => (X i d - mu d) * (Real.sqrt (vr d + eps))⁻¹ * g d + b d) W1 c1 W2 c2) :=
  funext fun i => ffnRow_spec X mu vr g b W1 c1 W2 c2 eps hpos hlit (i 0) (i 1)

-- The tile sums of a real array, and of its squares, are the coercions of the real tile sums.
theorem ffnSum_spec {n m T : ℕ} (hn : 5000 * T = n) (hm : 8 * T = m) (x : Fin n → Fin 128 → ℝ) :
    ffnSum hn hm (E2 x) = E2 fun q d => ∑ j : Fin 5000, x (blockRow hn hm q j) d :=
  funext fun i => coe_sum _ fun k => x (blockRow hn hm (i 0) k) (i 1)

theorem ffnSq_spec {n m T : ℕ} (hn : 5000 * T = n) (hm : 8 * T = m) (x : Fin n → Fin 128 → ℝ) :
    ffnSq hn hm (E2 x) = E2 fun q d => ∑ j : Fin 5000, x (blockRow hn hm q j) d * x (blockRow hn hm q j) d :=
  funext fun i => coe_sum_mul _ (fun k => x (blockRow hn hm (i 0) k) (i 1)) fun k => x (blockRow hn hm (i 0) k) (i 1)

theorem ffnSum3_spec (x : Fin 50000 → Fin 128 → ℝ) : ffnSum3 (E2 x) = E2 (tiles10 x) := ffnSum_spec _ _ x

theorem ffnSq3_spec (x : Fin 50000 → Fin 128 → ℝ) : ffnSq3 (E2 x) = E2 (tiles10 (sq x)) := ffnSq_spec _ _ x

set_option maxHeartbeats 4000000 in
theorem region3_spec (V : (c : Dev nD) → (b : Ref sig .tc) → Buf (Elt Ideal) ((c : Thread nD τ).loc b)) (c : Dev nD)
    (X : Fin 50000 → Fin 128 → ℝ) (mu vr g b : Fin 128 → ℝ) (W1 : Fin 128 → Fin 256 → ℝ)
    (c1 : Fin 256 → ℝ) (W2 : Fin 256 → Fin 128 → ℝ) (c2 : Fin 128 → ℝ) (eps : ℝ) (hpos : ∀ d, 0 < vr d + eps)
    (hlit : Ideal.ofBits .f32 0x3727C5AC#32 = ((eps : ℝ) : EReal))
    (h0 : @Eq (S50000x128.Idx → EReal) (V c (Pipeline.arrRef spec3 0)) (E2 X))
    (h1 : @Eq (S1x128.Idx → EReal) (V c (Pipeline.arrRef spec3 1)) (row1 mu))
    (h2 : @Eq (S1x128.Idx → EReal) (V c (Pipeline.arrRef spec3 2)) (row1 vr))
    (h3 : @Eq (S1x128.Idx → EReal) (V c (Pipeline.arrRef spec3 3)) (row1 g))
    (h4 : @Eq (S1x128.Idx → EReal) (V c (Pipeline.arrRef spec3 4)) (row1 b))
    (h5 : @Eq (S128x256.Idx → EReal) (V c (Pipeline.arrRef spec3 5)) (E2 W1))
    (h6 : @Eq (S1x256.Idx → EReal) (V c (Pipeline.arrRef spec3 6)) (row1 c1))
    (h7 : @Eq (S256x128.Idx → EReal) (V c (Pipeline.arrRef spec3 7)) (E2 W2))
    (h8 : @Eq (S1x128.Idx → EReal) (V c (Pipeline.arrRef spec3 8)) (row1 c2)) :
    let x1 : Fin 50000 → Fin 128 → ℝ := fun i d => (X i d - mu d) * (Real.sqrt (vr d + eps))⁻¹ * g d + b d
    @Eq (S50000x128.Idx → EReal) ((dat3 (F := Ideal) V c).arrAt 9 cfg3.N) (E2 (Cert.Spec.ffn x1 W1 c1 W2 c2))
      ∧ @Eq (S80x128.Idx → EReal) ((dat3 (F := Ideal) V c).arrAt 10 cfg3.N) (E2 (tiles10 (Cert.Spec.ffn x1 W1 c1 W2 c2)))
      ∧ @Eq (S80x128.Idx → EReal) ((dat3 (F := Ideal) V c).arrAt 11 cfg3.N) (E2 (tiles10 (sq (Cert.Spec.ffn x1 W1 c1 W2 c2)))) := by
  intro x1
  have hO : o3 V c = E2 (Cert.Spec.ffn x1 W1 c1 W2 c2) := by
    unfold o3; rw [h0, h1, h2, h3, h4, h5, h6, h7, h8]; exact ffnOut_spec X mu vr g b W1 c1 W2 c2 eps hpos hlit
  exact ⟨(arr3_9 V c).trans hO,
    (arr3_10 V c).trans ((congrArg ffnSum3 hO).trans (ffnSum3_spec _)),
    (arr3_11 V c).trans ((congrArg ffnSq3 hO).trans (ffnSq3_spec _))⟩

end Cert.KernelIdeal.HandVal
-- ==== Proof.KernelIdeal.Val4.lean ====
import proofs.«121852_j34351148433892_2_alg».proof.Proof.KernelIdeal.Region4
import proofs.«121852_j34351148433892_2_alg».proof.Proof.KernelIdeal.Val3
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem idx_in4 : ∀ t : Fin cfg4.N, (win4_0.index t (0 : Fin 2) = t.val ∧ win4_0.index t (1 : Fin 2) = 0)
    ∧ (∀ a, win4_1.index t a = 0) ∧ (∀ a, win4_2.index t a = 0) ∧ (∀ a, win4_3.index t a = 0) ∧ (∀ a, win4_4.index t a = 0)
    ∧ (∀ a, win4_5.index t a = 0) ∧ (∀ a, win4_6.index t a = 0) ∧ (∀ a, win4_7.index t a = 0) ∧ ∀ a, win4_8.index t a = 0 :=
  (by decide +kernel : ∀ t : Fin grid4.N, _)

theorem idx_out4 : ∀ t : Fin cfg4.N,
    win4_9.index t (0 : Fin 2) = t.val ∧ win4_9.index t (1 : Fin 2) = 0
    ∧ win4_10.index t (0 : Fin 2) = t.val ∧ win4_10.index t (1 : Fin 2) = 0
    ∧ win4_11.index t (0 : Fin 2) = t.val ∧ win4_11.index t (1 : Fin 2) = 0 :=
  (by decide +kernel : ∀ t : Fin grid4.N, _)

theorem blk4_0 (c : Dev nD) (t : Fin cfg4.N) (a : Fin 5000) (b : Fin 128) (n : Fin 500000) (hn : n.val = 5000 * t.val + a.val) :
    (iblk4 V c 0 t : Vec Ideal S5000x128 .f32) (ix2 a b) = (V c (Pipeline.arrRef spec4 0) : S500000x128.Idx → EReal) (ix2 n b) := by
  obtain ⟨⟨i0r, i0c⟩, -⟩ := idx_in4 t
  unfold iblk4
  rw [View.read_apply]
  show V c (Pipeline.arrRef spec4 0) _ = V c (Pipeline.arrRef spec4 0) _
  congr 1
  funext d
  apply Fin.ext
  match d with
  | ⟨0, _⟩ => show win4_0.index t 0 * 5000 + 1 * a.val = n.val; rw [i0r, hn]; omega
  | ⟨1, _⟩ => show win4_0.index t 1 * 128 + 1 * b.val = b.val; rw [i0c]; omega

-- A block whose index is zero on every axis is the array itself.
theorem blk4_1 (c : Dev nD) (t : Fin cfg4.N) :
    (iblk4 V c 1 t : Vec Ideal S1x128 .f32) = (V c (Pipeline.arrRef spec4 1) : S1x128.Idx → EReal) := by
  obtain ⟨-, h, -⟩ := idx_in4 t
  funext y
  unfold iblk4
  rw [View.read_apply]
  exact congrArg (V c (Pipeline.arrRef spec4 1)) (funext fun d => Fin.ext (win4_1.rect_emb_val_of_index_zero t d (h d) y))

theorem blk4_2 (c : Dev nD) (t : Fin cfg4.N) :
    (iblk4 V c 2 t : Vec Ideal S1x128 .f32) = (V c (Pipeline.arrRef spec4 2) : S1x128.Idx → EReal) := by
  obtain ⟨-, -, h, -⟩ := idx_in4 t
  funext y
  unfold iblk4
  rw [View.read_apply]
  exact congrArg (V c (Pipeline.arrRef spec4 2)) (funext fun d => Fin.ext (win4_2.rect_emb_val_of_index_zero t d (h d) y))

theorem blk4_3 (c : Dev nD) (t : Fin cfg4.N) :
    (iblk4 V c 3 t : Vec Ideal S1x128 .f32) = (V c (Pipeline.arrRef spec4 3) : S1x128.Idx → EReal) := by
  obtain ⟨-, -, -, h, -⟩ := idx_in4 t
  funext y
  unfold iblk4
  rw [View.read_apply]
  exact congrArg (V c (Pipeline.arrRef spec4 3)) (funext fun d => Fin.ext (win4_3.rect_emb_val_of_index_zero t d (h d) y))

theorem blk4_4 (c : Dev nD) (t : Fin cfg4.N) :
    (iblk4 V c 4 t : Vec Ideal S1x128 .f32) = (V c (Pipeline.arrRef spec4 4) : S1x128.Idx → EReal) := by
  obtain ⟨-, -, -, -, h, -⟩ := idx_in4 t
  funext y
  unfold iblk4
  rw [View.read_apply]
  exact congrArg (V c (Pipeline.arrRef spec4 4)) (funext fun d => Fin.ext (win4_4.rect_emb_val_of_index_zero t d (h d) y))

theorem blk4_5 (c : Dev nD) (t : Fin cfg4.N) :
    (iblk4 V c 5 t : Vec Ideal S128x256 .bf16) = (V c (Pipeline.arrRef spec4 5) : S128x256.Idx → EReal) := by
  obtain ⟨-, -, -, -, -, h, -⟩ := idx_in4 t
  funext y
  unfold iblk4
  rw [View.read_apply]
  exact congrArg (V c (Pipeline.arrRef spec4 5)) (funext fun d => Fin.ext (win4_5.rect_emb_val_of_index_zero t d (h d) y))

theorem blk4_6 (c : Dev nD) (t : Fin cfg4.N) :
    (iblk4 V c 6 t : Vec Ideal S1x256 .f32) = (V c (Pipeline.arrRef spec4 6) : S1x256.Idx → EReal) := by
  obtain ⟨-, -, -, -, -, -, h, -⟩ := idx_in4 t
  funext y
  unfold iblk4
  rw [View.read_apply]
  exact congrArg (V c (Pipeline.arrRef spec4 6)) (funext fun d => Fin.ext (win4_6.rect_emb_val_of_index_zero t d (h d) y))

theorem blk4_7 (c : Dev nD) (t : Fin cfg4.N) :
    (iblk4 V c 7 t : Vec Ideal S256x128 .bf16) = (V c (Pipeline.arrRef spec4 7) : S256x128.Idx → EReal) := by
  obtain ⟨-, -, -, -, -, -, -, h, -⟩ := idx_in4 t
  funext y
  unfold iblk4
  rw [View.read_apply]
  exact congrArg (V c (Pipeline.arrRef spec4 7)) (funext fun d => Fin.ext (win4_7.rect_emb_val_of_index_zero t d (h d) y))

theorem blk4_8 (c : Dev nD) (t : Fin cfg4.N) :
    (iblk4 V c 8 t : Vec Ideal S1x128 .f32) = (V c (Pipeline.arrRef spec4 8) : S1x128.Idx → EReal) := by
  obtain ⟨-, -, -, -, -, -, -, -, h⟩ := idx_in4 t
  funext y
  unfold iblk4
  rw [View.read_apply]
  exact congrArg (V c (Pipeline.arrRef spec4 8)) (funext fun d => Fin.ext (win4_8.rect_emb_val_of_index_zero t d (h d) y))

def o4 (c : Dev nD) : S500000x128.Idx → EReal :=
  ffnOut (n := 500000) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))

abbrev ffnSum4 := @ffnSum 500000 800 100 rfl rfl
abbrev ffnSq4 := @ffnSq 500000 800 100 rfl rfl

theorem arr4_9 (c : Dev nD) : (dat4 (F := Ideal) V c).arrAt 9 cfg4.N = fun i =>
    o4 V c i := by
  refine (dat4 (F := Ideal) V c).arrAt_eq_of_cover 9 _ (fun t _ => ?_) fun (i : S500000x128.Idx) => ?_
  · unfold o4
    show (cfg4.win 9).cut (grid4.coords t) ((dat4 V c).after 9 t) = _
    rw [after4_9]
    unfold out4_9 norm4 ffn4 bias4
    rw [View.canon_unit_zero hz_ffn]
    simp only [View.ld_unit_zero (S := S5000x128) hz_ffn, View.ld_unit_zero (S := S1x128) hz_ffn, View.ld_unit_zero (S := S128x256) hz_ffn,
      View.ld_unit_zero (S := S1x256) hz_ffn, View.ld_unit_zero (S := S256x128) hz_ffn]
    obtain ⟨o9r, o9c, -, -, -, -⟩ := idx_out4 t
    funext y
    exact pointOut t.val (fun a n hn => funext fun d => blk4_0 V c t a d n hn)
      (blk4_1 V c t) (blk4_2 V c t) (blk4_3 V c t) (blk4_4 V c t) (blk4_5 V c t) (blk4_6 V c t) (blk4_7 V c t) (blk4_8 V c t) y (((cfg4.win 9).blk t).view.emb y)
      (by show win4_9.index t 0 * 5000 + 1 * (y 0).val = 5000 * t.val + (y 0).val; rw [o9r]; omega)
      (by show win4_9.index t 1 * 128 + 1 * (y 1).val = (y 1).val; rw [o9c]; omega)
  · have hi0 : (i 0).val < 500000 := (i 0).isLt
    have hi1 : (i 1).val < 128 := (i 1).isLt
    have hlt : (i 0).val / 5000 < cfg4.N := by show _ < grid4.N; rw [N_4]; omega
    obtain ⟨o9r, o9c, -, -, -, -⟩ := idx_out4 ⟨(i 0).val / 5000, hlt⟩
    refine ⟨⟨(i 0).val / 5000, hlt⟩, flush4_9 _, ?_⟩
    show i ∈ ((View.whole main_v83_0).slice (win4_9.rect ⟨(i 0).val / 5000, hlt⟩)).set
    rw [View.set_slice_whole, Rect.mem_set_unit]
    intro a
    match a with
    | ⟨0, _⟩ =>
      show win4_9.index ⟨(i 0).val / 5000, hlt⟩ 0 * 5000 ≤ (i 0).val ∧ (i 0).val < win4_9.index ⟨(i 0).val / 5000, hlt⟩ 0 * 5000 + 5000
      rw [o9r]; show (i 0).val / 5000 * 5000 ≤ (i 0).val ∧ (i 0).val < (i 0).val / 5000 * 5000 + 5000; omega
    | ⟨1, _⟩ =>
      show win4_9.index ⟨(i 0).val / 5000, hlt⟩ 1 * 128 ≤ (i 1).val ∧ (i 1).val < win4_9.index ⟨(i 0).val / 5000, hlt⟩ 1 * 128 + 128
      rw [o9c]; omega

theorem arr4_10 (c : Dev nD) : (dat4 (F := Ideal) V c).arrAt 10 cfg4.N = fun i =>
    ffnSum4 (o4 V c) i := by
  refine (dat4 (F := Ideal) V c).arrAt_eq_of_cover 10 _ (fun t _ => ?_) fun (i : S800x128.Idx) => ?_
  · unfold o4
    show (cfg4.win 10).cut (grid4.coords t) ((dat4 V c).after 10 t) = _
    rw [after4_10]
    unfold out4_10 norm4 ffn4 bias4
    rw [View.canon_unit_zero hz_ffn]
    simp only [View.ld_unit_zero (S := S5000x128) hz_ffn, View.ld_unit_zero (S := S1x128) hz_ffn, View.ld_unit_zero (S := S128x256) hz_ffn,
      View.ld_unit_zero (S := S1x256) hz_ffn, View.ld_unit_zero (S := S256x128) hz_ffn]
    obtain ⟨-, -, o10r, o10c, -, -⟩ := idx_out4 t
    funext y
    exact pointSum (n := 500000) (m := 800) (T := 100) rfl rfl t.val (fun a n hn => funext fun d => blk4_0 V c t a d n hn)
      (blk4_1 V c t) (blk4_2 V c t) (blk4_3 V c t) (blk4_4 V c t) (blk4_5 V c t) (blk4_6 V c t) (blk4_7 V c t) (blk4_8 V c t) y (((cfg4.win 10).blk t).view.emb y)
      (by show win4_10.index t 0 * 8 + 1 * (y 0).val = 8 * t.val + (y 0).val; rw [o10r]; omega)
      (by show win4_10.index t 1 * 128 + 1 * (y 1).val = (y 1).val; rw [o10c]; omega)
  · have hi0 : (i 0).val < 800 := (i 0).isLt
    have hi1 : (i 1).val < 128 := (i 1).isLt
    have hlt : (i 0).val / 8 < cfg4.N := by show _ < grid4.N; rw [N_4]; omega
    obtain ⟨-, -, o10r, o10c, -, -⟩ := idx_out4 ⟨(i 0).val / 8, hlt⟩
    refine ⟨⟨(i 0).val / 8, hlt⟩, flush4_10 _, ?_⟩
    show i ∈ ((View.whole main_v83_1).slice (win4_10.rect ⟨(i 0).val / 8, hlt⟩)).set
    rw [View.set_slice_whole, Rect.mem_set_unit]
    intro a
    match a with
    | ⟨0, _⟩ =>
      show win4_10.index ⟨(i 0).val / 8, hlt⟩ 0 * 8 ≤ (i 0).val ∧ (i 0).val < win4_10.index ⟨(i 0).val / 8, hlt⟩ 0 * 8 + 8
      rw [o10r]; show (i 0).val / 8 * 8 ≤ (i 0).val ∧ (i 0).val < (i 0).val / 8 * 8 + 8; omega
    | ⟨1, _⟩ =>
      show win4_10.index ⟨(i 0).val / 8, hlt⟩ 1 * 128 ≤ (i 1).val ∧ (i 1).val < win4_10.index ⟨(i 0).val / 8, hlt⟩ 1 * 128 + 128
      rw [o10c]; omega

theorem arr4_11 (c : Dev nD) : (dat4 (F := Ideal) V c).arrAt 11 cfg4.N = fun i =>
    ffnSq4 (o4 V c) i := by
  refine (dat4 (F := Ideal) V c).arrAt_eq_of_cover 11 _ (fun t _ => ?_) fun (i : S800x128.Idx) => ?_
  · unfold o4
    show (cfg4.win 11).cut (grid4.coords t) ((dat4 V c).after 11 t) = _
    rw [after4_11]
    unfold out4_11 norm4 ffn4 bias4
    rw [View.canon_unit_zero hz_ffn]
    simp only [View.ld_unit_zero (S := S5000x128) hz_ffn, View.ld_unit_zero (S := S1x128) hz_ffn, View.ld_unit_zero (S := S128x256) hz_ffn,
      View.ld_unit_zero (S := S1x256) hz_ffn, View.ld_unit_zero (S := S256x128) hz_ffn]
    obtain ⟨-, -, -, -, o11r, o11c⟩ := idx_out4 t
    funext y
    exact pointSq (n := 500000) (m := 800) (T := 100) rfl rfl t.val (fun a n hn => funext fun d => blk4_0 V c t a d n hn)
      (blk4_1 V c t) (blk4_2 V c t) (blk4_3 V c t) (blk4_4 V c t) (blk4_5 V c t) (blk4_6 V c t) (blk4_7 V c t) (blk4_8 V c t) y (((cfg4.win 11).blk t).view.emb y)
      (by show win4_11.index t 0 * 8 + 1 * (y 0).val = 8 * t.val + (y 0).val; rw [o11r]; omega)
      (by show win4_11.index t 1 * 128 + 1 * (y 1).val = (y 1).val; rw [o11c]; omega)
  · have hi0 : (i 0).val < 800 := (i 0).isLt
    have hi1 : (i 1).val < 128 := (i 1).isLt
    have hlt : (i 0).val / 8 < cfg4.N := by show _ < grid4.N; rw [N_4]; omega
    obtain ⟨-, -, -, -, o11r, o11c⟩ := idx_out4 ⟨(i 0).val / 8, hlt⟩
    refine ⟨⟨(i 0).val / 8, hlt⟩, flush4_11 _, ?_⟩
    show i ∈ ((View.whole main_v83_2).slice (win4_11.rect ⟨(i 0).val / 8, hlt⟩)).set
    rw [View.set_slice_whole, Rect.mem_set_unit]
    intro a
    match a with
    | ⟨0, _⟩ =>
      show win4_11.index ⟨(i 0).val / 8, hlt⟩ 0 * 8 ≤ (i 0).val ∧ (i 0).val < win4_11.index ⟨(i 0).val / 8, hlt⟩ 0 * 8 + 8
      rw [o11r]; show (i 0).val / 8 * 8 ≤ (i 0).val ∧ (i 0).val < (i 0).val / 8 * 8 + 8; omega
    | ⟨1, _⟩ =>
      show win4_11.index ⟨(i 0).val / 8, hlt⟩ 1 * 128 ≤ (i 1).val ∧ (i 1).val < win4_11.index ⟨(i 0).val / 8, hlt⟩ 1 * 128 + 128
      rw [o11c]; omega

end Cert.KernelIdeal.HandVal
-- ==== Proof.KernelIdeal.Spec4.lean ====
import proofs.«121852_j34351148433892_2_alg».proof.Proof.KernelIdeal.Val4
import proofs.«121852_j34351148433892_2_alg».proof.Proof.KernelIdeal.Spec3

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Bridge Cert.SpecLaws
open scoped BigOperators

theorem ffnSum4_spec (x : Fin 500000 → Fin 128 → ℝ) : ffnSum4 (E2 x) = E2 (tiles100 x) := ffnSum_spec _ _ x

theorem ffnSq4_spec (x : Fin 500000 → Fin 128 → ℝ) : ffnSq4 (E2 x) = E2 (tiles100 (sq x)) := ffnSq_spec _ _ x

set_option maxHeartbeats 4000000 in
theorem region4_spec (V : (c : Dev nD) → (b : Ref sig .tc) → Buf (Elt Ideal) ((c : Thread nD τ).loc b)) (c : Dev nD)
    (X : Fin 500000 → Fin 128 → ℝ) (mu vr g b : Fin 128 → ℝ) (W1 : Fin 128 → Fin 256 → ℝ)
    (c1 : Fin 256 → ℝ) (W2 : Fin 256 → Fin 128 → ℝ) (c2 : Fin 128 → ℝ) (eps : ℝ) (hpos : ∀ d, 0 < vr d + eps)
    (hlit : Ideal.ofBits .f32 0x3727C5AC#32 = ((eps : ℝ) : EReal))
    (h0 : @Eq (S500000x128.Idx → EReal) (V c (Pipeline.arrRef spec4 0)) (E2 X))
    (h1 : @Eq (S1x128.Idx → EReal) (V c (Pipeline.arrRef spec4 1)) (row1 mu))
    (h2 : @Eq (S1x128.Idx → EReal) (V c (Pipeline.arrRef spec4 2)) (row1 vr))
    (h3 : @Eq (S1x128.Idx → EReal) (V c (Pipeline.arrRef spec4 3)) (row1 g))
    (h4 : @Eq (S1x128.Idx → EReal) (V c (Pipeline.arrRef spec4 4)) (row1 b))
    (h5 : @Eq (S128x256.Idx → EReal) (V c (Pipeline.arrRef spec4 5)) (E2 W1))
    (h6 : @Eq (S1x256.Idx → EReal) (V c (Pipeline.arrRef spec4 6)) (row1 c1))
    (h7 : @Eq (S256x128.Idx → EReal) (V c (Pipeline.arrRef spec4 7)) (E2 W2))
    (h8 : @Eq (S1x128.Idx → EReal) (V c (Pipeline.arrRef spec4 8)) (row1 c2)) :
    let x1 : Fin 500000 → Fin 128 → ℝ := fun i d => (X i d - mu d) * (Real.sqrt (vr d + eps))⁻¹ * g d + b d
    @Eq (S500000x128.Idx → EReal) ((dat4 (F := Ideal) V c).arrAt 9 cfg4.N) (E2 (Cert.Spec.ffn x1 W1 c1 W2 c2))
      ∧ @Eq (S800x128.Idx → EReal) ((dat4 (F := Ideal) V c).arrAt 10 cfg4.N) (E2 (tiles100 (Cert.Spec.ffn x1 W1 c1 W2 c2)))
      ∧ @Eq (S800x128.Idx → EReal) ((dat4 (F := Ideal) V c).arrAt 11 cfg4.N) (E2 (tiles100 (sq (Cert.Spec.ffn x1 W1 c1 W2 c2)))) := by
  intro x1
  have hO : o4 V c = E2 (Cert.Spec.ffn x1 W1 c1 W2 c2) := by
    unfold o4; rw [h0, h1, h2, h3, h4, h5, h6, h7, h8]; exact ffnOut_spec X mu vr g b W1 c1 W2 c2 eps hpos hlit
  exact ⟨(arr4_9 V c).trans hO,
    (arr4_10 V c).trans ((congrArg ffnSum4 hO).trans (ffnSum4_spec _)),
    (arr4_11 V c).trans ((congrArg ffnSq4 hO).trans (ffnSq4_spec _))⟩

end Cert.KernelIdeal.HandVal
-- ==== Proof.KernelIdeal.StageFinal.lean ====
import proofs.«121852_j34351148433892_2_alg».proof.Proof.KernelIdeal.StageStats

noncomputable section

namespace Cert.KernelIdeal.HandVal

open Cert.KernelIdeal Cert.KernelIdeal.Gen Cert.Bridge Cert.Spec Cert.SpecLaws
open Idealize.ShloMosaic Idealize.ShloMosaic.ValueIdx
open scoped BigOperators
open Stg

theorem final_v126 (W : Valuation τ sig (Elt Ideal)) {X : Fin 50000 → Fin 128 → ℝ} {g2v b2v : Fin 128 → ℝ} {eps : ℝ}
    (heps : 0 < eps) (hlit : Ideal.ofBits .f32 0x3727C5AC#32 = ((eps : ℝ) : EReal))
    (h0 : W (Proc.devRef .tc main_v82_0) = E2 X) (h1 : W (Proc.devRef .tc main_v82_1) = E2 (tiles10 X))
    (h2 : W (Proc.devRef .tc main_v82_2) = E2 (tiles10 (sq X)))
    (h25 : W (Proc.devRef .tc main_arg25) = E1 g2v) (h26 : W (Proc.devRef .tc main_arg26) = E1 b2v) :
    StableHlo.after main_part2_ops0 (StableHlo.after main_part1_ops1 W) (Proc.devRef .tc main_v126)
      = E2 (bn X g2v b2v eps) := by
  dsimp only [main_part1_ops1, main_part2_ops0]
  after_results_simp
  exact bnH (R := 80) (T := 10) (B := 5000) rfl rfl (by norm_num) lit_50000 cast_50000 _ _ _ _ (by decide) _ heps hlit
    h0 h1 h2 h25 h26

theorem final_v141 (W : Valuation τ sig (Elt Ideal)) {Y : Fin 500000 → Fin 128 → ℝ} {g2e b2e : Fin 128 → ℝ} {eps : ℝ}
    (heps : 0 < eps) (hlit : Ideal.ofBits .f32 0x3727C5AC#32 = ((eps : ℝ) : EReal))
    (h3 : W (Proc.devRef .tc main_v83_0) = E2 Y) (h4 : W (Proc.devRef .tc main_v83_1) = E2 (tiles100 Y))
    (h5 : W (Proc.devRef .tc main_v83_2) = E2 (tiles100 (sq Y)))
    (h27 : W (Proc.devRef .tc main_arg27) = E1 g2e) (h28 : W (Proc.devRef .tc main_arg28) = E1 b2e) :
    StableHlo.after main_part2_ops0 (StableHlo.after main_part1_ops1 W) (Proc.devRef .tc main_v141)
      = E2 (bn Y g2e b2e eps) := by
  dsimp only [main_part1_ops1, main_part2_ops0]
  after_results_simp
  exact bnH (R := 800) (T := 100) (B := 5000) rfl rfl (by norm_num) lit_500000 cast_500000 _ _ _ _ (by decide) _ heps hlit
    h3 h4 h5 h27 h28

theorem finalBN (W : Valuation τ sig (Elt Ideal)) (X : Fin 50000 → Fin 128 → ℝ) (Y : Fin 500000 → Fin 128 → ℝ)
    (g2v b2v g2e b2e : Fin 128 → ℝ) (eps : ℝ) (heps : 0 < eps)
    (hlit : Ideal.ofBits .f32 0x3727C5AC#32 = ((eps : ℝ) : EReal))
    (h0 : W (Proc.devRef .tc main_v82_0) = E2 X) (h1 : W (Proc.devRef .tc main_v82_1) = E2 (tiles10 X))
    (h2 : W (Proc.devRef .tc main_v82_2) = E2 (tiles10 (sq X)))
    (h3 : W (Proc.devRef .tc main_v83_0) = E2 Y) (h4 : W (Proc.devRef .tc main_v83_1) = E2 (tiles100 Y))
    (h5 : W (Proc.devRef .tc main_v83_2) = E2 (tiles100 (sq Y)))
    (h25 : W (Proc.devRef .tc main_arg25) = E1 g2v) (h26 : W (Proc.devRef .tc main_arg26) = E1 b2v)
    (h27 : W (Proc.devRef .tc main_arg27) = E1 g2e) (h28 : W (Proc.devRef .tc main_arg28) = E1 b2e) :
    let W' := StableHlo.after main_part2_ops0 (StableHlo.after main_part1_ops1 W)
    W' (Proc.devRef .tc main_v126) = E2 (bn X g2v b2v eps) ∧ W' (Proc.devRef .tc main_v141) = E2 (bn Y g2e b2e eps) :=
  ⟨final_v126 W heps hlit h0 h1 h2 h25 h26, final_v141 W heps hlit h3 h4 h5 h27 h28⟩

end Cert.KernelIdeal.HandVal
-- ==== Proof.KernelIdeal.Value.lean ====
import proofs.«121852_j34351148433892_2_alg».proof.Proof.KernelIdeal.Fold
import proofs.«121852_j34351148433892_2_alg».proof.Proof.Bridge.Agree
import proofs.«121852_j34351148433892_2_alg».proof.Proof.Bridge.Layout
import proofs.«121852_j34351148433892_2_alg».proof.Proof.SpecLawsMore
import proofs.«121852_j34351148433892_2_alg».proof.Proof.KernelIdeal.StageHost0
import proofs.«121852_j34351148433892_2_alg».proof.Proof.KernelIdeal.Spec02
import proofs.«121852_j34351148433892_2_alg».proof.Proof.KernelIdeal.StageGather
import proofs.«121852_j34351148433892_2_alg».proof.Proof.KernelIdeal.Spec1
import proofs.«121852_j34351148433892_2_alg».proof.Proof.KernelIdeal.StageStats
import proofs.«121852_j34351148433892_2_alg».proof.Proof.KernelIdeal.Spec3
import proofs.«121852_j34351148433892_2_alg».proof.Proof.KernelIdeal.Spec4
import proofs.«121852_j34351148433892_2_alg».proof.Proof.KernelIdeal.StageFinal

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Cert.Bridge Cert.Spec Cert.SpecLaws

variable (m : (ℓ : Loc nD τ sig) → Buf (Elt Ideal) ℓ) (ρ : Dev nD → PrngReg) (c : Dev nD)

-- `Keeps V V' W`: every buffer outside the list `W` holds in `V'` what it held in `V`.
private def Keeps (V V' : Valuation τ sig (Elt Ideal)) (W : List (Ref sig .tc)) : Prop :=
  ∀ b, b ∉ W → V' (Proc.devRef .tc b) = V (Proc.devRef .tc b)

-- Two stretches in a row keep what neither writes.
private theorem Keeps.comp {V V' V'' : Valuation τ sig (Elt Ideal)} {W W' : List (Ref sig .tc)}
    (h : Keeps V V' W) (h' : Keeps V' V'' W') : Keeps V V'' (W ++ W') :=
  fun b hb => (h' b fun x => hb (List.mem_append_right _ x)).trans (h b fun x => hb (List.mem_append_left _ x))

private theorem k0 : Keeps (Wl m ρ c) (Win0 m ρ c) main_part0_ops0_W :=
  fun _ h => StableHlo.after_of_writes_sub _ _ main_part0_ops0_writes h
private theorem k1 : Keeps (Win0 m ρ c) (Wout0 m ρ c) [main_v15] := Wout0_keep m ρ c
private theorem k2 : Keeps (Wout0 m ρ c) (Win1 m ρ c) main_part0_ops1_W :=
  fun _ h => StableHlo.after_of_writes_sub _ _ main_part0_ops1_writes h
private theorem k3 : Keeps (Win1 m ρ c) (Wout1 m ρ c) [main_v33_0, main_v33_1, main_v33_2, main_v33_3, main_v33_4] :=
  Wout1_keep m ρ c
private theorem k4 : Keeps (Wout1 m ρ c) (Win2 m ρ c) main_part0_ops2_W :=
  fun _ h => StableHlo.after_of_writes_sub _ _ main_part0_ops2_writes h
private theorem k5 : Keeps (Win2 m ρ c) (Wout2 m ρ c) [main_v45_0, main_v45_1, main_v45_2] := Wout2_keep m ρ c
private theorem k6 : Keeps (Wout2 m ρ c) (Wm m ρ c) main_part0_ops3_W :=
  fun _ h => StableHlo.after_of_writes_sub _ _ main_part0_ops3_writes h
private theorem k7 : Keeps (Wm m ρ c) (Win3 m ρ c) main_part1_ops0_W :=
  fun _ h => StableHlo.after_of_writes_sub _ _ main_part1_ops0_writes h
private theorem k8 : Keeps (Win3 m ρ c) (Wout3 m ρ c) [main_v82_0, main_v82_1, main_v82_2] := Wout3_keep m ρ c
private theorem k9 : Keeps (Wout3 m ρ c) (Wout4 m ρ c) [main_v83_0, main_v83_1, main_v83_2] := Wout4_keep m ρ c

private abbrev A := argsOf (bufsK m c)

private theorem hostV (hb : (bufsK m c).Finite) :
    Win0 m ρ c (Proc.devRef .tc main_v1) = E2 (wqkv (A m c))
    ∧ Win0 m ρ c (Proc.devRef .tc main_v2) = E2 (A m c).We
    ∧ Win0 m ρ c (Proc.devRef .tc main_v3) = E2 (A m c).WOv
    ∧ Win0 m ρ c (Proc.devRef .tc main_v4) = E2 (A m c).WOe
    ∧ Win0 m ρ c (Proc.devRef .tc main_v5) = E2 (A m c).W1v
    ∧ Win0 m ρ c (Proc.devRef .tc main_v6) = E2 (A m c).W2v
    ∧ Win0 m ρ c (Proc.devRef .tc main_v7) = E2 (A m c).W1e
    ∧ Win0 m ρ c (Proc.devRef .tc main_v8) = E2 (A m c).W2e
    ∧ Win0 m ρ c (Proc.devRef .tc main_v9) = row1 (A m c).bOv
    ∧ Win0 m ρ c (Proc.devRef .tc main_v10) = row1 (A m c).bOe
    ∧ Win0 m ρ c (Proc.devRef .tc main_v11) = row1 (A m c).c1v
    ∧ Win0 m ρ c (Proc.devRef .tc main_v12) = row1 (A m c).c2v
    ∧ Win0 m ρ c (Proc.devRef .tc main_v13) = row1 (A m c).c1e
    ∧ Win0 m ρ c (Proc.devRef .tc main_v14) = row1 (A m c).c2e
    ∧ Win0 m ρ c (Proc.devRef .tc main_cst) = E2 laneHead
    ∧ Win0 m ρ c (Proc.devRef .tc main_cst_0) = E2 headLane :=
  host0 (Wl m ρ c) (A m c) (a5_eq hb) (a6_eq hb) (a7_eq hb) (a8_eq hb) (a9_eq hb) (a10_eq hb) (a11_eq hb) (a12_eq hb)
    (a17_eq hb) (a18_eq hb) (a19_eq hb) (a20_eq hb) (a21_eq hb) (a22_eq hb) (a23_eq hb) (a24_eq hb)

private theorem reg1V (hb : (bufsK m c).Finite) :
    Wout1 m ρ c (Proc.devRef .tc main_v33_0) = E2 (preE1 (A m c))
    ∧ Wout1 m ρ c (Proc.devRef .tc main_v33_1) = E2 (Cert.Spec.s (A m c))
    ∧ Wout1 m ρ c (Proc.devRef .tc main_v33_2) = E2 (Cert.Spec.msg (A m c))
    ∧ Wout1 m ρ c (Proc.devRef .tc main_v33_3) = E2 (tiles250 (preE1 (A m c)))
    ∧ Wout1 m ρ c (Proc.devRef .tc main_v33_4) = E2 (tiles250 (sq (preE1 (A m c)))) := by
  have c02 := (k0 m ρ c).comp (k1 m ρ c)
  have c13 := (k1 m ρ c).comp (k2 m ρ c)
  obtain ⟨v1, v2, _, v4, _, _, _, _, _, v10, _, _, _, _, cst, cst0⟩ := hostV m ρ c hb
  have r0 := region0_spec (Vin0 m ρ) c (A m c) (((k0 m ρ c) main_arg0 (by decide)).trans (a0_eq hb)) v1
  obtain ⟨q, kv, env⟩ := gatherStretch (Wout0 m ρ c) (A m c) (bufsK m c).a3 (bufsK m c).a4 ((Wout0_arr m ρ c 2).trans r0)
    ((c02 main_arg2 (by decide)).trans (a2_eq hb)) (c02 main_arg3 (by decide)) (c02 main_arg4 (by decide))
    (fun _ => rfl) (fun _ => rfl)
  obtain ⟨pe, hs, hm, tE, tE2⟩ := region1_spec (Vin1 m ρ) c (A m c) (((c02.comp (k2 m ρ c)) main_arg1 (by decide)).trans (a1_eq hb)) kv q env
    ((c13 main_v2 (by decide)).trans v2) ((c13 main_v4 (by decide)).trans v4) ((c13 main_v10 (by decide)).trans v10)
    ((c13 main_cst (by decide)).trans cst) ((c13 main_cst_0 (by decide)).trans cst0)
  exact ⟨(Wout1_arr m ρ c 9).trans pe, (Wout1_arr m ρ c 10).trans hs, (Wout1_arr m ρ c 11).trans hm,
    (Wout1_arr m ρ c 12).trans tE, (Wout1_arr m ρ c 13).trans tE2⟩

private theorem reg2V (hb : (bufsK m c).Finite) :
    Wout2 m ρ c (Proc.devRef .tc main_v45_0) = E2 (preV1 (A m c))
    ∧ Wout2 m ρ c (Proc.devRef .tc main_v45_1) = E2 (tiles10 (preV1 (A m c)))
    ∧ Wout2 m ρ c (Proc.devRef .tc main_v45_2) = E2 (tiles10 (sq (preV1 (A m c)))) := by
  have c02 := (k0 m ρ c).comp (k1 m ρ c)
  have c15 := ((k1 m ρ c).comp (k2 m ρ c)).comp ((k3 m ρ c).comp (k4 m ρ c))
  obtain ⟨_, _, v3, _, _, _, _, _, v9, _⟩ := hostV m ρ c hb
  obtain ⟨_, hs, hm, _⟩ := reg1V m ρ c hb
  have va := scatterStretch (Wout1 m ρ c) (A m c) (bufsK m c).a4 hs hm ((c02.comp ((k2 m ρ c).comp (k3 m ρ c))) main_arg4 (by decide)) (fun _ => rfl) lit_eps6
  obtain ⟨pv, tV, tV2⟩ := region2_spec (Vin2 m ρ) c (A m c) ((((k0 m ρ c).comp c15) main_arg0 (by decide)).trans (a0_eq hb)) va
    ((c15 main_v3 (by decide)).trans v3) ((c15 main_v9 (by decide)).trans v9)
  exact ⟨(Wout2_arr m ρ c 4).trans pv, (Wout2_arr m ρ c 5).trans tV, (Wout2_arr m ρ c 6).trans tV2⟩

private theorem statV (hb : (bufsK m c).Finite) :
    Win3 m ρ c (Proc.devRef .tc main_v74) = row1 (mean (preV1 (A m c)))
    ∧ Win3 m ρ c (Proc.devRef .tc main_v75) = row1 (var (preV1 (A m c)))
    ∧ Win3 m ρ c (Proc.devRef .tc main_v76) = row1 (mean (preE1 (A m c)))
    ∧ Win3 m ρ c (Proc.devRef .tc main_v77) = row1 (var (preE1 (A m c)))
    ∧ Win3 m ρ c (Proc.devRef .tc main_v78) = row1 (A m c).g1v
    ∧ Win3 m ρ c (Proc.devRef .tc main_v79) = row1 (A m c).b1v
    ∧ Win3 m ρ c (Proc.devRef .tc main_v80) = row1 (A m c).g1e
    ∧ Win3 m ρ c (Proc.devRef .tc main_v81) = row1 (A m c).b1e := by
  have c46 := (k4 m ρ c).comp (k5 m ρ c)
  have c06 := ((k0 m ρ c).comp (k1 m ρ c)).comp (((k2 m ρ c).comp (k3 m ρ c)).comp c46)
  obtain ⟨_, _, _, tE, tE2⟩ := reg1V m ρ c hb
  obtain ⟨_, tV, tV2⟩ := reg2V m ρ c hb
  exact stats (Wout2 m ρ c) (preV1 (A m c)) (preE1 (A m c)) (A m c).g1v (A m c).b1v (A m c).g1e (A m c).b1e tV tV2
    ((c46 main_v33_3 (by decide)).trans tE) ((c46 main_v33_4 (by decide)).trans tE2)
    ((c06 main_arg13 (by decide)).trans (a13_eq hb)) ((c06 main_arg14 (by decide)).trans (a14_eq hb))
    ((c06 main_arg15 (by decide)).trans (a15_eq hb)) ((c06 main_arg16 (by decide)).trans (a16_eq hb))

private theorem reg3V (hb : (bufsK m c).Finite) :
    Wout3 m ρ c (Proc.devRef .tc main_v82_0) = E2 (fV (A m c))
    ∧ Wout3 m ρ c (Proc.devRef .tc main_v82_1) = E2 (tiles10 (fV (A m c)))
    ∧ Wout3 m ρ c (Proc.devRef .tc main_v82_2) = E2 (tiles10 (sq (fV (A m c)))) := by
  have c68 := (k6 m ρ c).comp (k7 m ρ c)
  have c18 := (((k1 m ρ c).comp (k2 m ρ c)).comp ((k3 m ρ c).comp (k4 m ρ c))).comp ((k5 m ρ c).comp c68)
  obtain ⟨_, _, _, _, v5, v6, _, _, _, _, v11, v12, _⟩ := hostV m ρ c hb
  obtain ⟨pv, _⟩ := reg2V m ρ c hb
  obtain ⟨mv, vv, _, _, g1v, b1v, _⟩ := statV m ρ c hb
  obtain ⟨fv, fv1, fv2⟩ := region3_spec (Vin3 m ρ) c (preV1 (A m c)) (mean (preV1 (A m c))) (var (preV1 (A m c)))
    (A m c).g1v (A m c).b1v (A m c).W1v (A m c).c1v (A m c).W2v (A m c).c2v (A m c).eps5
    (fun d => var_add_pos _ d (A m c).heps5) lit_eps5 ((c68 main_v45_0 (by decide)).trans pv) mv vv g1v b1v
    ((c18 main_v5 (by decide)).trans v5) ((c18 main_v11 (by decide)).trans v11)
    ((c18 main_v6 (by decide)).trans v6) ((c18 main_v12 (by decide)).trans v12)
  exact ⟨(Wout3_arr m ρ c 9).trans fv, (Wout3_arr m ρ c 10).trans fv1, (Wout3_arr m ρ c 11).trans fv2⟩

private theorem reg4V (hb : (bufsK m c).Finite) :
    Wout4 m ρ c (Proc.devRef .tc main_v83_0) = E2 (fE (A m c))
    ∧ Wout4 m ρ c (Proc.devRef .tc main_v83_1) = E2 (tiles100 (fE (A m c)))
    ∧ Wout4 m ρ c (Proc.devRef .tc main_v83_2) = E2 (tiles100 (sq (fE (A m c)))) := by
  have c49 := ((k4 m ρ c).comp (k5 m ρ c)).comp (((k6 m ρ c).comp (k7 m ρ c)).comp (k8 m ρ c))
  have c18 := (((k1 m ρ c).comp (k2 m ρ c)).comp ((k3 m ρ c).comp (k4 m ρ c))).comp ((k5 m ρ c).comp ((k6 m ρ c).comp (k7 m ρ c)))
  obtain ⟨_, _, _, _, _, _, v7, v8, _, _, _, _, v13, v14, _⟩ := hostV m ρ c hb
  obtain ⟨pe, _⟩ := reg1V m ρ c hb
  obtain ⟨_, _, me, ve, _, _, g1e, b1e⟩ := statV m ρ c hb
  obtain ⟨fe, fe1, fe2⟩ := region4_spec (Vin4 m ρ) c (preE1 (A m c)) (mean (preE1 (A m c))) (var (preE1 (A m c)))
    (A m c).g1e (A m c).b1e (A m c).W1e (A m c).c1e (A m c).W2e (A m c).c2e (A m c).eps5
    (fun d => var_add_pos _ d (A m c).heps5) lit_eps5 ((c49 main_v33_0 (by decide)).trans pe)
    (((k8 m ρ c) main_v76 (by decide)).trans me) (((k8 m ρ c) main_v77 (by decide)).trans ve)
    (((k8 m ρ c) main_v80 (by decide)).trans g1e) (((k8 m ρ c) main_v81 (by decide)).trans b1e)
    (((c18.comp (k8 m ρ c)) main_v7 (by decide)).trans v7) (((c18.comp (k8 m ρ c)) main_v13 (by decide)).trans v13)
    (((c18.comp (k8 m ρ c)) main_v8 (by decide)).trans v8) (((c18.comp (k8 m ρ c)) main_v14 (by decide)).trans v14)
  exact ⟨(Wout4_arr m ρ c 9).trans fe, (Wout4_arr m ρ c 10).trans fe1, (Wout4_arr m ρ c 11).trans fe2⟩

-- Each step's written buffers are the specification's tables of the same name; the unwritten ones are carried along by `Keeps`.
theorem kval (hb : (bufsK m c).Finite) :
    Wend (F := Ideal) m ρ c (Proc.devRef .tc main_v126) = E2 (Cert.Spec.outV (argsOf (bufsK m c)))
    ∧ Wend (F := Ideal) m ρ c (Proc.devRef .tc main_v141) = E2 (Cert.Spec.outE (argsOf (bufsK m c))) := by
  have c0X := (((k0 m ρ c).comp (k1 m ρ c)).comp (((k2 m ρ c).comp (k3 m ρ c)).comp ((k4 m ρ c).comp (k5 m ρ c)))).comp (((k6 m ρ c).comp (k7 m ρ c)).comp ((k8 m ρ c).comp (k9 m ρ c)))
  obtain ⟨fv, fv1, fv2⟩ := reg3V m ρ c hb
  obtain ⟨fe, fe1, fe2⟩ := reg4V m ρ c hb
  exact finalBN (Wout4 m ρ c) (fV (A m c)) (fE (A m c)) (A m c).g2v (A m c).b2v (A m c).g2e (A m c).b2e (A m c).eps5
    (A m c).heps5 lit_eps5 (((k9 m ρ c) main_v82_0 (by decide)).trans fv) (((k9 m ρ c) main_v82_1 (by decide)).trans fv1)
    (((k9 m ρ c) main_v82_2 (by decide)).trans fv2) fe fe1 fe2
    ((c0X main_arg25 (by decide)).trans (a25_eq hb)) ((c0X main_arg26 (by decide)).trans (a26_eq hb))
    ((c0X main_arg27 (by decide)).trans (a27_eq hb)) ((c0X main_arg28 (by decide)).trans (a28_eq hb))

end Cert.KernelIdeal.HandVal

end
-- ==== Proof.Reference.Holds.lean ====
import proofs.«121852_j34351148433892_2_alg».proof.Proof.Gen.ReferenceIdeal
import proofs.«121852_j34351148433892_2_alg».proof.Proof.Bridge.Args
import Idealize.ShloMosaic.Lib.StableHlo.Run
import Idealize.ShloMosaic.PureOps.Ideal

noncomputable section

namespace Cert.ReferenceIdeal.RunH

open Cert.ReferenceIdeal Cert.ReferenceIdeal.Gen Idealize.ShloMosaic Idealize.ShloMosaic.TcCoe Idealize.SL.Sem Idealize.ShloMosaic.StableHlo

/-- A buffer paired with the value it is to hold, as a function of the argument arrays. -/
abbrev Fact : Type := Σ r : Ref sig .tc, (Cert.Bridge.Bufs → r.ty.Contents (Elt Ideal))

def Holds (S : List Fact) (bufs : Cert.Bridge.Bufs) (V : Valuation τ sig (Elt Ideal)) : Prop :=
  ∀ p ∈ S, V (Proc.devRef .tc p.1) = p.2 bufs

theorem Holds.nil (bufs : Cert.Bridge.Bufs) (V : Valuation τ sig (Elt Ideal)) : Holds [] bufs V :=
  fun _ hp => nomatch hp

theorem Holds.cons {S : List Fact} {bufs : Cert.Bridge.Bufs} {V : Valuation τ sig (Elt Ideal)} {p : Fact}
    (hp : V (Proc.devRef .tc p.1) = p.2 bufs) (h : Holds S bufs V) : Holds (p :: S) bufs V := by
  intro q hq
  rcases List.mem_cons.mp hq with rfl | hq
  · exact hp
  · exact h q hq

theorem Holds.get {S : List Fact} {bufs : Cert.Bridge.Bufs} {V : Valuation τ sig (Elt Ideal)} (h : Holds S bufs V)
    {r : Ref sig .tc} {v : Cert.Bridge.Bufs → r.ty.Contents (Elt Ideal)} (hm : (⟨r, v⟩ : Fact) ∈ S) :
    V (Proc.devRef .tc r) = v bufs :=
  h ⟨r, v⟩ hm

variable {S : List Fact} {bufs : Cert.Bridge.Bufs} {V : Valuation τ sig (Elt Ideal)}

theorem Holds.nullary {y : Ref sig .tc} {v : y.ty.Contents (Elt Ideal)} {hy}
    {vy : Cert.Bridge.Bufs → y.ty.Contents (Elt Ideal)}
    (hfresh : ∀ p ∈ S, p.1 ≠ y) (hval : vy bufs = v) (h : Holds S bufs V) :
    Holds (⟨y, vy⟩ :: S) bufs ((StableHlo.nullary (τ := τ) y v hy).result V) := by
  intro p hp
  rcases List.mem_cons.mp hp with rfl | hp
  · exact (nullary_result y v hy V).trans hval.symm
  · exact (nullary_result_ne _ v hy V (hfresh p hp)).trans (h p hp)

/-- An operation whose operands are listed adds one fact, its result's; it writes that buffer only, so the earlier facts stay. -/
theorem Holds.unary {x y : Ref sig .tc} {f : x.ty.Contents (Elt Ideal) → y.ty.Contents (Elt Ideal)} {hx hy}
    {vx : Cert.Bridge.Bufs → x.ty.Contents (Elt Ideal)} {vy : Cert.Bridge.Bufs → y.ty.Contents (Elt Ideal)}
    (hmx : (⟨x, vx⟩ : Fact) ∈ S) (hfresh : ∀ p ∈ S, p.1 ≠ y) (hval : vy bufs = f (vx bufs)) (h : Holds S bufs V) :
    Holds (⟨y, vy⟩ :: S) bufs ((StableHlo.unary (τ := τ) x y f hx hy).result V) := by
  intro p hp
  rcases List.mem_cons.mp hp with rfl | hp
  · exact (unary_result x y f hx hy V).trans ((congrArg f (h.get hmx)).trans hval.symm)
  · exact (unary_result_ne _ _ f hx hy V (hfresh p hp)).trans (h p hp)

theorem Holds.binary {a b y : Ref sig .tc}
    {f : a.ty.Contents (Elt Ideal) → b.ty.Contents (Elt Ideal) → y.ty.Contents (Elt Ideal)} {ha hb hy}
    {va : Cert.Bridge.Bufs → a.ty.Contents (Elt Ideal)} {vb : Cert.Bridge.Bufs → b.ty.Contents (Elt Ideal)}
    {vy : Cert.Bridge.Bufs → y.ty.Contents (Elt Ideal)}
    (hma : (⟨a, va⟩ : Fact) ∈ S) (hmb : (⟨b, vb⟩ : Fact) ∈ S) (hfresh : ∀ p ∈ S, p.1 ≠ y)
    (hval : vy bufs = f (va bufs) (vb bufs)) (h : Holds S bufs V) :
    Holds (⟨y, vy⟩ :: S) bufs ((StableHlo.binary (τ := τ) a b y f ha hb hy).result V) := by
  intro p hp
  rcases List.mem_cons.mp hp with rfl | hp
  · exact (binary_result a b y f ha hb hy V).trans ((congrArg₂ f (h.get hma) (h.get hmb)).trans hval.symm)
  · exact (binary_result_ne _ _ _ f ha hb hy V (hfresh p hp)).trans (h p hp)

theorem Holds.ternary {c a b y : Ref sig .tc}
    {f : c.ty.Contents (Elt Ideal) → a.ty.Contents (Elt Ideal) → b.ty.Contents (Elt Ideal) → y.ty.Contents (Elt Ideal)}
    {hc ha hb hy}
    {vc : Cert.Bridge.Bufs → c.ty.Contents (Elt Ideal)} {va : Cert.Bridge.Bufs → a.ty.Contents (Elt Ideal)}
    {vb : Cert.Bridge.Bufs → b.ty.Contents (Elt Ideal)} {vy : Cert.Bridge.Bufs → y.ty.Contents (Elt Ideal)}
    (hmc : (⟨c, vc⟩ : Fact) ∈ S) (hma : (⟨a, va⟩ : Fact) ∈ S) (hmb : (⟨b, vb⟩ : Fact) ∈ S)
    (hfresh : ∀ p ∈ S, p.1 ≠ y) (hval : vy bufs = f (vc bufs) (va bufs) (vb bufs)) (h : Holds S bufs V) :
    Holds (⟨y, vy⟩ :: S) bufs ((StableHlo.ternary (τ := τ) c a b y f hc ha hb hy).result V) := by
  intro p hp
  rcases List.mem_cons.mp hp with rfl | hp
  · refine (ternary_result c a b y f hc ha hb hy V).trans (Eq.trans ?_ hval.symm)
    rw [h.get hmc, h.get hma, h.get hmb]
  · exact (ternary_result_ne _ _ _ _ f hc ha hb hy V (hfresh p hp)).trans (h p hp)

theorem Holds.reshape {x y : Ref sig .tc} {he hn hx hy}
    {vx : Cert.Bridge.Bufs → x.ty.Contents (Elt Ideal)} {vy : Cert.Bridge.Bufs → y.ty.Contents (Elt Ideal)}
    (hmx : (⟨x, vx⟩ : Fact) ∈ S) (hfresh : ∀ p ∈ S, p.1 ≠ y)
    (hval : ∀ W : Valuation τ sig (Elt Ideal), W (Proc.devRef .tc x) = vx bufs →
      (StableHlo.reshape (τ := τ) (Val := Elt Ideal) x y he hn hx hy).result W (Proc.devRef .tc y) = vy bufs)
    (h : Holds S bufs V) :
    Holds (⟨y, vy⟩ :: S) bufs ((StableHlo.reshape (τ := τ) (Val := Elt Ideal) x y he hn hx hy).result V) := by
  intro p hp
  rcases List.mem_cons.mp hp with rfl | hp
  · exact hval V (h.get hmx)
  · exact (reshape_result_ne _ _ he hn hx hy V (hfresh p hp)).trans (h p hp)

/-- Folding over two lines in turn is folding over their concatenation. -/
theorem after_app_holds (l₁ l₂ : List (HloOp τ sig (Elt Ideal))) (W : Valuation τ sig (Elt Ideal)) :
    after (l₁ ++ l₂) W = after l₂ (after l₁ W) := by
  induction l₁ generalizing W with
  | nil => rfl
  | cons op l ih => exact ih _

syntax "fact_mem" : tactic
macro_rules
  | `(tactic| fact_mem) => `(tactic| first | exact List.Mem.head _ | (refine List.Mem.tail _ ?_; fact_mem))

macro "reshape_val" : tactic =>
  `(tactic| (intro W hW; exact (reshape_result _ _ _ _ _ _ W).trans (by rw [hW]; rfl)))

macro "holds_step" : tactic =>
  `(tactic| first
    | ((with_reducible apply Holds.nullary); (decide +kernel); rfl)
    | ((with_reducible apply Holds.unary); fact_mem; (decide +kernel); rfl)
    | ((with_reducible apply Holds.binary); fact_mem; fact_mem; (decide +kernel); rfl)
    | ((with_reducible apply Holds.ternary); fact_mem; fact_mem; fact_mem; (decide +kernel); rfl)
    | ((with_reducible apply Holds.reshape); fact_mem; (decide +kernel); reshape_val))

syntax "holds_all" : tactic
macro_rules
  | `(tactic| holds_all) => `(tactic| first | assumption | (holds_step; holds_all))

end Cert.ReferenceIdeal.RunH

end
-- ==== Proof.Reference.NamedTable.lean ====
import proofs.«121852_j34351148433892_2_alg».proof.Proof.Gen.ReferenceIdeal
import proofs.«121852_j34351148433892_2_alg».proof.Proof.Bridge.Args
import Idealize.ShloMosaic.PureOps.Ideal

noncomputable section

namespace Cert.ReferenceIdeal.RunH

open Cert.ReferenceIdeal Cert.ReferenceIdeal.Gen Idealize.ShloMosaic Idealize.ShloMosaic.TcCoe Idealize.SL.Sem Idealize.ShloMosaic.StableHlo

variable (bufs : Cert.Bridge.Bufs)
def n_v0 : Vec Ideal S50000x128 .f32 := Host.dotGeneral (F := Ideal) (φ₁ := .f32) (φ₂ := .f32) dot_S50000x128_S128x128_S50000x128_1_0_0_1_n_n none bufs.a0 bufs.a5
def n_v1 : Vec Ideal S50000x8x16 .f32 := shapeCast S50000x8x16 (n_v0 bufs) shapeCasts_S50000x128_S50000x8x16
def n_v2 : Vec Ideal S50000x128 .f32 := Host.dotGeneral (F := Ideal) (φ₁ := .f32) (φ₂ := .f32) dot_S50000x128_S128x128_S50000x128_1_0_0_1_n_n none bufs.a0 bufs.a6
def n_v3 : Vec Ideal S50000x8x16 .f32 := shapeCast S50000x8x16 (n_v2 bufs) shapeCasts_S50000x128_S50000x8x16
def n_v4 : Vec Ideal S50000x128 .f32 := Host.dotGeneral (F := Ideal) (φ₁ := .f32) (φ₂ := .f32) dot_S50000x128_S128x128_S50000x128_1_0_0_1_n_n none bufs.a0 bufs.a7
def n_v5 : Vec Ideal S50000x8x16 .f32 := shapeCast S50000x8x16 (n_v4 bufs) shapeCasts_S50000x128_S50000x8x16
def n_v6 : Vec Ideal S500000x128 .f32 := Host.dotGeneral (F := Ideal) (φ₁ := .f32) (φ₂ := .f32) dot_S500000x128_S128x128_S500000x128_1_0_0_1_n_n none bufs.a1 bufs.a8
def n_v7 : Vec Ideal S500000x8x16 .f32 := shapeCast S500000x8x16 (n_v6 bufs) shapeCasts_S500000x128_S500000x8x16
def n_c (_ : Cert.Bridge.Bufs) : Vec Ideal S_ .i32 := constantI S_ 32 0#32
def n_v8 : Vec Ideal S500000 .i32 := broadcastInDim S500000 ![] bcast_S_S500000 (n_c bufs)
def n_v9 : Vec Ideal S500000 .i1 := cmpi .slt bufs.a3 (n_v8 bufs)
def n_c_0 (_ : Cert.Bridge.Bufs) : Vec Ideal S_ .i32 := constantI S_ 32 50000#32
def n_v10 : Vec Ideal S500000 .i32 := broadcastInDim S500000 ![] bcast_S_S500000 (n_c_0 bufs)
def n_v11 : Vec Ideal S500000 .i32 := addi bufs.a3 (n_v10 bufs)
def n_v12 : Vec Ideal S500000 .i32 := select (n_v9 bufs) (n_v11 bufs) bufs.a3
def n_v13 : Vec Ideal S500000x1 .i32 := broadcastInDim S500000x1 ![0] bcast_S500000_S500000x1_0 (n_v12 bufs)
def n_v14 : Vec Ideal S500000x8x16 .f32 := Host.gather gather_S50000x8x16_S500000x1_S500000x8x16_12_0_n_n_0_1_1816 (n_v3 bufs) (n_v13 bufs)
def n_c_1 (_ : Cert.Bridge.Bufs) : Vec Ideal S_ .i32 := constantI S_ 32 0#32
def n_v15 : Vec Ideal S500000 .i32 := broadcastInDim S500000 ![] bcast_S_S500000 (n_c_1 bufs)
def n_v16 : Vec Ideal S500000 .i1 := cmpi .slt bufs.a4 (n_v15 bufs)
def n_c_2 (_ : Cert.Bridge.Bufs) : Vec Ideal S_ .i32 := constantI S_ 32 50000#32
def n_v17 : Vec Ideal S500000 .i32 := broadcastInDim S500000 ![] bcast_S_S500000 (n_c_2 bufs)
def n_v18 : Vec Ideal S500000 .i32 := addi bufs.a4 (n_v17 bufs)
def n_v19 : Vec Ideal S500000 .i32 := select (n_v16 bufs) (n_v18 bufs) bufs.a4
def n_v20 : Vec Ideal S500000x1 .i32 := broadcastInDim S500000x1 ![0] bcast_S500000_S500000x1_0 (n_v19 bufs)
def n_v21 : Vec Ideal S500000x8x16 .f32 := Host.gather gather_S50000x8x16_S500000x1_S500000x8x16_12_0_n_n_0_1_1816 (n_v1 bufs) (n_v20 bufs)
def n_v22 : Vec Ideal S500000x8x16 .f32 := mulf (F := Ideal) (φ := .f32) (n_v14 bufs) (n_v21 bufs)
def n_cst (_ : Cert.Bridge.Bufs) : Vec Ideal S_ .f32 := constant (F := Ideal) S_ .f32 0x40800000#32
def n_v23 : Vec Ideal S500000x8x16 .f32 := broadcastInDim S500000x8x16 ![] bcast_S_S500000x8x16 (n_cst bufs)
def n_v24 : Vec Ideal S500000x8x16 .f32 := Host.divf (F := Ideal) (φ := .f32) (n_v22 bufs) (n_v23 bufs)
def n_v25 : Vec Ideal S500000x8x16 .f32 := mulf (F := Ideal) (φ := .f32) (n_v24 bufs) (n_v7 bufs)
def n_v26 : Vec Ideal S500000x128 .f32 := shapeCast S500000x128 (n_v25 bufs) shapeCasts_S500000x8x16_S500000x128
def n_cst_3 (_ : Cert.Bridge.Bufs) : Vec Ideal S_ .f32 := constant (F := Ideal) S_ .f32 0x00000000#32
def n_v27 : Vec Ideal S500000x8 .f32 := Host.reduceAdd (F := Ideal) (φ := .f32) (n_v25 bufs) (n_cst_3 bufs) reducesTo_S500000x8x16_S500000x8_d2 h_S_
def n_v28 : Vec Ideal S500000x8x1 .f32 := broadcastInDim S500000x8x1 ![0, 1] bcast_S500000x8_S500000x8x1_0_1 (n_v27 bufs)
def n_cst_4 (_ : Cert.Bridge.Bufs) : Vec Ideal S_ .f32 := constant (F := Ideal) S_ .f32 0xC0A00000#32
def n_cst_5 (_ : Cert.Bridge.Bufs) : Vec Ideal S_ .f32 := constant (F := Ideal) S_ .f32 0x40A00000#32
def n_call0_v0 : Vec Ideal S_ .f32 := id (n_cst_4 bufs)
def n_call0_v1 : Vec Ideal S500000x8x1 .f32 := broadcastInDim S500000x8x1 ![] bcast_S_S500000x8x1 (n_call0_v0 bufs)
def n_call0_v2 : Vec Ideal S500000x8x1 .f32 := maximumf (F := Ideal) (φ := .f32) (n_call0_v1 bufs) (n_v28 bufs)
def n_call0_v3 : Vec Ideal S_ .f32 := id (n_cst_5 bufs)
def n_call0_v4 : Vec Ideal S500000x8x1 .f32 := broadcastInDim S500000x8x1 ![] bcast_S_S500000x8x1 (n_call0_v3 bufs)
def n_v29 : Vec Ideal S500000x8x1 .f32 := minimumf (F := Ideal) (φ := .f32) (n_call0_v4 bufs) (n_call0_v2 bufs)
def n_v30 : Vec Ideal S500000x8x1 .f32 := Host.exp (F := Ideal) (φ := .f32) (n_v29 bufs)
def n_c_6 (_ : Cert.Bridge.Bufs) : Vec Ideal S_ .i32 := constantI S_ 32 0#32
def n_v31 : Vec Ideal S500000 .i32 := broadcastInDim S500000 ![] bcast_S_S500000 (n_c_6 bufs)
def n_v32 : Vec Ideal S500000 .i1 := cmpi .slt bufs.a3 (n_v31 bufs)
def n_c_7 (_ : Cert.Bridge.Bufs) : Vec Ideal S_ .i32 := constantI S_ 32 50000#32
def n_v33 : Vec Ideal S500000 .i32 := broadcastInDim S500000 ![] bcast_S_S500000 (n_c_7 bufs)
def n_v34 : Vec Ideal S500000 .i32 := addi bufs.a3 (n_v33 bufs)
def n_v35 : Vec Ideal S500000 .i32 := select (n_v32 bufs) (n_v34 bufs) bufs.a3
def n_v36 : Vec Ideal S500000x1 .i32 := broadcastInDim S500000x1 ![0] bcast_S500000_S500000x1_0 (n_v35 bufs)
def n_v37 : Vec Ideal S500000x8x16 .f32 := Host.gather gather_S50000x8x16_S500000x1_S500000x8x16_12_0_n_n_0_1_1816 (n_v5 bufs) (n_v36 bufs)
def n_v38 : Vec Ideal S500000x8x16 .f32 := broadcastInDim S500000x8x16 ![0, 1, 2] bcast_S500000x1x1_S500000x8x16_0_1_2 bufs.a2
def n_v39 : Vec Ideal S500000x8x16 .f32 := mulf (F := Ideal) (φ := .f32) (n_v37 bufs) (n_v38 bufs)
def n_v40 : Vec Ideal S500000x8x16 .f32 := broadcastInDim S500000x8x16 ![0, 1, 2] bcast_S500000x8x1_S500000x8x16_0_1_2 (n_v30 bufs)
def n_v41 : Vec Ideal S500000x8x16 .f32 := mulf (F := Ideal) (φ := .f32) (n_v39 bufs) (n_v40 bufs)
def n_cst_8 (_ : Cert.Bridge.Bufs) : Vec Ideal S_ .f32 := constant (F := Ideal) S_ .f32 0x00000000#32
def n_v42 : Vec Ideal S50000x8x16 .f32 := broadcastInDim S50000x8x16 ![] bcast_S_S50000x8x16 (n_cst_8 bufs)
def n_v43 : Vec Ideal S500000x1 .i32 := broadcastInDim S500000x1 ![0] bcast_S500000_S500000x1_0 bufs.a4
def n_v44 : Vec Ideal S50000x8x16 .f32 := Host.scatterAdd (F := Ideal) (φ := .f32) scatter_S50000x8x16_S500000x1_S500000x8x16_12_0_0_1 (n_v42 bufs) (n_v43 bufs) (n_v41 bufs)
def n_cst_9 (_ : Cert.Bridge.Bufs) : Vec Ideal S_ .f32 := constant (F := Ideal) S_ .f32 0x00000000#32
def n_v45 : Vec Ideal S50000x8x1 .f32 := broadcastInDim S50000x8x1 ![] bcast_S_S50000x8x1 (n_cst_9 bufs)
def n_v46 : Vec Ideal S500000x1 .i32 := broadcastInDim S500000x1 ![0] bcast_S500000_S500000x1_0 bufs.a4
def n_v47 : Vec Ideal S50000x8x1 .f32 := Host.scatterAdd (F := Ideal) (φ := .f32) scatter_S50000x8x1_S500000x1_S500000x8x1_12_0_0_1 (n_v45 bufs) (n_v46 bufs) (n_v30 bufs)
def n_cst_10 (_ : Cert.Bridge.Bufs) : Vec Ideal S_ .f32 := constant (F := Ideal) S_ .f32 0x358637BD#32
def n_v48 : Vec Ideal S50000x8x1 .f32 := broadcastInDim S50000x8x1 ![] bcast_S_S50000x8x1 (n_cst_10 bufs)
def n_v49 : Vec Ideal S50000x8x1 .f32 := addf (F := Ideal) (φ := .f32) (n_v47 bufs) (n_v48 bufs)
def n_v50 : Vec Ideal S50000x8x16 .f32 := broadcastInDim S50000x8x16 ![0, 1, 2] bcast_S50000x8x1_S50000x8x16_0_1_2 (n_v49 bufs)
def n_v51 : Vec Ideal S50000x8x16 .f32 := Host.divf (F := Ideal) (φ := .f32) (n_v44 bufs) (n_v50 bufs)
def n_v52 : Vec Ideal S50000x128 .f32 := shapeCast S50000x128 (n_v51 bufs) shapeCasts_S50000x8x16_S50000x128
def n_v53 : Vec Ideal S50000x128 .f32 := Host.dotGeneral (F := Ideal) (φ₁ := .f32) (φ₂ := .f32) dot_S50000x128_S128x128_S50000x128_1_0_0_1_n_n none (n_v52 bufs) bufs.a9
def n_v54 : Vec Ideal S1x128 .f32 := broadcastInDim S1x128 ![1] bcast_S128_S1x128_1 bufs.a10
def n_v55 : Vec Ideal S50000x128 .f32 := broadcastInDim S50000x128 ![0, 1] bcast_S1x128_S50000x128_0_1 (n_v54 bufs)
def n_v56 : Vec Ideal S50000x128 .f32 := addf (F := Ideal) (φ := .f32) (n_v53 bufs) (n_v55 bufs)
def n_v57 : Vec Ideal S50000x128 .f32 := addf (F := Ideal) (φ := .f32) bufs.a0 (n_v56 bufs)
def n_cst_11 (_ : Cert.Bridge.Bufs) : Vec Ideal S_ .f32 := constant (F := Ideal) S_ .f32 0x00000000#32
def n_v58 : Vec Ideal S128 .f32 := Host.reduceAdd (F := Ideal) (φ := .f32) (n_v57 bufs) (n_cst_11 bufs) reducesTo_S50000x128_S128_d0 h_S_
def n_cst_12 (_ : Cert.Bridge.Bufs) : Vec Ideal S_ .f32 := constant (F := Ideal) S_ .f32 0x47435000#32
def n_v59 : Vec Ideal S128 .f32 := broadcastInDim S128 ![] bcast_S_S128 (n_cst_12 bufs)
def n_v60 : Vec Ideal S128 .f32 := Host.divf (F := Ideal) (φ := .f32) (n_v58 bufs) (n_v59 bufs)
def n_c_13 (_ : Cert.Bridge.Bufs) : Vec Ideal S_ .i32 := constantI S_ 32 0#32
def n_call1_cst (_ : Cert.Bridge.Bufs) : Vec Ideal S_ .f32 := constant (F := Ideal) S_ .f32 0x00000000#32
def n_call1_v0 : Vec Ideal S128 .f32 := Host.reduceAdd (F := Ideal) (φ := .f32) (n_v57 bufs) (n_call1_cst bufs) reducesTo_S50000x128_S128_d0 h_S_
def n_call1_v1 : Vec Ideal S1x128 .f32 := broadcastInDim S1x128 ![1] bcast_S128_S1x128_1 (n_call1_v0 bufs)
def n_call1_cst_0 (_ : Cert.Bridge.Bufs) : Vec Ideal S_ .f32 := constant (F := Ideal) S_ .f32 0x47435000#32
def n_call1_v2 : Vec Ideal S1x128 .f32 := broadcastInDim S1x128 ![] bcast_S_S1x128 (n_call1_cst_0 bufs)
def n_call1_v3 : Vec Ideal S1x128 .f32 := Host.divf (F := Ideal) (φ := .f32) (n_call1_v1 bufs) (n_call1_v2 bufs)
def n_call1_v4 : Vec Ideal S50000x128 .f32 := broadcastInDim S50000x128 ![0, 1] bcast_S1x128_S50000x128_0_1 (n_call1_v3 bufs)
def n_call1_v5 : Vec Ideal S50000x128 .f32 := subf (F := Ideal) (φ := .f32) (n_v57 bufs) (n_call1_v4 bufs)
def n_call1_v6 : Vec Ideal S50000x128 .f32 := mulf (F := Ideal) (φ := .f32) (n_call1_v5 bufs) (n_call1_v5 bufs)
def n_call1_v7 : Vec Ideal S_ .f32 := sitofp (F := Ideal) .f32 (n_c_13 bufs)
def n_call1_cst_1 (_ : Cert.Bridge.Bufs) : Vec Ideal S_ .f32 := constant (F := Ideal) S_ .f32 0x47435000#32
def n_call1_v8 : Vec Ideal S_ .f32 := subf (F := Ideal) (φ := .f32) (n_call1_cst_1 bufs) (n_call1_v7 bufs)
def n_call1_cst_2 (_ : Cert.Bridge.Bufs) : Vec Ideal S_ .f32 := constant (F := Ideal) S_ .f32 0x00000000#32
def n_call1_v9 : Vec Ideal S128 .f32 := Host.reduceAdd (F := Ideal) (φ := .f32) (n_call1_v6 bufs) (n_call1_cst_2 bufs) reducesTo_S50000x128_S128_d0 h_S_
def n_call1_v10 : Vec Ideal S128 .f32 := broadcastInDim S128 ![] bcast_S_S128 (n_call1_v8 bufs)
def n_call1_v11 : Vec Ideal S128 .f32 := Host.divf (F := Ideal) (φ := .f32) (n_call1_v9 bufs) (n_call1_v10 bufs)
def n_call1_cst_3 (_ : Cert.Bridge.Bufs) : Vec Ideal S_ .f32 := constant (F := Ideal) S_ .f32 0x00000000#32
def n_call1_v12 : Vec Ideal S_ .i1 := cmpf (F := Ideal) (φ := .f32) .ogt (n_call1_v8 bufs) (n_call1_cst_3 bufs)
def n_call1_cst_4 (_ : Cert.Bridge.Bufs) : Vec Ideal S_ .f32 := constant (F := Ideal) S_ .f32 0x7FC00000#32
def n_call1_call0_v0 : Vec Ideal S_ .f32 := id (n_call1_cst_4 bufs)
def n_call1_call0_v1 : Vec Ideal S128 .f32 := broadcastInDim S128 ![] bcast_S_S128 (n_call1_call0_v0 bufs)
def n_v61 : Vec Ideal S128 .f32 := select (broadcastInDim S128 ![] bcast_S_S128 (n_call1_v12 bufs)) (n_call1_v11 bufs) (n_call1_call0_v1 bufs)
def n_v62 : Vec Ideal S1x128 .f32 := broadcastInDim S1x128 ![1] bcast_S128_S1x128_1 (n_v60 bufs)
def n_v63 : Vec Ideal S50000x128 .f32 := broadcastInDim S50000x128 ![0, 1] bcast_S1x128_S50000x128_0_1 (n_v62 bufs)
def n_v64 : Vec Ideal S50000x128 .f32 := subf (F := Ideal) (φ := .f32) (n_v57 bufs) (n_v63 bufs)
def n_cst_14 (_ : Cert.Bridge.Bufs) : Vec Ideal S_ .f32 := constant (F := Ideal) S_ .f32 0x3727C5AC#32
def n_v65 : Vec Ideal S128 .f32 := broadcastInDim S128 ![] bcast_S_S128 (n_cst_14 bufs)
def n_v66 : Vec Ideal S128 .f32 := addf (F := Ideal) (φ := .f32) (n_v61 bufs) (n_v65 bufs)
def n_v67 : Vec Ideal S128 .f32 := Host.rsqrt (F := Ideal) (φ := .f32) (n_v66 bufs)
def n_v68 : Vec Ideal S1x128 .f32 := broadcastInDim S1x128 ![1] bcast_S128_S1x128_1 (n_v67 bufs)
def n_v69 : Vec Ideal S50000x128 .f32 := broadcastInDim S50000x128 ![0, 1] bcast_S1x128_S50000x128_0_1 (n_v68 bufs)
def n_v70 : Vec Ideal S50000x128 .f32 := mulf (F := Ideal) (φ := .f32) (n_v64 bufs) (n_v69 bufs)
def n_v71 : Vec Ideal S1x128 .f32 := broadcastInDim S1x128 ![1] bcast_S128_S1x128_1 bufs.a13
def n_v72 : Vec Ideal S50000x128 .f32 := broadcastInDim S50000x128 ![0, 1] bcast_S1x128_S50000x128_0_1 (n_v71 bufs)
def n_v73 : Vec Ideal S50000x128 .f32 := mulf (F := Ideal) (φ := .f32) (n_v70 bufs) (n_v72 bufs)
def n_v74 : Vec Ideal S1x128 .f32 := broadcastInDim S1x128 ![1] bcast_S128_S1x128_1 bufs.a14
def n_v75 : Vec Ideal S50000x128 .f32 := broadcastInDim S50000x128 ![0, 1] bcast_S1x128_S50000x128_0_1 (n_v74 bufs)
def n_v76 : Vec Ideal S50000x128 .f32 := addf (F := Ideal) (φ := .f32) (n_v73 bufs) (n_v75 bufs)
def n_v77 : Vec Ideal S500000x128 .f32 := Host.dotGeneral (F := Ideal) (φ₁ := .f32) (φ₂ := .f32) dot_S500000x128_S128x128_S500000x128_1_0_0_1_n_n none (n_v26 bufs) bufs.a11
def n_v78 : Vec Ideal S1x128 .f32 := broadcastInDim S1x128 ![1] bcast_S128_S1x128_1 bufs.a12
def n_v79 : Vec Ideal S500000x128 .f32 := broadcastInDim S500000x128 ![0, 1] bcast_S1x128_S500000x128_0_1 (n_v78 bufs)
def n_v80 : Vec Ideal S500000x128 .f32 := addf (F := Ideal) (φ := .f32) (n_v77 bufs) (n_v79 bufs)
def n_v81 : Vec Ideal S500000x128 .f32 := addf (F := Ideal) (φ := .f32) bufs.a1 (n_v80 bufs)
def n_cst_15 (_ : Cert.Bridge.Bufs) : Vec Ideal S_ .f32 := constant (F := Ideal) S_ .f32 0x00000000#32
def n_v82 : Vec Ideal S128 .f32 := Host.reduceAdd (F := Ideal) (φ := .f32) (n_v81 bufs) (n_cst_15 bufs) reducesTo_S500000x128_S128_d0 h_S_
def n_cst_16 (_ : Cert.Bridge.Bufs) : Vec Ideal S_ .f32 := constant (F := Ideal) S_ .f32 0x48F42400#32
def n_v83 : Vec Ideal S128 .f32 := broadcastInDim S128 ![] bcast_S_S128 (n_cst_16 bufs)
def n_v84 : Vec Ideal S128 .f32 := Host.divf (F := Ideal) (φ := .f32) (n_v82 bufs) (n_v83 bufs)
def n_c_17 (_ : Cert.Bridge.Bufs) : Vec Ideal S_ .i32 := constantI S_ 32 0#32
def n_call2_cst (_ : Cert.Bridge.Bufs) : Vec Ideal S_ .f32 := constant (F := Ideal) S_ .f32 0x00000000#32
def n_call2_v0 : Vec Ideal S128 .f32 := Host.reduceAdd (F := Ideal) (φ := .f32) (n_v81 bufs) (n_call2_cst bufs) reducesTo_S500000x128_S128_d0 h_S_
def n_call2_v1 : Vec Ideal S1x128 .f32 := broadcastInDim S1x128 ![1] bcast_S128_S1x128_1 (n_call2_v0 bufs)
def n_call2_cst_0 (_ : Cert.Bridge.Bufs) : Vec Ideal S_ .f32 := constant (F := Ideal) S_ .f32 0x48F42400#32
def n_call2_v2 : Vec Ideal S1x128 .f32 := broadcastInDim S1x128 ![] bcast_S_S1x128 (n_call2_cst_0 bufs)
def n_call2_v3 : Vec Ideal S1x128 .f32 := Host.divf (F := Ideal) (φ := .f32) (n_call2_v1 bufs) (n_call2_v2 bufs)
def n_call2_v4 : Vec Ideal S500000x128 .f32 := broadcastInDim S500000x128 ![0, 1] bcast_S1x128_S500000x128_0_1 (n_call2_v3 bufs)
def n_call2_v5 : Vec Ideal S500000x128 .f32 := subf (F := Ideal) (φ := .f32) (n_v81 bufs) (n_call2_v4 bufs)
def n_call2_v6 : Vec Ideal S500000x128 .f32 := mulf (F := Ideal) (φ := .f32) (n_call2_v5 bufs) (n_call2_v5 bufs)
def n_call2_v7 : Vec Ideal S_ .f32 := sitofp (F := Ideal) .f32 (n_c_17 bufs)
def n_call2_cst_1 (_ : Cert.Bridge.Bufs) : Vec Ideal S_ .f32 := constant (F := Ideal) S_ .f32 0x48F42400#32
def n_call2_v8 : Vec Ideal S_ .f32 := subf (F := Ideal) (φ := .f32) (n_call2_cst_1 bufs) (n_call2_v7 bufs)
def n_call2_cst_2 (_ : Cert.Bridge.Bufs) : Vec Ideal S_ .f32 := constant (F := Ideal) S_ .f32 0x00000000#32
def n_call2_v9 : Vec Ideal S128 .f32 := Host.reduceAdd (F := Ideal) (φ := .f32) (n_call2_v6 bufs) (n_call2_cst_2 bufs) reducesTo_S500000x128_S128_d0 h_S_
def n_call2_v10 : Vec Ideal S128 .f32 := broadcastInDim S128 ![] bcast_S_S128 (n_call2_v8 bufs)
def n_call2_v11 : Vec Ideal S128 .f32 := Host.divf (F := Ideal) (φ := .f32) (n_call2_v9 bufs) (n_call2_v10 bufs)
def n_call2_cst_3 (_ : Cert.Bridge.Bufs) : Vec Ideal S_ .f32 := constant (F := Ideal) S_ .f32 0x00000000#32
def n_call2_v12 : Vec Ideal S_ .i1 := cmpf (F := Ideal) (φ := .f32) .ogt (n_call2_v8 bufs) (n_call2_cst_3 bufs)
def n_call2_cst_4 (_ : Cert.Bridge.Bufs) : Vec Ideal S_ .f32 := constant (F := Ideal) S_ .f32 0x7FC00000#32
def n_call2_call0_v0 : Vec Ideal S_ .f32 := id (n_call2_cst_4 bufs)
def n_call2_call0_v1 : Vec Ideal S128 .f32 := broadcastInDim S128 ![] bcast_S_S128 (n_call2_call0_v0 bufs)
def n_v85 : Vec Ideal S128 .f32 := select (broadcastInDim S128 ![] bcast_S_S128 (n_call2_v12 bufs)) (n_call2_v11 bufs) (n_call2_call0_v1 bufs)
def n_v86 : Vec Ideal S1x128 .f32 := broadcastInDim S1x128 ![1] bcast_S128_S1x128_1 (n_v84 bufs)
def n_v87 : Vec Ideal S500000x128 .f32 := broadcastInDim S500000x128 ![0, 1] bcast_S1x128_S500000x128_0_1 (n_v86 bufs)
def n_v88 : Vec Ideal S500000x128 .f32 := subf (F := Ideal) (φ := .f32) (n_v81 bufs) (n_v87 bufs)
def n_cst_18 (_ : Cert.Bridge.Bufs) : Vec Ideal S_ .f32 := constant (F := Ideal) S_ .f32 0x3727C5AC#32
def n_v89 : Vec Ideal S128 .f32 := broadcastInDim S128 ![] bcast_S_S128 (n_cst_18 bufs)
def n_v90 : Vec Ideal S128 .f32 := addf (F := Ideal) (φ := .f32) (n_v85 bufs) (n_v89 bufs)
def n_v91 : Vec Ideal S128 .f32 := Host.rsqrt (F := Ideal) (φ := .f32) (n_v90 bufs)
def n_v92 : Vec Ideal S1x128 .f32 := broadcastInDim S1x128 ![1] bcast_S128_S1x128_1 (n_v91 bufs)
def n_v93 : Vec Ideal S500000x128 .f32 := broadcastInDim S500000x128 ![0, 1] bcast_S1x128_S500000x128_0_1 (n_v92 bufs)
def n_v94 : Vec Ideal S500000x128 .f32 := mulf (F := Ideal) (φ := .f32) (n_v88 bufs) (n_v93 bufs)
def n_v95 : Vec Ideal S1x128 .f32 := broadcastInDim S1x128 ![1] bcast_S128_S1x128_1 bufs.a15
def n_v96 : Vec Ideal S500000x128 .f32 := broadcastInDim S500000x128 ![0, 1] bcast_S1x128_S500000x128_0_1 (n_v95 bufs)
def n_v97 : Vec Ideal S500000x128 .f32 := mulf (F := Ideal) (φ := .f32) (n_v94 bufs) (n_v96 bufs)
def n_v98 : Vec Ideal S1x128 .f32 := broadcastInDim S1x128 ![1] bcast_S128_S1x128_1 bufs.a16
def n_v99 : Vec Ideal S500000x128 .f32 := broadcastInDim S500000x128 ![0, 1] bcast_S1x128_S500000x128_0_1 (n_v98 bufs)
def n_v100 : Vec Ideal S500000x128 .f32 := addf (F := Ideal) (φ := .f32) (n_v97 bufs) (n_v99 bufs)
def n_v101 : Vec Ideal S50000x256 .f32 := Host.dotGeneral (F := Ideal) (φ₁ := .f32) (φ₂ := .f32) dot_S50000x128_S128x256_S50000x256_1_0_0_1_n_n none (n_v76 bufs) bufs.a17
def n_v102 : Vec Ideal S1x256 .f32 := broadcastInDim S1x256 ![1] bcast_S256_S1x256_1 bufs.a18
def n_v103 : Vec Ideal S50000x256 .f32 := broadcastInDim S50000x256 ![0, 1] bcast_S1x256_S50000x256_0_1 (n_v102 bufs)
def n_v104 : Vec Ideal S50000x256 .f32 := addf (F := Ideal) (φ := .f32) (n_v101 bufs) (n_v103 bufs)
def n_call3_cst (_ : Cert.Bridge.Bufs) : Vec Ideal S_ .f32 := constant (F := Ideal) S_ .f32 0x00000000#32
def n_call3_v0 : Vec Ideal S50000x256 .f32 := broadcastInDim S50000x256 ![] bcast_S_S50000x256 (n_call3_cst bufs)
def n_v105 : Vec Ideal S50000x256 .f32 := maximumf (F := Ideal) (φ := .f32) (n_v104 bufs) (n_call3_v0 bufs)
def n_v106 : Vec Ideal S50000x128 .f32 := Host.dotGeneral (F := Ideal) (φ₁ := .f32) (φ₂ := .f32) dot_S50000x256_S256x128_S50000x128_1_0_0_1_n_n none (n_v105 bufs) bufs.a19
def n_v107 : Vec Ideal S1x128 .f32 := broadcastInDim S1x128 ![1] bcast_S128_S1x128_1 bufs.a20
def n_v108 : Vec Ideal S50000x128 .f32 := broadcastInDim S50000x128 ![0, 1] bcast_S1x128_S50000x128_0_1 (n_v107 bufs)
def n_v109 : Vec Ideal S50000x128 .f32 := addf (F := Ideal) (φ := .f32) (n_v106 bufs) (n_v108 bufs)
def n_v110 : Vec Ideal S50000x128 .f32 := addf (F := Ideal) (φ := .f32) (n_v76 bufs) (n_v109 bufs)
def n_cst_19 (_ : Cert.Bridge.Bufs) : Vec Ideal S_ .f32 := constant (F := Ideal) S_ .f32 0x00000000#32
def n_v111 : Vec Ideal S128 .f32 := Host.reduceAdd (F := Ideal) (φ := .f32) (n_v110 bufs) (n_cst_19 bufs) reducesTo_S50000x128_S128_d0 h_S_
def n_cst_20 (_ : Cert.Bridge.Bufs) : Vec Ideal S_ .f32 := constant (F := Ideal) S_ .f32 0x47435000#32
def n_v112 : Vec Ideal S128 .f32 := broadcastInDim S128 ![] bcast_S_S128 (n_cst_20 bufs)
def n_v113 : Vec Ideal S128 .f32 := Host.divf (F := Ideal) (φ := .f32) (n_v111 bufs) (n_v112 bufs)
def n_c_21 (_ : Cert.Bridge.Bufs) : Vec Ideal S_ .i32 := constantI S_ 32 0#32
def n_call4_cst (_ : Cert.Bridge.Bufs) : Vec Ideal S_ .f32 := constant (F := Ideal) S_ .f32 0x00000000#32
def n_call4_v0 : Vec Ideal S128 .f32 := Host.reduceAdd (F := Ideal) (φ := .f32) (n_v110 bufs) (n_call4_cst bufs) reducesTo_S50000x128_S128_d0 h_S_
def n_call4_v1 : Vec Ideal S1x128 .f32 := broadcastInDim S1x128 ![1] bcast_S128_S1x128_1 (n_call4_v0 bufs)
def n_call4_cst_0 (_ : Cert.Bridge.Bufs) : Vec Ideal S_ .f32 := constant (F := Ideal) S_ .f32 0x47435000#32
def n_call4_v2 : Vec Ideal S1x128 .f32 := broadcastInDim S1x128 ![] bcast_S_S1x128 (n_call4_cst_0 bufs)
def n_call4_v3 : Vec Ideal S1x128 .f32 := Host.divf (F := Ideal) (φ := .f32) (n_call4_v1 bufs) (n_call4_v2 bufs)
def n_call4_v4 : Vec Ideal S50000x128 .f32 := broadcastInDim S50000x128 ![0, 1] bcast_S1x128_S50000x128_0_1 (n_call4_v3 bufs)
def n_call4_v5 : Vec Ideal S50000x128 .f32 := subf (F := Ideal) (φ := .f32) (n_v110 bufs) (n_call4_v4 bufs)
def n_call4_v6 : Vec Ideal S50000x128 .f32 := mulf (F := Ideal) (φ := .f32) (n_call4_v5 bufs) (n_call4_v5 bufs)
def n_call4_v7 : Vec Ideal S_ .f32 := sitofp (F := Ideal) .f32 (n_c_21 bufs)
def n_call4_cst_1 (_ : Cert.Bridge.Bufs) : Vec Ideal S_ .f32 := constant (F := Ideal) S_ .f32 0x47435000#32
def n_call4_v8 : Vec Ideal S_ .f32 := subf (F := Ideal) (φ := .f32) (n_call4_cst_1 bufs) (n_call4_v7 bufs)
def n_call4_cst_2 (_ : Cert.Bridge.Bufs) : Vec Ideal S_ .f32 := constant (F := Ideal) S_ .f32 0x00000000#32
def n_call4_v9 : Vec Ideal S128 .f32 := Host.reduceAdd (F := Ideal) (φ := .f32) (n_call4_v6 bufs) (n_call4_cst_2 bufs) reducesTo_S50000x128_S128_d0 h_S_
def n_call4_v10 : Vec Ideal S128 .f32 := broadcastInDim S128 ![] bcast_S_S128 (n_call4_v8 bufs)
def n_call4_v11 : Vec Ideal S128 .f32 := Host.divf (F := Ideal) (φ := .f32) (n_call4_v9 bufs) (n_call4_v10 bufs)
def n_call4_cst_3 (_ : Cert.Bridge.Bufs) : Vec Ideal S_ .f32 := constant (F := Ideal) S_ .f32 0x00000000#32
def n_call4_v12 : Vec Ideal S_ .i1 := cmpf (F := Ideal) (φ := .f32) .ogt (n_call4_v8 bufs) (n_call4_cst_3 bufs)
def n_call4_cst_4 (_ : Cert.Bridge.Bufs) : Vec Ideal S_ .f32 := constant (F := Ideal) S_ .f32 0x7FC00000#32
def n_call4_call0_v0 : Vec Ideal S_ .f32 := id (n_call4_cst_4 bufs)
def n_call4_call0_v1 : Vec Ideal S128 .f32 := broadcastInDim S128 ![] bcast_S_S128 (n_call4_call0_v0 bufs)
def n_v114 : Vec Ideal S128 .f32 := select (broadcastInDim S128 ![] bcast_S_S128 (n_call4_v12 bufs)) (n_call4_v11 bufs) (n_call4_call0_v1 bufs)
def n_v115 : Vec Ideal S1x128 .f32 := broadcastInDim S1x128 ![1] bcast_S128_S1x128_1 (n_v113 bufs)
def n_v116 : Vec Ideal S50000x128 .f32 := broadcastInDim S50000x128 ![0, 1] bcast_S1x128_S50000x128_0_1 (n_v115 bufs)
def n_v117 : Vec Ideal S50000x128 .f32 := subf (F := Ideal) (φ := .f32) (n_v110 bufs) (n_v116 bufs)
def n_cst_22 (_ : Cert.Bridge.Bufs) : Vec Ideal S_ .f32 := constant (F := Ideal) S_ .f32 0x3727C5AC#32
def n_v118 : Vec Ideal S128 .f32 := broadcastInDim S128 ![] bcast_S_S128 (n_cst_22 bufs)
def n_v119 : Vec Ideal S128 .f32 := addf (F := Ideal) (φ := .f32) (n_v114 bufs) (n_v118 bufs)
def n_v120 : Vec Ideal S128 .f32 := Host.rsqrt (F := Ideal) (φ := .f32) (n_v119 bufs)
def n_v121 : Vec Ideal S1x128 .f32 := broadcastInDim S1x128 ![1] bcast_S128_S1x128_1 (n_v120 bufs)
def n_v122 : Vec Ideal S50000x128 .f32 := broadcastInDim S50000x128 ![0, 1] bcast_S1x128_S50000x128_0_1 (n_v121 bufs)
def n_v123 : Vec Ideal S50000x128 .f32 := mulf (F := Ideal) (φ := .f32) (n_v117 bufs) (n_v122 bufs)
def n_v124 : Vec Ideal S1x128 .f32 := broadcastInDim S1x128 ![1] bcast_S128_S1x128_1 bufs.a25
def n_v125 : Vec Ideal S50000x128 .f32 := broadcastInDim S50000x128 ![0, 1] bcast_S1x128_S50000x128_0_1 (n_v124 bufs)
def n_v126 : Vec Ideal S50000x128 .f32 := mulf (F := Ideal) (φ := .f32) (n_v123 bufs) (n_v125 bufs)
def n_v127 : Vec Ideal S1x128 .f32 := broadcastInDim S1x128 ![1] bcast_S128_S1x128_1 bufs.a26
def n_v128 : Vec Ideal S50000x128 .f32 := broadcastInDim S50000x128 ![0, 1] bcast_S1x128_S50000x128_0_1 (n_v127 bufs)
def n_v129 : Vec Ideal S50000x128 .f32 := addf (F := Ideal) (φ := .f32) (n_v126 bufs) (n_v128 bufs)
def n_v130 : Vec Ideal S500000x256 .f32 := Host.dotGeneral (F := Ideal) (φ₁ := .f32) (φ₂ := .f32) dot_S500000x128_S128x256_S500000x256_1_0_0_1_n_n none (n_v100 bufs) bufs.a21
def n_v131 : Vec Ideal S1x256 .f32 := broadcastInDim S1x256 ![1] bcast_S256_S1x256_1 bufs.a22
def n_v132 : Vec Ideal S500000x256 .f32 := broadcastInDim S500000x256 ![0, 1] bcast_S1x256_S500000x256_0_1 (n_v131 bufs)
def n_v133 : Vec Ideal S500000x256 .f32 := addf (F := Ideal) (φ := .f32) (n_v130 bufs) (n_v132 bufs)
def n_call5_cst (_ : Cert.Bridge.Bufs) : Vec Ideal S_ .f32 := constant (F := Ideal) S_ .f32 0x00000000#32
def n_call5_v0 : Vec Ideal S500000x256 .f32 := broadcastInDim S500000x256 ![] bcast_S_S500000x256 (n_call5_cst bufs)
def n_v134 : Vec Ideal S500000x256 .f32 := maximumf (F := Ideal) (φ := .f32) (n_v133 bufs) (n_call5_v0 bufs)
def n_v135 : Vec Ideal S500000x128 .f32 := Host.dotGeneral (F := Ideal) (φ₁ := .f32) (φ₂ := .f32) dot_S500000x256_S256x128_S500000x128_1_0_0_1_n_n none (n_v134 bufs) bufs.a23
def n_v136 : Vec Ideal S1x128 .f32 := broadcastInDim S1x128 ![1] bcast_S128_S1x128_1 bufs.a24
def n_v137 : Vec Ideal S500000x128 .f32 := broadcastInDim S500000x128 ![0, 1] bcast_S1x128_S500000x128_0_1 (n_v136 bufs)
def n_v138 : Vec Ideal S500000x128 .f32 := addf (F := Ideal) (φ := .f32) (n_v135 bufs) (n_v137 bufs)
def n_v139 : Vec Ideal S500000x128 .f32 := addf (F := Ideal) (φ := .f32) (n_v100 bufs) (n_v138 bufs)
def n_cst_23 (_ : Cert.Bridge.Bufs) : Vec Ideal S_ .f32 := constant (F := Ideal) S_ .f32 0x00000000#32
def n_v140 : Vec Ideal S128 .f32 := Host.reduceAdd (F := Ideal) (φ := .f32) (n_v139 bufs) (n_cst_23 bufs) reducesTo_S500000x128_S128_d0 h_S_
def n_cst_24 (_ : Cert.Bridge.Bufs) : Vec Ideal S_ .f32 := constant (F := Ideal) S_ .f32 0x48F42400#32
def n_v141 : Vec Ideal S128 .f32 := broadcastInDim S128 ![] bcast_S_S128 (n_cst_24 bufs)
def n_v142 : Vec Ideal S128 .f32 := Host.divf (F := Ideal) (φ := .f32) (n_v140 bufs) (n_v141 bufs)
def n_c_25 (_ : Cert.Bridge.Bufs) : Vec Ideal S_ .i32 := constantI S_ 32 0#32
def n_call6_cst (_ : Cert.Bridge.Bufs) : Vec Ideal S_ .f32 := constant (F := Ideal) S_ .f32 0x00000000#32
def n_call6_v0 : Vec Ideal S128 .f32 := Host.reduceAdd (F := Ideal) (φ := .f32) (n_v139 bufs) (n_call6_cst bufs) reducesTo_S500000x128_S128_d0 h_S_
def n_call6_v1 : Vec Ideal S1x128 .f32 := broadcastInDim S1x128 ![1] bcast_S128_S1x128_1 (n_call6_v0 bufs)
def n_call6_cst_0 (_ : Cert.Bridge.Bufs) : Vec Ideal S_ .f32 := constant (F := Ideal) S_ .f32 0x48F42400#32
def n_call6_v2 : Vec Ideal S1x128 .f32 := broadcastInDim S1x128 ![] bcast_S_S1x128 (n_call6_cst_0 bufs)
def n_call6_v3 : Vec Ideal S1x128 .f32 := Host.divf (F := Ideal) (φ := .f32) (n_call6_v1 bufs) (n_call6_v2 bufs)
def n_call6_v4 : Vec Ideal S500000x128 .f32 := broadcastInDim S500000x128 ![0, 1] bcast_S1x128_S500000x128_0_1 (n_call6_v3 bufs)
def n_call6_v5 : Vec Ideal S500000x128 .f32 := subf (F := Ideal) (φ := .f32) (n_v139 bufs) (n_call6_v4 bufs)
def n_call6_v6 : Vec Ideal S500000x128 .f32 := mulf (F := Ideal) (φ := .f32) (n_call6_v5 bufs) (n_call6_v5 bufs)
def n_call6_v7 : Vec Ideal S_ .f32 := sitofp (F := Ideal) .f32 (n_c_25 bufs)
def n_call6_cst_1 (_ : Cert.Bridge.Bufs) : Vec Ideal S_ .f32 := constant (F := Ideal) S_ .f32 0x48F42400#32
def n_call6_v8 : Vec Ideal S_ .f32 := subf (F := Ideal) (φ := .f32) (n_call6_cst_1 bufs) (n_call6_v7 bufs)
def n_call6_cst_2 (_ : Cert.Bridge.Bufs) : Vec Ideal S_ .f32 := constant (F := Ideal) S_ .f32 0x00000000#32
def n_call6_v9 : Vec Ideal S128 .f32 := Host.reduceAdd (F := Ideal) (φ := .f32) (n_call6_v6 bufs) (n_call6_cst_2 bufs) reducesTo_S500000x128_S128_d0 h_S_
def n_call6_v10 : Vec Ideal S128 .f32 := broadcastInDim S128 ![] bcast_S_S128 (n_call6_v8 bufs)
def n_call6_v11 : Vec Ideal S128 .f32 := Host.divf (F := Ideal) (φ := .f32) (n_call6_v9 bufs) (n_call6_v10 bufs)
def n_call6_cst_3 (_ : Cert.Bridge.Bufs) : Vec Ideal S_ .f32 := constant (F := Ideal) S_ .f32 0x00000000#32
def n_call6_v12 : Vec Ideal S_ .i1 := cmpf (F := Ideal) (φ := .f32) .ogt (n_call6_v8 bufs) (n_call6_cst_3 bufs)
def n_call6_cst_4 (_ : Cert.Bridge.Bufs) : Vec Ideal S_ .f32 := constant (F := Ideal) S_ .f32 0x7FC00000#32
def n_call6_call0_v0 : Vec Ideal S_ .f32 := id (n_call6_cst_4 bufs)
def n_call6_call0_v1 : Vec Ideal S128 .f32 := broadcastInDim S128 ![] bcast_S_S128 (n_call6_call0_v0 bufs)
def n_v143 : Vec Ideal S128 .f32 := select (broadcastInDim S128 ![] bcast_S_S128 (n_call6_v12 bufs)) (n_call6_v11 bufs) (n_call6_call0_v1 bufs)
def n_v144 : Vec Ideal S1x128 .f32 := broadcastInDim S1x128 ![1] bcast_S128_S1x128_1 (n_v142 bufs)
def n_v145 : Vec Ideal S500000x128 .f32 := broadcastInDim S500000x128 ![0, 1] bcast_S1x128_S500000x128_0_1 (n_v144 bufs)
def n_v146 : Vec Ideal S500000x128 .f32 := subf (F := Ideal) (φ := .f32) (n_v139 bufs) (n_v145 bufs)
def n_cst_26 (_ : Cert.Bridge.Bufs) : Vec Ideal S_ .f32 := constant (F := Ideal) S_ .f32 0x3727C5AC#32
def n_v147 : Vec Ideal S128 .f32 := broadcastInDim S128 ![] bcast_S_S128 (n_cst_26 bufs)
def n_v148 : Vec Ideal S128 .f32 := addf (F := Ideal) (φ := .f32) (n_v143 bufs) (n_v147 bufs)
def n_v149 : Vec Ideal S128 .f32 := Host.rsqrt (F := Ideal) (φ := .f32) (n_v148 bufs)
def n_v150 : Vec Ideal S1x128 .f32 := broadcastInDim S1x128 ![1] bcast_S128_S1x128_1 (n_v149 bufs)
def n_v151 : Vec Ideal S500000x128 .f32 := broadcastInDim S500000x128 ![0, 1] bcast_S1x128_S500000x128_0_1 (n_v150 bufs)
def n_v152 : Vec Ideal S500000x128 .f32 := mulf (F := Ideal) (φ := .f32) (n_v146 bufs) (n_v151 bufs)
def n_v153 : Vec Ideal S1x128 .f32 := broadcastInDim S1x128 ![1] bcast_S128_S1x128_1 bufs.a27
def n_v154 : Vec Ideal S500000x128 .f32 := broadcastInDim S500000x128 ![0, 1] bcast_S1x128_S500000x128_0_1 (n_v153 bufs)
def n_v155 : Vec Ideal S500000x128 .f32 := mulf (F := Ideal) (φ := .f32) (n_v152 bufs) (n_v154 bufs)
def n_v156 : Vec Ideal S1x128 .f32 := broadcastInDim S1x128 ![1] bcast_S128_S1x128_1 bufs.a28
def n_v157 : Vec Ideal S500000x128 .f32 := broadcastInDim S500000x128 ![0, 1] bcast_S1x128_S500000x128_0_1 (n_v156 bufs)
def n_v158 : Vec Ideal S500000x128 .f32 := addf (F := Ideal) (φ := .f32) (n_v155 bufs) (n_v157 bufs)

end Cert.ReferenceIdeal.RunH

end
-- ==== Proof.Reference.FactsTable.lean ====
import proofs.«121852_j34351148433892_2_alg».proof.Proof.Reference.Holds
import proofs.«121852_j34351148433892_2_alg».proof.Proof.Reference.NamedTable

noncomputable section

namespace Cert.ReferenceIdeal.RunH

open Cert.ReferenceIdeal Cert.ReferenceIdeal.Gen Idealize.ShloMosaic Idealize.ShloMosaic.TcCoe Idealize.SL.Sem Idealize.ShloMosaic.StableHlo

abbrev facts0 : List Fact :=
  [⟨main_arg0, fun bufs => bufs.a0⟩, ⟨main_arg1, fun bufs => bufs.a1⟩, ⟨main_arg2, fun bufs => bufs.a2⟩, ⟨main_arg3, fun bufs => bufs.a3⟩, ⟨main_arg4, fun bufs => bufs.a4⟩, ⟨main_arg5, fun bufs => bufs.a5⟩, ⟨main_arg6, fun bufs => bufs.a6⟩, ⟨main_arg7, fun bufs => bufs.a7⟩, ⟨main_arg8, fun bufs => bufs.a8⟩, ⟨main_arg9, fun bufs => bufs.a9⟩, ⟨main_arg10, fun bufs => bufs.a10⟩, ⟨main_arg11, fun bufs => bufs.a11⟩, ⟨main_arg12, fun bufs => bufs.a12⟩, ⟨main_arg13, fun bufs => bufs.a13⟩, ⟨main_arg14, fun bufs => bufs.a14⟩, ⟨main_arg15, fun bufs => bufs.a15⟩, ⟨main_arg16, fun bufs => bufs.a16⟩, ⟨main_arg17, fun bufs => bufs.a17⟩, ⟨main_arg18, fun bufs => bufs.a18⟩, ⟨main_arg19, fun bufs => bufs.a19⟩, ⟨main_arg20, fun bufs => bufs.a20⟩, ⟨main_arg21, fun bufs => bufs.a21⟩, ⟨main_arg22, fun bufs => bufs.a22⟩, ⟨main_arg23, fun bufs => bufs.a23⟩, ⟨main_arg24, fun bufs => bufs.a24⟩, ⟨main_arg25, fun bufs => bufs.a25⟩, ⟨main_arg26, fun bufs => bufs.a26⟩, ⟨main_arg27, fun bufs => bufs.a27⟩, ⟨main_arg28, fun bufs => bufs.a28⟩]

abbrev facts0_0 : List Fact :=
  ⟨main_cst_3, n_cst_3⟩ :: ⟨main_v26, n_v26⟩ :: ⟨main_v25, n_v25⟩ :: ⟨main_v24, n_v24⟩ :: ⟨main_v23, n_v23⟩ :: ⟨main_cst, n_cst⟩ :: ⟨main_v22, n_v22⟩ :: ⟨main_v21, n_v21⟩ :: ⟨main_v20, n_v20⟩ :: ⟨main_v19, n_v19⟩ :: ⟨main_v18, n_v18⟩ :: ⟨main_v17, n_v17⟩ :: ⟨main_c_2, n_c_2⟩ :: ⟨main_v16, n_v16⟩ :: ⟨main_v15, n_v15⟩ :: ⟨main_c_1, n_c_1⟩ :: ⟨main_v14, n_v14⟩ :: ⟨main_v13, n_v13⟩ :: ⟨main_v12, n_v12⟩ :: ⟨main_v11, n_v11⟩ :: ⟨main_v10, n_v10⟩ :: ⟨main_c_0, n_c_0⟩ :: ⟨main_v9, n_v9⟩ :: ⟨main_v8, n_v8⟩ :: ⟨main_c, n_c⟩ :: ⟨main_v7, n_v7⟩ :: ⟨main_v6, n_v6⟩ :: ⟨main_v5, n_v5⟩ :: ⟨main_v4, n_v4⟩ :: ⟨main_v3, n_v3⟩ :: ⟨main_v2, n_v2⟩ :: ⟨main_v1, n_v1⟩ :: ⟨main_v0, n_v0⟩ :: facts0

abbrev facts0_1 : List Fact :=
  ⟨main_v47, n_v47⟩ :: ⟨main_v46, n_v46⟩ :: ⟨main_v45, n_v45⟩ :: ⟨main_cst_9, n_cst_9⟩ :: ⟨main_v44, n_v44⟩ :: ⟨main_v43, n_v43⟩ :: ⟨main_v42, n_v42⟩ :: ⟨main_cst_8, n_cst_8⟩ :: ⟨main_v41, n_v41⟩ :: ⟨main_v40, n_v40⟩ :: ⟨main_v39, n_v39⟩ :: ⟨main_v38, n_v38⟩ :: ⟨main_v37, n_v37⟩ :: ⟨main_v36, n_v36⟩ :: ⟨main_v35, n_v35⟩ :: ⟨main_v34, n_v34⟩ :: ⟨main_v33, n_v33⟩ :: ⟨main_c_7, n_c_7⟩ :: ⟨main_v32, n_v32⟩ :: ⟨main_v31, n_v31⟩ :: ⟨main_c_6, n_c_6⟩ :: ⟨main_v30, n_v30⟩ :: ⟨main_v29, n_v29⟩ :: ⟨main_call0_v4, n_call0_v4⟩ :: ⟨main_call0_v3, n_call0_v3⟩ :: ⟨main_call0_v2, n_call0_v2⟩ :: ⟨main_call0_v1, n_call0_v1⟩ :: ⟨main_call0_v0, n_call0_v0⟩ :: ⟨main_cst_5, n_cst_5⟩ :: ⟨main_cst_4, n_cst_4⟩ :: ⟨main_v28, n_v28⟩ :: ⟨main_v27, n_v27⟩ :: facts0_0

abbrev facts1_0 : List Fact :=
  ⟨main_call1_cst_3, n_call1_cst_3⟩ :: ⟨main_call1_v11, n_call1_v11⟩ :: ⟨main_call1_v10, n_call1_v10⟩ :: ⟨main_call1_v9, n_call1_v9⟩ :: ⟨main_call1_cst_2, n_call1_cst_2⟩ :: ⟨main_call1_v8, n_call1_v8⟩ :: ⟨main_call1_cst_1, n_call1_cst_1⟩ :: ⟨main_call1_v7, n_call1_v7⟩ :: ⟨main_call1_v6, n_call1_v6⟩ :: ⟨main_call1_v5, n_call1_v5⟩ :: ⟨main_call1_v4, n_call1_v4⟩ :: ⟨main_call1_v3, n_call1_v3⟩ :: ⟨main_call1_v2, n_call1_v2⟩ :: ⟨main_call1_cst_0, n_call1_cst_0⟩ :: ⟨main_call1_v1, n_call1_v1⟩ :: ⟨main_call1_v0, n_call1_v0⟩ :: ⟨main_call1_cst, n_call1_cst⟩ :: ⟨main_c_13, n_c_13⟩ :: ⟨main_v60, n_v60⟩ :: ⟨main_v59, n_v59⟩ :: ⟨main_cst_12, n_cst_12⟩ :: ⟨main_v58, n_v58⟩ :: ⟨main_cst_11, n_cst_11⟩ :: ⟨main_v57, n_v57⟩ :: ⟨main_v56, n_v56⟩ :: ⟨main_v55, n_v55⟩ :: ⟨main_v54, n_v54⟩ :: ⟨main_v53, n_v53⟩ :: ⟨main_v52, n_v52⟩ :: ⟨main_v51, n_v51⟩ :: ⟨main_v50, n_v50⟩ :: ⟨main_v49, n_v49⟩ :: ⟨main_v48, n_v48⟩ :: ⟨main_cst_10, n_cst_10⟩ :: facts0_1

abbrev facts1_1 : List Fact :=
  ⟨main_call2_v0, n_call2_v0⟩ :: ⟨main_call2_cst, n_call2_cst⟩ :: ⟨main_c_17, n_c_17⟩ :: ⟨main_v84, n_v84⟩ :: ⟨main_v83, n_v83⟩ :: ⟨main_cst_16, n_cst_16⟩ :: ⟨main_v82, n_v82⟩ :: ⟨main_cst_15, n_cst_15⟩ :: ⟨main_v81, n_v81⟩ :: ⟨main_v80, n_v80⟩ :: ⟨main_v79, n_v79⟩ :: ⟨main_v78, n_v78⟩ :: ⟨main_v77, n_v77⟩ :: ⟨main_v76, n_v76⟩ :: ⟨main_v75, n_v75⟩ :: ⟨main_v74, n_v74⟩ :: ⟨main_v73, n_v73⟩ :: ⟨main_v72, n_v72⟩ :: ⟨main_v71, n_v71⟩ :: ⟨main_v70, n_v70⟩ :: ⟨main_v69, n_v69⟩ :: ⟨main_v68, n_v68⟩ :: ⟨main_v67, n_v67⟩ :: ⟨main_v66, n_v66⟩ :: ⟨main_v65, n_v65⟩ :: ⟨main_cst_14, n_cst_14⟩ :: ⟨main_v64, n_v64⟩ :: ⟨main_v63, n_v63⟩ :: ⟨main_v62, n_v62⟩ :: ⟨main_v61, n_v61⟩ :: ⟨main_call1_call0_v1, n_call1_call0_v1⟩ :: ⟨main_call1_call0_v0, n_call1_call0_v0⟩ :: ⟨main_call1_cst_4, n_call1_cst_4⟩ :: ⟨main_call1_v12, n_call1_v12⟩ :: facts1_0

abbrev facts1_2 : List Fact :=
  ⟨main_v98, n_v98⟩ :: ⟨main_v97, n_v97⟩ :: ⟨main_v96, n_v96⟩ :: ⟨main_v95, n_v95⟩ :: ⟨main_v94, n_v94⟩ :: ⟨main_v93, n_v93⟩ :: ⟨main_v92, n_v92⟩ :: ⟨main_v91, n_v91⟩ :: ⟨main_v90, n_v90⟩ :: ⟨main_v89, n_v89⟩ :: ⟨main_cst_18, n_cst_18⟩ :: ⟨main_v88, n_v88⟩ :: ⟨main_v87, n_v87⟩ :: ⟨main_v86, n_v86⟩ :: ⟨main_v85, n_v85⟩ :: ⟨main_call2_call0_v1, n_call2_call0_v1⟩ :: ⟨main_call2_call0_v0, n_call2_call0_v0⟩ :: ⟨main_call2_cst_4, n_call2_cst_4⟩ :: ⟨main_call2_v12, n_call2_v12⟩ :: ⟨main_call2_cst_3, n_call2_cst_3⟩ :: ⟨main_call2_v11, n_call2_v11⟩ :: ⟨main_call2_v10, n_call2_v10⟩ :: ⟨main_call2_v9, n_call2_v9⟩ :: ⟨main_call2_cst_2, n_call2_cst_2⟩ :: ⟨main_call2_v8, n_call2_v8⟩ :: ⟨main_call2_cst_1, n_call2_cst_1⟩ :: ⟨main_call2_v7, n_call2_v7⟩ :: ⟨main_call2_v6, n_call2_v6⟩ :: ⟨main_call2_v5, n_call2_v5⟩ :: ⟨main_call2_v4, n_call2_v4⟩ :: ⟨main_call2_v3, n_call2_v3⟩ :: ⟨main_call2_v2, n_call2_v2⟩ :: ⟨main_call2_cst_0, n_call2_cst_0⟩ :: ⟨main_call2_v1, n_call2_v1⟩ :: facts1_1

abbrev facts2_0 : List Fact :=
  ⟨main_call4_v11, n_call4_v11⟩ :: ⟨main_call4_v10, n_call4_v10⟩ :: ⟨main_call4_v9, n_call4_v9⟩ :: ⟨main_call4_cst_2, n_call4_cst_2⟩ :: ⟨main_call4_v8, n_call4_v8⟩ :: ⟨main_call4_cst_1, n_call4_cst_1⟩ :: ⟨main_call4_v7, n_call4_v7⟩ :: ⟨main_call4_v6, n_call4_v6⟩ :: ⟨main_call4_v5, n_call4_v5⟩ :: ⟨main_call4_v4, n_call4_v4⟩ :: ⟨main_call4_v3, n_call4_v3⟩ :: ⟨main_call4_v2, n_call4_v2⟩ :: ⟨main_call4_cst_0, n_call4_cst_0⟩ :: ⟨main_call4_v1, n_call4_v1⟩ :: ⟨main_call4_v0, n_call4_v0⟩ :: ⟨main_call4_cst, n_call4_cst⟩ :: ⟨main_c_21, n_c_21⟩ :: ⟨main_v113, n_v113⟩ :: ⟨main_v112, n_v112⟩ :: ⟨main_cst_20, n_cst_20⟩ :: ⟨main_v111, n_v111⟩ :: ⟨main_cst_19, n_cst_19⟩ :: ⟨main_v110, n_v110⟩ :: ⟨main_v109, n_v109⟩ :: ⟨main_v108, n_v108⟩ :: ⟨main_v107, n_v107⟩ :: ⟨main_v106, n_v106⟩ :: ⟨main_v105, n_v105⟩ :: ⟨main_call3_v0, n_call3_v0⟩ :: ⟨main_call3_cst, n_call3_cst⟩ :: ⟨main_v104, n_v104⟩ :: ⟨main_v103, n_v103⟩ :: ⟨main_v102, n_v102⟩ :: ⟨main_v101, n_v101⟩ :: ⟨main_v100, n_v100⟩ :: ⟨main_v99, n_v99⟩ :: facts1_2

abbrev facts2_1 : List Fact :=
  ⟨main_v140, n_v140⟩ :: ⟨main_cst_23, n_cst_23⟩ :: ⟨main_v139, n_v139⟩ :: ⟨main_v138, n_v138⟩ :: ⟨main_v137, n_v137⟩ :: ⟨main_v136, n_v136⟩ :: ⟨main_v135, n_v135⟩ :: ⟨main_v134, n_v134⟩ :: ⟨main_call5_v0, n_call5_v0⟩ :: ⟨main_call5_cst, n_call5_cst⟩ :: ⟨main_v133, n_v133⟩ :: ⟨main_v132, n_v132⟩ :: ⟨main_v131, n_v131⟩ :: ⟨main_v130, n_v130⟩ :: ⟨main_v129, n_v129⟩ :: ⟨main_v128, n_v128⟩ :: ⟨main_v127, n_v127⟩ :: ⟨main_v126, n_v126⟩ :: ⟨main_v125, n_v125⟩ :: ⟨main_v124, n_v124⟩ :: ⟨main_v123, n_v123⟩ :: ⟨main_v122, n_v122⟩ :: ⟨main_v121, n_v121⟩ :: ⟨main_v120, n_v120⟩ :: ⟨main_v119, n_v119⟩ :: ⟨main_v118, n_v118⟩ :: ⟨main_cst_22, n_cst_22⟩ :: ⟨main_v117, n_v117⟩ :: ⟨main_v116, n_v116⟩ :: ⟨main_v115, n_v115⟩ :: ⟨main_v114, n_v114⟩ :: ⟨main_call4_call0_v1, n_call4_call0_v1⟩ :: ⟨main_call4_call0_v0, n_call4_call0_v0⟩ :: ⟨main_call4_cst_4, n_call4_cst_4⟩ :: ⟨main_call4_v12, n_call4_v12⟩ :: ⟨main_call4_cst_3, n_call4_cst_3⟩ :: facts2_0

abbrev facts2_2 : List Fact :=
  ⟨main_v150, n_v150⟩ :: ⟨main_v149, n_v149⟩ :: ⟨main_v148, n_v148⟩ :: ⟨main_v147, n_v147⟩ :: ⟨main_cst_26, n_cst_26⟩ :: ⟨main_v146, n_v146⟩ :: ⟨main_v145, n_v145⟩ :: ⟨main_v144, n_v144⟩ :: ⟨main_v143, n_v143⟩ :: ⟨main_call6_call0_v1, n_call6_call0_v1⟩ :: ⟨main_call6_call0_v0, n_call6_call0_v0⟩ :: ⟨main_call6_cst_4, n_call6_cst_4⟩ :: ⟨main_call6_v12, n_call6_v12⟩ :: ⟨main_call6_cst_3, n_call6_cst_3⟩ :: ⟨main_call6_v11, n_call6_v11⟩ :: ⟨main_call6_v10, n_call6_v10⟩ :: ⟨main_call6_v9, n_call6_v9⟩ :: ⟨main_call6_cst_2, n_call6_cst_2⟩ :: ⟨main_call6_v8, n_call6_v8⟩ :: ⟨main_call6_cst_1, n_call6_cst_1⟩ :: ⟨main_call6_v7, n_call6_v7⟩ :: ⟨main_call6_v6, n_call6_v6⟩ :: ⟨main_call6_v5, n_call6_v5⟩ :: ⟨main_call6_v4, n_call6_v4⟩ :: ⟨main_call6_v3, n_call6_v3⟩ :: ⟨main_call6_v2, n_call6_v2⟩ :: ⟨main_call6_cst_0, n_call6_cst_0⟩ :: ⟨main_call6_v1, n_call6_v1⟩ :: ⟨main_call6_v0, n_call6_v0⟩ :: ⟨main_call6_cst, n_call6_cst⟩ :: ⟨main_c_25, n_c_25⟩ :: ⟨main_v142, n_v142⟩ :: ⟨main_v141, n_v141⟩ :: ⟨main_cst_24, n_cst_24⟩ :: facts2_1

abbrev facts3_0 : List Fact :=
  ⟨main_v158, n_v158⟩ :: ⟨main_v157, n_v157⟩ :: ⟨main_v156, n_v156⟩ :: ⟨main_v155, n_v155⟩ :: ⟨main_v154, n_v154⟩ :: ⟨main_v153, n_v153⟩ :: ⟨main_v152, n_v152⟩ :: ⟨main_v151, n_v151⟩ :: facts2_2

end Cert.ReferenceIdeal.RunH

end
-- ==== Proof.Reference.Named.lean ====
import proofs.«121852_j34351148433892_2_alg».proof.Proof.Reference.Run
import proofs.«121852_j34351148433892_2_alg».proof.Proof.Reference.FactsTable
import proofs.«121852_j34351148433892_2_alg».proof.Proof.Bridge.Agree

noncomputable section

namespace Cert.ReferenceIdeal.RunH

open Cert.ReferenceIdeal Cert.ReferenceIdeal.Gen Idealize.ShloMosaic Idealize.ShloMosaic.TcCoe Idealize.SL.Sem Idealize.ShloMosaic.StableHlo

section
set_option maxRecDepth 16384
set_option maxHeartbeats 1600000

theorem holds0_0 (bufs : Cert.Bridge.Bufs) (V : Valuation τ sig (Elt Ideal)) (h : Holds facts0 bufs V) :
    Holds facts0_0 bufs (after (ops0_0 (F := Ideal)) V) := by
  simp only [after_cons, after_nil]
  holds_all

theorem holds0_1 (bufs : Cert.Bridge.Bufs) (V : Valuation τ sig (Elt Ideal)) (h : Holds facts0_0 bufs V) :
    Holds facts0_1 bufs (after (ops0_1 (F := Ideal)) V) := by
  simp only [after_cons, after_nil]
  holds_all

theorem holds1_0 (bufs : Cert.Bridge.Bufs) (V : Valuation τ sig (Elt Ideal)) (h : Holds facts0_1 bufs V) :
    Holds facts1_0 bufs (after (ops1_0 (F := Ideal)) V) := by
  simp only [after_cons, after_nil]
  holds_all

theorem holds1_1 (bufs : Cert.Bridge.Bufs) (V : Valuation τ sig (Elt Ideal)) (h : Holds facts1_0 bufs V) :
    Holds facts1_1 bufs (after (ops1_1 (F := Ideal)) V) := by
  simp only [after_cons, after_nil]
  holds_all

theorem holds1_2 (bufs : Cert.Bridge.Bufs) (V : Valuation τ sig (Elt Ideal)) (h : Holds facts1_1 bufs V) :
    Holds facts1_2 bufs (after (ops1_2 (F := Ideal)) V) := by
  simp only [after_cons, after_nil]
  holds_all

theorem holds2_0 (bufs : Cert.Bridge.Bufs) (V : Valuation τ sig (Elt Ideal)) (h : Holds facts1_2 bufs V) :
    Holds facts2_0 bufs (after (ops2_0 (F := Ideal)) V) := by
  simp only [after_cons, after_nil]
  holds_all

theorem holds2_1 (bufs : Cert.Bridge.Bufs) (V : Valuation τ sig (Elt Ideal)) (h : Holds facts2_0 bufs V) :
    Holds facts2_1 bufs (after (ops2_1 (F := Ideal)) V) := by
  simp only [after_cons, after_nil]
  holds_all

theorem holds2_2 (bufs : Cert.Bridge.Bufs) (V : Valuation τ sig (Elt Ideal)) (h : Holds facts2_1 bufs V) :
    Holds facts2_2 bufs (after (ops2_2 (F := Ideal)) V) := by
  simp only [after_cons, after_nil]
  holds_all

theorem holds3_0 (bufs : Cert.Bridge.Bufs) (V : Valuation τ sig (Elt Ideal)) (h : Holds facts2_2 bufs V) :
    Holds facts3_0 bufs (after (ops3_0 (F := Ideal)) V) := by
  simp only [after_cons, after_nil]
  holds_all

end

/-- Each stretch of the line adds its results to the buffers known to hold their named values, so the whole line does. -/
theorem holds_ops (bufs : Cert.Bridge.Bufs) (V : Valuation τ sig (Elt Ideal)) (h : Holds facts0 bufs V) :
    Holds facts3_0 bufs (after (ops (F := Ideal)) V) := by
  have e : after (ops (F := Ideal)) V = after ops3_0 (after ops2_2 (after ops2_1 (after ops2_0 (after ops1_2 (after ops1_1 (after ops1_0 (after ops0_1 (after ops0_0 V)))))))) := by
    simp only [ops, part0, part1, part2, part3, after_app_holds]
  rw [e]
  exact holds3_0 bufs _ (holds2_2 bufs _ (holds2_1 bufs _ (holds2_0 bufs _ (holds1_2 bufs _ (holds1_1 bufs _ (holds1_0 bufs _ (holds0_1 bufs _ (holds0_0 bufs V h))))))))

syntax "holds_base" : tactic
macro_rules
  | `(tactic| holds_base) => `(tactic| first | exact Holds.nil _ _ | (refine Holds.cons rfl ?_; holds_base))

theorem holds_launch (m : (ℓ : Loc nD τ sig) → Buf (Elt Ideal) ℓ) (c : Dev nD) :
    Holds facts0 (Cert.Bridge.bufsR m c) (fun b => m ((c : Dev nD), b)) := by holds_base

/-- After the whole line, from the starting contents, a listed buffer holds its named value of the argument arrays. -/
theorem rd (m : (ℓ : Loc nD τ sig) → Buf (Elt Ideal) ℓ) (c : Dev nD) {r : Ref sig .tc}
    {v : Cert.Bridge.Bufs → r.ty.Contents (Elt Ideal)} (hm : (⟨r, v⟩ : Fact) ∈ facts3_0) :
    StableHlo.after (ops (F := Ideal)) (fun b => m ((c : Dev nD), b)) (Proc.devRef .tc r) = v (Cert.Bridge.bufsR m c) :=
  (holds_ops _ _ (holds_launch m c)).get hm

set_option maxRecDepth 16384

theorem rd_v129 (m : (ℓ : Loc nD τ sig) → Buf (Elt Ideal) ℓ) (c : Dev nD) :
    StableHlo.after (ops (F := Ideal)) (fun b => m ((c : Dev nD), b)) (Proc.devRef .tc main_v129) = n_v129 (Cert.Bridge.bufsR m c) :=
  rd m c (by fact_mem)

theorem rd_v158 (m : (ℓ : Loc nD τ sig) → Buf (Elt Ideal) ℓ) (c : Dev nD) :
    StableHlo.after (ops (F := Ideal)) (fun b => m ((c : Dev nD), b)) (Proc.devRef .tc main_v158) = n_v158 (Cert.Bridge.bufsR m c) :=
  rd m c (by fact_mem)

end Cert.ReferenceIdeal.RunH

end
-- ==== Proof.Reference.ReadOps.lean ====
import proofs.«121852_j34351148433892_2_alg».proof.Proof.Gen.ReferenceIdeal
import proofs.«121852_j34351148433892_2_alg».proof.Proof.SpecLawsMore
import proofs.«121852_j34351148433892_2_alg».proof.Proof.Bridge.Args
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

namespace Cert.ReferenceIdeal.ReadOps

open Cert.ReferenceIdeal Cert.Bridge Cert.Spec Cert.SpecLaws Idealize.ShloMosaic Idealize.ShloMosaic.ValueIdx
open scoped BigOperators

theorem bcScalar {T : Shape} {α : Type} (h : (⟨0, ![]⟩ : Shape).BroadcastsInDim T ![])
    (x : (⟨0, ![]⟩ : Shape).Idx → α) : broadcastInDim T ![] h x = fun _ => x ix0 :=
  funext (broadcastInDim_scalar_apply h x)

theorem bcConst {T : Shape} (h : (⟨0, ![]⟩ : Shape).BroadcastsInDim T ![]) (w : BitVec 32) :
    broadcastInDim T ![] h (constant (F := Ideal) ⟨0, ![]⟩ .f32 w) = fun _ => Ideal.ofBits .f32 w :=
  bcScalar h _

-- A coordinate below n is its own image under a broadcast axis of extent n.
theorem axisVal {n : ℕ} (d : Fin n) : d.val = if n = 1 then 0 else d.val := by
  split_ifs with hn
  · have := d.isLt; omega
  · rfl

theorem bcToRow {n : ℕ} (h1 : (⟨1, ![n]⟩ : Shape).BroadcastsInDim ⟨2, ![1, n]⟩ ![1]) (f : Fin n → ℝ) :
    broadcastInDim ⟨2, ![1, n]⟩ ![1] h1 (E1 f) = E2 fun (_ : Fin 1) d => f d :=
  funext fun i => broadcastInDim_apply ![1] h1 _ i (ix1 (i 1)) fun a => by
    match a with
    | ⟨0, _⟩ => exact axisVal (i 1)

theorem bcDown {M n : ℕ} (h2 : (⟨2, ![1, n]⟩ : Shape).BroadcastsInDim ⟨2, ![M, n]⟩ ![0, 1])
    (G : Fin 1 → Fin n → ℝ) :
    broadcastInDim ⟨2, ![M, n]⟩ ![0, 1] h2 (E2 G) = E2 fun (_ : Fin M) d => G 0 d :=
  funext fun i => broadcastInDim_apply ![0, 1] h2 _ i (ix2 (0 : Fin 1) (i 1)) fun a => by
    match a with
    | ⟨0, _⟩ => rfl
    | ⟨1, _⟩ => exact axisVal (i 1)

theorem bcRow {M n : ℕ} (h1 : (⟨1, ![n]⟩ : Shape).BroadcastsInDim ⟨2, ![1, n]⟩ ![1])
    (h2 : (⟨2, ![1, n]⟩ : Shape).BroadcastsInDim ⟨2, ![M, n]⟩ ![0, 1]) (f : Fin n → ℝ) :
    broadcastInDim ⟨2, ![M, n]⟩ ![0, 1] h2 (broadcastInDim ⟨2, ![1, n]⟩ ![1] h1 (E1 f)) = E2 fun _ d => f d := by
  rw [bcToRow, bcDown]

variable {M : ℕ} {h' : (⟨2, ![M, 128]⟩ : Shape).ReducesTo [0] ⟨1, ![128]⟩} {hu : 0 < (⟨0, ![]⟩ : Shape).numel}
  {hb0 : (⟨0, ![]⟩ : Shape).BroadcastsInDim ⟨1, ![128]⟩ ![]}
  {hb01 : (⟨0, ![]⟩ : Shape).BroadcastsInDim ⟨2, ![1, 128]⟩ ![]}
  {h1 : (⟨1, ![128]⟩ : Shape).BroadcastsInDim ⟨2, ![1, 128]⟩ ![1]}
  {h2 : (⟨2, ![1, 128]⟩ : Shape).BroadcastsInDim ⟨2, ![M, 128]⟩ ![0, 1]}

-- The sum down the rows from a zero initial value: the column sums.
theorem colSum (X : Fin M → Fin 128 → ℝ) :
    Host.reduceAdd (F := Ideal) (φ := .f32) (E2 X) (constant ⟨0, ![]⟩ .f32 0x00000000#32) h' hu
      = E1 fun d => ∑ i, X i d := by
  funext j
  obtain ⟨d, rfl⟩ : ∃ d : Fin 128, j = ix1 d := ⟨j 0, eq_ix1 j⟩
  rw [hostReduceAdd_apply, Ideal.hostReduceAdd_single h' ⟨h'.1, Nat.one_pos, h'.2⟩, constant_apply, lit_zero]
  refine (congrArg (((0 : ℝ) : EReal) + ·) (Finset.sum_congr rfl fun k _ => ?_)).trans
    (coe_zero_add_sum Finset.univ fun i => X i d)
  exact congrArg (E2 X) (funext fun c => Fin.ext (by
    match c with
    | ⟨0, _⟩ => rfl
    | ⟨1, _⟩ => rfl))

theorem addE2 {M n : ℕ} (X Y : Fin M → Fin n → ℝ) :
    addf (F := Ideal) (φ := .f32) (E2 X) (E2 Y) = E2 fun i d => X i d + Y i d :=
  funext fun _ => addf_coe _ _

theorem subE2 {M n : ℕ} (X Y : Fin M → Fin n → ℝ) :
    subf (F := Ideal) (φ := .f32) (E2 X) (E2 Y) = E2 fun i d => X i d - Y i d :=
  funext fun _ => subf_coe _ _

theorem mulE2 {M n : ℕ} (X Y : Fin M → Fin n → ℝ) :
    mulf (F := Ideal) (φ := .f32) (E2 X) (E2 Y) = E2 fun i d => X i d * Y i d :=
  funext fun _ => mulf_coe _ _

theorem addE1 {n : ℕ} (f g : Fin n → ℝ) :
    addf (F := Ideal) (φ := .f32) (E1 f) (E1 g) = E1 fun d => f d + g d :=
  funext fun _ => addf_coe _ _

theorem divConstE1 {n : ℕ} (f : Fin n → ℝ) (c : ℝ) (hc : c ≠ 0) :
    Host.divf (F := Ideal) (φ := .f32) (E1 f) (fun _ => ((c : ℝ) : EReal)) = E1 fun d => f d / c :=
  funext fun _ => hostDivf_coe _ _ hc

theorem divConstE2 {M n : ℕ} (X : Fin M → Fin n → ℝ) (c : ℝ) (hc : c ≠ 0) :
    Host.divf (F := Ideal) (φ := .f32) (E2 X) (fun _ => ((c : ℝ) : EReal)) = E2 fun i d => X i d / c :=
  funext fun _ => hostDivf_coe _ _ hc

theorem rsqrtE1 {n : ℕ} (f : Fin n → ℝ) (hf : ∀ d, 0 < f d) :
    Host.rsqrt (F := Ideal) (φ := .f32) (E1 f) = E1 fun d => (Real.sqrt (f d))⁻¹ :=
  funext fun _ => hostRsqrt_coe _ (hf _)

theorem maxConstE2 {M n : ℕ} (X : Fin M → Fin n → ℝ) (c : ℝ) :
    maximumf (F := Ideal) (φ := .f32) (E2 X) (fun _ => ((c : ℝ) : EReal)) = E2 fun i d => max (X i d) c :=
  funext fun _ => maximumf_coe _ _

-- The row count less zero degrees of freedom is the row count.
theorem countLessZero (w : BitVec 32) (c : ℝ) (hw : Ideal.ofBits .f32 w = ((c : ℝ) : EReal)) :
    subf (F := Ideal) (φ := .f32) (constant ⟨0, ![]⟩ .f32 w)
        (sitofp .f32 (constantI ⟨0, ![]⟩ 32 0#32))
      = fun _ => ((c : ℝ) : EReal) := by
  funext j
  show FloatOps.subf (F := Ideal) (φ := .f32) (Ideal.ofBits .f32 w) (FloatOps.sitofp (F := Ideal) .f32 (0#32)) = _
  rw [hw, SpecLaws.sitofp_zero, subf_coe, sub_zero]

theorem hw50000 : Ideal.ofBits .f32 0x47435000#32 = (((50000 : ℕ) : ℝ) : EReal) := by
  rw [cast_50000]; exact lit_50000

theorem hw500000 : Ideal.ofBits .f32 0x48F42400#32 = (((500000 : ℕ) : ℝ) : EReal) := by
  rw [cast_500000]; exact lit_500000

theorem meanRec (w : BitVec 32) (hw : Ideal.ofBits .f32 w = (((M : ℕ) : ℝ) : EReal)) (hM : ((M : ℕ) : ℝ) ≠ 0)
    (X : Fin M → Fin 128 → ℝ) :
    Host.divf (F := Ideal) (φ := .f32)
        (Host.reduceAdd (E2 X) (constant ⟨0, ![]⟩ .f32 0x00000000#32) h' hu)
        (broadcastInDim ⟨1, ![128]⟩ ![] hb0 (constant ⟨0, ![]⟩ .f32 w))
      = E1 (mean X) := by
  rw [colSum, bcConst, hw, divConstE1 _ _ hM]
  rfl

-- The variance as written: squared deviations from the one-row mean, summed, over the positive row count.
theorem varRec (w : BitVec 32) (hw : Ideal.ofBits .f32 w = (((M : ℕ) : ℝ) : EReal)) (hM : 0 < ((M : ℕ) : ℝ))
    (X : Fin M → Fin 128 → ℝ)
    (D : FVec Ideal ⟨2, ![M, 128]⟩ .f32)
    (hD : D = subf (F := Ideal) (φ := .f32) (E2 X)
      (broadcastInDim ⟨2, ![M, 128]⟩ ![0, 1] h2
        (Host.divf
          (broadcastInDim ⟨2, ![1, 128]⟩ ![1] h1
            (Host.reduceAdd (E2 X) (constant ⟨0, ![]⟩ .f32 0x00000000#32) h' hu))
          (broadcastInDim ⟨2, ![1, 128]⟩ ![] hb01 (constant ⟨0, ![]⟩ .f32 w))))) :
    select
        (broadcastInDim ⟨1, ![128]⟩ ![] hb0
          (cmpf (F := Ideal) (φ := .f32) .ogt
            (subf (constant ⟨0, ![]⟩ .f32 w)
              (sitofp .f32 (constantI ⟨0, ![]⟩ 32 0#32)))
            (constant ⟨0, ![]⟩ .f32 0x00000000#32)))
        (Host.divf (F := Ideal) (φ := .f32)
          (Host.reduceAdd (mulf D D)
            (constant ⟨0, ![]⟩ .f32 0x00000000#32) h' hu)
          (broadcastInDim ⟨1, ![128]⟩ ![] hb0
            (subf (constant ⟨0, ![]⟩ .f32 w)
              (sitofp .f32 (constantI ⟨0, ![]⟩ 32 0#32)))))
        (broadcastInDim ⟨1, ![128]⟩ ![] hb0 (id (constant ⟨0, ![]⟩ .f32 0x7FC00000#32)))
      = E1 (var X) := by
  have hne : ((M : ℕ) : ℝ) ≠ 0 := hM.ne'
  rw [hD, countLessZero w _ hw, colSum, bcToRow, bcConst, hw, divConstE2 _ _ hne, bcDown, subE2, mulE2, colSum,
    bcScalar, bcScalar, bcScalar, divConstE1 _ _ hne]
  funext j
  rw [select_apply]
  show Scalar.select (Ideal.cmp .ogt ((((M : ℕ) : ℝ) : ℝ) : EReal) (Ideal.ofBits .f32 0x00000000#32)) _ _ = _
  rw [lit_zero, cmp_ogt_pos hM, select_one, E1_idx, E1_idx]
  congr 1
  unfold Cert.Spec.var Cert.Spec.mean
  congr 1
  exact Finset.sum_congr rfl fun i _ => (sq_eq_mul _).symm

theorem bnRec (we : BitVec 32) (eps : ℝ) (hwe : Ideal.ofBits .f32 we = ((eps : ℝ) : EReal)) (heps : 0 < eps)
    (X : Fin M → Fin 128 → ℝ) (g b : Fin 128 → ℝ) :
    addf (F := Ideal) (φ := .f32)
        (mulf
          (mulf
            (subf (E2 X)
              (broadcastInDim ⟨2, ![M, 128]⟩ ![0, 1] h2 (broadcastInDim ⟨2, ![1, 128]⟩ ![1] h1 (E1 (mean X)))))
            (broadcastInDim ⟨2, ![M, 128]⟩ ![0, 1] h2 (broadcastInDim ⟨2, ![1, 128]⟩ ![1] h1
              (Host.rsqrt
                (addf (E1 (var X))
                  (broadcastInDim ⟨1, ![128]⟩ ![] hb0 (constant ⟨0, ![]⟩ .f32 we)))))))
          (broadcastInDim ⟨2, ![M, 128]⟩ ![0, 1] h2 (broadcastInDim ⟨2, ![1, 128]⟩ ![1] h1 (E1 g))))
        (broadcastInDim ⟨2, ![M, 128]⟩ ![0, 1] h2 (broadcastInDim ⟨2, ![1, 128]⟩ ![1] h1 (E1 b)))
      = E2 (bn X g b eps) := by
  have hc : (fun _ : (⟨1, ![128]⟩ : Shape).Idx => ((eps : ℝ) : EReal)) = E1 fun _ : Fin 128 => eps := rfl
  rw [bcConst, hwe, hc, addE1, rsqrtE1 _ (fun d => var_add_pos X d heps), bcRow, bcRow, bcRow, bcRow,
    subE2, mulE2, mulE2, addE2]
  rfl

-- The product of two real matrices, contracted over the left factor's columns.
theorem dotE2 {K N : ℕ} (X : Fin M → Fin K → ℝ) (W : Fin K → Fin N → ℝ) :
    Host.dotGeneral (F := Ideal) (φ₁ := .f32) (φ₂ := .f32) (DotDims.plain M K N) none (E2 X) (E2 W)
      = E2 fun i d => ∑ k, X i k * W k d := by
  funext j
  obtain ⟨r, d, rfl⟩ : ∃ r d, j = ix2 r d := ⟨j 0, j 1, eq_ix2 j⟩
  rw [StackMember.dotGeneral_plain_apply]
  exact coe_sum_mul _ _ _

theorem projRec {K : ℕ} (A : Fin M → Fin 128 → ℝ) (Y : Fin M → Fin K → ℝ) (W : Fin K → Fin 128 → ℝ) (c : Fin 128 → ℝ) :
    addf (F := Ideal) (φ := .f32) (E2 A)
        (addf
          (Host.dotGeneral (F := Ideal) (φ₁ := .f32) (φ₂ := .f32) (DotDims.plain M K 128) none (E2 Y) (E2 W))
          (broadcastInDim ⟨2, ![M, 128]⟩ ![0, 1] h2 (broadcastInDim ⟨2, ![1, 128]⟩ ![1] h1 (E1 c))))
      = E2 fun i d => A i d + (∑ k, Y i k * W k d + c d) := by
  rw [dotE2, bcRow, addE2, addE2]

theorem ffnRec {g1 : (⟨1, ![256]⟩ : Shape).BroadcastsInDim ⟨2, ![1, 256]⟩ ![1]}
    {g2 : (⟨2, ![1, 256]⟩ : Shape).BroadcastsInDim ⟨2, ![M, 256]⟩ ![0, 1]}
    {g0 : (⟨0, ![]⟩ : Shape).BroadcastsInDim ⟨2, ![M, 256]⟩ ![]}
    (X : Fin M → Fin 128 → ℝ) (W1 : Fin 128 → Fin 256 → ℝ) (c1 : Fin 256 → ℝ)
    (W2 : Fin 256 → Fin 128 → ℝ) (c2 : Fin 128 → ℝ) :
    addf (F := Ideal) (φ := .f32) (E2 X)
        (addf
          (Host.dotGeneral (F := Ideal) (φ₁ := .f32) (φ₂ := .f32) (DotDims.plain M 256 128) none
            (maximumf
              (addf
                (Host.dotGeneral (F := Ideal) (φ₁ := .f32) (φ₂ := .f32) (DotDims.plain M 128 256) none (E2 X) (E2 W1))
                (broadcastInDim ⟨2, ![M, 256]⟩ ![0, 1] g2 (broadcastInDim ⟨2, ![1, 256]⟩ ![1] g1 (E1 c1))))
              (broadcastInDim ⟨2, ![M, 256]⟩ ![] g0 (constant ⟨0, ![]⟩ .f32 0x00000000#32)))
            (E2 W2))
          (broadcastInDim ⟨2, ![M, 128]⟩ ![0, 1] h2 (broadcastInDim ⟨2, ![1, 128]⟩ ![1] h1 (E1 c2))))
      = E2 (ffn X W1 c1 W2 c2) := by
  rw [dotE2, bcRow, addE2, bcConst, lit_zero, maxConstE2, projRec]
  rfl

end Cert.ReferenceIdeal.ReadOps
-- ==== Proof.Bridge.GatherR.lean ====
import proofs.«121852_j34351148433892_2_alg».proof.ReferenceIdeal
import proofs.«121852_j34351148433892_2_alg».proof.Proof.Bridge.Index
import proofs.«121852_j34351148433892_2_alg».proof.Proof.Bridge.IndexOps

noncomputable section

open scoped BigOperators

namespace Cert.Bridge.R

open Idealize.ShloMosaic Idealize.ShloMosaic.ValueIdx Cert.ReferenceIdeal

variable [Facts₀]
open Facts₀

abbrev idxWrap (a : IVec S500000 32) : IVec S500000x1 32 :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 50000#32))) a)

abbrev idxRaw (a : IVec S500000 32) : IVec S500000x1 32 :=
  broadcastInDim S500000x1 ![0] bcast_S500000_S500000x1_0 a

theorem idxRaw_apply (a : IVec S500000 32) (r : Fin 500000) (z : Fin 1) : idxRaw a (ix2 r z) = a (ix1 r) :=
  bcastCol_apply (R := 500000) (by decide) _ a r z

-- Entry r of the rewritten column is the rewriting of word r: comparison, sum and choice are elementwise.
theorem idxWrap_apply (a : IVec S500000 32) (r : Fin 500000) (z : Fin 1) : idxWrap a (ix2 r z) = wrapW (a (ix1 r)) :=
  bcastCol_apply (R := 500000) (by decide) _ _ r z

theorem gather8x16_apply {α : Type} (x : S50000x8x16.Idx → α) (a : IVec S500000 32) (r : Fin 500000) (h : Fin 8)
    (j : Fin 16) :
    Host.gather gather_S50000x8x16_S500000x1_S500000x8x16_12_0_n_n_0_1_1816 x (idxWrap a) (ix3 r h j)
      = x (ix3 (gRow (a (ix1 r))) h j) :=
  (gather_rows3_apply (N := 50000) (by decide) gather_S50000x8x16_S500000x1_S500000x8x16_12_0_n_n_0_1_1816_wf x
    (idxWrap a) r h j).trans (congrArg (fun t => x (ix3 t h j))
      (Fin.ext (congrArg (fun v : BitVec 32 => min v.toInt.toNat 49999) (idxWrap_apply a r 0))))

abbrev zeros8x16 : FVec Ideal S50000x8x16 .f32 :=
  broadcastInDim S50000x8x16 ![] bcast_S_S50000x8x16 (constant S_ .f32 0x00000000#32)

theorem scatter8x16_apply (u : S500000x8x16.Idx → EReal) (a : IVec S500000 32) (n : Fin 50000) (h : Fin 8)
    (j : Fin 16) :
    Host.scatterAdd (F := Ideal) (φ := .f32) scatter_S50000x8x16_S500000x1_S500000x8x16_12_0_0_1 zeros8x16 (idxRaw a) u
        (ix3 n h j)
      = ∑ r ∈ Finset.univ.filter (fun r : Fin 500000 => sRow (a (ix1 r)) = some n), u (ix3 r h j) := by
  have e : scatter_S50000x8x16_S500000x1_S500000x8x16_12_0_0_1
      = addDims3 50000 500000 8 16 scatter_S50000x8x16_S500000x1_S500000x8x16_12_0_0_1_wf := rfl
  have hz : zeros8x16 (ix3 n h j) = 0 := zeroTable_apply _ _
  unfold Host.scatterAdd
  rw [Ideal.hostScatterAdd_def, e, scatterAdd_rows3_apply, hz, zero_add]
  refine Finset.sum_congr (Finset.filter_congr fun r _ => ?_) fun _ _ => rfl
  rw [sRow_eq_some_iff, idxRaw_apply]

abbrev zeros8x1 : FVec Ideal S50000x8x1 .f32 :=
  broadcastInDim S50000x8x1 ![] bcast_S_S50000x8x1 (constant S_ .f32 0x00000000#32)

theorem scatter8x1_apply (u : S500000x8x1.Idx → EReal) (a : IVec S500000 32) (n : Fin 50000) (h : Fin 8)
    (j : Fin 1) :
    Host.scatterAdd (F := Ideal) (φ := .f32) scatter_S50000x8x1_S500000x1_S500000x8x1_12_0_0_1 zeros8x1 (idxRaw a) u
        (ix3 n h j)
      = ∑ r ∈ Finset.univ.filter (fun r : Fin 500000 => sRow (a (ix1 r)) = some n), u (ix3 r h j) := by
  have e : scatter_S50000x8x1_S500000x1_S500000x8x1_12_0_0_1
      = addDims3 50000 500000 8 1 scatter_S50000x8x1_S500000x1_S500000x8x1_12_0_0_1_wf := rfl
  have hz : zeros8x1 (ix3 n h j) = 0 := zeroTable_apply _ _
  unfold Host.scatterAdd
  rw [Ideal.hostScatterAdd_def, e, scatterAdd_rows3_apply, hz, zero_add]
  refine Finset.sum_congr (Finset.filter_congr fun r _ => ?_) fun _ _ => rfl
  rw [sRow_eq_some_iff, idxRaw_apply]

end Cert.Bridge.R
-- ==== Proof.Reference.ReadA.lean ====
import proofs.«121852_j34351148433892_2_alg».proof.Proof.Reference.NamedTable
import proofs.«121852_j34351148433892_2_alg».proof.Proof.Reference.ReadOps
import proofs.«121852_j34351148433892_2_alg».proof.Proof.Bridge.GatherR

noncomputable section

open scoped BigOperators

namespace Cert.ReferenceIdeal.ReadH

open Cert.ReferenceIdeal Cert.ReferenceIdeal.RunH Cert.Bridge Cert.Spec Cert.SpecLaws Idealize.ShloMosaic
  Idealize.ShloMosaic.ValueIdx

-- A real matrix with 128 columns as an [M, 8, 16] array: entry (n, h, j) is column 16h + j of row n.
def E3l_readA {M : ℕ} (f : Fin M → Fin 128 → ℝ) : (⟨3, ![M, 8, 16]⟩ : Shape).Idx → EReal :=
  fun i => ((f (i 0) (lane (i 1) (i 2)) : ℝ) : EReal)

def E3h_readA {M : ℕ} (f : Fin M → Fin 8 → ℝ) : (⟨3, ![M, 8, 1]⟩ : Shape).Idx → EReal :=
  fun i => ((f (i 0) (i 1) : ℝ) : EReal)

theorem E3l_apply_readA {M : ℕ} (f : Fin M → Fin 128 → ℝ) (n : Fin M) (h : Fin 8) (j : Fin 16) :
    E3l_readA f (ix3 n h j) = ((f n (lane h j) : ℝ) : EReal) := rfl

theorem merge_readA {α : Type} {M : ℕ} (x : (⟨3, ![M, 8, 16]⟩ : Shape).Idx → α)
    (hc : (⟨3, ![M, 8, 16]⟩ : Shape).ShapeCasts ⟨2, ![M, 128]⟩) (n : Fin M) (d : Fin 128) :
    shapeCast ⟨2, ![M, 128]⟩ x hc (ix2 n d)
      = x (ix3 n (hd d) ⟨d.val % 16, Nat.mod_lt _ (by decide)⟩) := by
  apply shapeCast_apply
  rw [Shape.rowMajor_val_two, Shape.rowMajor_val_three]
  show (n.val * 8 + d.val / 16) * 16 + d.val % 16 = n.val * 128 + d.val
  omega

theorem lane_hd_mod_readA (d : Fin 128) : lane (hd d) ⟨d.val % 16, Nat.mod_lt _ (by decide)⟩ = d := by
  apply Fin.ext
  show 16 * (d.val / 16) + d.val % 16 = d.val
  omega

theorem merge_E3l_readA {M : ℕ} (f : Fin M → Fin 128 → ℝ)
    (hc : (⟨3, ![M, 8, 16]⟩ : Shape).ShapeCasts ⟨2, ![M, 128]⟩) :
    shapeCast ⟨2, ![M, 128]⟩ (E3l_readA f) hc = E2 f := by
  funext i
  obtain ⟨n, d, rfl⟩ : ∃ n d, i = ix2 n d := ⟨i 0, i 1, eq_ix2 i⟩
  rw [merge_readA, E3l_apply_readA, lane_hd_mod_readA, E2_apply]

-- A projection by a 128 × 128 weight matrix, split into heads.
theorem projSplit_readA {M : ℕ} (x : Fin M → Fin 128 → ℝ) (w : Fin 128 → Fin 128 → ℝ)
    (hc : (⟨2, ![M, 128]⟩ : Shape).ShapeCasts ⟨3, ![M, 8, 16]⟩) :
    shapeCast ⟨3, ![M, 8, 16]⟩
        (Host.dotGeneral (F := Ideal) (φ₁ := .f32) (φ₂ := .f32) (DotDims.plain M 128 128) none (E2 x) (E2 w)) hc
      = E3l_readA fun n d => ∑ k, x n k * w k d := by
  rw [ReadOps.dotE2]
  funext i
  obtain ⟨n, h, j, rfl⟩ : ∃ n h j, i = ix3 n h j := ⟨i 0, i 1, i 2, eq_ix3 i⟩
  refine shapeCast_apply (E2 _) hc _ (ix2 n (lane h j)) ?_
  rw [Shape.rowMajor_val_two, Shape.rowMajor_val_three]
  show n.val * 128 + (16 * h.val + j.val) = (n.val * 8 + h.val) * 16 + j.val
  omega

theorem mulf_E3l_readA (f g : Fin 500000 → Fin 128 → ℝ) :
    mulf (F := Ideal) (φ := .f32) (s := S500000x8x16) (E3l_readA f) (E3l_readA g)
      = E3l_readA fun r d => f r d * g r d :=
  funext fun _ => coe_mul _ _

theorem divf_E3l_readA (f : Fin 500000 → Fin 128 → ℝ) (c : ℝ) (hc : c ≠ 0) :
    Host.divf (F := Ideal) (φ := .f32) (s := S500000x8x16) (E3l_readA f) (fun _ => ((c : ℝ) : EReal))
      = E3l_readA fun r d => f r d / c :=
  funext fun _ => (Cert.SpecLaws.hostDivf_apply _ _ _).trans (div_coe _ _ hc)

theorem gather_E3l_readA (f : Fin 50000 → Fin 128 → ℝ) (w : IVec S500000 32) :
    Host.gather gather_S50000x8x16_S500000x1_S500000x8x16_12_0_n_n_0_1_1816 (E3l_readA f) (R.idxWrap w)
      = E3l_readA fun r d => f (gRow (w (ix1 r))) d := by
  funext i
  obtain ⟨r, h, j, rfl⟩ : ∃ r h j, i = ix3 r h j := ⟨i 0, i 1, i 2, eq_ix3 i⟩
  exact R.gather8x16_apply _ _ r h j

-- The sum over the 16 lanes of a head: the initial value plus the 16 entries.
theorem laneSum_readA (x : FVec Ideal S500000x8x16 .f32) (init : S_.Idx → Ideal .f32)
    (h' : S500000x8x16.ReducesTo [2] S500000x8) (hu : 0 < S_.numel) (n : Fin 500000) (h : Fin 8) :
    Host.reduceAdd (F := Ideal) (φ := .f32) x init h' hu (ix2 n h)
      = init (Shape.Idx.first hu) + ∑ j : Fin 16, x (ix3 n h j) := by
  rw [hostReduceAdd_apply, Ideal.hostReduceAdd_single h' (by decide)]
  refine congrArg (init (Shape.Idx.first hu) + ·) (Finset.sum_congr rfl fun j _ => congrArg x ?_)
  funext c
  apply Fin.ext
  match c with
  | ⟨0, _⟩ => rfl
  | ⟨1, _⟩ => rfl
  | ⟨2, _⟩ => rfl

variable {b : Bufs}

theorem v1_readA (hb : b.Finite) : n_v1 b = E3l_readA (Q (argsOf b)) := by
  unfold n_v1 n_v0
  rw [a0_eq hb, a5_eq hb]
  exact projSplit_readA _ _ _

theorem v3_readA (hb : b.Finite) : n_v3 b = E3l_readA (K (argsOf b)) := by
  unfold n_v3 n_v2
  rw [a0_eq hb, a6_eq hb]
  exact projSplit_readA _ _ _

theorem v5_readA (hb : b.Finite) : n_v5 b = E3l_readA (Vv (argsOf b)) := by
  unfold n_v5 n_v4
  rw [a0_eq hb, a7_eq hb]
  exact projSplit_readA _ _ _

theorem v7_readA (hb : b.Finite) : n_v7 b = E3l_readA (pe (argsOf b)) := by
  unfold n_v7 n_v6
  rw [a1_eq hb, a8_eq hb]
  exact projSplit_readA _ _ _

theorem v13_readA : n_v13 b = R.idxWrap b.a3 := rfl
theorem v20_readA : n_v20 b = R.idxWrap b.a4 := rfl
theorem v36_readA : n_v36 b = R.idxWrap b.a3 := rfl

theorem v23_readA : n_v23 b = fun _ => ((4 : ℝ) : EReal) := by
  unfold n_v23 n_cst
  funext i
  rw [broadcastInDim_scalar_apply, constant_apply, lit_four]

-- The per-lane score: key of the source times query of the destination over 4, times the edge projection.
theorem v25_readA (hb : b.Finite) : n_v25 b = E3l_readA (score (argsOf b)) := by
  unfold n_v25 n_v24 n_v22 n_v21 n_v14
  rw [v3_readA hb, v1_readA hb, v7_readA hb, v13_readA, v20_readA, v23_readA]
  beta_reduce
  rw [gather_E3l_readA, gather_E3l_readA, mulf_E3l_readA, divf_E3l_readA _ _ (by norm_num), mulf_E3l_readA]
  rfl

theorem read_score (b : Bufs) (hb : b.Finite) : n_v26 b = E2 (score (argsOf b)) := by
  unfold n_v26
  rw [v25_readA hb]
  exact merge_E3l_readA _ _

theorem v27_readA (hb : b.Finite) : n_v27 b = E2 (hsum (argsOf b)) := by
  unfold n_v27 n_cst_3
  rw [v25_readA hb]
  funext i
  obtain ⟨r, h, rfl⟩ : ∃ r h, i = ix2 r h := ⟨i 0, i 1, eq_ix2 i⟩
  refine (laneSum_readA _ _ _ _ r h).trans ?_
  rw [constant_apply, lit_zero]
  exact coe_zero_add_sum _ _

-- The head sums clipped to [-5, 5] and exponentiated: the weight of an edge and head.
theorem v30_readA (hb : b.Finite) : n_v30 b = E3h_readA (s (argsOf b)) := by
  have h1 : n_call0_v1 b = fun _ => ((-5 : ℝ) : EReal) := by
    unfold n_call0_v1 n_call0_v0 n_cst_4
    funext i
    rw [broadcastInDim_scalar_apply]
    exact lit_neg_five
  have h4 : n_call0_v4 b = fun _ => ((5 : ℝ) : EReal) := by
    unfold n_call0_v4 n_call0_v3 n_cst_5
    funext i
    rw [broadcastInDim_scalar_apply]
    exact lit_five
  have h28 : n_v28 b = E3h_readA (hsum (argsOf b)) := by
    unfold n_v28
    rw [v27_readA hb]
    funext i
    exact broadcastInDim_apply _ _ _ i (ix2 (i 0) (i 1)) fun a => by
      match a with
      | ⟨0, _⟩ => rfl
      | ⟨1, _⟩ => rfl
  unfold n_v30 n_v29 n_call0_v2
  rw [h1, h4, h28]
  funext i
  exact congrArg Ideal.exp ((congrArg (min _) (max_coe _ _)).trans (min_coe _ _))

theorem v38_readA (hb : b.Finite) : n_v38 b = E3l_readA fun r _ => (argsOf b).env r := by
  unfold n_v38
  rw [a2_eq hb]
  funext i
  exact broadcastInDim_apply _ _ _ i (ix3 (i 0) 0 0) fun a => by
    match a with
    | ⟨0, _⟩ => rfl
    | ⟨1, _⟩ => rfl
    | ⟨2, _⟩ => rfl

theorem v40_readA (hb : b.Finite) : n_v40 b = E3l_readA fun r d => s (argsOf b) r (hd d) := by
  unfold n_v40
  rw [v30_readA hb]
  funext i
  obtain ⟨r, h, j, rfl⟩ : ∃ r h j, i = ix3 r h j := ⟨i 0, i 1, i 2, eq_ix3 i⟩
  rw [E3l_apply_readA, hd_lane]
  exact broadcastInDim_apply _ _ _ _ (ix3 r h 0) fun a => by
    match a with
    | ⟨0, _⟩ => rfl
    | ⟨1, _⟩ => rfl
    | ⟨2, _⟩ => rfl

-- The message of an edge: the gathered value times the envelope times the weight of the lane's head.
theorem v41_readA (hb : b.Finite) : n_v41 b = E3l_readA (msg (argsOf b)) := by
  unfold n_v41 n_v39 n_v37
  rw [v5_readA hb, v36_readA, v38_readA hb, v40_readA hb]
  beta_reduce
  rw [gather_E3l_readA, mulf_E3l_readA, mulf_E3l_readA]
  rfl

theorem read_wV (b : Bufs) (hb : b.Finite) :
    n_v44 b = fun i => ((wV (argsOf b) (i 0) (lane (i 1) (i 2)) : ℝ) : EReal) := by
  unfold n_v44
  rw [v41_readA hb]
  funext i
  obtain ⟨n, h, j, rfl⟩ : ∃ n h j, i = ix3 n h j := ⟨i 0, i 1, i 2, eq_ix3 i⟩
  exact (R.scatter8x16_apply _ b.a4 n h j).trans (coe_sum _ _)

theorem read_z (b : Bufs) (hb : b.Finite) :
    n_v47 b = fun i => ((z (argsOf b) (i 0) (i 1) : ℝ) : EReal) := by
  unfold n_v47
  rw [v30_readA hb]
  funext i
  obtain ⟨n, h, u, rfl⟩ : ∃ n h u, i = ix3 n h u := ⟨i 0, i 1, i 2, eq_ix3 i⟩
  exact (R.scatter8x1_apply _ b.a4 n h u).trans (coe_sum _ _)

end Cert.ReferenceIdeal.ReadH

end
-- ==== Proof.Reference.ReadB.lean ====
import proofs.«121852_j34351148433892_2_alg».proof.Proof.Reference.NamedTable
import proofs.«121852_j34351148433892_2_alg».proof.Proof.Reference.ReadOps
import proofs.«121852_j34351148433892_2_alg».proof.Proof.Reference.ReadA

noncomputable section

namespace Cert.ReferenceIdeal.ReadH

open Cert.ReferenceIdeal Cert.ReferenceIdeal.Gen Cert.ReferenceIdeal.RunH Cert.ReferenceIdeal.ReadOps
open Cert.Bridge Cert.Spec Cert.SpecLaws
open Idealize.ShloMosaic Idealize.ShloMosaic.ValueIdx
open scoped BigOperators

variable {b : Bufs}

-- The summed messages over the regularised summed weights, head by head, laid out again as 128 lanes.
theorem n_v52_eq
    (h44 : n_v44 b = fun i => ((wV (argsOf b) (i 0) (lane (i 1) (i 2)) : ℝ) : EReal))
    (h47 : n_v47 b = fun i => ((z (argsOf b) (i 0) (i 1) : ℝ) : EReal)) :
    n_v52 b = E2 (vattn (argsOf b)) := by
  funext i
  obtain ⟨r, d, rfl⟩ : ∃ (r : Fin 50000) (d : Fin 128), i = ix2 r d := ⟨i 0, i 1, eq_ix2 i⟩
  unfold n_v52
  rw [merge_readA]
  unfold n_v51
  rw [Idealize.ShloMosaic.ValueIdx.hostDivf_apply, h44]
  unfold n_v50
  rw [broadcastInDim_apply ![0, 1, 2] bcast_S50000x8x1_S50000x8x16_0_1_2 (n_v49 b) _ (ix3 r (hd d) (0 : Fin 1)) (fun a => by
      match a with
      | ⟨0, _⟩ => rfl
      | ⟨1, _⟩ => rfl
      | ⟨2, _⟩ => rfl)]
  unfold n_v49 n_v48 n_cst_10
  rw [addf_apply, h47, broadcastInDim_scalar_apply, constant_apply, lit_eps6 b]
  show Ideal.div ((wV (argsOf b) r (lane (hd d) _) : ℝ) : EReal)
      (((z (argsOf b) r (hd d) : ℝ) : EReal) + (((argsOf b).eps6 : ℝ) : EReal)) = _
  rw [coe_add, div_coe _ _ (z_add_eps_ne _ _ _), lane_hd_mod_readA]
  rfl

theorem n_v57_eq (hb : b.Finite) (h52 : n_v52 b = E2 (vattn (argsOf b))) : n_v57 b = E2 (preV1 (argsOf b)) := by
  unfold n_v57 n_v56 n_v55 n_v54 n_v53
  rw [h52, a0_eq hb, a9_eq hb, a10_eq hb]
  exact projRec _ _ _ _

theorem n_v81_eq (hb : b.Finite) (h26 : n_v26 b = E2 (score (argsOf b))) : n_v81 b = E2 (preE1 (argsOf b)) := by
  unfold n_v81 n_v80 n_v79 n_v78 n_v77
  rw [h26, a1_eq hb, a11_eq hb, a12_eq hb]
  exact projRec _ _ _ _

-- Each stream is normalised by its own column means and variances.
theorem n_v76_eq (hb : b.Finite) (h : n_v57 b = E2 (preV1 (argsOf b))) : n_v76 b = E2 (v1 (argsOf b)) := by
  have hm : n_v60 b = E1 (mean (preV1 (argsOf b))) := by
    unfold n_v60 n_v59 n_cst_12 n_v58 n_cst_11
    rw [h]
    exact meanRec _ hw50000 cast_50000_ne _
  have hv : n_v61 b = E1 (var (preV1 (argsOf b))) := by
    unfold n_v61 n_call1_call0_v1 n_call1_call0_v0 n_call1_cst_4 n_call1_v12 n_call1_cst_3 n_call1_v11 n_call1_v10
      n_call1_v9 n_call1_cst_2 n_call1_v8 n_call1_cst_1 n_call1_v7 n_c_13 n_call1_v6 n_call1_v5 n_call1_v4 n_call1_v3
      n_call1_v2 n_call1_cst_0 n_call1_v1 n_call1_v0 n_call1_cst
    rw [h]
    exact varRec _ hw50000 (by norm_num) _ _ rfl
  unfold n_v76 n_v75 n_v74 n_v73 n_v72 n_v71 n_v70 n_v69 n_v68 n_v67 n_v66 n_v65 n_cst_14 n_v64 n_v63 n_v62
  rw [hm, hv, h, a13_eq hb, a14_eq hb]
  exact bnRec _ _ (lit_eps5 b) (argsOf b).heps5 _ _ _

theorem n_v100_eq (hb : b.Finite) (h : n_v81 b = E2 (preE1 (argsOf b))) : n_v100 b = E2 (e1 (argsOf b)) := by
  have hm : n_v84 b = E1 (mean (preE1 (argsOf b))) := by
    unfold n_v84 n_v83 n_cst_16 n_v82 n_cst_15
    rw [h]
    exact meanRec _ hw500000 cast_500000_ne _
  have hv : n_v85 b = E1 (var (preE1 (argsOf b))) := by
    unfold n_v85 n_call2_call0_v1 n_call2_call0_v0 n_call2_cst_4 n_call2_v12 n_call2_cst_3 n_call2_v11 n_call2_v10
      n_call2_v9 n_call2_cst_2 n_call2_v8 n_call2_cst_1 n_call2_v7 n_c_17 n_call2_v6 n_call2_v5 n_call2_v4 n_call2_v3
      n_call2_v2 n_call2_cst_0 n_call2_v1 n_call2_v0 n_call2_cst
    rw [h]
    exact varRec _ hw500000 (by norm_num) _ _ rfl
  unfold n_v100 n_v99 n_v98 n_v97 n_v96 n_v95 n_v94 n_v93 n_v92 n_v91 n_v90 n_v89 n_cst_18 n_v88 n_v87 n_v86
  rw [hm, hv, h, a15_eq hb, a16_eq hb]
  exact bnRec _ _ (lit_eps5 b) (argsOf b).heps5 _ _ _

theorem read_mid (b : Bufs) (hb : b.Finite) (h26 : n_v26 b = E2 (score (argsOf b)))
    (h44 : n_v44 b = fun i => ((wV (argsOf b) (i 0) (lane (i 1) (i 2)) : ℝ) : EReal))
    (h47 : n_v47 b = fun i => ((z (argsOf b) (i 0) (i 1) : ℝ) : EReal)) :
    n_v76 b = E2 (v1 (argsOf b)) ∧ n_v100 b = E2 (e1 (argsOf b)) :=
  ⟨n_v76_eq hb (n_v57_eq hb (n_v52_eq h44 h47)), n_v100_eq hb (n_v81_eq hb h26)⟩

end Cert.ReferenceIdeal.ReadH
-- ==== Proof.Reference.ReadC.lean ====
import proofs.«121852_j34351148433892_2_alg».proof.Proof.Reference.NamedTable
import proofs.«121852_j34351148433892_2_alg».proof.Proof.Reference.ReadOps

noncomputable section

open scoped BigOperators

namespace Cert.ReferenceIdeal.ReadH

open Cert.ReferenceIdeal Cert.ReferenceIdeal.RunH Cert.ReferenceIdeal.ReadOps Cert.Bridge Cert.Spec Cert.SpecLaws
  Idealize.ShloMosaic Idealize.ShloMosaic.ValueIdx

variable {b : Bufs}

theorem v110_readC (hb : b.Finite) (hin : n_v76 b = E2 (v1 (argsOf b))) :
    n_v110 b = E2 (fV (argsOf b)) := by
  unfold n_v110 n_v109 n_v108 n_v107 n_v106 n_v105 n_call3_v0 n_call3_cst n_v104 n_v103 n_v102 n_v101
  rw [hin, a17_eq hb, a18_eq hb, a19_eq hb, a20_eq hb]
  exact ffnRec _ _ _ _ _

theorem v129_readC (hb : b.Finite) {Z : Fin 50000 → Fin 128 → ℝ} (hz : n_v110 b = E2 Z) :
    n_v129 b = E2 (bn Z (argsOf b).g2v (argsOf b).b2v eps5) := by
  have hm : n_v113 b = E1 (mean Z) := by
    unfold n_v113 n_v112 n_cst_20 n_v111 n_cst_19
    rw [hz]
    exact meanRec _ hw50000 cast_50000_ne Z
  have hv : n_v114 b = E1 (var Z) := by
    unfold n_v114 n_call4_call0_v1 n_call4_call0_v0 n_call4_cst_4 n_call4_v12 n_call4_cst_3 n_call4_v11 n_call4_v10 n_call4_v9 n_call4_cst_2 n_call4_v8 n_call4_cst_1 n_call4_v7 n_c_21 n_call4_v6 n_call4_v5 n_call4_v4 n_call4_v3 n_call4_v2 n_call4_cst_0 n_call4_v1 n_call4_v0 n_call4_cst
    rw [hz]
    exact varRec _ hw50000 (by norm_num) Z _ rfl
  unfold n_v129 n_v128 n_v127 n_v126 n_v125 n_v124 n_v123 n_v122 n_v121 n_v120 n_v119 n_v118 n_cst_22 n_v117 n_v116 n_v115
  rw [hm, hv, hz, a25_eq hb, a26_eq hb]
  exact bnRec _ eps5 lit_eps5 eps5_pos Z _ _

theorem v139_readC (hb : b.Finite) (hin : n_v100 b = E2 (e1 (argsOf b))) :
    n_v139 b = E2 (fE (argsOf b)) := by
  unfold n_v139 n_v138 n_v137 n_v136 n_v135 n_v134 n_call5_v0 n_call5_cst n_v133 n_v132 n_v131 n_v130
  rw [hin, a21_eq hb, a22_eq hb, a23_eq hb, a24_eq hb]
  exact ffnRec _ _ _ _ _

theorem v158_readC (hb : b.Finite) {Z : Fin 500000 → Fin 128 → ℝ} (hz : n_v139 b = E2 Z) :
    n_v158 b = E2 (bn Z (argsOf b).g2e (argsOf b).b2e eps5) := by
  have hm : n_v142 b = E1 (mean Z) := by
    unfold n_v142 n_v141 n_cst_24 n_v140 n_cst_23
    rw [hz]
    exact meanRec _ hw500000 cast_500000_ne Z
  have hv : n_v143 b = E1 (var Z) := by
    unfold n_v143 n_call6_call0_v1 n_call6_call0_v0 n_call6_cst_4 n_call6_v12 n_call6_cst_3 n_call6_v11 n_call6_v10 n_call6_v9 n_call6_cst_2 n_call6_v8 n_call6_cst_1 n_call6_v7 n_c_25 n_call6_v6 n_call6_v5 n_call6_v4 n_call6_v3 n_call6_v2 n_call6_cst_0 n_call6_v1 n_call6_v0 n_call6_cst
    rw [hz]
    exact varRec _ hw500000 (by norm_num) Z _ rfl
  unfold n_v158 n_v157 n_v156 n_v155 n_v154 n_v153 n_v152 n_v151 n_v150 n_v149 n_v148 n_v147 n_cst_26 n_v146 n_v145 n_v144
  rw [hm, hv, hz, a27_eq hb, a28_eq hb]
  exact bnRec _ eps5 lit_eps5 eps5_pos Z _ _

theorem read_out2 (b : Cert.Bridge.Bufs) (hb : b.Finite) (h76 : n_v76 b = E2 (Cert.Spec.v1 (argsOf b)))
    (h100 : n_v100 b = E2 (Cert.Spec.e1 (argsOf b))) :
    n_v129 b = E2 (Cert.Spec.outV (argsOf b)) ∧ n_v158 b = E2 (Cert.Spec.outE (argsOf b)) :=
  ⟨v129_readC hb (v110_readC hb h76), v158_readC hb (v139_readC hb h100)⟩

end Cert.ReferenceIdeal.ReadH

end
-- ==== Proof.Reference.Value.lean ====
import proofs.«121852_j34351148433892_2_alg».proof.Proof.Reference.Named
import proofs.«121852_j34351148433892_2_alg».proof.Proof.Reference.ReadA
import proofs.«121852_j34351148433892_2_alg».proof.Proof.Reference.ReadB
import proofs.«121852_j34351148433892_2_alg».proof.Proof.Reference.ReadC
import proofs.«121852_j34351148433892_2_alg».proof.Proof.Bridge.Agree

noncomputable section

namespace Cert.ReferenceIdeal.ReadH

open Cert.ReferenceIdeal Cert.ReferenceIdeal.RunH Cert.Bridge Cert.Spec Idealize.ShloMosaic Idealize.SL.Sem
  Idealize.ShloMosaic.ValueIdx

-- The named table read stage by stage: scores and weights, their sums onto the nodes, the two normalised blocks.
theorem rval (m : (ℓ : Loc nD τ sig) → Buf (Elt Ideal) ℓ) (c : Dev nD) (hb : (Cert.Bridge.bufsR m c).Finite) :
    StableHlo.after (ops (F := Ideal)) (fun b => m ((c : Dev nD), b)) (Proc.devRef .tc main_v129)
        = E2 (Cert.Spec.outV (argsOf (Cert.Bridge.bufsR m c)))
      ∧ StableHlo.after (ops (F := Ideal)) (fun b => m ((c : Dev nD), b)) (Proc.devRef .tc main_v158)
        = E2 (Cert.Spec.outE (argsOf (Cert.Bridge.bufsR m c))) := by
  obtain ⟨h76, h100⟩ := read_mid _ hb (read_score _ hb) (read_wV _ hb) (read_z _ hb)
  obtain ⟨h129, h158⟩ := read_out2 _ hb h76 h100
  exact ⟨(rd_v129 m c).trans h129, (rd_v158 m c).trans h158⟩

end Cert.ReferenceIdeal.ReadH

end
-- ==== Proof.Algebraic.lean ====
import proofs.«121852_j34351148433892_2_alg».proof.Defs
import proofs.«121852_j34351148433892_2_alg».proof.Proof.Gen.Pre_finite_inputs
import proofs.«121852_j34351148433892_2_alg».proof.Proof.KernelIdeal.RunAll
import proofs.«121852_j34351148433892_2_alg».proof.Proof.KernelIdeal.Value
import proofs.«121852_j34351148433892_2_alg».proof.Proof.Reference.Run
import proofs.«121852_j34351148433892_2_alg».proof.Proof.Reference.Keep
import proofs.«121852_j34351148433892_2_alg».proof.Proof.Reference.Value
import proofs.«121852_j34351148433892_2_alg».proof.Proof.Bridge.Agree

set_option maxRecDepth 16384

noncomputable section

namespace Cert.Proof

open Idealize.ShloMosaic Idealize.SL.Sem Idealize.ShloMosaic.ValueIdx Cert.Bridge

-- Both programs run, keep their arguments, and leave the specification's two outputs at the arguments' real data.
theorem algebraic : Cert.algebraic_KernelIdeal_ReferenceIdeal := by
  intro m g m' g' hpre hagree
  have hag : ∀ c, bufsR m' c = bufsK m c := fun c => by simp only [bufsR, bufsK, hagree c]
  refine ⟨fun c => E2 (Cert.Spec.outV (argsOf (bufsK m c))), fun c => E2 (Cert.Spec.outE (argsOf (bufsK m c))), ?_, ?_⟩
  · refine (θ_run (Cert.KernelIdeal.defs (F := Ideal)) _ _).mono (fun r h c => ?_)
      (Cert.KernelIdeal.Hand.run_all (F := Ideal) m g)
    have hv := Cert.KernelIdeal.HandVal.kval m g c (finiteK m hpre c)
    refine ⟨(h c _ (Cert.KernelIdeal.Hand.mem_uc _ (by decide))).trans hv.1,
      (h c _ (Cert.KernelIdeal.Hand.mem_uc _ (by decide))).trans hv.2, ?_⟩
    and_intros <;> exact (h c _ (Cert.KernelIdeal.Hand.mem_uc _ (by decide))).trans
      (Cert.KernelIdeal.Hand.Wend_keep (F := Ideal) m g c _ (by decide))
  · refine (θ_run (Cert.ReferenceIdeal.defs (F := Ideal)) _ _).mono (fun r h c => ?_)
      (Cert.ReferenceIdeal.RunH.run (F := Ideal) m' g')
    have hv := Cert.ReferenceIdeal.ReadH.rval m' c (hag c ▸ finiteK m hpre c)
    rw [hag c] at hv
    refine ⟨(h c _).trans hv.1, (h c _).trans hv.2, ?_⟩
    and_intros <;> exact (h c _).trans (Cert.ReferenceIdeal.RunH.arg_keep (F := Ideal) _ _ (by decide))

end Cert.Proof

end
-- ==== Proof.lean ====
import proofs.«121852_j34351148433892_2_alg».proof.Defs
import proofs.«121852_j34351148433892_2_alg».proof.Proof.Gen.Kernel
import proofs.«121852_j34351148433892_2_alg».proof.Proof.Gen.Kernel.Skeleton
import proofs.«121852_j34351148433892_2_alg».proof.Proof.Gen.Kernel.Launch
import proofs.«121852_j34351148433892_2_alg».proof.Proof.Gen.Kernel.Regions
import proofs.«121852_j34351148433892_2_alg».proof.Proof.Gen.Kernel.Points
import proofs.«121852_j34351148433892_2_alg».proof.Proof.Gen.KernelIdeal
import proofs.«121852_j34351148433892_2_alg».proof.Proof.Gen.KernelIdeal.Skeleton
import proofs.«121852_j34351148433892_2_alg».proof.Proof.Gen.KernelIdeal.Launch
import proofs.«121852_j34351148433892_2_alg».proof.Proof.Gen.KernelIdeal.Regions
import proofs.«121852_j34351148433892_2_alg».proof.Proof.Gen.KernelIdeal.Points
import proofs.«121852_j34351148433892_2_alg».proof.Proof.Gen.ReferenceIdeal
import proofs.«121852_j34351148433892_2_alg».proof.Proof.Gen.Pre_finite_inputs
import proofs.«121852_j34351148433892_2_alg».proof.Proof.Frames
import proofs.«121852_j34351148433892_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
